-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x8 : Shape := ⟨2, ![1600000, 8]⟩
abbrev S100000 : Shape := ⟨1, ![100000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S512x10 : Shape := ⟨2, ![512, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S4x128 .f32) (main_arg10 : FVec F S512x10 .f32) (main_arg11 : FVec F S10 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S512x10 .f32 := Host.absf main_arg10
  let main_cst_14 : FVec F S_ .f32 := constant S_ .f32 0x7F800000#32
  let main_v40 : FVec F S512x10 .f32 := broadcastInDim S512x10 ![] bcast_S_S512x10 main_cst_14
  let main_v41 : IVec S512x10 1 := cmpf .olt main_v39 main_v40
  let main_c_15 : IVec S_ 1 := constantI S_ 1 1#1
  let main_v42 : IVec S_ 1 := (fun x v => Host.reduce IntOp.andi x v reducesTo_S512x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S4x256 .f32) (main_arg7 : FVec F S4x256 .f32) (main_arg8 : FVec F S4x256x128 .f32) (main_arg9 : FVec F S4x128 .f32) (main_arg10 : FVec F S512x10 .f32) (main_arg11 : FVec F S10 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256x128 .f32 := Host.absf main_arg8
  let main_cst_10 : FVec F S_ .f32 := constant S_ .f32 0x7F800000#32
  let main_v30 : FVec F S4x256x128 .f32 := broadcastInDim S4x256x128 ![] bcast_S_S4x256x128 main_cst_10
  let main_v31 : IVec S4x256x128 1 := cmpf .olt main_v29 main_v30
  let main_c_11 : IVec S_ 1 := constantI S_ 1 1#1
  let main_v32 : IVec S_ 1 := (fun x v => Host.reduce IntOp.andi x v reducesTo_S4x256x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000x8 .f32) (main_arg3 : IVec S100000 32) (main_arg4 : FVec F S4x128x256 .f32) (main_arg5 : FVec F S4x256 .f32) (main_arg6 : FVec F S4x256 .f32) (main_arg7 : FVec F S4x256 .f32) (main_arg8 : FVec F S4x256x128 .f32) (main_arg9 : FVec F S4x128 .f32) (main_arg10 : FVec F S512x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S4x128x256 .f32 := Host.absf main_arg4
  let main_cst_2 : FVec F S_ .f32 := constant S_ .f32 0x7F800000#32
  let main_v10 : FVec F S4x128x256 .f32 := broadcastInDim S4x128x256 ![] bcast_S_S4x128x256 main_cst_2
  let main_v11 : IVec S4x128x256 1 := cmpf .olt main_v9 main_v10
  let main_c_3 : IVec S_ 1 := constantI S_ 1 1#1
  let main_v12 : IVec S_ 1 := (fun x v => Host.reduce IntOp.andi x v reducesTo_S4x128x256_S_d0_1_2 h_S_) main_v11 main_c_3
  let main_v13 : IVec S_ 1 := andi main_v8 main_v12
  let main_v14 : FVec F S4x256 .f32 := Host.absf main_arg5
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x8 : Shape := ⟨2, ![1600000, 8]⟩
abbrev S100000 : Shape := ⟨1, ![100000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S512x10 : Shape := ⟨2, ![512, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S100000x256 : Shape := ⟨2, ![100000, 256]⟩
abbrev S2000x128 : Shape := ⟨2, ![2000, 128]⟩
abbrev S2000x256 : Shape := ⟨2, ![2000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1x10 : Shape := ⟨2, ![1, 10]⟩

abbrev nBuf : Space → Nat
  | .hbm => 256
  | .vmem => 88
  | .smem => 0
  | _ => 0

abbrev hbmTy0_0 (i : Nat) : BufTy := match i % 128 with
  | 0 => ⟨S100000x128, .f32⟩
  | 1 => ⟨S2x1600000, .i32⟩
  | 2 => ⟨S1600000x8, .f32⟩
  | 3 => ⟨S100000, .i32⟩
  | 4 => ⟨S4x128x256, .f32⟩
  | 5 => ⟨S4x256, .f32⟩
  | 6 => ⟨S4x256, .f32⟩
  | 7 => ⟨S4x256, .f32⟩
  | 8 => ⟨S4x256x128, .f32⟩
  | 9 => ⟨S4x128, .f32⟩
  | 10 => ⟨S512x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S1x128x256, .f32⟩
  | 45 => ⟨S128x256, .f32⟩
  | 46 => ⟨S1x256, .f32⟩
  | 47 => ⟨S256, .f32⟩
  | 48 => ⟨S1x256, .f32⟩
  | 49 => ⟨S100000x256, .f32⟩
  | 50 => ⟨S1x256, .f32⟩
  | 51 => ⟨S1x256, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S256, .f32⟩
  | 61 => ⟨S256, .f32⟩
  | 62 => ⟨S1x256, .f32⟩
  | 63 => ⟨S256, .f32⟩
  | 64 => ⟨S1x256, .f32⟩
  | 65 => ⟨S256, .f32⟩
  | 66 => ⟨S1x256x128, .f32⟩
  | 67 => ⟨S256x128, .f32⟩
  | 68 => ⟨S1x128, .f32⟩
  | 69 => ⟨S128, .f32⟩
  | 70 => ⟨S1x256, .f32⟩
  | 71 => ⟨S1x256, .f32⟩
  | 72 => ⟨S1x256, .f32⟩
  | 73 => ⟨S1x256, .f32⟩
  | 74 => ⟨S1x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x1, .f32⟩
  | 90 => ⟨S100000x128, .f32⟩
  | 91 => ⟨S100000x128, .f32⟩
  | 92 => ⟨S1x128x256, .f32⟩
  | 93 => ⟨S128x256, .f32⟩
  | 94 => ⟨S1x256, .f32⟩
  | 95 => ⟨S256, .f32⟩
  | 96 => ⟨S1x256, .f32⟩
  | 97 => ⟨S100000x256, .f32⟩
  | 98 => ⟨S1x256, .f32⟩
  | 99 => ⟨S1x256, .f32⟩
  | 100 => ⟨S256, .f32⟩
  | 101 => ⟨S256, .f32⟩
  | 102 => ⟨S_, .f32⟩
  | 103 => ⟨S256, .f32⟩
  | 104 => ⟨S256, .f32⟩
  | 105 => ⟨S_, .f32⟩
  | 106 => ⟨S256, .f32⟩
  | 107 => ⟨S256, .f32⟩
  | 108 => ⟨S256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x256x128, .f32⟩
  | 115 => ⟨S256x128, .f32⟩
  | 116 => ⟨S1x128, .f32⟩
  | 117 => ⟨S128, .f32⟩
  | 118 => ⟨S1x256, .f32⟩
  | 119 => ⟨S1x256, .f32⟩
  | 120 => ⟨S1x256, .f32⟩
  | 121 => ⟨S1x256, .f32⟩
  | 122 => ⟨S1x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S100000x1, .f32⟩
  | 10 => ⟨S100000x128, .f32⟩
  | 11 => ⟨S100000x128, .f32⟩
  | 12 => ⟨S1x128x256, .f32⟩
  | 13 => ⟨S128x256, .f32⟩
  | 14 => ⟨S1x256, .f32⟩
  | 15 => ⟨S256, .f32⟩
  | 16 => ⟨S1x256, .f32⟩
  | 17 => ⟨S100000x256, .f32⟩
  | 18 => ⟨S1x256, .f32⟩
  | 19 => ⟨S1x256, .f32⟩
  | 20 => ⟨S256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S256, .f32⟩
  | 29 => ⟨S256, .f32⟩
  | 30 => ⟨S1x256, .f32⟩
  | 31 => ⟨S256, .f32⟩
  | 32 => ⟨S1x256, .f32⟩
  | 33 => ⟨S256, .f32⟩
  | 34 => ⟨S1x256x128, .f32⟩
  | 35 => ⟨S256x128, .f32⟩
  | 36 => ⟨S1x128, .f32⟩
  | 37 => ⟨S128, .f32⟩
  | 38 => ⟨S1x256, .f32⟩
  | 39 => ⟨S1x256, .f32⟩
  | 40 => ⟨S1x256, .f32⟩
  | 41 => ⟨S1x256, .f32⟩
  | 42 => ⟨S1x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x1, .f32⟩
  | 58 => ⟨S100000x128, .f32⟩
  | 59 => ⟨S100000x128, .f32⟩
  | 60 => ⟨S1x128x256, .f32⟩
  | 61 => ⟨S128x256, .f32⟩
  | 62 => ⟨S1x256, .f32⟩
  | 63 => ⟨S256, .f32⟩
  | 64 => ⟨S1x256, .f32⟩
  | 65 => ⟨S100000x256, .f32⟩
  | 66 => ⟨S1x256, .f32⟩
  | 67 => ⟨S1x256, .f32⟩
  | 68 => ⟨S256, .f32⟩
  | 69 => ⟨S256, .f32⟩
  | 70 => ⟨S_, .f32⟩
  | 71 => ⟨S256, .f32⟩
  | 72 => ⟨S256, .f32⟩
  | 73 => ⟨S_, .f32⟩
  | 74 => ⟨S256, .f32⟩
  | 75 => ⟨S256, .f32⟩
  | 76 => ⟨S256, .f32⟩
  | 77 => ⟨S256, .f32⟩
  | 78 => ⟨S1x256, .f32⟩
  | 79 => ⟨S256, .f32⟩
  | 80 => ⟨S1x256, .f32⟩
  | 81 => ⟨S256, .f32⟩
  | 82 => ⟨S1x256x128, .f32⟩
  | 83 => ⟨S256x128, .f32⟩
  | 84 => ⟨S1x128, .f32⟩
  | 85 => ⟨S128, .f32⟩
  | 86 => ⟨S1x256, .f32⟩
  | 87 => ⟨S1x256, .f32⟩
  | 88 => ⟨S1x256, .f32⟩
  | 89 => ⟨S1x256, .f32⟩
  | 90 => ⟨S1x128, .f32⟩
  | 91 => ⟨S100000x128, .f32⟩
  | 92 => ⟨S100000x512, .f32⟩
  | 93 => ⟨S_, .f32⟩
  | 94 => ⟨S512x512, .f32⟩
  | 95 => ⟨S100000x1, .i32⟩
  | 96 => ⟨S512x512, .f32⟩
  | 97 => ⟨S_, .f32⟩
  | 98 => ⟨S100000, .f32⟩
  | 99 => ⟨S_, .f32⟩
  | 100 => ⟨S512, .f32⟩
  | 101 => ⟨S100000x1, .i32⟩
  | 102 => ⟨S512, .f32⟩
  | 103 => ⟨S_, .f32⟩
  | 104 => ⟨S512, .f32⟩
  | 105 => ⟨S512, .f32⟩
  | 106 => ⟨S512x1, .f32⟩
  | 107 => ⟨S512x512, .f32⟩
  | 108 => ⟨S512x512, .f32⟩
  | 109 => ⟨S512x10, .f32⟩
  | 110 => ⟨S1x10, .f32⟩
  | 111 => ⟨S512x10, .f32⟩
  | 112 => ⟨S512x10, .f32⟩
  | 113 => ⟨S_, .f32⟩
  | 114 => ⟨S512, .f32⟩
  | 115 => ⟨S_, .f32⟩
  | 116 => ⟨S512, .f32⟩
  | 117 => ⟨S512, .f32⟩
  | 118 => ⟨S512x1, .f32⟩
  | 119 => ⟨S512x10, .f32⟩
  | 120 => ⟨S512x10, .f32⟩
  | 121 => ⟨S512x10, .f32⟩
  | 122 => ⟨S_, .f32⟩
  | 123 => ⟨S512, .f32⟩
  | 124 => ⟨S512x1, .f32⟩
  | 125 => ⟨S512x1, .f32⟩
  | 126 => ⟨S512x10, .f32⟩
  | 127 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S256x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S128x256, .f32⟩
  | .local _ .vmem, ⟨71, _⟩ => ⟨S1x256, .f32⟩
  | .local _ .vmem, ⟨72, _⟩ => ⟨S2000x256, .f32⟩
  | .local _ .vmem, ⟨73, _⟩ => ⟨S2000x256, .f32⟩
  | .local _ .vmem, ⟨74, _⟩ => ⟨S1x256, .f32⟩
  | .local _ .vmem, ⟨75, _⟩ => ⟨S1x256, .f32⟩
  | .local _ .vmem, ⟨76, _⟩ => ⟨S1x256, .f32⟩
  | .local _ .vmem, ⟨77, _⟩ => ⟨S1x256, .f32⟩
  | .local _ .vmem, ⟨78, _⟩ => ⟨S2000x256, .f32⟩
  | .local _ .vmem, ⟨79, _⟩ => ⟨S2000x256, .f32⟩
  | .local _ .vmem, ⟨80, _⟩ => ⟨S1x256, .f32⟩
  | .local _ .vmem, ⟨81, _⟩ => ⟨S1x256, .f32⟩
  | .local _ .vmem, ⟨82, _⟩ => ⟨S1x256, .f32⟩
  | .local _ .vmem, ⟨83, _⟩ => ⟨S1x256, .f32⟩
  | .local _ .vmem, ⟨84, _⟩ => ⟨S256x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71_0 : Ref sig .tc := ⟨.hbm, 97, rfl⟩
abbrev main_v71_1 : Ref sig .tc := ⟨.hbm, 98, rfl⟩
abbrev main_v71_2 : Ref sig .tc := ⟨.hbm, 99, rfl⟩
abbrev main_v72 : Ref sig .tc := ⟨.hbm, 100, rfl⟩
abbrev main_v73 : Ref sig .tc := ⟨.hbm, 101, rfl⟩
abbrev main_cst_10 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_12 : Ref sig .tc := ⟨.hbm, 124, rfl⟩
abbrev main_v94 : Ref sig .tc := ⟨.hbm, 125, rfl⟩
abbrev main_v95 : Ref sig .tc := ⟨.hbm, 126, rfl⟩
abbrev main_c_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_14 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112_0 : Ref sig .tc := ⟨.hbm, 145, rfl⟩
abbrev main_v112_1 : Ref sig .tc := ⟨.hbm, 146, rfl⟩
abbrev main_v112_2 : Ref sig .tc := ⟨.hbm, 147, rfl⟩
abbrev main_v113 : Ref sig .tc := ⟨.hbm, 148, rfl⟩
abbrev main_v114 : Ref sig .tc := ⟨.hbm, 149, rfl⟩
abbrev main_cst_15 : Ref sig .tc := ⟨.hbm, 150, rfl⟩
abbrev main_v115 : Ref sig .tc := ⟨.hbm, 151, rfl⟩
abbrev main_v116 : Ref sig .tc := ⟨.hbm, 152, rfl⟩
abbrev main_cst_16 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_17 : Ref sig .tc := ⟨.hbm, 172, rfl⟩
abbrev main_v135 : Ref sig .tc := ⟨.hbm, 173, rfl⟩
abbrev main_v136 : Ref sig .tc := ⟨.hbm, 174, rfl⟩
abbrev main_c_18 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_19 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153_0 : Ref sig .tc := ⟨.hbm, 193, rfl⟩
abbrev main_v153_1 : Ref sig .tc := ⟨.hbm, 194, rfl⟩
abbrev main_v153_2 : Ref sig .tc := ⟨.hbm, 195, rfl⟩
abbrev main_v154 : Ref sig .tc := ⟨.hbm, 196, rfl⟩
abbrev main_v155 : Ref sig .tc := ⟨.hbm, 197, rfl⟩
abbrev main_cst_20 : Ref sig .tc := ⟨.hbm, 198, rfl⟩
abbrev main_v156 : Ref sig .tc := ⟨.hbm, 199, rfl⟩
abbrev main_v157 : Ref sig .tc := ⟨.hbm, 200, rfl⟩
abbrev main_cst_21 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_22 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_23 : Ref sig .tc := ⟨.hbm, 225, rfl⟩
abbrev main_v180 : Ref sig .tc := ⟨.hbm, 226, rfl⟩
abbrev main_cst_24 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_25 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_call0_cst : Ref sig .tc := ⟨.hbm, 241, rfl⟩
abbrev main_call0_v0 : Ref sig .tc := ⟨.hbm, 242, rfl⟩
abbrev main_call0_cst_0 : Ref sig .tc := ⟨.hbm, 243, rfl⟩
abbrev main_call0_v1 : Ref sig .tc := ⟨.hbm, 244, rfl⟩
abbrev main_call0_v2 : Ref sig .tc := ⟨.hbm, 245, rfl⟩
abbrev main_call0_v3 : Ref sig .tc := ⟨.hbm, 246, rfl⟩
abbrev main_call0_v4 : Ref sig .tc := ⟨.hbm, 247, rfl⟩
abbrev main_call0_v5 : Ref sig .tc := ⟨.hbm, 248, rfl⟩
abbrev main_call0_v6 : Ref sig .tc := ⟨.hbm, 249, rfl⟩
abbrev main_call0_cst_1 : Ref sig .tc := ⟨.hbm, 250, rfl⟩
abbrev main_call0_v7 : Ref sig .tc := ⟨.hbm, 251, rfl⟩
abbrev main_call0_v8 : Ref sig .tc := ⟨.hbm, 252, rfl⟩
abbrev main_call0_v9 : Ref sig .tc := ⟨.hbm, 253, rfl⟩
abbrev main_call0_v10 : Ref sig .tc := ⟨.hbm, 254, rfl⟩
abbrev main_v193 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg6_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg4_1 : Ref sig .tc := ⟨.vmem, 73, rfl⟩
abbrev cc6_stg5_0 : Ref sig .tc := ⟨.vmem, 74, rfl⟩
abbrev cc6_stg6_0 : Ref sig .tc := ⟨.vmem, 75, rfl⟩
abbrev cc6_scratch0 : Ref sig .tc := ⟨.vmem, 76, rfl⟩
abbrev cc6_scratch1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg3_0 : Ref sig .tc := ⟨.vmem, 82, rfl⟩
abbrev cc7_stg4_0 : Ref sig .tc := ⟨.vmem, 83, rfl⟩
abbrev cc7_stg5_0 : Ref sig .tc := ⟨.vmem, 84, rfl⟩
abbrev cc7_stg6_0 : Ref sig .tc := ⟨.vmem, 85, rfl⟩
abbrev cc7_stg7_0 : Ref sig .tc := ⟨.vmem, 86, rfl⟩
abbrev cc7_stg7_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_20 : BitVec 32 := 0#32
  let v35 : BitVec 1 := Scalar.cmpi .ne v34 c0_i32_20
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_20 : BitVec 32 := 0#32
  let v35 : BitVec 1 := Scalar.cmpi .ne v34 c0_i32_20
  v35

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S256 : S_.BroadcastsInDim S256 (![] : Fin 0 → Fin S256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S_S512x512 : S_.BroadcastsInDim S512x512 (![] : Fin 0 → Fin S512x512.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S512x512_S100000x1_S100000x512_1_0_0_1_wf : ScatterDims.WF S512x512 S100000x1 S100000x512 [1] [0] [0] 1
  scatter_S512_S100000x1_S100000_n_0_0_1_wf : ScatterDims.WF S512 S100000x1 S100000 [] [0] [0] 1
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S100000x256.size a
  hwx2_4 : ∀ i : grid2.Coords, EltTy.bits .f32 = 32 ∨ (Rect.block (s := S100000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S100000x256.size a
  hwx4_4 : ∀ i : grid4.Coords, EltTy.bits .f32 = 32 ∨ (Rect.block (s := S100000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S100000x128.size a
  hwx5_7 : ∀ i : grid5.Coords, EltTy.bits .f32 = 32 ∨ (Rect.block (s := S100000x128) S2000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S100000x256.size a
  hwx6_4 : ∀ i : grid6.Coords, EltTy.bits .f32 = 32 ∨ (Rect.block (s := S100000x256) S2000x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .f32 = 32 ∨ (Rect.block (s := S100000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x128.size a ≤ S256x128.size a
  hwx7_5 : ∀ i : grid7.Coords, EltTy.bits .f32 = 32 ∨ (Rect.block (s := S256x128) S256x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S100000x128.size a
  hwx7_7 : ∀ i : grid7.Coords, EltTy.bits .f32 = 32 ∨ (Rect.block (s := S100000x128) S2000x128.size (cc7_transform_7 i) (hinb7_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x512_S100000x1_S100000x512_1_0_0_1 : ScatterDims S512x512 S100000x1 S100000x512 where
  updateWindowDims := [1]
  insertedWindowDims := [0]
  scatterDimsToOperandDims := [0]
  indexVectorDim := 1
  wf := scatter_S512x512_S100000x1_S100000x512_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v30_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v71_1) S1x256.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71_2) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v71_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v93) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v93) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v108) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v112_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v112_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v130) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v131) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v132) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v133) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v134) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v134) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v149) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v153_0) S2000x256.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v153_1) S1x256.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v153_2) S1x256.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v153_0) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v170) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v171) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v172) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v173) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v167) S256x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v174) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v175) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x8 : Shape := ⟨2, ![1600000, 8]⟩
abbrev S100000 : Shape := ⟨1, ![100000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S512x10 : Shape := ⟨2, ![512, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S100000x512 : Shape := ⟨2, ![100000, 512]⟩
abbrev S512x512 : Shape := ⟨2, ![512, 512]⟩
abbrev S512 : Shape := ⟨1, ![512]⟩
abbrev S512x1 : Shape := ⟨2, ![512, 1]⟩
abbrev S1x10 : Shape := ⟨2, ![1, 10]⟩

abbrev nBuf : Space → Nat
  | .hbm => 356
  | .vmem => 0
  | .smem => 0
  | _ => 0

abbrev hbmTy0_0 (i : Nat) : BufTy := match i % 128 with
  | 0 => ⟨S100000x128, .f32⟩
  | 1 => ⟨S2x1600000, .i32⟩
  | 2 => ⟨S1600000x8, .f32⟩
  | 3 => ⟨S100000, .i32⟩
  | 4 => ⟨S4x128x256, .f32⟩
  | 5 => ⟨S4x256, .f32⟩
  | 6 => ⟨S4x256, .f32⟩
  | 7 => ⟨S4x256, .f32⟩
  | 8 => ⟨S4x256x128, .f32⟩
  | 9 => ⟨S4x128, .f32⟩
  | 10 => ⟨S512x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S100000x128, .f32⟩
  | 45 => ⟨S1x128x256, .f32⟩
  | 46 => ⟨S128x256, .f32⟩
  | 47 => ⟨S100000x256, .f32⟩
  | 48 => ⟨S1x256, .f32⟩
  | 49 => ⟨S256, .f32⟩
  | 50 => ⟨S1x256, .f32⟩
  | 51 => ⟨S100000x256, .f32⟩
  | 52 => ⟨S100000x256, .f32⟩
  | 53 => ⟨S_, .f32⟩
  | 54 => ⟨S256, .f32⟩
  | 55 => ⟨S_, .f32⟩
  | 56 => ⟨S256, .f32⟩
  | 57 => ⟨S256, .f32⟩
  | 58 => ⟨S1x256, .f32⟩
  | 59 => ⟨S100000x256, .f32⟩
  | 60 => ⟨S100000x256, .f32⟩
  | 61 => ⟨S100000x256, .f32⟩
  | 62 => ⟨S_, .f32⟩
  | 63 => ⟨S256, .f32⟩
  | 64 => ⟨S_, .f32⟩
  | 65 => ⟨S256, .f32⟩
  | 66 => ⟨S256, .f32⟩
  | 67 => ⟨S1x256, .f32⟩
  | 68 => ⟨S256, .f32⟩
  | 69 => ⟨S1x256, .f32⟩
  | 70 => ⟨S100000x256, .f32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S256, .f32⟩
  | 77 => ⟨S256, .f32⟩
  | 78 => ⟨S256, .f32⟩
  | 79 => ⟨S1x256, .f32⟩
  | 80 => ⟨S100000x256, .f32⟩
  | 81 => ⟨S100000x256, .f32⟩
  | 82 => ⟨S1x256, .f32⟩
  | 83 => ⟨S256, .f32⟩
  | 84 => ⟨S1x256, .f32⟩
  | 85 => ⟨S100000x256, .f32⟩
  | 86 => ⟨S100000x256, .f32⟩
  | 87 => ⟨S_, .f32⟩
  | 88 => ⟨S100000x256, .f32⟩
  | 89 => ⟨S100000x256, .f32⟩
  | 90 => ⟨S1x256x128, .f32⟩
  | 91 => ⟨S256x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x1, .f32⟩
  | 115 => ⟨S100000x128, .f32⟩
  | 116 => ⟨S100000x128, .f32⟩
  | 117 => ⟨S100000x128, .f32⟩
  | 118 => ⟨S1x128x256, .f32⟩
  | 119 => ⟨S128x256, .f32⟩
  | 120 => ⟨S100000x256, .f32⟩
  | 121 => ⟨S1x256, .f32⟩
  | 122 => ⟨S256, .f32⟩
  | 123 => ⟨S1x256, .f32⟩
  | 124 => ⟨S100000x256, .f32⟩
  | 125 => ⟨S100000x256, .f32⟩
  | 126 => ⟨S_, .f32⟩
  | 127 => ⟨S256, .f32⟩
  | _ => ⟨S100000x128, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S100000x256, .f32⟩
  | 5 => ⟨S100000x256, .f32⟩
  | 6 => ⟨S100000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S256, .f32⟩
  | 14 => ⟨S1x256, .f32⟩
  | 15 => ⟨S100000x256, .f32⟩
  | 16 => ⟨S100000x256, .f32⟩
  | 17 => ⟨S1x256, .f32⟩
  | 18 => ⟨S100000x256, .f32⟩
  | 19 => ⟨S100000x256, .f32⟩
  | 20 => ⟨S_, .f32⟩
  | 21 => ⟨S256, .f32⟩
  | 22 => ⟨S256, .f32⟩
  | 23 => ⟨S256, .f32⟩
  | 24 => ⟨S1x256, .f32⟩
  | 25 => ⟨S100000x256, .f32⟩
  | 26 => ⟨S100000x256, .f32⟩
  | 27 => ⟨S1x256, .f32⟩
  | 28 => ⟨S256, .f32⟩
  | 29 => ⟨S1x256, .f32⟩
  | 30 => ⟨S100000x256, .f32⟩
  | 31 => ⟨S100000x256, .f32⟩
  | 32 => ⟨S_, .f32⟩
  | 33 => ⟨S100000x256, .f32⟩
  | 34 => ⟨S100000x256, .f32⟩
  | 35 => ⟨S1x256x128, .f32⟩
  | 36 => ⟨S256x128, .f32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x1, .f32⟩
  | 60 => ⟨S100000x128, .f32⟩
  | 61 => ⟨S100000x128, .f32⟩
  | 62 => ⟨S100000x128, .f32⟩
  | 63 => ⟨S1x128x256, .f32⟩
  | 64 => ⟨S128x256, .f32⟩
  | 65 => ⟨S100000x256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S_, .f32⟩
  | 72 => ⟨S256, .f32⟩
  | 73 => ⟨S_, .f32⟩
  | 74 => ⟨S256, .f32⟩
  | 75 => ⟨S256, .f32⟩
  | 76 => ⟨S1x256, .f32⟩
  | 77 => ⟨S100000x256, .f32⟩
  | 78 => ⟨S100000x256, .f32⟩
  | 79 => ⟨S100000x256, .f32⟩
  | 80 => ⟨S_, .f32⟩
  | 81 => ⟨S256, .f32⟩
  | 82 => ⟨S_, .f32⟩
  | 83 => ⟨S256, .f32⟩
  | 84 => ⟨S256, .f32⟩
  | 85 => ⟨S1x256, .f32⟩
  | 86 => ⟨S256, .f32⟩
  | 87 => ⟨S1x256, .f32⟩
  | 88 => ⟨S100000x256, .f32⟩
  | 89 => ⟨S100000x256, .f32⟩
  | 90 => ⟨S1x256, .f32⟩
  | 91 => ⟨S100000x256, .f32⟩
  | 92 => ⟨S100000x256, .f32⟩
  | 93 => ⟨S_, .f32⟩
  | 94 => ⟨S256, .f32⟩
  | 95 => ⟨S256, .f32⟩
  | 96 => ⟨S256, .f32⟩
  | 97 => ⟨S1x256, .f32⟩
  | 98 => ⟨S100000x256, .f32⟩
  | 99 => ⟨S100000x256, .f32⟩
  | 100 => ⟨S1x256, .f32⟩
  | 101 => ⟨S256, .f32⟩
  | 102 => ⟨S1x256, .f32⟩
  | 103 => ⟨S100000x256, .f32⟩
  | 104 => ⟨S100000x256, .f32⟩
  | 105 => ⟨S_, .f32⟩
  | 106 => ⟨S100000x256, .f32⟩
  | 107 => ⟨S100000x256, .f32⟩
  | 108 => ⟨S1x256x128, .f32⟩
  | 109 => ⟨S256x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_2 (i : Nat) : BufTy := match i % 128 with
  | 0 => ⟨S_, .f32⟩
  | 1 => ⟨S100000x128, .f32⟩
  | 2 => ⟨S1600000x1, .i32⟩
  | 3 => ⟨S100000x128, .f32⟩
  | 4 => ⟨S100000x1, .f32⟩
  | 5 => ⟨S100000x128, .f32⟩
  | 6 => ⟨S100000x128, .f32⟩
  | 7 => ⟨S100000x128, .f32⟩
  | 8 => ⟨S1x128x256, .f32⟩
  | 9 => ⟨S128x256, .f32⟩
  | 10 => ⟨S100000x256, .f32⟩
  | 11 => ⟨S1x256, .f32⟩
  | 12 => ⟨S256, .f32⟩
  | 13 => ⟨S1x256, .f32⟩
  | 14 => ⟨S100000x256, .f32⟩
  | 15 => ⟨S100000x256, .f32⟩
  | 16 => ⟨S_, .f32⟩
  | 17 => ⟨S256, .f32⟩
  | 18 => ⟨S_, .f32⟩
  | 19 => ⟨S256, .f32⟩
  | 20 => ⟨S256, .f32⟩
  | 21 => ⟨S1x256, .f32⟩
  | 22 => ⟨S100000x256, .f32⟩
  | 23 => ⟨S100000x256, .f32⟩
  | 24 => ⟨S100000x256, .f32⟩
  | 25 => ⟨S_, .f32⟩
  | 26 => ⟨S256, .f32⟩
  | 27 => ⟨S_, .f32⟩
  | 28 => ⟨S256, .f32⟩
  | 29 => ⟨S256, .f32⟩
  | 30 => ⟨S1x256, .f32⟩
  | 31 => ⟨S256, .f32⟩
  | 32 => ⟨S1x256, .f32⟩
  | 33 => ⟨S100000x256, .f32⟩
  | 34 => ⟨S100000x256, .f32⟩
  | 35 => ⟨S1x256, .f32⟩
  | 36 => ⟨S100000x256, .f32⟩
  | 37 => ⟨S100000x256, .f32⟩
  | 38 => ⟨S_, .f32⟩
  | 39 => ⟨S256, .f32⟩
  | 40 => ⟨S256, .f32⟩
  | 41 => ⟨S256, .f32⟩
  | 42 => ⟨S1x256, .f32⟩
  | 43 => ⟨S100000x256, .f32⟩
  | 44 => ⟨S100000x256, .f32⟩
  | 45 => ⟨S1x256, .f32⟩
  | 46 => ⟨S256, .f32⟩
  | 47 => ⟨S1x256, .f32⟩
  | 48 => ⟨S100000x256, .f32⟩
  | 49 => ⟨S100000x256, .f32⟩
  | 50 => ⟨S_, .f32⟩
  | 51 => ⟨S100000x256, .f32⟩
  | 52 => ⟨S100000x256, .f32⟩
  | 53 => ⟨S1x256x128, .f32⟩
  | 54 => ⟨S256x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x512, .f32⟩
  | 65 => ⟨S_, .f32⟩
  | 66 => ⟨S512x512, .f32⟩
  | 67 => ⟨S100000x1, .i32⟩
  | 68 => ⟨S512x512, .f32⟩
  | 69 => ⟨S_, .f32⟩
  | 70 => ⟨S100000, .f32⟩
  | 71 => ⟨S_, .f32⟩
  | 72 => ⟨S512, .f32⟩
  | 73 => ⟨S100000x1, .i32⟩
  | 74 => ⟨S512, .f32⟩
  | 75 => ⟨S_, .f32⟩
  | 76 => ⟨S512, .f32⟩
  | 77 => ⟨S512, .f32⟩
  | 78 => ⟨S512x1, .f32⟩
  | 79 => ⟨S512x512, .f32⟩
  | 80 => ⟨S512x512, .f32⟩
  | 81 => ⟨S512x10, .f32⟩
  | 82 => ⟨S1x10, .f32⟩
  | 83 => ⟨S512x10, .f32⟩
  | 84 => ⟨S512x10, .f32⟩
  | 85 => ⟨S_, .f32⟩
  | 86 => ⟨S512, .f32⟩
  | 87 => ⟨S_, .f32⟩
  | 88 => ⟨S512, .f32⟩
  | 89 => ⟨S512, .f32⟩
  | 90 => ⟨S512x1, .f32⟩
  | 91 => ⟨S512x10, .f32⟩
  | 92 => ⟨S512x10, .f32⟩
  | 93 => ⟨S512x10, .f32⟩
  | 94 => ⟨S_, .f32⟩
  | 95 => ⟨S512, .f32⟩
  | 96 => ⟨S512x1, .f32⟩
  | 97 => ⟨S512x1, .f32⟩
  | 98 => ⟨S512x10, .f32⟩
  | 99 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call0_cst : Ref sig .tc := ⟨.hbm, 87, rfl⟩
abbrev main_call0_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_c_10 : Ref sig .tc := ⟨.hbm, 101, rfl⟩
abbrev main_v73 : Ref sig .tc := ⟨.hbm, 102, rfl⟩
abbrev main_v74 : Ref sig .tc := ⟨.hbm, 103, rfl⟩
abbrev main_c_11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_13 : Ref sig .tc := ⟨.hbm, 126, rfl⟩
abbrev main_v95 : Ref sig .tc := ⟨.hbm, 127, rfl⟩
abbrev main_cst_14 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_15 : Ref sig .tc := ⟨.hbm, 135, rfl⟩
abbrev main_v102 : Ref sig .tc := ⟨.hbm, 136, rfl⟩
abbrev main_cst_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_17 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_call3_cst : Ref sig .tc := ⟨.hbm, 171, rfl⟩
abbrev main_call3_v0 : Ref sig .tc := ⟨.hbm, 172, rfl⟩
abbrev main_v133 : Ref sig .tc := ⟨.hbm, 173, rfl⟩
abbrev main_c_18 : Ref sig .tc := ⟨.hbm, 174, rfl⟩
abbrev main_v134 : Ref sig .tc := ⟨.hbm, 175, rfl⟩
abbrev main_v135 : Ref sig .tc := ⟨.hbm, 176, rfl⟩
abbrev main_c_19 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_20 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_21 : Ref sig .tc := ⟨.hbm, 199, rfl⟩
abbrev main_v156 : Ref sig .tc := ⟨.hbm, 200, rfl⟩
abbrev main_cst_22 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_23 : Ref sig .tc := ⟨.hbm, 208, rfl⟩
abbrev main_v163 : Ref sig .tc := ⟨.hbm, 209, rfl⟩
abbrev main_cst_24 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_25 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_call4_cst : Ref sig .tc := ⟨.hbm, 233, rfl⟩
abbrev main_call4_v0 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_call5_cst : Ref sig .tc := ⟨.hbm, 244, rfl⟩
abbrev main_call5_v0 : Ref sig .tc := ⟨.hbm, 245, rfl⟩
abbrev main_v194 : Ref sig .tc := ⟨.hbm, 246, rfl⟩
abbrev main_c_26 : Ref sig .tc := ⟨.hbm, 247, rfl⟩
abbrev main_v195 : Ref sig .tc := ⟨.hbm, 248, rfl⟩
abbrev main_v196 : Ref sig .tc := ⟨.hbm, 249, rfl⟩
abbrev main_c_27 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_28 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_29 : Ref sig .tc := ⟨.hbm, 272, rfl⟩
abbrev main_v217 : Ref sig .tc := ⟨.hbm, 273, rfl⟩
abbrev main_cst_30 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_cst_31 : Ref sig .tc := ⟨.hbm, 281, rfl⟩
abbrev main_v224 : Ref sig .tc := ⟨.hbm, 282, rfl⟩
abbrev main_cst_32 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_33 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_call6_cst : Ref sig .tc := ⟨.hbm, 306, rfl⟩
abbrev main_call6_v0 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_call7_cst : Ref sig .tc := ⟨.hbm, 317, rfl⟩
abbrev main_call7_v0 : Ref sig .tc := ⟨.hbm, 318, rfl⟩
abbrev main_v255 : Ref sig .tc := ⟨.hbm, 319, rfl⟩
abbrev main_v256 : Ref sig .tc := ⟨.hbm, 320, rfl⟩
abbrev main_cst_34 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_35 : Ref sig .tc := ⟨.hbm, 325, rfl⟩
abbrev main_v260 : Ref sig .tc := ⟨.hbm, 326, rfl⟩
abbrev main_cst_36 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_cst_37 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_call8_cst : Ref sig .tc := ⟨.hbm, 341, rfl⟩
abbrev main_call8_v0 : Ref sig .tc := ⟨.hbm, 342, rfl⟩
abbrev main_call8_cst_0 : Ref sig .tc := ⟨.hbm, 343, rfl⟩
abbrev main_call8_v1 : Ref sig .tc := ⟨.hbm, 344, rfl⟩
abbrev main_call8_v2 : Ref sig .tc := ⟨.hbm, 345, rfl⟩
abbrev main_call8_v3 : Ref sig .tc := ⟨.hbm, 346, rfl⟩
abbrev main_call8_v4 : Ref sig .tc := ⟨.hbm, 347, rfl⟩
abbrev main_call8_v5 : Ref sig .tc := ⟨.hbm, 348, rfl⟩
abbrev main_call8_v6 : Ref sig .tc := ⟨.hbm, 349, rfl⟩
abbrev main_call8_cst_1 : Ref sig .tc := ⟨.hbm, 350, rfl⟩
abbrev main_call8_v7 : Ref sig .tc := ⟨.hbm, 351, rfl⟩
abbrev main_call8_v8 : Ref sig .tc := ⟨.hbm, 352, rfl⟩
abbrev main_call8_v9 : Ref sig .tc := ⟨.hbm, 353, rfl⟩
abbrev main_call8_v10 : Ref sig .tc := ⟨.hbm, 354, rfl⟩
abbrev main_v273 : Ref sig .tc := ⟨.hbm, 355, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S100000x256 : S_.BroadcastsInDim S100000x256 (![] : Fin 0 → Fin S100000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S_S512x512 : S_.BroadcastsInDim S512x512 (![] : Fin 0 → Fin S512x512.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S512x1_S512x10_0_1 : S512x1.BroadcastsInDim S512x10 (![0, 1] : Fin 2 → Fin S512x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  scatter_S512x512_S100000x1_S100000x512_1_0_0_1_wf : ScatterDims.WF S512x512 S100000x1 S100000x512 [1] [0] [0] 1
  scatter_S512_S100000x1_S100000_n_0_0_1_wf : ScatterDims.WF S512 S100000x1 S100000 [] [0] [0] 1
  dot_S512x512_S512x10_S512x10_1_0_0_1_n_n_wf : DotDims.WF S512x512 S512x10 S512x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x512_S100000x1_S100000x512_1_0_0_1 : ScatterDims S512x512 S100000x1 S100000x512 where
  updateWindowDims := [1]
  insertedWindowDims := [0]
  scatterDimsToOperandDims := [0]
  indexVectorDim := 1
  wf := scatter_S512x512_S100000x1_S100000x512_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

class Facts : Prop extends Facts₀ where

variable [Facts]
-- ==== Proof.K.Lin0a.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev rA0 : Rect S2000x128 := Rect.unit (s := S2000x128) ![0, 0] S2000x128.size inb_S2000x128_S2000x128_0_0
noncomputable abbrev rW0 : Rect S128x256 := Rect.unit (s := S128x256) ![0, 0] S128x256.size inb_S128x256_S128x256_0_0
noncomputable abbrev rB0 : Rect S1x256 := Rect.unit (s := S1x256) ![0, 0] S1x256.size inb_S1x256_S1x256_0_0
noncomputable abbrev rZ0 : Rect S2000x256 := Rect.unit (s := S2000x256) ![0, 0] S2000x256.size inb_S2000x256_S2000x256_0_0

abbrev cond0_1 (i : grid0.Coords) : Prop :=
  Scalar.cmpi .ne (Scalar.extui (Scalar.cmpi .eq (BitVec.ofNat 32 (i 0).val) 0#32)) 0#32 = 1#1

abbrev cond0_2 (i : grid0.Coords) : Prop := k0_cond2 i = 1#1

theorem hz0 : (![0, 0] : Fin 2 → Nat) = fun _ => 0 := funext fun a => by fin_cases a <;> rfl

theorem mem_rZ0 (y : S2000x256.Idx) : y ∈ rZ0.set := View.mem_set_unit_zero hz0 inb_S2000x256_S2000x256_0_0 y
theorem mem_rB0 (y : S1x256.Idx) : y ∈ rB0.set := View.mem_set_unit_zero hz0 inb_S1x256_S1x256_0_0 y

theorem coverZ0 (p : rZ0.shape.Idx → Elt F .f32) (y : S2000x256.Idx) :
    ∃ pc ∈ ([⟨rZ0, p⟩] : List (View.Piece (Elt F) S2000x256 .f32)), y ∈ pc.1.set :=
  ⟨⟨rZ0, p⟩, List.mem_singleton_self _, mem_rZ0 y⟩
theorem coverB0 (p : rB0.shape.Idx → Elt F .f32) (L : List (View.Piece (Elt F) S1x256 .f32)) (y : S1x256.Idx) :
    ∃ pc ∈ (⟨rB0, p⟩ :: L : List (View.Piece (Elt F) S1x256 .f32)), y ∈ pc.1.set :=
  ⟨⟨rB0, p⟩, List.mem_cons.mpr (Or.inl rfl), mem_rB0 y⟩

end Cert.Kernel.Hand

end
-- ==== Proof.K.Lin0b.lean ====
import proofs.«165926_j30305289241327_1_alg».proof.Proof.K.Lin0a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel0_A (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : cond0_1 i) (hc2 : ¬cond0_2 i)
    (x0 x1 : Vec F S2000x128 .f32) (x2 : Vec F S128x256 .f32) (x3 : Vec F S1x256 .f32) (xi5 xi6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩]) ∗ owns (c : Thread nD τ) arg6 fullShare xi5 ∗ owns (c : Thread nD τ) arg7 fullShare xi6
            ∗ owns (c : Thread nD τ) arg8 fullShare (k0_pay4 (View.ld x0 rA0) (View.ld x1 rA0) (View.ld x2 rW0) (View.ld x3 rB0) (k0_pay1 (F := F))) ∗ owns (c : Thread nD τ) arg9 fullShare (k0_pay5 (View.ld x0 rA0) (View.ld x1 rA0) (View.ld x2 rW0) (View.ld x3 rB0) (k0_pay2 (F := F)))) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB0 _ _)).trans ?_
    sl_unfold_run_names
    rw [View.canon_cons_unit_zero (S := S1x256) hz0]
    simp only [View.readCov_unit_zero (S := S1x256) _ hz0, View.readAt_eq_ld, hf0, hf1, hf2, hf3]
  · iexists _; isplitr
    swap; · iexact HS1
    ipureintro
    refine (View.read_writes_eq_canon _ _ _ (coverB0 _ _)).trans ?_
    sl_unfold_run_names
    rw [View.canon_cons_unit_zero (S := S1x256) hz0]
    simp only [View.readCov_unit_zero (S := S1x256) _ hz0, View.readAt_eq_ld, hf0, hf1, hf2, hf3]

end Cert.Kernel.Hand

end
-- ==== Proof.K.Lin0c.lean ====
import proofs.«165926_j30305289241327_1_alg».proof.Proof.K.Lin0a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernel0_B (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond0_1 i) (hc2 : ¬cond0_2 i)
    (x0 x1 : Vec F S2000x128 .f32) (x2 : Vec F S128x256 .f32) (x3 : Vec F S1x256 .f32) (xi5 xi6 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩]) ∗ owns (c : Thread nD τ) arg6 fullShare xi5 ∗ owns (c : Thread nD τ) arg7 fullShare xi6
            ∗ owns (c : Thread nD τ) arg8 fullShare (k0_pay4 (View.ld x0 rA0) (View.ld x1 rA0) (View.ld x2 rW0) (View.ld x3 rB0) xs0) ∗ owns (c : Thread nD τ) arg9 fullShare (k0_pay5 (View.ld x0 rA0) (View.ld x1 rA0) (View.ld x2 rW0) (View.ld x3 rB0) xs1)) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB0 _ _)).trans ?_
    rw [View.canon_unit_zero hz0]
    simp only [View.readAt_eq_ld, hf0, hf1, hf2, hf3, hfs0, View.ld_unit_zero (S := S1x256) hz0 inb_S1x256_S1x256_0_0 xs0]
  · iexists _; isplitr
    swap; · iexact HS1
    ipureintro
    refine (View.read_writes_eq_canon _ _ _ (coverB0 _ _)).trans ?_
    rw [View.canon_unit_zero hz0]
    sl_unfold_run_names
    simp only [View.readAt_eq_ld, hf0, hf1, hf2, hf3, hfs1, View.ld_unit_zero (S := S1x256) hz0 inb_S1x256_S1x256_0_0 xs1]

end Cert.Kernel.Hand

end
-- ==== Proof.K.Lin0d.lean ====
import proofs.«165926_j30305289241327_1_alg».proof.Proof.K.Lin0a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel0_C (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond0_1 i) (hc2 : cond0_2 i)
    (x0 x1 : Vec F S2000x128 .f32) (x2 : Vec F S128x256 .f32) (x3 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩])
            ∗ owns (c : Thread nD τ) arg6 fullShare (View.canon [⟨rB0, k0_pay4 (View.ld x0 rA0) (View.ld x1 rA0) (View.ld x2 rW0) (View.ld x3 rB0) xs0⟩]) ∗ owns (c : Thread nD τ) arg7 fullShare (View.canon [⟨rB0, k0_pay5 (View.ld x0 rA0) (View.ld x1 rA0) (View.ld x2 rW0) (View.ld x3 rB0) xs1⟩])
            ∗ owns (c : Thread nD τ) arg8 fullShare (k0_pay4 (View.ld x0 rA0) (View.ld x1 rA0) (View.ld x2 rW0) (View.ld x3 rB0) xs0) ∗ owns (c : Thread nD τ) arg9 fullShare (k0_pay5 (View.ld x0 rA0) (View.ld x1 rA0) (View.ld x2 rW0) (View.ld x3 rB0) xs1)) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr
    swap; · iexact H5
    ipureintro
    refine (View.read_writes_eq_canon _ _ _ (coverB0 _ _)).trans ?_
    sl_unfold_run_names
    simp only [View.readCov_unit_zero (S := S1x256) _ hz0, View.readAt_eq_ld, hf0, hf1, hf2, hf3, hfs0, View.ld_unit_zero (S := S1x256) hz0 inb_S1x256_S1x256_0_0 xs0]
  isplitl [H6]
  · iexists _; isplitr
    swap; · iexact H6
    ipureintro
    refine (View.read_writes_eq_canon _ _ _ (coverB0 _ _)).trans ?_
    sl_unfold_run_names
    simp only [View.readCov_unit_zero (S := S1x256) _ hz0, View.readAt_eq_ld, hf0, hf1, hf2, hf3, hfs1, View.ld_unit_zero (S := S1x256) hz0 inb_S1x256_S1x256_0_0 xs1]
  isplitl [HS0]
  · iexists _; isplitr
    swap; · iexact HS0
    ipureintro
    sl_unfold_run_names
    refine (View.read_writes_eq_canon _ _ _ (coverB0 _ _)).trans ?_
    rw [View.canon_unit_zero hz0]
    simp only [View.readAt_eq_ld, hf0, hf1, hf2, hf3, hfs0, View.ld_unit_zero (S := S1x256) hz0 inb_S1x256_S1x256_0_0 xs0]
  · iexists _; isplitr
    swap; · iexact HS1
    ipureintro
    sl_unfold_run_names
    refine (View.read_writes_eq_canon _ _ _ (coverB0 _ _)).trans ?_
    rw [View.canon_unit_zero hz0]
    simp only [View.readAt_eq_ld, hf0, hf1, hf2, hf3, hfs1, View.ld_unit_zero (S := S1x256) hz0 inb_S1x256_S1x256_0_0 xs1]

end Cert.Kernel.Hand

end
-- ==== Proof.K.Lin0.lean ====
import proofs.«165926_j30305289241327_1_alg».proof.Proof.K.Lin0b
import proofs.«165926_j30305289241327_1_alg».proof.Proof.K.Lin0c
import proofs.«165926_j30305289241327_1_alg».proof.Proof.K.Lin0d

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM0_0 : Memref sig .tc .vmem S1x256 .f32 := Memref.whole cc0_scratch0
noncomputable abbrev scM0_1 : Memref sig .tc .vmem S1x256 .f32 := Memref.whole cc0_scratch1

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable def zpay0 (c : Dev nD) (t : Fin cfg0.N) : FVec F S2000x256 .f32 :=
  k0_pay3 (View.ld (iblk0 V c 0 t) rA0) (View.ld (iblk0 V c 1 t) rA0) (View.ld (iblk0 V c 2 t) rW0) (View.ld (iblk0 V c 3 t) rB0)

noncomputable def acc0_1 (c : Dev nD) : (n : ℕ) → n < cfg0.N → FVec F S1x256 .f32
  | 0, hn => k0_pay4 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay1 (F := F))
  | n + 1, hn => k0_pay4 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_1 c n (Nat.lt_of_succ_lt hn))

noncomputable def acc0_2 (c : Dev nD) : (n : ℕ) → n < cfg0.N → FVec F S1x256 .f32
  | 0, hn => k0_pay5 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay2 (F := F))
  | n + 1, hn => k0_pay5 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_2 c n (Nat.lt_of_succ_lt hn))

theorem acc0_1_zero (c : Dev nD) (hn : 0 < cfg0.N) :
    acc0_1 V c 0 hn = k0_pay4 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay1 (F := F)) := rfl
theorem acc0_1_succ (c : Dev nD) (n : ℕ) (hn : n + 1 < cfg0.N) :
    acc0_1 V c (n + 1) hn = k0_pay4 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_1 V c n (Nat.lt_of_succ_lt hn)) := rfl
theorem acc0_2_zero (c : Dev nD) (hn : 0 < cfg0.N) :
    acc0_2 V c 0 hn = k0_pay5 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay2 (F := F)) := rfl
theorem acc0_2_succ (c : Dev nD) (n : ℕ) (hn : n + 1 < cfg0.N) :
    acc0_2 V c (n + 1) hn = k0_pay5 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_2 V c n (Nat.lt_of_succ_lt hn)) := rfl

noncomputable def Phi0 (c : Dev nD) : (n : ℕ) → n ≤ cfg0.N → sProp 𝕄
  | 0, _ => Pipeline.ΦA spec0 c
  | n + 1, hn => iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1]) ∗ (∃ r, prngReg c r))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => View.canon [⟨rZ0, zpay0 V c t⟩]
    | ⟨5, _⟩ => View.canon [⟨rB0, acc0_1 V c t.val t.isLt⟩]
    | ⟨6, _⟩ => View.canon [⟨rB0, acc0_2 V c t.val t.isLt⟩]
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = View.canon [⟨rZ0, zpay0 V c t⟩] := by dsimp only [dat0]
theorem after0_5 (c : Dev nD) (t : Fin cfg0.N) : (dat0 V c).after 5 t = View.canon [⟨rB0, acc0_1 V c t.val t.isLt⟩] := by dsimp only [dat0]
theorem after0_6 (c : Dev nD) (t : Fin cfg0.N) : (dat0 V c).after 6 t = View.canon [⟨rB0, acc0_2 V c t.val t.isLt⟩] := by dsimp only [dat0]
theorem after0_5_last (c : Dev nD) (h : 49 < cfg0.N) : (dat0 V c).after 5 ⟨49, h⟩ = View.canon [⟨rB0, acc0_1 V c 49 h⟩] := after0_5 V c ⟨49, h⟩
theorem after0_6_last (c : Dev nD) (h : 49 < cfg0.N) : (dat0 V c).after 6 ⟨49, h⟩ = View.canon [⟨rB0, acc0_2 V c 49 h⟩] := after0_6 V c ⟨49, h⟩

theorem dat0_q (c : Dev nD) (w : Fin cfg0.W) : (dat0 V c).q w = fullShare := rfl
theorem dat0_owed (c : Dev nD) (t : Fin (cfg0.N + 1)) : (dat0 V c).owed t = 0 := rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1]) ∗ (∃ r, prngReg c r)) := rfl

theorem Phi0_pos (c : Dev nD) (n : ℕ) (h : n ≤ cfg0.N) (hz : n ≠ 0) :
    Phi0 V c n h = iprop(iprop(iprop(owns (c : Thread nD τ) scM0_0 fullShare (acc0_1 V c (n - 1) (by omega)) ∗ owns (c : Thread nD τ) scM0_1 fullShare (acc0_2 V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

theorem Phi0_castSucc (c : Dev nD) (t : Fin cfg0.N) :
    (dat0 V c).Φ t.castSucc = Phi0 V c t.val (Nat.le_of_lt t.isLt) := by
  dsimp only [dat0]; simp only [Fin.coe_castSucc]

theorem Phi0_first (c : Dev nD) : (dat0 V c).Φ 0 = Pipeline.ΦA spec0 c := by
  rw [show (dat0 V c).Φ 0 = Phi0 V c 0 (Nat.zero_le _) from rfl, Phi0_zero V c 0 _ rfl]

theorem Phi0_last (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = Phi0 V c (Fin.last cfg0.N).val (Nat.le_of_lt_succ (Fin.last cfg0.N).isLt) from rfl, Phi0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond0_1 : ∀ t : Fin cfg0.N, cond0_1 (grid0.coords t) ↔ t.val = 0 :=
  (by decide +kernel : ∀ t : Fin grid0.N, cond0_1 (grid0.coords t) ↔ t.val = 0)

theorem hcond0_2 : ∀ t : Fin cfg0.N, cond0_2 (grid0.coords t) ↔ t.val = 49 :=
  (by decide +kernel : ∀ t : Fin grid0.N, cond0_2 (grid0.coords t) ↔ t.val = 49)

theorem idleAt0_5 : ∀ t : Fin cfg0.N, t.val ≠ 49 → cfg0.idle 5 (grid0.coords t) = true := by decide +kernel
theorem idleAt0_6 : ∀ t : Fin cfg0.N, t.val ≠ 49 → cfg0.idle 6 (grid0.coords t) = true := by decide +kernel
theorem noFlush0_5 : ∀ t : Fin cfg0.N, t.val ≠ 49 → (cfg0.win 5).flush t = false := by decide +kernel
theorem noFlush0_6 : ∀ t : Fin cfg0.N, t.val ≠ 49 → (cfg0.win 6).flush t = false := by decide +kernel
theorem liveAt0_5 : ∀ t : Fin cfg0.N, t.val = 49 → cfg0.idle 5 (grid0.coords t) = false := by decide +kernel
theorem liveAt0_6 : ∀ t : Fin cfg0.N, t.val = 49 → cfg0.idle 6 (grid0.coords t) = false := by decide +kernel

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem dat0_recorded (c : Dev nD) (t : Fin (cfg0.N + 1)) : (dat0 V c).recorded t = Set.univ := rfl

theorem acc0_1_first (c : Dev nD) (t : Fin cfg0.N) (h : t.val = 0) :
    acc0_1 V c t.val t.isLt = k0_pay4 (View.ld (iblk0 V c 0 t) rA0) (View.ld (iblk0 V c 1 t) rA0) (View.ld (iblk0 V c 2 t) rW0) (View.ld (iblk0 V c 3 t) rB0) (k0_pay1 (F := F)) := by
  obtain ⟨n, hn⟩ := t
  cases n with
  | zero => rfl
  | succ n => exact absurd h (Nat.succ_ne_zero n)
theorem acc0_2_first (c : Dev nD) (t : Fin cfg0.N) (h : t.val = 0) :
    acc0_2 V c t.val t.isLt = k0_pay5 (View.ld (iblk0 V c 0 t) rA0) (View.ld (iblk0 V c 1 t) rA0) (View.ld (iblk0 V c 2 t) rW0) (View.ld (iblk0 V c 3 t) rB0) (k0_pay2 (F := F)) := by
  obtain ⟨n, hn⟩ := t
  cases n with
  | zero => rfl
  | succ n => exact absurd h (Nat.succ_ne_zero n)
theorem acc0_1_later (c : Dev nD) (t : Fin cfg0.N) (h : t.val ≠ 0) :
    acc0_1 V c t.val t.isLt = k0_pay4 (View.ld (iblk0 V c 0 t) rA0) (View.ld (iblk0 V c 1 t) rA0) (View.ld (iblk0 V c 2 t) rW0) (View.ld (iblk0 V c 3 t) rB0) (acc0_1 V c (t.val - 1) (Nat.lt_of_le_of_lt (Nat.sub_le _ _) t.isLt)) := by
  obtain ⟨n, hn⟩ := t
  cases n with
  | zero => exact absurd rfl h
  | succ n => rfl
theorem acc0_2_later (c : Dev nD) (t : Fin cfg0.N) (h : t.val ≠ 0) :
    acc0_2 V c t.val t.isLt = k0_pay5 (View.ld (iblk0 V c 0 t) rA0) (View.ld (iblk0 V c 1 t) rA0) (View.ld (iblk0 V c 2 t) rW0) (View.ld (iblk0 V c 3 t) rB0) (acc0_2 V c (t.val - 1) (Nat.lt_of_le_of_lt (Nat.sub_le _ _) t.isLt)) := by
  obtain ⟨n, hn⟩ := t
  cases n with
  | zero => exact absurd rfl h
  | succ n => rfl

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold zpay0
  have hN : t.val < 50 := lt_of_lt_of_eq t.isLt (show cfg0.N = 50 from N_0)
  by_cases h0 : t.val = 0
  ·
    have h49 : t.val ≠ 49 := by omega
    rw [Dat.leavesExact_idle (dat0 V c) 5 t (idleAt0_5 t h49) (noFlush0_5 t h49),
      Dat.leavesExact_idle (dat0 V c) 6 t (idleAt0_6 t h49) (noFlush0_6 t h49)]
    rw [Phi0_castSucc V c t, Phi0_zero V c _ _ h0, PhiA0_eq]
    rw [acc0_1_first V c t h0, acc0_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel0_A c Set.univ (grid0.coords t) _ _ _ _ _ _ _ _ _ _ _ _ _ _ _ _ _ _ ((hcond0_1 t).mpr h0) (fun h => h49 ((hcond0_2 t).mp h))
      (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat0 V c).leavesExact 5 t = owns (c : Thread nD τ) (st0_5 t) fullShare ((dat0 V c).after 5 t) from by
        unfold Dat.leavesExact; rw [liveAt0_5 t h49], after0_5]
      rw [show (dat0 V c).leavesExact 6 t = owns (c : Thread nD τ) (st0_6 t) fullShare ((dat0 V c).after 6 t) from by
        unfold Dat.leavesExact; rw [liveAt0_6 t h49], after0_6]
      rw [Phi0_castSucc V c t, Phi0_pos V c _ _ h0]
      rw [acc0_1_later V c t h0, acc0_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_C c Set.univ (grid0.coords t) _ _ _ _ _ _ _ _ _ _ _ _ _ _ _ _ _ _ (fun h => h0 ((hcond0_1 t).mp h)) ((hcond0_2 t).mpr h49)
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 5 t (idleAt0_5 t h49) (noFlush0_5 t h49),
        Dat.leavesExact_idle (dat0 V c) 6 t (idleAt0_6 t h49) (noFlush0_6 t h49)]
      rw [Phi0_castSucc V c t, Phi0_pos V c _ _ h0]
      rw [acc0_1_later V c t h0, acc0_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_B c Set.univ (grid0.coords t) _ _ _ _ _ _ _ _ _ _ _ _ _ _ _ _ _ _ (fun h => h0 ((hcond0_1 t).mp h)) (fun h => h49 ((hcond0_2 t).mp h))
        (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Bn1.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S1x256 := Rect.unit (s := S1x256) ![0, 0] S1x256.size inb_S1x256_S1x256_0_0
abbrev r1_2 : Rect S256x128 := Rect.unit (s := S256x128) ![0, 0] S256x128.size inb_S256x128_S256x128_0_0
abbrev r1_3 : Rect S1x128 := Rect.unit (s := S1x128) ![0, 0] S1x128.size inb_S1x128_S1x128_0_0
abbrev r1_4 : Rect S2000x128 := Rect.unit (s := S2000x128) ![0, 0] S2000x128.size inb_S2000x128_S2000x128_0_0

def out1_7 (x0 : Vec F S2000x256 .f32) (x1 x2 x3 x4 : Vec F S1x256 .f32) (x5 : Vec F S256x128 .f32) (x6 : Vec F S1x128 .f32) : Vec F S2000x128 .f32 :=
  View.canon [⟨r1_4, k1_pay1 (View.ld x0 r1_0) (View.ld x2 r1_1) (View.ld x3 r1_1) (View.ld x1 r1_1) (View.ld x4 r1_1) (View.ld x5 r1_2) (View.ld x6 r1_3)⟩]

theorem cover1_7 (p0 : Vec F S2000x128 .f32) (y : S2000x128.Idx) :
    ∃ pc ∈ ([⟨r1_4, p0⟩] : List (View.Piece (Elt F) S2000x128 .f32)), y ∈ pc.1.set :=
  View.cover_of_tiled [⟨r1_4, p0⟩] S2000x128.size (by rfl) y

set_option maxHeartbeats 1000000 in

theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x256 .f32) (x1 x2 x3 x4 : Vec F S1x256 .f32) (x5 : Vec F S256x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_lin2_kernel i arg1 harg1 arg2 harg2 arg3 harg3 arg4 harg4 arg5 harg5 arg6 harg6 arg7 harg7 arg8 harg8) K := by
  simp only [cc1__bn_lin2_kernel_eq_skeleton]; unfold cc1__bn_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem dat1_q (c : Dev nD) (w : Fin cfg1.W) : (dat1 V c).q w = fullShare := by dsimp only [dat1]
theorem dat1_owed (c : Dev nD) (t : Fin (cfg1.N + 1)) : (dat1 V c).owed t = 0 := by dsimp only [dat1]
theorem Phi1 (c : Dev nD) (t : Fin (cfg1.N + 1)) : (dat1 V c).Φ t = Pipeline.ΦA spec1 c := by dsimp only [dat1]
theorem dat1_recorded (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Body

end Cert.Kernel.Hand
-- ==== Proof.K.Lin2a.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev rA2 : Rect S2000x128 := Rect.unit (s := S2000x128) ![0, 0] S2000x128.size inb_S2000x128_S2000x128_0_0
noncomputable abbrev rW2 : Rect S128x256 := Rect.unit (s := S128x256) ![0, 0] S128x256.size inb_S128x256_S128x256_0_0
noncomputable abbrev rB2 : Rect S1x256 := Rect.unit (s := S1x256) ![0, 0] S1x256.size inb_S1x256_S1x256_0_0
noncomputable abbrev rZ2 : Rect S2000x256 := Rect.unit (s := S2000x256) ![0, 0] S2000x256.size inb_S2000x256_S2000x256_0_0

abbrev cond2_1 (i : grid2.Coords) : Prop :=
  Scalar.cmpi .ne (Scalar.extui (Scalar.cmpi .eq (BitVec.ofNat 32 (i 0).val) 0#32)) 0#32 = 1#1

abbrev cond2_2 (i : grid2.Coords) : Prop := k2_cond2 i = 1#1

theorem hz2 : (![0, 0] : Fin 2 → Nat) = fun _ => 0 := funext fun a => by fin_cases a <;> rfl

theorem mem_rZ2 (y : S2000x256.Idx) : y ∈ rZ2.set := View.mem_set_unit_zero hz2 inb_S2000x256_S2000x256_0_0 y
theorem mem_rB2 (y : S1x256.Idx) : y ∈ rB2.set := View.mem_set_unit_zero hz2 inb_S1x256_S1x256_0_0 y

theorem coverZ2 (p : rZ2.shape.Idx → Elt F .f32) (y : S2000x256.Idx) :
    ∃ pc ∈ ([⟨rZ2, p⟩] : List (View.Piece (Elt F) S2000x256 .f32)), y ∈ pc.1.set :=
  ⟨⟨rZ2, p⟩, List.mem_singleton_self _, mem_rZ2 y⟩
theorem coverB2 (p : rB2.shape.Idx → Elt F .f32) (L : List (View.Piece (Elt F) S1x256 .f32)) (y : S1x256.Idx) :
    ∃ pc ∈ (⟨rB2, p⟩ :: L : List (View.Piece (Elt F) S1x256 .f32)), y ∈ pc.1.set :=
  ⟨⟨rB2, p⟩, List.mem_cons.mpr (Or.inl rfl), mem_rB2 y⟩

end Cert.Kernel.Hand

end
-- ==== Proof.K.Lin2b.lean ====
import proofs.«165926_j30305289241327_1_alg».proof.Proof.K.Lin2a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel2_A (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : cond2_1 i) (hc2 : ¬cond2_2 i)
    (x0 x1 : Vec F S2000x128 .f32) (x2 : Vec F S128x256 .f32) (x3 : Vec F S1x256 .f32) (xi5 xi6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩]) ∗ owns (c : Thread nD τ) arg6 fullShare xi5 ∗ owns (c : Thread nD τ) arg7 fullShare xi6
            ∗ owns (c : Thread nD τ) arg8 fullShare (k2_pay4 (View.ld x0 rA2) (View.ld x1 rA2) (View.ld x2 rW2) (View.ld x3 rB2) (k2_pay1 (F := F))) ∗ owns (c : Thread nD τ) arg9 fullShare (k2_pay5 (View.ld x0 rA2) (View.ld x1 rA2) (View.ld x2 rW2) (View.ld x3 rB2) (k2_pay2 (F := F)))) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB2 _ _)).trans ?_
    sl_unfold_run_names
    rw [View.canon_cons_unit_zero (S := S1x256) hz2]
    simp only [View.readCov_unit_zero (S := S1x256) _ hz2, View.readAt_eq_ld, hf0, hf1, hf2, hf3]
  · iexists _; isplitr
    swap; · iexact HS1
    ipureintro
    refine (View.read_writes_eq_canon _ _ _ (coverB2 _ _)).trans ?_
    sl_unfold_run_names
    rw [View.canon_cons_unit_zero (S := S1x256) hz2]
    simp only [View.readCov_unit_zero (S := S1x256) _ hz2, View.readAt_eq_ld, hf0, hf1, hf2, hf3]

end Cert.Kernel.Hand

end
-- ==== Proof.K.Lin2c.lean ====
import proofs.«165926_j30305289241327_1_alg».proof.Proof.K.Lin2a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernel2_B (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond2_1 i) (hc2 : ¬cond2_2 i)
    (x0 x1 : Vec F S2000x128 .f32) (x2 : Vec F S128x256 .f32) (x3 : Vec F S1x256 .f32) (xi5 xi6 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩]) ∗ owns (c : Thread nD τ) arg6 fullShare xi5 ∗ owns (c : Thread nD τ) arg7 fullShare xi6
            ∗ owns (c : Thread nD τ) arg8 fullShare (k2_pay4 (View.ld x0 rA2) (View.ld x1 rA2) (View.ld x2 rW2) (View.ld x3 rB2) xs0) ∗ owns (c : Thread nD τ) arg9 fullShare (k2_pay5 (View.ld x0 rA2) (View.ld x1 rA2) (View.ld x2 rW2) (View.ld x3 rB2) xs1)) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB2 _ _)).trans ?_
    rw [View.canon_unit_zero hz2]
    simp only [View.readAt_eq_ld, hf0, hf1, hf2, hf3, hfs0, View.ld_unit_zero (S := S1x256) hz2 inb_S1x256_S1x256_0_0 xs0]
  · iexists _; isplitr
    swap; · iexact HS1
    ipureintro
    refine (View.read_writes_eq_canon _ _ _ (coverB2 _ _)).trans ?_
    rw [View.canon_unit_zero hz2]
    sl_unfold_run_names
    simp only [View.readAt_eq_ld, hf0, hf1, hf2, hf3, hfs1, View.ld_unit_zero (S := S1x256) hz2 inb_S1x256_S1x256_0_0 xs1]

end Cert.Kernel.Hand

end
-- ==== Proof.K.Lin2d.lean ====
import proofs.«165926_j30305289241327_1_alg».proof.Proof.K.Lin2a

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel2_C (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond2_1 i) (hc2 : cond2_2 i)
    (x0 x1 : Vec F S2000x128 .f32) (x2 : Vec F S128x256 .f32) (x3 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩])
            ∗ owns (c : Thread nD τ) arg6 fullShare (View.canon [⟨rB2, k2_pay4 (View.ld x0 rA2) (View.ld x1 rA2) (View.ld x2 rW2) (View.ld x3 rB2) xs0⟩]) ∗ owns (c : Thread nD τ) arg7 fullShare (View.canon [⟨rB2, k2_pay5 (View.ld x0 rA2) (View.ld x1 rA2) (View.ld x2 rW2) (View.ld x3 rB2) xs1⟩])
            ∗ owns (c : Thread nD τ) arg8 fullShare (k2_pay4 (View.ld x0 rA2) (View.ld x1 rA2) (View.ld x2 rW2) (View.ld x3 rB2) xs0) ∗ owns (c : Thread nD τ) arg9 fullShare (k2_pay5 (View.ld x0 rA2) (View.ld x1 rA2) (View.ld x2 rW2) (View.ld x3 rB2) xs1)) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr
    swap; · iexact H5
    ipureintro
    refine (View.read_writes_eq_canon _ _ _ (coverB2 _ _)).trans ?_
    sl_unfold_run_names
    simp only [View.readCov_unit_zero (S := S1x256) _ hz2, View.readAt_eq_ld, hf0, hf1, hf2, hf3, hfs0, View.ld_unit_zero (S := S1x256) hz2 inb_S1x256_S1x256_0_0 xs0]
  isplitl [H6]
  · iexists _; isplitr
    swap; · iexact H6
    ipureintro
    refine (View.read_writes_eq_canon _ _ _ (coverB2 _ _)).trans ?_
    sl_unfold_run_names
    simp only [View.readCov_unit_zero (S := S1x256) _ hz2, View.readAt_eq_ld, hf0, hf1, hf2, hf3, hfs1, View.ld_unit_zero (S := S1x256) hz2 inb_S1x256_S1x256_0_0 xs1]
  isplitl [HS0]
  · iexists _; isplitr
    swap; · iexact HS0
    ipureintro
    sl_unfold_run_names
    refine (View.read_writes_eq_canon _ _ _ (coverB2 _ _)).trans ?_
    rw [View.canon_unit_zero hz2]
    simp only [View.readAt_eq_ld, hf0, hf1, hf2, hf3, hfs0, View.ld_unit_zero (S := S1x256) hz2 inb_S1x256_S1x256_0_0 xs0]
  · iexists _; isplitr
    swap; · iexact HS1
    ipureintro
    sl_unfold_run_names
    refine (View.read_writes_eq_canon _ _ _ (coverB2 _ _)).trans ?_
    rw [View.canon_unit_zero hz2]
    simp only [View.readAt_eq_ld, hf0, hf1, hf2, hf3, hfs1, View.ld_unit_zero (S := S1x256) hz2 inb_S1x256_S1x256_0_0 xs1]

end Cert.Kernel.Hand

end
-- ==== Proof.K.Lin2.lean ====
import proofs.«165926_j30305289241327_1_alg».proof.Proof.K.Lin2b
import proofs.«165926_j30305289241327_1_alg».proof.Proof.K.Lin2c
import proofs.«165926_j30305289241327_1_alg».proof.Proof.K.Lin2d

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM2_0 : Memref sig .tc .vmem S1x256 .f32 := Memref.whole cc2_scratch0
noncomputable abbrev scM2_1 : Memref sig .tc .vmem S1x256 .f32 := Memref.whole cc2_scratch1

section Region2

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def zpay2 (c : Dev nD) (t : Fin cfg2.N) : FVec F S2000x256 .f32 :=
  k2_pay3 (View.ld (iblk2 V c 0 t) rA2) (View.ld (iblk2 V c 1 t) rA2) (View.ld (iblk2 V c 2 t) rW2) (View.ld (iblk2 V c 3 t) rB2)

noncomputable def acc2_1 (c : Dev nD) : (n : ℕ) → n < cfg2.N → FVec F S1x256 .f32
  | 0, hn => k2_pay4 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay1 (F := F))
  | n + 1, hn => k2_pay4 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_1 c n (Nat.lt_of_succ_lt hn))

noncomputable def acc2_2 (c : Dev nD) : (n : ℕ) → n < cfg2.N → FVec F S1x256 .f32
  | 0, hn => k2_pay5 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay2 (F := F))
  | n + 1, hn => k2_pay5 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_2 c n (Nat.lt_of_succ_lt hn))

theorem acc2_1_zero (c : Dev nD) (hn : 0 < cfg2.N) :
    acc2_1 V c 0 hn = k2_pay4 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay1 (F := F)) := rfl
theorem acc2_1_succ (c : Dev nD) (n : ℕ) (hn : n + 1 < cfg2.N) :
    acc2_1 V c (n + 1) hn = k2_pay4 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_1 V c n (Nat.lt_of_succ_lt hn)) := rfl
theorem acc2_2_zero (c : Dev nD) (hn : 0 < cfg2.N) :
    acc2_2 V c 0 hn = k2_pay5 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay2 (F := F)) := rfl
theorem acc2_2_succ (c : Dev nD) (n : ℕ) (hn : n + 1 < cfg2.N) :
    acc2_2 V c (n + 1) hn = k2_pay5 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_2 V c n (Nat.lt_of_succ_lt hn)) := rfl

noncomputable def Phi2 (c : Dev nD) : (n : ℕ) → n ≤ cfg2.N → sProp 𝕄
  | 0, _ => Pipeline.ΦA spec2 c
  | n + 1, hn => iprop(iprop(iprop(owns (c : Thread nD τ) scM2_0 fullShare (acc2_1 V c n hn) ∗ owns (c : Thread nD τ) scM2_1 fullShare (acc2_2 V c n hn))
      ∗ Pipeline.scopedRestBut (Ix := Unit) (Name := ℕ) (U := UR sig nD τ) (Lvl := ℕ) (Val := Elt F) spec2 c [cc2_scratch0, cc2_scratch1]) ∗ (∃ r, prngReg c r))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => View.canon [⟨rZ2, zpay2 V c t⟩]
    | ⟨5, _⟩ => View.canon [⟨rB2, acc2_1 V c t.val t.isLt⟩]
    | ⟨6, _⟩ => View.canon [⟨rB2, acc2_2 V c t.val t.isLt⟩]
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = View.canon [⟨rZ2, zpay2 V c t⟩] := by dsimp only [dat2]
theorem after2_5 (c : Dev nD) (t : Fin cfg2.N) : (dat2 V c).after 5 t = View.canon [⟨rB2, acc2_1 V c t.val t.isLt⟩] := by dsimp only [dat2]
theorem after2_6 (c : Dev nD) (t : Fin cfg2.N) : (dat2 V c).after 6 t = View.canon [⟨rB2, acc2_2 V c t.val t.isLt⟩] := by dsimp only [dat2]
theorem after2_5_last (c : Dev nD) (h : 49 < cfg2.N) : (dat2 V c).after 5 ⟨49, h⟩ = View.canon [⟨rB2, acc2_1 V c 49 h⟩] := after2_5 V c ⟨49, h⟩
theorem after2_6_last (c : Dev nD) (h : 49 < cfg2.N) : (dat2 V c).after 6 ⟨49, h⟩ = View.canon [⟨rB2, acc2_2 V c 49 h⟩] := after2_6 V c ⟨49, h⟩

theorem dat2_q (c : Dev nD) (w : Fin cfg2.W) : (dat2 V c).q w = fullShare := rfl
theorem dat2_owed (c : Dev nD) (t : Fin (cfg2.N + 1)) : (dat2 V c).owed t = 0 := rfl

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2_1 V c n hn) ∗ owns (c : Thread nD τ) scM2_1 fullShare (acc2_2 V c n hn))
      ∗ Pipeline.scopedRestBut (Ix := Unit) (Name := ℕ) (U := UR sig nD τ) (Lvl := ℕ) (Val := Elt F) spec2 c [cc2_scratch0, cc2_scratch1]) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2_1 V c (n - 1) (by omega)) ∗ owns (c : Thread nD τ) scM2_1 fullShare (acc2_2 V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem Phi2_castSucc (c : Dev nD) (t : Fin cfg2.N) :
    (dat2 V c).Φ t.castSucc = Phi2 V c t.val (Nat.le_of_lt t.isLt) := by
  dsimp only [dat2]; simp only [Fin.coe_castSucc]

theorem Phi2_first (c : Dev nD) : (dat2 V c).Φ 0 = Pipeline.ΦA spec2 c := by
  rw [show (dat2 V c).Φ 0 = Phi2 V c 0 (Nat.zero_le _) from rfl, Phi2_zero V c 0 _ rfl]

theorem Phi2_last (c : Dev nD) : (dat2 V c).Φ (Fin.last cfg2.N) ⊢ Pipeline.ΦA spec2 c := by
  have ht : (Fin.last cfg2.N).val ≠ 0 := by rw [Fin.val_last]; have : cfg2.N = 50 := N_2; omega
  rw [show (dat2 V c).Φ (Fin.last cfg2.N) = Phi2 V c (Fin.last cfg2.N).val (Nat.le_of_lt_succ (Fin.last cfg2.N).isLt) from rfl, Phi2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond2_1 : ∀ t : Fin cfg2.N, cond2_1 (grid2.coords t) ↔ t.val = 0 :=
  (by decide +kernel : ∀ t : Fin grid2.N, cond2_1 (grid2.coords t) ↔ t.val = 0)

theorem hcond2_2 : ∀ t : Fin cfg2.N, cond2_2 (grid2.coords t) ↔ t.val = 49 :=
  (by decide +kernel : ∀ t : Fin grid2.N, cond2_2 (grid2.coords t) ↔ t.val = 49)

theorem idleAt2_5 : ∀ t : Fin cfg2.N, t.val ≠ 49 → cfg2.idle 5 (grid2.coords t) = true := by decide +kernel
theorem idleAt2_6 : ∀ t : Fin cfg2.N, t.val ≠ 49 → cfg2.idle 6 (grid2.coords t) = true := by decide +kernel
theorem noFlush2_5 : ∀ t : Fin cfg2.N, t.val ≠ 49 → (cfg2.win 5).flush t = false := by decide +kernel
theorem noFlush2_6 : ∀ t : Fin cfg2.N, t.val ≠ 49 → (cfg2.win 6).flush t = false := by decide +kernel
theorem liveAt2_5 : ∀ t : Fin cfg2.N, t.val = 49 → cfg2.idle 5 (grid2.coords t) = false := by decide +kernel
theorem liveAt2_6 : ∀ t : Fin cfg2.N, t.val = 49 → cfg2.idle 6 (grid2.coords t) = false := by decide +kernel

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem dat2_recorded (c : Dev nD) (t : Fin (cfg2.N + 1)) : (dat2 V c).recorded t = Set.univ := rfl

theorem acc2_1_first (c : Dev nD) (t : Fin cfg2.N) (h : t.val = 0) :
    acc2_1 V c t.val t.isLt = k2_pay4 (View.ld (iblk2 V c 0 t) rA2) (View.ld (iblk2 V c 1 t) rA2) (View.ld (iblk2 V c 2 t) rW2) (View.ld (iblk2 V c 3 t) rB2) (k2_pay1 (F := F)) := by
  obtain ⟨n, hn⟩ := t
  cases n with
  | zero => rfl
  | succ n => exact absurd h (Nat.succ_ne_zero n)
theorem acc2_2_first (c : Dev nD) (t : Fin cfg2.N) (h : t.val = 0) :
    acc2_2 V c t.val t.isLt = k2_pay5 (View.ld (iblk2 V c 0 t) rA2) (View.ld (iblk2 V c 1 t) rA2) (View.ld (iblk2 V c 2 t) rW2) (View.ld (iblk2 V c 3 t) rB2) (k2_pay2 (F := F)) := by
  obtain ⟨n, hn⟩ := t
  cases n with
  | zero => rfl
  | succ n => exact absurd h (Nat.succ_ne_zero n)
theorem acc2_1_later (c : Dev nD) (t : Fin cfg2.N) (h : t.val ≠ 0) :
    acc2_1 V c t.val t.isLt = k2_pay4 (View.ld (iblk2 V c 0 t) rA2) (View.ld (iblk2 V c 1 t) rA2) (View.ld (iblk2 V c 2 t) rW2) (View.ld (iblk2 V c 3 t) rB2) (acc2_1 V c (t.val - 1) (Nat.lt_of_le_of_lt (Nat.sub_le _ _) t.isLt)) := by
  obtain ⟨n, hn⟩ := t
  cases n with
  | zero => exact absurd rfl h
  | succ n => rfl
theorem acc2_2_later (c : Dev nD) (t : Fin cfg2.N) (h : t.val ≠ 0) :
    acc2_2 V c t.val t.isLt = k2_pay5 (View.ld (iblk2 V c 0 t) rA2) (View.ld (iblk2 V c 1 t) rA2) (View.ld (iblk2 V c 2 t) rW2) (View.ld (iblk2 V c 3 t) rB2) (acc2_2 V c (t.val - 1) (Nat.lt_of_le_of_lt (Nat.sub_le _ _) t.isLt)) := by
  obtain ⟨n, hn⟩ := t
  cases n with
  | zero => exact absurd rfl h
  | succ n => rfl

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  unfold zpay2
  have hN : t.val < 50 := lt_of_lt_of_eq t.isLt (show cfg2.N = 50 from N_2)
  by_cases h0 : t.val = 0
  ·
    have h49 : t.val ≠ 49 := by omega
    rw [Dat.leavesExact_idle (dat2 V c) 5 t (idleAt2_5 t h49) (noFlush2_5 t h49),
      Dat.leavesExact_idle (dat2 V c) 6 t (idleAt2_6 t h49) (noFlush2_6 t h49)]
    rw [Phi2_castSucc V c t, Phi2_zero V c _ _ h0, PhiA2_eq]
    rw [acc2_1_first V c t h0, acc2_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid2.coords t) _ _ _ _ _ _ _ _ _ _ _ _ _ _ _ _ _ _ ((hcond2_1 t).mpr h0) (fun h => h49 ((hcond2_2 t).mp h))
      (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat2 V c).leavesExact 5 t = owns (c : Thread nD τ) (st2_5 t) fullShare ((dat2 V c).after 5 t) from by
        unfold Dat.leavesExact; rw [liveAt2_5 t h49], after2_5]
      rw [show (dat2 V c).leavesExact 6 t = owns (c : Thread nD τ) (st2_6 t) fullShare ((dat2 V c).after 6 t) from by
        unfold Dat.leavesExact; rw [liveAt2_6 t h49], after2_6]
      rw [Phi2_castSucc V c t, Phi2_pos V c _ _ h0]
      rw [acc2_1_later V c t h0, acc2_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid2.coords t) _ _ _ _ _ _ _ _ _ _ _ _ _ _ _ _ _ _ (fun h => h0 ((hcond2_1 t).mp h)) ((hcond2_2 t).mpr h49)
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat2 V c) 5 t (idleAt2_5 t h49) (noFlush2_5 t h49),
        Dat.leavesExact_idle (dat2 V c) 6 t (idleAt2_6 t h49) (noFlush2_6 t h49)]
      rw [Phi2_castSucc V c t, Phi2_pos V c _ _ h0]
      rw [acc2_1_later V c t h0, acc2_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid2.coords t) _ _ _ _ _ _ _ _ _ _ _ _ _ _ _ _ _ _ (fun h => h0 ((hcond2_1 t).mp h)) (fun h => h49 ((hcond2_2 t).mp h))
        (iblk2 V c 0 t) (iblk2 V c 1 t) (iblk2 V c 2 t) (iblk2 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Bn3.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.K.Bn1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out1_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem dat3_q (c : Dev nD) (w : Fin cfg3.W) : (dat3 V c).q w = fullShare := by dsimp only [dat3]
theorem dat3_owed (c : Dev nD) (t : Fin (cfg3.N + 1)) : (dat3 V c).owed t = 0 := by dsimp only [dat3]
theorem Phi3 (c : Dev nD) (t : Fin (cfg3.N + 1)) : (dat3 V c).Φ t = Pipeline.ΦA spec3 c := by dsimp only [dat3]
theorem dat3_recorded (c : Dev nD) (t : Fin (cfg3.N + 1)) : (dat3 V c).recorded t = Set.univ := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out1_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

theorem cc3_eq : cc3__bn_lin2_kernel (F := F) = cc1__bn_lin2_kernel (F := F) := rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Body

end Cert.Kernel.Hand
-- ==== Proof.K.Lin4.lean ====
import proofs.«165926_j30305289241327_1_alg».proof.Proof.K.Lin2b
import proofs.«165926_j30305289241327_1_alg».proof.Proof.K.Lin2c
import proofs.«165926_j30305289241327_1_alg».proof.Proof.K.Lin2d

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM4_0 : Memref sig .tc .vmem S1x256 .f32 := Memref.whole cc4_scratch0
noncomputable abbrev scM4_1 : Memref sig .tc .vmem S1x256 .f32 := Memref.whole cc4_scratch1

section Region4

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def zpay4 (c : Dev nD) (t : Fin cfg4.N) : FVec F S2000x256 .f32 :=
  k2_pay3 (View.ld (iblk4 V c 0 t) rA2) (View.ld (iblk4 V c 1 t) rA2) (View.ld (iblk4 V c 2 t) rW2) (View.ld (iblk4 V c 3 t) rB2)

noncomputable def acc4_1 (c : Dev nD) : (n : ℕ) → n < cfg4.N → FVec F S1x256 .f32
  | 0, hn => k2_pay4 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay1 (F := F))
  | n + 1, hn => k2_pay4 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_1 c n (Nat.lt_of_succ_lt hn))

noncomputable def acc4_2 (c : Dev nD) : (n : ℕ) → n < cfg4.N → FVec F S1x256 .f32
  | 0, hn => k2_pay5 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay2 (F := F))
  | n + 1, hn => k2_pay5 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_2 c n (Nat.lt_of_succ_lt hn))

theorem acc4_1_zero (c : Dev nD) (hn : 0 < cfg4.N) :
    acc4_1 V c 0 hn = k2_pay4 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay1 (F := F)) := rfl
theorem acc4_1_succ (c : Dev nD) (n : ℕ) (hn : n + 1 < cfg4.N) :
    acc4_1 V c (n + 1) hn = k2_pay4 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_1 V c n (Nat.lt_of_succ_lt hn)) := rfl
theorem acc4_2_zero (c : Dev nD) (hn : 0 < cfg4.N) :
    acc4_2 V c 0 hn = k2_pay5 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay2 (F := F)) := rfl
theorem acc4_2_succ (c : Dev nD) (n : ℕ) (hn : n + 1 < cfg4.N) :
    acc4_2 V c (n + 1) hn = k2_pay5 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_2 V c n (Nat.lt_of_succ_lt hn)) := rfl

noncomputable def Phi4 (c : Dev nD) : (n : ℕ) → n ≤ cfg4.N → sProp 𝕄
  | 0, _ => Pipeline.ΦA spec4 c
  | n + 1, hn => iprop(iprop(iprop(owns (c : Thread nD τ) scM4_0 fullShare (acc4_1 V c n hn) ∗ owns (c : Thread nD τ) scM4_1 fullShare (acc4_2 V c n hn))
      ∗ Pipeline.scopedRestBut (Ix := Unit) (Name := ℕ) (U := UR sig nD τ) (Lvl := ℕ) (Val := Elt F) spec4 c [cc4_scratch0, cc4_scratch1]) ∗ (∃ r, prngReg c r))

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => View.canon [⟨rZ2, zpay4 V c t⟩]
    | ⟨5, _⟩ => View.canon [⟨rB2, acc4_1 V c t.val t.isLt⟩]
    | ⟨6, _⟩ => View.canon [⟨rB2, acc4_2 V c t.val t.isLt⟩]
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = View.canon [⟨rZ2, zpay4 V c t⟩] := by dsimp only [dat4]
theorem after4_5 (c : Dev nD) (t : Fin cfg4.N) : (dat4 V c).after 5 t = View.canon [⟨rB2, acc4_1 V c t.val t.isLt⟩] := by dsimp only [dat4]
theorem after4_6 (c : Dev nD) (t : Fin cfg4.N) : (dat4 V c).after 6 t = View.canon [⟨rB2, acc4_2 V c t.val t.isLt⟩] := by dsimp only [dat4]
theorem after4_5_last (c : Dev nD) (h : 49 < cfg4.N) : (dat4 V c).after 5 ⟨49, h⟩ = View.canon [⟨rB2, acc4_1 V c 49 h⟩] := after4_5 V c ⟨49, h⟩
theorem after4_6_last (c : Dev nD) (h : 49 < cfg4.N) : (dat4 V c).after 6 ⟨49, h⟩ = View.canon [⟨rB2, acc4_2 V c 49 h⟩] := after4_6 V c ⟨49, h⟩

theorem dat4_q (c : Dev nD) (w : Fin cfg4.W) : (dat4 V c).q w = fullShare := rfl
theorem dat4_owed (c : Dev nD) (t : Fin (cfg4.N + 1)) : (dat4 V c).owed t = 0 := rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4_1 V c n hn) ∗ owns (c : Thread nD τ) scM4_1 fullShare (acc4_2 V c n hn))
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4_1 V c (n - 1) (by omega)) ∗ owns (c : Thread nD τ) scM4_1 fullShare (acc4_2 V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := by
  rw [show (dat4 V c).Φ 0 = Phi4 V c 0 (Nat.zero_le _) from rfl, Phi4_zero V c 0 _ rfl]

theorem Phi4_last (c : Dev nD) : (dat4 V c).Φ (Fin.last cfg4.N) ⊢ Pipeline.ΦA spec4 c := by
  have ht : (Fin.last cfg4.N).val ≠ 0 := by rw [Fin.val_last]; have : cfg4.N = 50 := N_4; omega
  rw [show (dat4 V c).Φ (Fin.last cfg4.N) = Phi4 V c (Fin.last cfg4.N).val (Nat.le_of_lt_succ (Fin.last cfg4.N).isLt) from rfl, Phi4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond4_1 : ∀ t : Fin cfg4.N, cond2_1 (grid4.coords t) ↔ t.val = 0 :=
  (by decide +kernel : ∀ t : Fin grid4.N, cond2_1 (grid4.coords t) ↔ t.val = 0)

theorem hcond4_2 : ∀ t : Fin cfg4.N, cond2_2 (grid4.coords t) ↔ t.val = 49 :=
  (by decide +kernel : ∀ t : Fin grid4.N, cond2_2 (grid4.coords t) ↔ t.val = 49)

theorem idleAt4_5 : ∀ t : Fin cfg4.N, t.val ≠ 49 → cfg4.idle 5 (grid4.coords t) = true := by decide +kernel
theorem idleAt4_6 : ∀ t : Fin cfg4.N, t.val ≠ 49 → cfg4.idle 6 (grid4.coords t) = true := by decide +kernel
theorem noFlush4_5 : ∀ t : Fin cfg4.N, t.val ≠ 49 → (cfg4.win 5).flush t = false := by decide +kernel
theorem noFlush4_6 : ∀ t : Fin cfg4.N, t.val ≠ 49 → (cfg4.win 6).flush t = false := by decide +kernel
theorem liveAt4_5 : ∀ t : Fin cfg4.N, t.val = 49 → cfg4.idle 5 (grid4.coords t) = false := by decide +kernel
theorem liveAt4_6 : ∀ t : Fin cfg4.N, t.val = 49 → cfg4.idle 6 (grid4.coords t) = false := by decide +kernel

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem dat4_recorded (c : Dev nD) (t : Fin (cfg4.N + 1)) : (dat4 V c).recorded t = Set.univ := rfl

theorem acc4_1_first (c : Dev nD) (t : Fin cfg4.N) (h : t.val = 0) :
    acc4_1 V c t.val t.isLt = k2_pay4 (View.ld (iblk4 V c 0 t) rA2) (View.ld (iblk4 V c 1 t) rA2) (View.ld (iblk4 V c 2 t) rW2) (View.ld (iblk4 V c 3 t) rB2) (k2_pay1 (F := F)) := by
  obtain ⟨n, hn⟩ := t
  cases n with
  | zero => rfl
  | succ n => exact absurd h (Nat.succ_ne_zero n)
theorem acc4_2_first (c : Dev nD) (t : Fin cfg4.N) (h : t.val = 0) :
    acc4_2 V c t.val t.isLt = k2_pay5 (View.ld (iblk4 V c 0 t) rA2) (View.ld (iblk4 V c 1 t) rA2) (View.ld (iblk4 V c 2 t) rW2) (View.ld (iblk4 V c 3 t) rB2) (k2_pay2 (F := F)) := by
  obtain ⟨n, hn⟩ := t
  cases n with
  | zero => rfl
  | succ n => exact absurd h (Nat.succ_ne_zero n)
theorem acc4_1_later (c : Dev nD) (t : Fin cfg4.N) (h : t.val ≠ 0) :
    acc4_1 V c t.val t.isLt = k2_pay4 (View.ld (iblk4 V c 0 t) rA2) (View.ld (iblk4 V c 1 t) rA2) (View.ld (iblk4 V c 2 t) rW2) (View.ld (iblk4 V c 3 t) rB2) (acc4_1 V c (t.val - 1) (Nat.lt_of_le_of_lt (Nat.sub_le _ _) t.isLt)) := by
  obtain ⟨n, hn⟩ := t
  cases n with
  | zero => exact absurd rfl h
  | succ n => rfl
theorem acc4_2_later (c : Dev nD) (t : Fin cfg4.N) (h : t.val ≠ 0) :
    acc4_2 V c t.val t.isLt = k2_pay5 (View.ld (iblk4 V c 0 t) rA2) (View.ld (iblk4 V c 1 t) rA2) (View.ld (iblk4 V c 2 t) rW2) (View.ld (iblk4 V c 3 t) rB2) (acc4_2 V c (t.val - 1) (Nat.lt_of_le_of_lt (Nat.sub_le _ _) t.isLt)) := by
  obtain ⟨n, hn⟩ := t
  cases n with
  | zero => exact absurd rfl h
  | succ n => rfl

theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
theorem liveAt4_3 (t : Fin cfg4.N) : cfg4.idle 3 (grid4.coords t) = false := rfl
theorem liveAt4_4 (t : Fin cfg4.N) : cfg4.idle 4 (grid4.coords t) = false := rfl

theorem cc4_eq : cc4__lin1_kernel (F := F) = cc2__lin1_kernel (F := F) := rfl

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  unfold zpay4
  have hN : t.val < 50 := lt_of_lt_of_eq t.isLt (show cfg4.N = 50 from N_4)
  by_cases h0 : t.val = 0
  ·
    have h49 : t.val ≠ 49 := by omega
    rw [Dat.leavesExact_idle (dat4 V c) 5 t (idleAt4_5 t h49) (noFlush4_5 t h49),
      Dat.leavesExact_idle (dat4 V c) 6 t (idleAt4_6 t h49) (noFlush4_6 t h49)]
    rw [Phi4_castSucc V c t, Phi4_zero V c _ _ h0, PhiA4_eq]
    rw [acc4_1_first V c t h0, acc4_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid4.coords t) _ _ _ _ _ _ _ _ _ _ _ _ _ _ _ _ _ _ ((hcond4_1 t).mpr h0) (fun h => h49 ((hcond4_2 t).mp h))
      (iblk4 V c 0 t) (iblk4 V c 1 t) (iblk4 V c 2 t) (iblk4 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat4 V c).leavesExact 5 t = owns (c : Thread nD τ) (st4_5 t) fullShare ((dat4 V c).after 5 t) from by
        unfold Dat.leavesExact; rw [liveAt4_5 t h49], after4_5]
      rw [show (dat4 V c).leavesExact 6 t = owns (c : Thread nD τ) (st4_6 t) fullShare ((dat4 V c).after 6 t) from by
        unfold Dat.leavesExact; rw [liveAt4_6 t h49], after4_6]
      rw [Phi4_castSucc V c t, Phi4_pos V c _ _ h0]
      rw [acc4_1_later V c t h0, acc4_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid4.coords t) _ _ _ _ _ _ _ _ _ _ _ _ _ _ _ _ _ _ (fun h => h0 ((hcond4_1 t).mp h)) ((hcond4_2 t).mpr h49)
        (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat4 V c) 5 t (idleAt4_5 t h49) (noFlush4_5 t h49),
        Dat.leavesExact_idle (dat4 V c) 6 t (idleAt4_6 t h49) (noFlush4_6 t h49)]
      rw [Phi4_castSucc V c t, Phi4_pos V c _ _ h0]
      rw [acc4_1_later V c t h0, acc4_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid4.coords t) _ _ _ _ _ _ _ _ _ _ _ _ _ _ _ _ _ _ (fun h => h0 ((hcond4_1 t).mp h)) (fun h => h49 ((hcond4_2 t).mp h))
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.Bn5.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.K.Bn1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out1_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem dat5_q (c : Dev nD) (w : Fin cfg5.W) : (dat5 V c).q w = fullShare := by dsimp only [dat5]
theorem dat5_owed (c : Dev nD) (t : Fin (cfg5.N + 1)) : (dat5 V c).owed t = 0 := by dsimp only [dat5]
theorem Phi5 (c : Dev nD) (t : Fin (cfg5.N + 1)) : (dat5 V c).Φ t = Pipeline.ΦA spec5 c := by dsimp only [dat5]
theorem dat5_recorded (c : Dev nD) (t : Fin (cfg5.N + 1)) : (dat5 V c).recorded t = Set.univ := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out1_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

theorem cc5_eq : cc5__bn_lin2_kernel (F := F) = cc1__bn_lin2_kernel (F := F) := rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Body

end Cert.Kernel.Hand
-- ==== Proof.K.Lin6.lean ====
import proofs.«165926_j30305289241327_1_alg».proof.Proof.K.Lin2b
import proofs.«165926_j30305289241327_1_alg».proof.Proof.K.Lin2c
import proofs.«165926_j30305289241327_1_alg».proof.Proof.K.Lin2d

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM6_0 : Memref sig .tc .vmem S1x256 .f32 := Memref.whole cc6_scratch0
noncomputable abbrev scM6_1 : Memref sig .tc .vmem S1x256 .f32 := Memref.whole cc6_scratch1

section Region6

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def zpay6 (c : Dev nD) (t : Fin cfg6.N) : FVec F S2000x256 .f32 :=
  k2_pay3 (View.ld (iblk6 V c 0 t) rA2) (View.ld (iblk6 V c 1 t) rA2) (View.ld (iblk6 V c 2 t) rW2) (View.ld (iblk6 V c 3 t) rB2)

noncomputable def acc6_1 (c : Dev nD) : (n : ℕ) → n < cfg6.N → FVec F S1x256 .f32
  | 0, hn => k2_pay4 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay1 (F := F))
  | n + 1, hn => k2_pay4 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_1 c n (Nat.lt_of_succ_lt hn))

noncomputable def acc6_2 (c : Dev nD) : (n : ℕ) → n < cfg6.N → FVec F S1x256 .f32
  | 0, hn => k2_pay5 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay2 (F := F))
  | n + 1, hn => k2_pay5 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_2 c n (Nat.lt_of_succ_lt hn))

theorem acc6_1_zero (c : Dev nD) (hn : 0 < cfg6.N) :
    acc6_1 V c 0 hn = k2_pay4 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay1 (F := F)) := rfl
theorem acc6_1_succ (c : Dev nD) (n : ℕ) (hn : n + 1 < cfg6.N) :
    acc6_1 V c (n + 1) hn = k2_pay4 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_1 V c n (Nat.lt_of_succ_lt hn)) := rfl
theorem acc6_2_zero (c : Dev nD) (hn : 0 < cfg6.N) :
    acc6_2 V c 0 hn = k2_pay5 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay2 (F := F)) := rfl
theorem acc6_2_succ (c : Dev nD) (n : ℕ) (hn : n + 1 < cfg6.N) :
    acc6_2 V c (n + 1) hn = k2_pay5 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_2 V c n (Nat.lt_of_succ_lt hn)) := rfl

noncomputable def Phi6 (c : Dev nD) : (n : ℕ) → n ≤ cfg6.N → sProp 𝕄
  | 0, _ => Pipeline.ΦA spec6 c
  | n + 1, hn => iprop(iprop(iprop(owns (c : Thread nD τ) scM6_0 fullShare (acc6_1 V c n hn) ∗ owns (c : Thread nD τ) scM6_1 fullShare (acc6_2 V c n hn))
      ∗ Pipeline.scopedRestBut (Ix := Unit) (Name := ℕ) (U := UR sig nD τ) (Lvl := ℕ) (Val := Elt F) spec6 c [cc6_scratch0, cc6_scratch1]) ∗ (∃ r, prngReg c r))

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => View.canon [⟨rZ2, zpay6 V c t⟩]
    | ⟨5, _⟩ => View.canon [⟨rB2, acc6_1 V c t.val t.isLt⟩]
    | ⟨6, _⟩ => View.canon [⟨rB2, acc6_2 V c t.val t.isLt⟩]
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = View.canon [⟨rZ2, zpay6 V c t⟩] := by dsimp only [dat6]
theorem after6_5 (c : Dev nD) (t : Fin cfg6.N) : (dat6 V c).after 5 t = View.canon [⟨rB2, acc6_1 V c t.val t.isLt⟩] := by dsimp only [dat6]
theorem after6_6 (c : Dev nD) (t : Fin cfg6.N) : (dat6 V c).after 6 t = View.canon [⟨rB2, acc6_2 V c t.val t.isLt⟩] := by dsimp only [dat6]
theorem after6_5_last (c : Dev nD) (h : 49 < cfg6.N) : (dat6 V c).after 5 ⟨49, h⟩ = View.canon [⟨rB2, acc6_1 V c 49 h⟩] := after6_5 V c ⟨49, h⟩
theorem after6_6_last (c : Dev nD) (h : 49 < cfg6.N) : (dat6 V c).after 6 ⟨49, h⟩ = View.canon [⟨rB2, acc6_2 V c 49 h⟩] := after6_6 V c ⟨49, h⟩

theorem dat6_q (c : Dev nD) (w : Fin cfg6.W) : (dat6 V c).q w = fullShare := rfl
theorem dat6_owed (c : Dev nD) (t : Fin (cfg6.N + 1)) : (dat6 V c).owed t = 0 := rfl

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(iprop(owns (c : Thread nD τ) scM6_0 fullShare (acc6_1 V c n hn) ∗ owns (c : Thread nD τ) scM6_1 fullShare (acc6_2 V c n hn))
      ∗ Pipeline.scopedRestBut (Ix := Unit) (Name := ℕ) (U := UR sig nD τ) (Lvl := ℕ) (Val := Elt F) spec6 c [cc6_scratch0, cc6_scratch1]) ∗ (∃ r, prngReg c r)) := rfl

theorem Phi6_pos (c : Dev nD) (n : ℕ) (h : n ≤ cfg6.N) (hz : n ≠ 0) :
    Phi6 V c n h = iprop(iprop(iprop(owns (c : Thread nD τ) scM6_0 fullShare (acc6_1 V c (n - 1) (by omega)) ∗ owns (c : Thread nD τ) scM6_1 fullShare (acc6_2 V c (n - 1) (by omega)))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

theorem Phi6_castSucc (c : Dev nD) (t : Fin cfg6.N) :
    (dat6 V c).Φ t.castSucc = Phi6 V c t.val (Nat.le_of_lt t.isLt) := by
  dsimp only [dat6]; simp only [Fin.coe_castSucc]

theorem Phi6_first (c : Dev nD) : (dat6 V c).Φ 0 = Pipeline.ΦA spec6 c := by
  rw [show (dat6 V c).Φ 0 = Phi6 V c 0 (Nat.zero_le _) from rfl, Phi6_zero V c 0 _ rfl]

theorem Phi6_last (c : Dev nD) : (dat6 V c).Φ (Fin.last cfg6.N) ⊢ Pipeline.ΦA spec6 c := by
  have ht : (Fin.last cfg6.N).val ≠ 0 := by rw [Fin.val_last]; have : cfg6.N = 50 := N_6; omega
  rw [show (dat6 V c).Φ (Fin.last cfg6.N) = Phi6 V c (Fin.last cfg6.N).val (Nat.le_of_lt_succ (Fin.last cfg6.N).isLt) from rfl, Phi6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond6_1 : ∀ t : Fin cfg6.N, cond2_1 (grid6.coords t) ↔ t.val = 0 :=
  (by decide +kernel : ∀ t : Fin grid6.N, cond2_1 (grid6.coords t) ↔ t.val = 0)

theorem hcond6_2 : ∀ t : Fin cfg6.N, cond2_2 (grid6.coords t) ↔ t.val = 49 :=
  (by decide +kernel : ∀ t : Fin grid6.N, cond2_2 (grid6.coords t) ↔ t.val = 49)

theorem idleAt6_5 : ∀ t : Fin cfg6.N, t.val ≠ 49 → cfg6.idle 5 (grid6.coords t) = true := by decide +kernel
theorem idleAt6_6 : ∀ t : Fin cfg6.N, t.val ≠ 49 → cfg6.idle 6 (grid6.coords t) = true := by decide +kernel
theorem noFlush6_5 : ∀ t : Fin cfg6.N, t.val ≠ 49 → (cfg6.win 5).flush t = false := by decide +kernel
theorem noFlush6_6 : ∀ t : Fin cfg6.N, t.val ≠ 49 → (cfg6.win 6).flush t = false := by decide +kernel
theorem liveAt6_5 : ∀ t : Fin cfg6.N, t.val = 49 → cfg6.idle 5 (grid6.coords t) = false := by decide +kernel
theorem liveAt6_6 : ∀ t : Fin cfg6.N, t.val = 49 → cfg6.idle 6 (grid6.coords t) = false := by decide +kernel

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

theorem dat6_recorded (c : Dev nD) (t : Fin (cfg6.N + 1)) : (dat6 V c).recorded t = Set.univ := rfl

theorem acc6_1_first (c : Dev nD) (t : Fin cfg6.N) (h : t.val = 0) :
    acc6_1 V c t.val t.isLt = k2_pay4 (View.ld (iblk6 V c 0 t) rA2) (View.ld (iblk6 V c 1 t) rA2) (View.ld (iblk6 V c 2 t) rW2) (View.ld (iblk6 V c 3 t) rB2) (k2_pay1 (F := F)) := by
  obtain ⟨n, hn⟩ := t
  cases n with
  | zero => rfl
  | succ n => exact absurd h (Nat.succ_ne_zero n)
theorem acc6_2_first (c : Dev nD) (t : Fin cfg6.N) (h : t.val = 0) :
    acc6_2 V c t.val t.isLt = k2_pay5 (View.ld (iblk6 V c 0 t) rA2) (View.ld (iblk6 V c 1 t) rA2) (View.ld (iblk6 V c 2 t) rW2) (View.ld (iblk6 V c 3 t) rB2) (k2_pay2 (F := F)) := by
  obtain ⟨n, hn⟩ := t
  cases n with
  | zero => rfl
  | succ n => exact absurd h (Nat.succ_ne_zero n)
theorem acc6_1_later (c : Dev nD) (t : Fin cfg6.N) (h : t.val ≠ 0) :
    acc6_1 V c t.val t.isLt = k2_pay4 (View.ld (iblk6 V c 0 t) rA2) (View.ld (iblk6 V c 1 t) rA2) (View.ld (iblk6 V c 2 t) rW2) (View.ld (iblk6 V c 3 t) rB2) (acc6_1 V c (t.val - 1) (Nat.lt_of_le_of_lt (Nat.sub_le _ _) t.isLt)) := by
  obtain ⟨n, hn⟩ := t
  cases n with
  | zero => exact absurd rfl h
  | succ n => rfl
theorem acc6_2_later (c : Dev nD) (t : Fin cfg6.N) (h : t.val ≠ 0) :
    acc6_2 V c t.val t.isLt = k2_pay5 (View.ld (iblk6 V c 0 t) rA2) (View.ld (iblk6 V c 1 t) rA2) (View.ld (iblk6 V c 2 t) rW2) (View.ld (iblk6 V c 3 t) rB2) (acc6_2 V c (t.val - 1) (Nat.lt_of_le_of_lt (Nat.sub_le _ _) t.isLt)) := by
  obtain ⟨n, hn⟩ := t
  cases n with
  | zero => exact absurd rfl h
  | succ n => rfl

theorem liveAt6_0 (t : Fin cfg6.N) : cfg6.idle 0 (grid6.coords t) = false := rfl
theorem liveAt6_1 (t : Fin cfg6.N) : cfg6.idle 1 (grid6.coords t) = false := rfl
theorem liveAt6_2 (t : Fin cfg6.N) : cfg6.idle 2 (grid6.coords t) = false := rfl
theorem liveAt6_3 (t : Fin cfg6.N) : cfg6.idle 3 (grid6.coords t) = false := rfl
theorem liveAt6_4 (t : Fin cfg6.N) : cfg6.idle 4 (grid6.coords t) = false := rfl

theorem cc6_eq : cc6__lin1_kernel (F := F) = cc2__lin1_kernel (F := F) := rfl

noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1, before6_2, before6_3]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  unfold zpay6
  have hN : t.val < 50 := lt_of_lt_of_eq t.isLt (show cfg6.N = 50 from N_6)
  by_cases h0 : t.val = 0
  ·
    have h49 : t.val ≠ 49 := by omega
    rw [Dat.leavesExact_idle (dat6 V c) 5 t (idleAt6_5 t h49) (noFlush6_5 t h49),
      Dat.leavesExact_idle (dat6 V c) 6 t (idleAt6_6 t h49) (noFlush6_6 t h49)]
    rw [Phi6_castSucc V c t, Phi6_zero V c _ _ h0, PhiA6_eq]
    rw [acc6_1_first V c t h0, acc6_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid6.coords t) _ _ _ _ _ _ _ _ _ _ _ _ _ _ _ _ _ _ ((hcond6_1 t).mpr h0) (fun h => h49 ((hcond6_2 t).mp h))
      (iblk6 V c 0 t) (iblk6 V c 1 t) (iblk6 V c 2 t) (iblk6 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat6 V c).leavesExact 5 t = owns (c : Thread nD τ) (st6_5 t) fullShare ((dat6 V c).after 5 t) from by
        unfold Dat.leavesExact; rw [liveAt6_5 t h49], after6_5]
      rw [show (dat6 V c).leavesExact 6 t = owns (c : Thread nD τ) (st6_6 t) fullShare ((dat6 V c).after 6 t) from by
        unfold Dat.leavesExact; rw [liveAt6_6 t h49], after6_6]
      rw [Phi6_castSucc V c t, Phi6_pos V c _ _ h0]
      rw [acc6_1_later V c t h0, acc6_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid6.coords t) _ _ _ _ _ _ _ _ _ _ _ _ _ _ _ _ _ _ (fun h => h0 ((hcond6_1 t).mp h)) ((hcond6_2 t).mpr h49)
        (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat6 V c) 5 t (idleAt6_5 t h49) (noFlush6_5 t h49),
        Dat.leavesExact_idle (dat6 V c) 6 t (idleAt6_6 t h49) (noFlush6_6 t h49)]
      rw [Phi6_castSucc V c t, Phi6_pos V c _ _ h0]
      rw [acc6_1_later V c t h0, acc6_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid6.coords t) _ _ _ _ _ _ _ _ _ _ _ _ _ _ _ _ _ _ (fun h => h0 ((hcond6_1 t).mp h)) (fun h => h49 ((hcond6_2 t).mp h))
        (iblk6 V c 0 t) (iblk6 V c 1 t) (iblk6 V c 2 t) (iblk6 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.K.Bn7.lean ====
import proofs.«165926_j30305289241327_1_alg».proof.Proof.Gen.Kernel.Launch
import proofs.«165926_j30305289241327_1_alg».proof.Proof.Gen.Kernel.Skeleton
import proofs.«165926_j30305289241327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.K.Bn1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out1_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem dat7_q (c : Dev nD) (w : Fin cfg7.W) : (dat7 V c).q w = fullShare := by dsimp only [dat7]
theorem dat7_owed (c : Dev nD) (t : Fin (cfg7.N + 1)) : (dat7 V c).owed t = 0 := by dsimp only [dat7]
theorem Phi7 (c : Dev nD) (t : Fin (cfg7.N + 1)) : (dat7 V c).Φ t = Pipeline.ΦA spec7 c := by dsimp only [dat7]
theorem dat7_recorded (c : Dev nD) (t : Fin (cfg7.N + 1)) : (dat7 V c).recorded t = Set.univ := by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out1_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

theorem cc7_eq : cc7__bn_lin2_kernel (F := F) = cc1__bn_lin2_kernel (F := F) := rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Body

end Cert.Kernel.Hand
-- ==== Proof.K.Regions8.lean ====
import proofs.«165926_j30305289241327_1_alg».proof.Proof.K.Lin0
import proofs.«165926_j30305289241327_1_alg».proof.Proof.K.Bn1
import proofs.«165926_j30305289241327_1_alg».proof.Proof.K.Lin2
import proofs.«165926_j30305289241327_1_alg».proof.Proof.K.Bn3
import proofs.«165926_j30305289241327_1_alg».proof.Proof.K.Lin4
import proofs.«165926_j30305289241327_1_alg».proof.Proof.K.Bn5
import proofs.«165926_j30305289241327_1_alg».proof.Proof.K.Lin6
import proofs.«165926_j30305289241327_1_alg».proof.Proof.K.Bn7

noncomputable section

namespace Cert.Kernel.Hand

open Cert.Kernel Idealize.ShloMosaic Idealize.ShloMosaic.TcCoe Idealize.SL.Sem

abbrev EntryV (F : FTy → Type) [FloatOps F] : Type :=
  (c : Dev nD) → (b : Ref sig .tc) → Buf (Elt F) ((c : Thread nD τ).loc b)

end Cert.Kernel.Hand

end
-- ==== Proof.K.Chain.lean ====
import proofs.«165926_j30305289241327_1_alg».proof.Proof.Gen.Kernel.Regions
import proofs.«165926_j30305289241327_1_alg».proof.Proof.K.Regions8
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 1888

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

def W1 (c : Dev nD) : Valuation τ sig (Elt F) := V1 m c

abbrev ent0 : EntryV F := fun c b => W1 m c b

def W2 (c : Dev nD) : Valuation τ sig (Elt F) :=
  Function.update (Function.update (Function.update (W1 m c) main_v30_0 ((dat0 (ent0 m) c).arrAt 4 cfg0.N)) main_v30_1 ((dat0 (ent0 m) c).arrAt 5 cfg0.N)) main_v30_2 ((dat0 (ent0 m) c).arrAt 6 cfg0.N)

def W3 (c : Dev nD) : Valuation τ sig (Elt F) := StableHlo.after hostOps1 (W2 m c)

abbrev ent1 : EntryV F := fun c b => W3 m c b

def W4 (c : Dev nD) : Valuation τ sig (Elt F) :=
  Function.update (W3 m c) main_v52 ((dat1 (ent1 m) c).arrAt 7 cfg1.N)

def W5 (c : Dev nD) : Valuation τ sig (Elt F) := StableHlo.after hostOps2 (W4 m c)

abbrev ent2 : EntryV F := fun c b => W5 m c b

def W6 (c : Dev nD) : Valuation τ sig (Elt F) :=
  Function.update (Function.update (Function.update (W5 m c) main_v71_0 ((dat2 (ent2 m) c).arrAt 4 cfg2.N)) main_v71_1 ((dat2 (ent2 m) c).arrAt 5 cfg2.N)) main_v71_2 ((dat2 (ent2 m) c).arrAt 6 cfg2.N)

def W7 (c : Dev nD) : Valuation τ sig (Elt F) := StableHlo.after hostOps3 (W6 m c)

abbrev ent3 : EntryV F := fun c b => W7 m c b

def W8 (c : Dev nD) : Valuation τ sig (Elt F) :=
  Function.update (W7 m c) main_v93 ((dat3 (ent3 m) c).arrAt 7 cfg3.N)

def W9 (c : Dev nD) : Valuation τ sig (Elt F) := StableHlo.after hostOps4 (W8 m c)

abbrev ent4 : EntryV F := fun c b => W9 m c b

def W10 (c : Dev nD) : Valuation τ sig (Elt F) :=
  Function.update (Function.update (Function.update (W9 m c) main_v112_0 ((dat4 (ent4 m) c).arrAt 4 cfg4.N)) main_v112_1 ((dat4 (ent4 m) c).arrAt 5 cfg4.N)) main_v112_2 ((dat4 (ent4 m) c).arrAt 6 cfg4.N)

def W11 (c : Dev nD) : Valuation τ sig (Elt F) := StableHlo.after hostOps5 (W10 m c)

abbrev ent5 : EntryV F := fun c b => W11 m c b

def W12 (c : Dev nD) : Valuation τ sig (Elt F) :=
  Function.update (W11 m c) main_v134 ((dat5 (ent5 m) c).arrAt 7 cfg5.N)

def W13 (c : Dev nD) : Valuation τ sig (Elt F) := StableHlo.after hostOps6 (W12 m c)

abbrev ent6 : EntryV F := fun c b => W13 m c b

def W14 (c : Dev nD) : Valuation τ sig (Elt F) :=
  Function.update (Function.update (Function.update (W13 m c) main_v153_0 ((dat6 (ent6 m) c).arrAt 4 cfg6.N)) main_v153_1 ((dat6 (ent6 m) c).arrAt 5 cfg6.N)) main_v153_2 ((dat6 (ent6 m) c).arrAt 6 cfg6.N)

def W15 (c : Dev nD) : Valuation τ sig (Elt F) := StableHlo.after hostOps7 (W14 m c)

abbrev ent7 : EntryV F := fun c b => W15 m c b

def W16 (c : Dev nD) : Valuation τ sig (Elt F) :=
  Function.update (W15 m c) main_v175 ((dat7 (ent7 m) c).arrAt 7 cfg7.N)

def W17 (c : Dev nD) : Valuation τ sig (Elt F) := StableHlo.after hostOps8 (W16 m c)

def W18 (c : Dev nD) : Valuation τ sig (Elt F) := StableHlo.after hostOps8_1 (W17 m c)

theorem update3_at0 {α : Type} [DecidableEq α] {β : α → Type} (f : ∀ a, β a) {a b c : α} (hab : a ≠ b) (hac : a ≠ c)
    (x : β a) (y : β b) (z : β c) :
    Function.update (Function.update (Function.update f a x) b y) c z a = x := by
  rw [Function.update_of_ne hac, Function.update_of_ne hab, Function.update_self]

theorem update3_at1 {α : Type} [DecidableEq α] {β : α → Type} (f : ∀ a, β a) {a b c : α} (hbc : b ≠ c)
    (x : β a) (y : β b) (z : β c) :
    Function.update (Function.update (Function.update f a x) b y) c z b = y := by
  rw [Function.update_of_ne hbc, Function.update_self]

theorem update3_of_ne {α : Type} [DecidableEq α] {β : α → Type} (f : ∀ a, β a) {a b c d : α} (hda : d ≠ a) (hdb : d ≠ b) (hdc : d ≠ c)
    (x : β a) (y : β b) (z : β c) :
    Function.update (Function.update (Function.update f a x) b y) c z d = f d := by
  rw [Function.update_of_ne hdc, Function.update_of_ne hdb, Function.update_of_ne hda]

theorem update3_congr {α : Type} [DecidableEq α] {β : α → Type} {f g : ∀ a, β a} (a b c : α) {x x' : β a} {y y' : β b} {z z' : β c}
    (hf : f = g) (hx : x = x') (hy : y = y') (hz : z = z') :
    Function.update (Function.update (Function.update f a x) b y) c z
      = Function.update (Function.update (Function.update g a x') b y') c z' := by
  subst hf hx hy hz; rfl

theorem update1_congr {α : Type} [DecidableEq α] {β : α → Type} {f g : ∀ a, β a} (a : α) {x x' : β a}
    (hf : f = g) (hx : x = x') : Function.update f a x = Function.update g a x' := by
  subst hf hx; rfl

theorem W2_at0 (c : Dev nD) : W2 m c main_v30_0 = (dat0 (ent0 m) c).arrAt 4 cfg0.N :=
  (congrFun (W2.eq_1 m c) _).trans (update3_at0 (W1 m c) (StableHlo.devRef_ne_of_ne (by decide)) (StableHlo.devRef_ne_of_ne (by decide)) _ _ _)
theorem W2_at1 (c : Dev nD) : W2 m c main_v30_1 = (dat0 (ent0 m) c).arrAt 5 cfg0.N :=
  (congrFun (W2.eq_1 m c) _).trans (update3_at1 (W1 m c) (StableHlo.devRef_ne_of_ne (by decide)) _ _ _)
theorem W2_at2 (c : Dev nD) : W2 m c main_v30_2 = (dat0 (ent0 m) c).arrAt 6 cfg0.N :=
  (congrFun (W2.eq_1 m c) _).trans (Function.update_self _ _ _)
theorem W2_of_ne (c : Dev nD) (b : Ref sig .tc) (h0 : b ≠ main_v30_0) (h1 : b ≠ main_v30_1) (h2 : b ≠ main_v30_2) : W2 m c b = W1 m c b :=
  (congrFun (W2.eq_1 m c) _).trans (update3_of_ne (W1 m c) (StableHlo.devRef_ne_of_ne h0) (StableHlo.devRef_ne_of_ne h1) (StableHlo.devRef_ne_of_ne h2) _ _ _)
theorem W4_at (c : Dev nD) : W4 m c main_v52 = (dat1 (ent1 m) c).arrAt 7 cfg1.N :=
  (congrFun (W4.eq_1 m c) _).trans (Function.update_self _ _ _)
theorem W4_of_ne (c : Dev nD) (b : Ref sig .tc) (h0 : b ≠ main_v52) : W4 m c b = W3 m c b :=
  (congrFun (W4.eq_1 m c) _).trans (Function.update_of_ne (StableHlo.devRef_ne_of_ne h0) _ _)
theorem W6_at0 (c : Dev nD) : W6 m c main_v71_0 = (dat2 (ent2 m) c).arrAt 4 cfg2.N :=
  (congrFun (W6.eq_1 m c) _).trans (update3_at0 (W5 m c) (StableHlo.devRef_ne_of_ne (by decide)) (StableHlo.devRef_ne_of_ne (by decide)) _ _ _)
theorem W6_at1 (c : Dev nD) : W6 m c main_v71_1 = (dat2 (ent2 m) c).arrAt 5 cfg2.N :=
  (congrFun (W6.eq_1 m c) _).trans (update3_at1 (W5 m c) (StableHlo.devRef_ne_of_ne (by decide)) _ _ _)
theorem W6_at2 (c : Dev nD) : W6 m c main_v71_2 = (dat2 (ent2 m) c).arrAt 6 cfg2.N :=
  (congrFun (W6.eq_1 m c) _).trans (Function.update_self _ _ _)
theorem W6_of_ne (c : Dev nD) (b : Ref sig .tc) (h0 : b ≠ main_v71_0) (h1 : b ≠ main_v71_1) (h2 : b ≠ main_v71_2) : W6 m c b = W5 m c b :=
  (congrFun (W6.eq_1 m c) _).trans (update3_of_ne (W5 m c) (StableHlo.devRef_ne_of_ne h0) (StableHlo.devRef_ne_of_ne h1) (StableHlo.devRef_ne_of_ne h2) _ _ _)
theorem W8_at (c : Dev nD) : W8 m c main_v93 = (dat3 (ent3 m) c).arrAt 7 cfg3.N :=
  (congrFun (W8.eq_1 m c) _).trans (Function.update_self _ _ _)
theorem W8_of_ne (c : Dev nD) (b : Ref sig .tc) (h0 : b ≠ main_v93) : W8 m c b = W7 m c b :=
  (congrFun (W8.eq_1 m c) _).trans (Function.update_of_ne (StableHlo.devRef_ne_of_ne h0) _ _)
theorem W10_at0 (c : Dev nD) : W10 m c main_v112_0 = (dat4 (ent4 m) c).arrAt 4 cfg4.N :=
  (congrFun (W10.eq_1 m c) _).trans (update3_at0 (W9 m c) (StableHlo.devRef_ne_of_ne (by decide)) (StableHlo.devRef_ne_of_ne (by decide)) _ _ _)
theorem W10_at1 (c : Dev nD) : W10 m c main_v112_1 = (dat4 (ent4 m) c).arrAt 5 cfg4.N :=
  (congrFun (W10.eq_1 m c) _).trans (update3_at1 (W9 m c) (StableHlo.devRef_ne_of_ne (by decide)) _ _ _)
theorem W10_at2 (c : Dev nD) : W10 m c main_v112_2 = (dat4 (ent4 m) c).arrAt 6 cfg4.N :=
  (congrFun (W10.eq_1 m c) _).trans (Function.update_self _ _ _)
theorem W10_of_ne (c : Dev nD) (b : Ref sig .tc) (h0 : b ≠ main_v112_0) (h1 : b ≠ main_v112_1) (h2 : b ≠ main_v112_2) : W10 m c b = W9 m c b :=
  (congrFun (W10.eq_1 m c) _).trans (update3_of_ne (W9 m c) (StableHlo.devRef_ne_of_ne h0) (StableHlo.devRef_ne_of_ne h1) (StableHlo.devRef_ne_of_ne h2) _ _ _)
theorem W12_at (c : Dev nD) : W12 m c main_v134 = (dat5 (ent5 m) c).arrAt 7 cfg5.N :=
  (congrFun (W12.eq_1 m c) _).trans (Function.update_self _ _ _)
theorem W12_of_ne (c : Dev nD) (b : Ref sig .tc) (h0 : b ≠ main_v134) : W12 m c b = W11 m c b :=
  (congrFun (W12.eq_1 m c) _).trans (Function.update_of_ne (StableHlo.devRef_ne_of_ne h0) _ _)
theorem W14_at0 (c : Dev nD) : W14 m c main_v153_0 = (dat6 (ent6 m) c).arrAt 4 cfg6.N :=
  (congrFun (W14.eq_1 m c) _).trans (update3_at0 (W13 m c) (StableHlo.devRef_ne_of_ne (by decide)) (StableHlo.devRef_ne_of_ne (by decide)) _ _ _)
theorem W14_at1 (c : Dev nD) : W14 m c main_v153_1 = (dat6 (ent6 m) c).arrAt 5 cfg6.N :=
  (congrFun (W14.eq_1 m c) _).trans (update3_at1 (W13 m c) (StableHlo.devRef_ne_of_ne (by decide)) _ _ _)
theorem W14_at2 (c : Dev nD) : W14 m c main_v153_2 = (dat6 (ent6 m) c).arrAt 6 cfg6.N :=
  (congrFun (W14.eq_1 m c) _).trans (Function.update_self _ _ _)
theorem W14_of_ne (c : Dev nD) (b : Ref sig .tc) (h0 : b ≠ main_v153_0) (h1 : b ≠ main_v153_1) (h2 : b ≠ main_v153_2) : W14 m c b = W13 m c b :=
  (congrFun (W14.eq_1 m c) _).trans (update3_of_ne (W13 m c) (StableHlo.devRef_ne_of_ne h0) (StableHlo.devRef_ne_of_ne h1) (StableHlo.devRef_ne_of_ne h2) _ _ _)
theorem W16_at (c : Dev nD) : W16 m c main_v175 = (dat7 (ent7 m) c).arrAt 7 cfg7.N :=
  (congrFun (W16.eq_1 m c) _).trans (Function.update_self _ _ _)
theorem W16_of_ne (c : Dev nD) (b : Ref sig .tc) (h0 : b ≠ main_v175) : W16 m c b = W15 m c b :=
  (congrFun (W16.eq_1 m c) _).trans (Function.update_of_ne (StableHlo.devRef_ne_of_ne h0) _ _)

def outsK : Outs (F := F) := fun J r c =>
  if J = 2 then W2 m c r else if J = 4 then W4 m c r else if J = 6 then W6 m c r else if J = 8 then W8 m c r else if J = 10 then W10 m c r else if J = 12 then W12 m c r else if J = 14 then W14 m c r else W16 m c r

theorem outsK_at2 (r : Ref sig .tc) (c : Dev nD) : outsK m 2 r c = W2 m c r := by unfold outsK; rw [if_pos rfl]
theorem outsK_at4 (r : Ref sig .tc) (c : Dev nD) : outsK m 4 r c = W4 m c r := by unfold outsK; rw [if_neg (by decide), if_pos rfl]
theorem outsK_at6 (r : Ref sig .tc) (c : Dev nD) : outsK m 6 r c = W6 m c r := by unfold outsK; rw [if_neg (by decide), if_neg (by decide), if_pos rfl]
theorem outsK_at8 (r : Ref sig .tc) (c : Dev nD) : outsK m 8 r c = W8 m c r := by unfold outsK; rw [if_neg (by decide), if_neg (by decide), if_neg (by decide), if_pos rfl]
theorem outsK_at10 (r : Ref sig .tc) (c : Dev nD) : outsK m 10 r c = W10 m c r := by unfold outsK; rw [if_neg (by decide), if_neg (by decide), if_neg (by decide), if_neg (by decide), if_pos rfl]
theorem outsK_at12 (r : Ref sig .tc) (c : Dev nD) : outsK m 12 r c = W12 m c r := by unfold outsK; rw [if_neg (by decide), if_neg (by decide), if_neg (by decide), if_neg (by decide), if_neg (by decide), if_pos rfl]
theorem outsK_at14 (r : Ref sig .tc) (c : Dev nD) : outsK m 14 r c = W14 m c r := by unfold outsK; rw [if_neg (by decide), if_neg (by decide), if_neg (by decide), if_neg (by decide), if_neg (by decide), if_neg (by decide), if_pos rfl]
theorem outsK_at16 (r : Ref sig .tc) (c : Dev nD) : outsK m 16 r c = W16 m c r := by unfold outsK; rw [if_neg (by decide), if_neg (by decide), if_neg (by decide), if_neg (by decide), if_neg (by decide), if_neg (by decide), if_neg (by decide)]
theorem outsK_2_0 (c : Dev nD) : outsK m 2 main_v30_0 c = (dat0 (ent0 m) c).arrAt 4 cfg0.N := (outsK_at2 m _ c).trans (W2_at0 m c)
theorem outsK_2_1 (c : Dev nD) : outsK m 2 main_v30_1 c = (dat0 (ent0 m) c).arrAt 5 cfg0.N := (outsK_at2 m _ c).trans (W2_at1 m c)
theorem outsK_2_2 (c : Dev nD) : outsK m 2 main_v30_2 c = (dat0 (ent0 m) c).arrAt 6 cfg0.N := (outsK_at2 m _ c).trans (W2_at2 m c)
theorem outsK_4 (c : Dev nD) : outsK m 4 main_v52 c = (dat1 (ent1 m) c).arrAt 7 cfg1.N := (outsK_at4 m _ c).trans (W4_at m c)
theorem outsK_6_0 (c : Dev nD) : outsK m 6 main_v71_0 c = (dat2 (ent2 m) c).arrAt 4 cfg2.N := (outsK_at6 m _ c).trans (W6_at0 m c)
theorem outsK_6_1 (c : Dev nD) : outsK m 6 main_v71_1 c = (dat2 (ent2 m) c).arrAt 5 cfg2.N := (outsK_at6 m _ c).trans (W6_at1 m c)
theorem outsK_6_2 (c : Dev nD) : outsK m 6 main_v71_2 c = (dat2 (ent2 m) c).arrAt 6 cfg2.N := (outsK_at6 m _ c).trans (W6_at2 m c)
theorem outsK_8 (c : Dev nD) : outsK m 8 main_v93 c = (dat3 (ent3 m) c).arrAt 7 cfg3.N := (outsK_at8 m _ c).trans (W8_at m c)
theorem outsK_10_0 (c : Dev nD) : outsK m 10 main_v112_0 c = (dat4 (ent4 m) c).arrAt 4 cfg4.N := (outsK_at10 m _ c).trans (W10_at0 m c)
theorem outsK_10_1 (c : Dev nD) : outsK m 10 main_v112_1 c = (dat4 (ent4 m) c).arrAt 5 cfg4.N := (outsK_at10 m _ c).trans (W10_at1 m c)
theorem outsK_10_2 (c : Dev nD) : outsK m 10 main_v112_2 c = (dat4 (ent4 m) c).arrAt 6 cfg4.N := (outsK_at10 m _ c).trans (W10_at2 m c)
theorem outsK_12 (c : Dev nD) : outsK m 12 main_v134 c = (dat5 (ent5 m) c).arrAt 7 cfg5.N := (outsK_at12 m _ c).trans (W12_at m c)
theorem outsK_14_0 (c : Dev nD) : outsK m 14 main_v153_0 c = (dat6 (ent6 m) c).arrAt 4 cfg6.N := (outsK_at14 m _ c).trans (W14_at0 m c)
theorem outsK_14_1 (c : Dev nD) : outsK m 14 main_v153_1 c = (dat6 (ent6 m) c).arrAt 5 cfg6.N := (outsK_at14 m _ c).trans (W14_at1 m c)
theorem outsK_14_2 (c : Dev nD) : outsK m 14 main_v153_2 c = (dat6 (ent6 m) c).arrAt 6 cfg6.N := (outsK_at14 m _ c).trans (W14_at2 m c)
theorem outsK_16 (c : Dev nD) : outsK m 16 main_v175 c = (dat7 (ent7 m) c).arrAt 7 cfg7.N := (outsK_at16 m _ c).trans (W16_at m c)

theorem V1_eq (c : Dev nD) : V1 m c = W1 m c := (W1.eq_1 m c).symm
theorem V2_eq (c : Dev nD) : V2 m (outsK m) c = W2 m c :=
  (update3_congr _ _ _ (V1_eq m c) (outsK_2_0 m c) (outsK_2_1 m c) (outsK_2_2 m c)).trans (W2.eq_1 m c).symm
theorem V3_eq (c : Dev nD) : V3 m (outsK m) c = W3 m c :=
  (congrArg (StableHlo.after hostOps1) (V2_eq m c)).trans (W3.eq_1 m c).symm
theorem V4_eq (c : Dev nD) : V4 m (outsK m) c = W4 m c :=
  (update1_congr _ (V3_eq m c) (outsK_4 m c)).trans (W4.eq_1 m c).symm
theorem V5_eq (c : Dev nD) : V5 m (outsK m) c = W5 m c :=
  (congrArg (StableHlo.after hostOps2) (V4_eq m c)).trans (W5.eq_1 m c).symm
theorem V6_eq (c : Dev nD) : V6 m (outsK m) c = W6 m c :=
  (update3_congr _ _ _ (V5_eq m c) (outsK_6_0 m c) (outsK_6_1 m c) (outsK_6_2 m c)).trans (W6.eq_1 m c).symm
theorem V7_eq (c : Dev nD) : V7 m (outsK m) c = W7 m c :=
  (congrArg (StableHlo.after hostOps3) (V6_eq m c)).trans (W7.eq_1 m c).symm
theorem V8_eq (c : Dev nD) : V8 m (outsK m) c = W8 m c :=
  (update1_congr _ (V7_eq m c) (outsK_8 m c)).trans (W8.eq_1 m c).symm
theorem V9_eq (c : Dev nD) : V9 m (outsK m) c = W9 m c :=
  (congrArg (StableHlo.after hostOps4) (V8_eq m c)).trans (W9.eq_1 m c).symm
theorem V10_eq (c : Dev nD) : V10 m (outsK m) c = W10 m c :=
  (update3_congr _ _ _ (V9_eq m c) (outsK_10_0 m c) (outsK_10_1 m c) (outsK_10_2 m c)).trans (W10.eq_1 m c).symm
theorem V11_eq (c : Dev nD) : V11 m (outsK m) c = W11 m c :=
  (congrArg (StableHlo.after hostOps5) (V10_eq m c)).trans (W11.eq_1 m c).symm
theorem V12_eq (c : Dev nD) : V12 m (outsK m) c = W12 m c :=
  (update1_congr _ (V11_eq m c) (outsK_12 m c)).trans (W12.eq_1 m c).symm
theorem V13_eq (c : Dev nD) : V13 m (outsK m) c = W13 m c :=
  (congrArg (StableHlo.after hostOps6) (V12_eq m c)).trans (W13.eq_1 m c).symm
theorem V14_eq (c : Dev nD) : V14 m (outsK m) c = W14 m c :=
  (update3_congr _ _ _ (V13_eq m c) (outsK_14_0 m c) (outsK_14_1 m c) (outsK_14_2 m c)).trans (W14.eq_1 m c).symm
theorem V15_eq (c : Dev nD) : V15 m (outsK m) c = W15 m c :=
  (congrArg (StableHlo.after hostOps7) (V14_eq m c)).trans (W15.eq_1 m c).symm
theorem V16_eq (c : Dev nD) : V16 m (outsK m) c = W16 m c :=
  (update1_congr _ (V15_eq m c) (outsK_16 m c)).trans (W16.eq_1 m c).symm
theorem V17_eq (c : Dev nD) : V17 m (outsK m) c = W17 m c :=
  (congrArg (StableHlo.after hostOps8) (V16_eq m c)).trans (W17.eq_1 m c).symm
theorem V18_eq (c : Dev nD) : V18 m (outsK m) c = W18 m c :=
  (congrArg (StableHlo.after hostOps8_1) (V17_eq m c)).trans (W18.eq_1 m c).symm

theorem ent0_eq (c : Dev nD) (b : Ref sig .tc) : ent0 m c b = V1 m c b := congrFun (V1_eq m c).symm _
theorem ent1_eq (c : Dev nD) (b : Ref sig .tc) : ent1 m c b = V3 m (outsK m) c b := congrFun (V3_eq m c).symm _
theorem ent2_eq (c : Dev nD) (b : Ref sig .tc) : ent2 m c b = V5 m (outsK m) c b := congrFun (V5_eq m c).symm _
theorem ent3_eq (c : Dev nD) (b : Ref sig .tc) : ent3 m c b = V7 m (outsK m) c b := congrFun (V7_eq m c).symm _
theorem ent4_eq (c : Dev nD) (b : Ref sig .tc) : ent4 m c b = V9 m (outsK m) c b := congrFun (V9_eq m c).symm _
theorem ent5_eq (c : Dev nD) (b : Ref sig .tc) : ent5 m c b = V11 m (outsK m) c b := congrFun (V11_eq m c).symm _
theorem ent6_eq (c : Dev nD) (b : Ref sig .tc) : ent6 m c b = V13 m (outsK m) c b := congrFun (V13_eq m c).symm _
theorem ent7_eq (c : Dev nD) (b : Ref sig .tc) : ent7 m c b = V15 m (outsK m) c b := congrFun (V15_eq m c).symm _

end Cert.Kernel.Hand

end
-- ==== Proof.K.Segs.lean ====
import proofs.«165926_j30305289241327_1_alg».proof.Proof.K.Chain

set_option maxRecDepth 1888

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

def pdats : (p : Fin 8) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
def mkReg (p : Fin 8) (lf : Pipeline.LaunchFacts (nD := nD) (τ := τ) cfgs p)
    (Vin Vout : Dev nD → Valuation τ sig (Elt F))
    (hq : ∀ c w, (pdats m p c).q w = fullShare)
    (howed : ∀ c t, (pdats m p c).owed t = 0)
    (hrec : ∀ c, (pdats m p c).recorded 0 = Set.univ)
    (hΦ0 : ∀ c, (pdats m p c).Φ 0 = Pipeline.ΦA (cfgs p).spec c)
    (hΦN : ∀ c, (pdats m p c).Φ (Fin.last _) ⊢ Pipeline.ΦA (cfgs p).spec c)
    (hbody : ∀ c, BodyObligation (pdats m p c) (defs₀ (F := F)) Variants.none () Set.univ)
    (hA : ∀ c w, (pdats m p c).A w = Vin c (Pipeline.arrRef (cfgs p).spec w))
    (hF : ∀ c w, (pdats m p c).arrAt w (cfgs p).N = Vout c (Pipeline.arrRef (cfgs p).spec w))
    (hrest : ∀ c (b : Ref sig .tc), b ∉ Finset.univ.image (Pipeline.arrRef (cfgs p).spec) → Vout c b = Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m) lf.win lf.arr_whole c
      ((pdats m p c).share_full (hq c)) (fun b => Vin c b) (hA c)
    rw [Pipeline.unscopedBufs_held c (Vin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vin c b) (fun b => Vout c b) ((pdats m p c).arrAt · (cfgs p).N) (hF c) (hrest c)
    rw [Pipeline.unscopedBufs_held c (Vout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option maxHeartbeats 1600000 in
theorem hF0 (c : Dev nD) : ∀ w : Fin cfg0.W, (dat0 (ent0 m) c).arrAt w cfg0.N = W2 m c (Pipeline.arrRef spec0 w)
  | 0 => ((dat0 (ent0 m) c).arrAt_in 0 rfl _).trans ((A_eq0 (ent0 m) c 0).trans (W2_of_ne m c (Pipeline.arrRef spec0 0) (by decide) (by decide) (by decide)).symm)
  | 1 => ((dat0 (ent0 m) c).arrAt_in 1 rfl _).trans ((A_eq0 (ent0 m) c 1).trans (W2_of_ne m c (Pipeline.arrRef spec0 1) (by decide) (by decide) (by decide)).symm)
  | 2 => ((dat0 (ent0 m) c).arrAt_in 2 rfl _).trans ((A_eq0 (ent0 m) c 2).trans (W2_of_ne m c (Pipeline.arrRef spec0 2) (by decide) (by decide) (by decide)).symm)
  | 3 => ((dat0 (ent0 m) c).arrAt_in 3 rfl _).trans ((A_eq0 (ent0 m) c 3).trans (W2_of_ne m c (Pipeline.arrRef spec0 3) (by decide) (by decide) (by decide)).symm)
  | 4 => (W2_at0 m c).symm
  | 5 => (W2_at1 m c).symm
  | 6 => (W2_at2 m c).symm
  | ⟨_ + 7, h⟩ => absurd h (Nat.not_lt.2 (Nat.le_add_left _ _))
theorem hrest0 (c : Dev nD) (b : Ref sig .tc) (hb : b ∉ Finset.univ.image (Pipeline.arrRef spec0)) : W2 m c b = W1 m c b :=
  W2_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg0 : Pipeline.RegionSeg (pcfgs (F := F)) adm (pdats m) () defs₀ 𝒱₀ L lv 0 :=
  mkReg m 0 launch0 (W1 m) (W2 m)
    (fun c w => dat0_q (ent0 m) c w) (fun c t => dat0_owed (ent0 m) c t) (fun c => dat0_recorded (ent0 m) c 0)
    (fun c => Phi0_first (ent0 m) c) (fun c => Phi0_last (ent0 m) c)
    (fun c => body_obligation0 (ent0 m) c) (fun c w => A_eq0 (ent0 m) c w) (hF0 m) (hrest0 m)
set_option maxHeartbeats 1600000 in
theorem hF1 (c : Dev nD) : ∀ w : Fin cfg1.W, (dat1 (ent1 m) c).arrAt w cfg1.N = W4 m c (Pipeline.arrRef spec1 w)
  | 0 => ((dat1 (ent1 m) c).arrAt_in 0 rfl _).trans ((A_eq1 (ent1 m) c 0).trans (W4_of_ne m c (Pipeline.arrRef spec1 0) (by decide)).symm)
  | 1 => ((dat1 (ent1 m) c).arrAt_in 1 rfl _).trans ((A_eq1 (ent1 m) c 1).trans (W4_of_ne m c (Pipeline.arrRef spec1 1) (by decide)).symm)
  | 2 => ((dat1 (ent1 m) c).arrAt_in 2 rfl _).trans ((A_eq1 (ent1 m) c 2).trans (W4_of_ne m c (Pipeline.arrRef spec1 2) (by decide)).symm)
  | 3 => ((dat1 (ent1 m) c).arrAt_in 3 rfl _).trans ((A_eq1 (ent1 m) c 3).trans (W4_of_ne m c (Pipeline.arrRef spec1 3) (by decide)).symm)
  | 4 => ((dat1 (ent1 m) c).arrAt_in 4 rfl _).trans ((A_eq1 (ent1 m) c 4).trans (W4_of_ne m c (Pipeline.arrRef spec1 4) (by decide)).symm)
  | 5 => ((dat1 (ent1 m) c).arrAt_in 5 rfl _).trans ((A_eq1 (ent1 m) c 5).trans (W4_of_ne m c (Pipeline.arrRef spec1 5) (by decide)).symm)
  | 6 => ((dat1 (ent1 m) c).arrAt_in 6 rfl _).trans ((A_eq1 (ent1 m) c 6).trans (W4_of_ne m c (Pipeline.arrRef spec1 6) (by decide)).symm)
  | 7 => (W4_at m c).symm
  | ⟨_ + 8, h⟩ => absurd h (Nat.not_lt.2 (Nat.le_add_left _ _))
theorem hrest1 (c : Dev nD) (b : Ref sig .tc) (hb : b ∉ Finset.univ.image (Pipeline.arrRef spec1)) : W4 m c b = W3 m c b :=
  W4_of_ne m c b (fun e => hb (Finset.mem_image.mpr ⟨7, Finset.mem_univ _, e.symm⟩))

def reg1 : Pipeline.RegionSeg (pcfgs (F := F)) adm (pdats m) () defs₀ 𝒱₀ L lv 1 :=
  mkReg m 1 launch1 (W3 m) (W4 m)
    (fun c w => dat1_q (ent1 m) c w) (fun c t => dat1_owed (ent1 m) c t) (fun c => dat1_recorded (ent1 m) c 0)
    (fun c => Phi1 (ent1 m) c 0) (fun c => Entails.of_eq (Phi1 (ent1 m) c (Fin.last _)))
    (fun c => body_obligation1 (ent1 m) c) (fun c w => A_eq1 (ent1 m) c w) (hF1 m) (hrest1 m)
set_option maxHeartbeats 1600000 in
theorem hF2 (c : Dev nD) : ∀ w : Fin cfg2.W, (dat2 (ent2 m) c).arrAt w cfg2.N = W6 m c (Pipeline.arrRef spec2 w)
  | 0 => ((dat2 (ent2 m) c).arrAt_in 0 rfl _).trans ((A_eq2 (ent2 m) c 0).trans (W6_of_ne m c (Pipeline.arrRef spec2 0) (by decide) (by decide) (by decide)).symm)
  | 1 => ((dat2 (ent2 m) c).arrAt_in 1 rfl _).trans ((A_eq2 (ent2 m) c 1).trans (W6_of_ne m c (Pipeline.arrRef spec2 1) (by decide) (by decide) (by decide)).symm)
  | 2 => ((dat2 (ent2 m) c).arrAt_in 2 rfl _).trans ((A_eq2 (ent2 m) c 2).trans (W6_of_ne m c (Pipeline.arrRef spec2 2) (by decide) (by decide) (by decide)).symm)
  | 3 => ((dat2 (ent2 m) c).arrAt_in 3 rfl _).trans ((A_eq2 (ent2 m) c 3).trans (W6_of_ne m c (Pipeline.arrRef spec2 3) (by decide) (by decide) (by decide)).symm)
  | 4 => (W6_at0 m c).symm
  | 5 => (W6_at1 m c).symm
  | 6 => (W6_at2 m c).symm
  | ⟨_ + 7, h⟩ => absurd h (Nat.not_lt.2 (Nat.le_add_left _ _))
theorem hrest2 (c : Dev nD) (b : Ref sig .tc) (hb : b ∉ Finset.univ.image (Pipeline.arrRef spec2)) : W6 m c b = W5 m c b :=
  W6_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg2 : Pipeline.RegionSeg (pcfgs (F := F)) adm (pdats m) () defs₀ 𝒱₀ L lv 2 :=
  mkReg m 2 launch2 (W5 m) (W6 m)
    (fun c w => dat2_q (ent2 m) c w) (fun c t => dat2_owed (ent2 m) c t) (fun c => dat2_recorded (ent2 m) c 0)
    (fun c => Phi2_first (ent2 m) c) (fun c => Phi2_last (ent2 m) c)
    (fun c => body_obligation2 (ent2 m) c) (fun c w => A_eq2 (ent2 m) c w) (hF2 m) (hrest2 m)
set_option maxHeartbeats 1600000 in
theorem hF3 (c : Dev nD) : ∀ w : Fin cfg3.W, (dat3 (ent3 m) c).arrAt w cfg3.N = W8 m c (Pipeline.arrRef spec3 w)
  | 0 => ((dat3 (ent3 m) c).arrAt_in 0 rfl _).trans ((A_eq3 (ent3 m) c 0).trans (W8_of_ne m c (Pipeline.arrRef spec3 0) (by decide)).symm)
  | 1 => ((dat3 (ent3 m) c).arrAt_in 1 rfl _).trans ((A_eq3 (ent3 m) c 1).trans (W8_of_ne m c (Pipeline.arrRef spec3 1) (by decide)).symm)
  | 2 => ((dat3 (ent3 m) c).arrAt_in 2 rfl _).trans ((A_eq3 (ent3 m) c 2).trans (W8_of_ne m c (Pipeline.arrRef spec3 2) (by decide)).symm)
  | 3 => ((dat3 (ent3 m) c).arrAt_in 3 rfl _).trans ((A_eq3 (ent3 m) c 3).trans (W8_of_ne m c (Pipeline.arrRef spec3 3) (by decide)).symm)
  | 4 => ((dat3 (ent3 m) c).arrAt_in 4 rfl _).trans ((A_eq3 (ent3 m) c 4).trans (W8_of_ne m c (Pipeline.arrRef spec3 4) (by decide)).symm)
  | 5 => ((dat3 (ent3 m) c).arrAt_in 5 rfl _).trans ((A_eq3 (ent3 m) c 5).trans (W8_of_ne m c (Pipeline.arrRef spec3 5) (by decide)).symm)
  | 6 => ((dat3 (ent3 m) c).arrAt_in 6 rfl _).trans ((A_eq3 (ent3 m) c 6).trans (W8_of_ne m c (Pipeline.arrRef spec3 6) (by decide)).symm)
  | 7 => (W8_at m c).symm
  | ⟨_ + 8, h⟩ => absurd h (Nat.not_lt.2 (Nat.le_add_left _ _))
theorem hrest3 (c : Dev nD) (b : Ref sig .tc) (hb : b ∉ Finset.univ.image (Pipeline.arrRef spec3)) : W8 m c b = W7 m c b :=
  W8_of_ne m c b (fun e => hb (Finset.mem_image.mpr ⟨7, Finset.mem_univ _, e.symm⟩))

def reg3 : Pipeline.RegionSeg (pcfgs (F := F)) adm (pdats m) () defs₀ 𝒱₀ L lv 3 :=
  mkReg m 3 launch3 (W7 m) (W8 m)
    (fun c w => dat3_q (ent3 m) c w) (fun c t => dat3_owed (ent3 m) c t) (fun c => dat3_recorded (ent3 m) c 0)
    (fun c => Phi3 (ent3 m) c 0) (fun c => Entails.of_eq (Phi3 (ent3 m) c (Fin.last _)))
    (fun c => body_obligation3 (ent3 m) c) (fun c w => A_eq3 (ent3 m) c w) (hF3 m) (hrest3 m)
set_option maxHeartbeats 1600000 in
theorem hF4 (c : Dev nD) : ∀ w : Fin cfg4.W, (dat4 (ent4 m) c).arrAt w cfg4.N = W10 m c (Pipeline.arrRef spec4 w)
  | 0 => ((dat4 (ent4 m) c).arrAt_in 0 rfl _).trans ((A_eq4 (ent4 m) c 0).trans (W10_of_ne m c (Pipeline.arrRef spec4 0) (by decide) (by decide) (by decide)).symm)
  | 1 => ((dat4 (ent4 m) c).arrAt_in 1 rfl _).trans ((A_eq4 (ent4 m) c 1).trans (W10_of_ne m c (Pipeline.arrRef spec4 1) (by decide) (by decide) (by decide)).symm)
  | 2 => ((dat4 (ent4 m) c).arrAt_in 2 rfl _).trans ((A_eq4 (ent4 m) c 2).trans (W10_of_ne m c (Pipeline.arrRef spec4 2) (by decide) (by decide) (by decide)).symm)
  | 3 => ((dat4 (ent4 m) c).arrAt_in 3 rfl _).trans ((A_eq4 (ent4 m) c 3).trans (W10_of_ne m c (Pipeline.arrRef spec4 3) (by decide) (by decide) (by decide)).symm)
  | 4 => (W10_at0 m c).symm
  | 5 => (W10_at1 m c).symm
  | 6 => (W10_at2 m c).symm
  | ⟨_ + 7, h⟩ => absurd h (Nat.not_lt.2 (Nat.le_add_left _ _))
theorem hrest4 (c : Dev nD) (b : Ref sig .tc) (hb : b ∉ Finset.univ.image (Pipeline.arrRef spec4)) : W10 m c b = W9 m c b :=
  W10_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg4 : Pipeline.RegionSeg (pcfgs (F := F)) adm (pdats m) () defs₀ 𝒱₀ L lv 4 :=
  mkReg m 4 launch4 (W9 m) (W10 m)
    (fun c w => dat4_q (ent4 m) c w) (fun c t => dat4_owed (ent4 m) c t) (fun c => dat4_recorded (ent4 m) c 0)
    (fun c => Phi4_first (ent4 m) c) (fun c => Phi4_last (ent4 m) c)
    (fun c => body_obligation4 (ent4 m) c) (fun c w => A_eq4 (ent4 m) c w) (hF4 m) (hrest4 m)
set_option maxHeartbeats 1600000 in
theorem hF5 (c : Dev nD) : ∀ w : Fin cfg5.W, (dat5 (ent5 m) c).arrAt w cfg5.N = W12 m c (Pipeline.arrRef spec5 w)
  | 0 => ((dat5 (ent5 m) c).arrAt_in 0 rfl _).trans ((A_eq5 (ent5 m) c 0).trans (W12_of_ne m c (Pipeline.arrRef spec5 0) (by decide)).symm)
  | 1 => ((dat5 (ent5 m) c).arrAt_in 1 rfl _).trans ((A_eq5 (ent5 m) c 1).trans (W12_of_ne m c (Pipeline.arrRef spec5 1) (by decide)).symm)
  | 2 => ((dat5 (ent5 m) c).arrAt_in 2 rfl _).trans ((A_eq5 (ent5 m) c 2).trans (W12_of_ne m c (Pipeline.arrRef spec5 2) (by decide)).symm)
  | 3 => ((dat5 (ent5 m) c).arrAt_in 3 rfl _).trans ((A_eq5 (ent5 m) c 3).trans (W12_of_ne m c (Pipeline.arrRef spec5 3) (by decide)).symm)
  | 4 => ((dat5 (ent5 m) c).arrAt_in 4 rfl _).trans ((A_eq5 (ent5 m) c 4).trans (W12_of_ne m c (Pipeline.arrRef spec5 4) (by decide)).symm)
  | 5 => ((dat5 (ent5 m) c).arrAt_in 5 rfl _).trans ((A_eq5 (ent5 m) c 5).trans (W12_of_ne m c (Pipeline.arrRef spec5 5) (by decide)).symm)
  | 6 => ((dat5 (ent5 m) c).arrAt_in 6 rfl _).trans ((A_eq5 (ent5 m) c 6).trans (W12_of_ne m c (Pipeline.arrRef spec5 6) (by decide)).symm)
  | 7 => (W12_at m c).symm
  | ⟨_ + 8, h⟩ => absurd h (Nat.not_lt.2 (Nat.le_add_left _ _))
theorem hrest5 (c : Dev nD) (b : Ref sig .tc) (hb : b ∉ Finset.univ.image (Pipeline.arrRef spec5)) : W12 m c b = W11 m c b :=
  W12_of_ne m c b (fun e => hb (Finset.mem_image.mpr ⟨7, Finset.mem_univ _, e.symm⟩))

def reg5 : Pipeline.RegionSeg (pcfgs (F := F)) adm (pdats m) () defs₀ 𝒱₀ L lv 5 :=
  mkReg m 5 launch5 (W11 m) (W12 m)
    (fun c w => dat5_q (ent5 m) c w) (fun c t => dat5_owed (ent5 m) c t) (fun c => dat5_recorded (ent5 m) c 0)
    (fun c => Phi5 (ent5 m) c 0) (fun c => Entails.of_eq (Phi5 (ent5 m) c (Fin.last _)))
    (fun c => body_obligation5 (ent5 m) c) (fun c w => A_eq5 (ent5 m) c w) (hF5 m) (hrest5 m)
set_option maxHeartbeats 1600000 in
theorem hF6 (c : Dev nD) : ∀ w : Fin cfg6.W, (dat6 (ent6 m) c).arrAt w cfg6.N = W14 m c (Pipeline.arrRef spec6 w)
  | 0 => ((dat6 (ent6 m) c).arrAt_in 0 rfl _).trans ((A_eq6 (ent6 m) c 0).trans (W14_of_ne m c (Pipeline.arrRef spec6 0) (by decide) (by decide) (by decide)).symm)
  | 1 => ((dat6 (ent6 m) c).arrAt_in 1 rfl _).trans ((A_eq6 (ent6 m) c 1).trans (W14_of_ne m c (Pipeline.arrRef spec6 1) (by decide) (by decide) (by decide)).symm)
  | 2 => ((dat6 (ent6 m) c).arrAt_in 2 rfl _).trans ((A_eq6 (ent6 m) c 2).trans (W14_of_ne m c (Pipeline.arrRef spec6 2) (by decide) (by decide) (by decide)).symm)
  | 3 => ((dat6 (ent6 m) c).arrAt_in 3 rfl _).trans ((A_eq6 (ent6 m) c 3).trans (W14_of_ne m c (Pipeline.arrRef spec6 3) (by decide) (by decide) (by decide)).symm)
  | 4 => (W14_at0 m c).symm
  | 5 => (W14_at1 m c).symm
  | 6 => (W14_at2 m c).symm
  | ⟨_ + 7, h⟩ => absurd h (Nat.not_lt.2 (Nat.le_add_left _ _))
theorem hrest6 (c : Dev nD) (b : Ref sig .tc) (hb : b ∉ Finset.univ.image (Pipeline.arrRef spec6)) : W14 m c b = W13 m c b :=
  W14_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg6 : Pipeline.RegionSeg (pcfgs (F := F)) adm (pdats m) () defs₀ 𝒱₀ L lv 6 :=
  mkReg m 6 launch6 (W13 m) (W14 m)
    (fun c w => dat6_q (ent6 m) c w) (fun c t => dat6_owed (ent6 m) c t) (fun c => dat6_recorded (ent6 m) c 0)
    (fun c => Phi6_first (ent6 m) c) (fun c => Phi6_last (ent6 m) c)
    (fun c => body_obligation6 (ent6 m) c) (fun c w => A_eq6 (ent6 m) c w) (hF6 m) (hrest6 m)
set_option maxHeartbeats 1600000 in
theorem hF7 (c : Dev nD) : ∀ w : Fin cfg7.W, (dat7 (ent7 m) c).arrAt w cfg7.N = W16 m c (Pipeline.arrRef spec7 w)
  | 0 => ((dat7 (ent7 m) c).arrAt_in 0 rfl _).trans ((A_eq7 (ent7 m) c 0).trans (W16_of_ne m c (Pipeline.arrRef spec7 0) (by decide)).symm)
  | 1 => ((dat7 (ent7 m) c).arrAt_in 1 rfl _).trans ((A_eq7 (ent7 m) c 1).trans (W16_of_ne m c (Pipeline.arrRef spec7 1) (by decide)).symm)
  | 2 => ((dat7 (ent7 m) c).arrAt_in 2 rfl _).trans ((A_eq7 (ent7 m) c 2).trans (W16_of_ne m c (Pipeline.arrRef spec7 2) (by decide)).symm)
  | 3 => ((dat7 (ent7 m) c).arrAt_in 3 rfl _).trans ((A_eq7 (ent7 m) c 3).trans (W16_of_ne m c (Pipeline.arrRef spec7 3) (by decide)).symm)
  | 4 => ((dat7 (ent7 m) c).arrAt_in 4 rfl _).trans ((A_eq7 (ent7 m) c 4).trans (W16_of_ne m c (Pipeline.arrRef spec7 4) (by decide)).symm)
  | 5 => ((dat7 (ent7 m) c).arrAt_in 5 rfl _).trans ((A_eq7 (ent7 m) c 5).trans (W16_of_ne m c (Pipeline.arrRef spec7 5) (by decide)).symm)
  | 6 => ((dat7 (ent7 m) c).arrAt_in 6 rfl _).trans ((A_eq7 (ent7 m) c 6).trans (W16_of_ne m c (Pipeline.arrRef spec7 6) (by decide)).symm)
  | 7 => (W16_at m c).symm
  | ⟨_ + 8, h⟩ => absurd h (Nat.not_lt.2 (Nat.le_add_left _ _))
theorem hrest7 (c : Dev nD) (b : Ref sig .tc) (hb : b ∉ Finset.univ.image (Pipeline.arrRef spec7)) : W16 m c b = W15 m c b :=
  W16_of_ne m c b (fun e => hb (Finset.mem_image.mpr ⟨7, Finset.mem_univ _, e.symm⟩))

def reg7 : Pipeline.RegionSeg (pcfgs (F := F)) adm (pdats m) () defs₀ 𝒱₀ L lv 7 :=
  mkReg m 7 launch7 (W15 m) (W16 m)
    (fun c w => dat7_q (ent7 m) c w) (fun c t => dat7_owed (ent7 m) c t) (fun c => dat7_recorded (ent7 m) c 0)
    (fun c => Phi7 (ent7 m) c 0) (fun c => Entails.of_eq (Phi7 (ent7 m) c (Fin.last _)))
    (fun c => body_obligation7 (ent7 m) c) (fun c w => A_eq7 (ent7 m) c w) (hF7 m) (hrest7 m)

end Cert.Kernel.Hand

end
-- ==== Proof.K.Run.lean ====
import proofs.«165926_j30305289241327_1_alg».proof.Proof.K.Segs

set_option maxRecDepth 1888

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

theorem hheld {V W : Valuation τ sig (Elt F)} (h : V = W) (c : Dev nD) :
    (iprop(StableHlo.held (c : Thread nD τ) (Pipeline.ucRefs τ sig) V ∗ R c) : sProp 𝕄)
      ⊢ iprop(StableHlo.held (c : Thread nD τ) (Pipeline.ucRefs τ sig) W ∗ R c) := by rw [h]

abbrev Tₙ (c : Dev nD) : sProp 𝕄 :=
  iprop(StableHlo.held (c : Thread nD τ) (Pipeline.ucRefs τ sig) (V18 m (outsK m) c) ∗ ∃ r, prngReg c r)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V18 m (outsK m) c b) := by
  refine Pipeline.θ_run_regions_kit_dev (pcfgs (F := F)) adm (pdats m) () cellOf_inj emb₁ defs₀ 𝒱₀ L lv m ρ main
    (segs m (outsK m) 𝒱₀ L lv (fun _ => R) () (pdats m) (reg0 m) (reg1 m) (reg2 m) (reg3 m) (reg4 m) (reg5 m) (reg6 m) (reg7 m))
    (fun c Q => by
      rewrite [main_chain c, Pipeline.Seg.run_eq_chain,
        show ((segs m (outsK m) 𝒱₀ L lv (fun _ => R) () (pdats m) (reg0 m) (reg1 m) (reg2 m) (reg3 m) (reg4 m) (reg5 m) (reg6 m) (reg7 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl,
      hheld (V1_eq m c) c,
      hheld (V2_eq m c).symm c,
      hheld (V3_eq m c) c,
      hheld (V4_eq m c).symm c,
      hheld (V5_eq m c) c,
      hheld (V6_eq m c).symm c,
      hheld (V7_eq m c) c,
      hheld (V8_eq m c).symm c,
      hheld (V9_eq m c) c,
      hheld (V10_eq m c).symm c,
      hheld (V11_eq m c) c,
      hheld (V12_eq m c).symm c,
      hheld (V13_eq m c) c,
      hheld (V14_eq m c).symm c,
      hheld (V15_eq m c) c,
      hheld (V16_eq m c).symm c,
      .rfl,
      (show iprop(StableHlo.held (c : Thread nD τ) (Pipeline.ucRefs τ sig) (V18 m (outsK m) c) ∗ R c) ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V18 m (outsK m) c b)
    (hfin := fun c s' => by
      iintro ⟨⟨Hh, -⟩, HSI⟩
      unfold StableHlo.held
      imodintro
      iapply (pointsTo_read_all (Pipeline.ucRefs τ sig) (fun b => ((c : Thread nD τ).1, b)) (V18 m (outsK m) c) s')
      isplitl [Hh] <;> iassumption)
    (hQ := fun s h c => h c)

theorem run_value (ρ : Dev nD → PrngReg) :
    θ_run defs (onTc (τ := τ) (main (F := F))) ⟨m, fun _ => 0, ρ⟩ (fun r => ∀ c : Dev nD,
      r.2.mem ((c.tc : Thread nD τ).loc main_v193) = V18 m (outsK m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨h c (Proc.devRef .tc main_v193) (Finset.mem_filter.mpr ⟨StableHlo.devRef_mem_tcRefs main_v193, by decide⟩),
      (h c (Proc.devRef .tc main_arg0) (Finset.mem_filter.mpr ⟨StableHlo.devRef_mem_tcRefs main_arg0, by decide⟩)).trans (V18_main_arg0 m (outsK m) c),
      (h c (Proc.devRef .tc main_arg1) (Finset.mem_filter.mpr ⟨StableHlo.devRef_mem_tcRefs main_arg1, by decide⟩)).trans (V18_main_arg1 m (outsK m) c),
      (h c (Proc.devRef .tc main_arg2) (Finset.mem_filter.mpr ⟨StableHlo.devRef_mem_tcRefs main_arg2, by decide⟩)).trans (V18_main_arg2 m (outsK m) c),
      (h c (Proc.devRef .tc main_arg3) (Finset.mem_filter.mpr ⟨StableHlo.devRef_mem_tcRefs main_arg3, by decide⟩)).trans (V18_main_arg3 m (outsK m) c),
      (h c (Proc.devRef .tc main_arg4) (Finset.mem_filter.mpr ⟨StableHlo.devRef_mem_tcRefs main_arg4, by decide⟩)).trans (V18_main_arg4 m (outsK m) c),
      (h c (Proc.devRef .tc main_arg5) (Finset.mem_filter.mpr ⟨StableHlo.devRef_mem_tcRefs main_arg5, by decide⟩)).trans (V18_main_arg5 m (outsK m) c),
      (h c (Proc.devRef .tc main_arg6) (Finset.mem_filter.mpr ⟨StableHlo.devRef_mem_tcRefs main_arg6, by decide⟩)).trans (V18_main_arg6 m (outsK m) c),
      (h c (Proc.devRef .tc main_arg7) (Finset.mem_filter.mpr ⟨StableHlo.devRef_mem_tcRefs main_arg7, by decide⟩)).trans (V18_main_arg7 m (outsK m) c),
      (h c (Proc.devRef .tc main_arg8) (Finset.mem_filter.mpr ⟨StableHlo.devRef_mem_tcRefs main_arg8, by decide⟩)).trans (V18_main_arg8 m (outsK m) c),
      (h c (Proc.devRef .tc main_arg9) (Finset.mem_filter.mpr ⟨StableHlo.devRef_mem_tcRefs main_arg9, by decide⟩)).trans (V18_main_arg9 m (outsK m) c),
      (h c (Proc.devRef .tc main_arg10) (Finset.mem_filter.mpr ⟨StableHlo.devRef_mem_tcRefs main_arg10, by decide⟩)).trans (V18_main_arg10 m (outsK m) c),
      (h c (Proc.devRef .tc main_arg11) (Finset.mem_filter.mpr ⟨StableHlo.devRef_mem_tcRefs main_arg11, by decide⟩)).trans (V18_main_arg11 m (outsK m) c)⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun _ h c => (h c).2) (run_value m ρ)

end Cert.Kernel.Hand

end
-- ==== Proof.KI.Lin0a.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev rA0 : Rect S2000x128 := Rect.unit (s := S2000x128) ![0, 0] S2000x128.size inb_S2000x128_S2000x128_0_0
noncomputable abbrev rW0 : Rect S128x256 := Rect.unit (s := S128x256) ![0, 0] S128x256.size inb_S128x256_S128x256_0_0
noncomputable abbrev rB0 : Rect S1x256 := Rect.unit (s := S1x256) ![0, 0] S1x256.size inb_S1x256_S1x256_0_0
noncomputable abbrev rZ0 : Rect S2000x256 := Rect.unit (s := S2000x256) ![0, 0] S2000x256.size inb_S2000x256_S2000x256_0_0

abbrev cond0_1 (i : grid0.Coords) : Prop :=
  Scalar.cmpi .ne (Scalar.extui (Scalar.cmpi .eq (BitVec.ofNat 32 (i 0).val) 0#32)) 0#32 = 1#1

abbrev cond0_2 (i : grid0.Coords) : Prop := k0_cond2 i = 1#1

theorem hz0 : (![0, 0] : Fin 2 → Nat) = fun _ => 0 := funext fun a => by fin_cases a <;> rfl

theorem mem_rZ0 (y : S2000x256.Idx) : y ∈ rZ0.set := View.mem_set_unit_zero hz0 inb_S2000x256_S2000x256_0_0 y
theorem mem_rB0 (y : S1x256.Idx) : y ∈ rB0.set := View.mem_set_unit_zero hz0 inb_S1x256_S1x256_0_0 y

theorem coverZ0 (p : rZ0.shape.Idx → Elt F .f32) (y : S2000x256.Idx) :
    ∃ pc ∈ ([⟨rZ0, p⟩] : List (View.Piece (Elt F) S2000x256 .f32)), y ∈ pc.1.set :=
  ⟨⟨rZ0, p⟩, List.mem_singleton_self _, mem_rZ0 y⟩
theorem coverB0 (p : rB0.shape.Idx → Elt F .f32) (L : List (View.Piece (Elt F) S1x256 .f32)) (y : S1x256.Idx) :
    ∃ pc ∈ (⟨rB0, p⟩ :: L : List (View.Piece (Elt F) S1x256 .f32)), y ∈ pc.1.set :=
  ⟨⟨rB0, p⟩, List.mem_cons.mpr (Or.inl rfl), mem_rB0 y⟩

end Cert.KernelIdeal.Hand

end
-- ==== Proof.KI.Lin0b.lean ====
import proofs.«165926_j30305289241327_1_alg».proof.Proof.KI.Lin0a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel0_A (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : cond0_1 i) (hc2 : ¬cond0_2 i)
    (x0 x1 : Vec F S2000x128 .f32) (x2 : Vec F S128x256 .f32) (x3 : Vec F S1x256 .f32) (xi5 xi6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩]) ∗ owns (c : Thread nD τ) arg6 fullShare xi5 ∗ owns (c : Thread nD τ) arg7 fullShare xi6
            ∗ owns (c : Thread nD τ) arg8 fullShare (k0_pay4 (View.ld x0 rA0) (View.ld x1 rA0) (View.ld x2 rW0) (View.ld x3 rB0) (k0_pay1 (F := F))) ∗ owns (c : Thread nD τ) arg9 fullShare (k0_pay5 (View.ld x0 rA0) (View.ld x1 rA0) (View.ld x2 rW0) (View.ld x3 rB0) (k0_pay2 (F := F)))) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB0 _ _)).trans ?_
    sl_unfold_run_names
    rw [View.canon_cons_unit_zero (S := S1x256) hz0]
    simp only [View.readCov_unit_zero (S := S1x256) _ hz0, View.readAt_eq_ld, hf0, hf1, hf2, hf3]
  · iexists _; isplitr
    swap; · iexact HS1
    ipureintro
    refine (View.read_writes_eq_canon _ _ _ (coverB0 _ _)).trans ?_
    sl_unfold_run_names
    rw [View.canon_cons_unit_zero (S := S1x256) hz0]
    simp only [View.readCov_unit_zero (S := S1x256) _ hz0, View.readAt_eq_ld, hf0, hf1, hf2, hf3]

end Cert.KernelIdeal.Hand

end
-- ==== Proof.KI.Lin0c.lean ====
import proofs.«165926_j30305289241327_1_alg».proof.Proof.KI.Lin0a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernel0_B (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond0_1 i) (hc2 : ¬cond0_2 i)
    (x0 x1 : Vec F S2000x128 .f32) (x2 : Vec F S128x256 .f32) (x3 : Vec F S1x256 .f32) (xi5 xi6 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩]) ∗ owns (c : Thread nD τ) arg6 fullShare xi5 ∗ owns (c : Thread nD τ) arg7 fullShare xi6
            ∗ owns (c : Thread nD τ) arg8 fullShare (k0_pay4 (View.ld x0 rA0) (View.ld x1 rA0) (View.ld x2 rW0) (View.ld x3 rB0) xs0) ∗ owns (c : Thread nD τ) arg9 fullShare (k0_pay5 (View.ld x0 rA0) (View.ld x1 rA0) (View.ld x2 rW0) (View.ld x3 rB0) xs1)) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB0 _ _)).trans ?_
    rw [View.canon_unit_zero hz0]
    simp only [View.readAt_eq_ld, hf0, hf1, hf2, hf3, hfs0, View.ld_unit_zero (S := S1x256) hz0 inb_S1x256_S1x256_0_0 xs0]
  · iexists _; isplitr
    swap; · iexact HS1
    ipureintro
    refine (View.read_writes_eq_canon _ _ _ (coverB0 _ _)).trans ?_
    rw [View.canon_unit_zero hz0]
    sl_unfold_run_names
    simp only [View.readAt_eq_ld, hf0, hf1, hf2, hf3, hfs1, View.ld_unit_zero (S := S1x256) hz0 inb_S1x256_S1x256_0_0 xs1]

end Cert.KernelIdeal.Hand

end
-- ==== Proof.KI.Lin0d.lean ====
import proofs.«165926_j30305289241327_1_alg».proof.Proof.KI.Lin0a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel0_C (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond0_1 i) (hc2 : cond0_2 i)
    (x0 x1 : Vec F S2000x128 .f32) (x2 : Vec F S128x256 .f32) (x3 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ0, k0_pay3 (View.ld x0 rA0) (View.ld x1 rA0) (View.ld x2 rW0) (View.ld x3 rB0)⟩])
            ∗ owns (c : Thread nD τ) arg6 fullShare (View.canon [⟨rB0, k0_pay4 (View.ld x0 rA0) (View.ld x1 rA0) (View.ld x2 rW0) (View.ld x3 rB0) xs0⟩]) ∗ owns (c : Thread nD τ) arg7 fullShare (View.canon [⟨rB0, k0_pay5 (View.ld x0 rA0) (View.ld x1 rA0) (View.ld x2 rW0) (View.ld x3 rB0) xs1⟩])
            ∗ owns (c : Thread nD τ) arg8 fullShare (k0_pay4 (View.ld x0 rA0) (View.ld x1 rA0) (View.ld x2 rW0) (View.ld x3 rB0) xs0) ∗ owns (c : Thread nD τ) arg9 fullShare (k0_pay5 (View.ld x0 rA0) (View.ld x1 rA0) (View.ld x2 rW0) (View.ld x3 rB0) xs1)) -∗ K ⟨⟩))
      ⊢ wp frame (wpE (defs₀ (F := F)) Variants.none c none) E (cc0__lin1_kernel i arg1 harg1 arg2 harg2 arg3 harg3 arg4 harg4 arg5 harg5 arg6 harg6 arg7 harg7 arg8 harg8 arg9 harg9) K := by
  simp only [cc0__lin1_kernel_eq_skeleton]; unfold cc0__lin1_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ0 _)).trans ?_
    simp only [View.readAt_eq_ld, hf0, hf1, hf2, hf3]
  isplitl [H5]
  · iexists _; isplitr
    swap; · iexact H5
    ipureintro
    refine (View.read_writes_eq_canon _ _ _ (coverB0 _ _)).trans ?_
    sl_unfold_run_names
    simp only [View.readCov_unit_zero (S := S1x256) _ hz0, View.readAt_eq_ld, hf0, hf1, hf2, hf3, hfs0, View.ld_unit_zero (S := S1x256) hz0 inb_S1x256_S1x256_0_0 xs0]
  isplitl [H6]
  · iexists _; isplitr
    swap; · iexact H6
    ipureintro
    refine (View.read_writes_eq_canon _ _ _ (coverB0 _ _)).trans ?_
    sl_unfold_run_names
    simp only [View.readCov_unit_zero (S := S1x256) _ hz0, View.readAt_eq_ld, hf0, hf1, hf2, hf3, hfs1, View.ld_unit_zero (S := S1x256) hz0 inb_S1x256_S1x256_0_0 xs1]
  isplitl [HS0]
  · iexists _; isplitr
    swap; · iexact HS0
    ipureintro
    sl_unfold_run_names
    refine (View.read_writes_eq_canon _ _ _ (coverB0 _ _)).trans ?_
    rw [View.canon_unit_zero hz0]
    simp only [View.readAt_eq_ld, hf0, hf1, hf2, hf3, hfs0, View.ld_unit_zero (S := S1x256) hz0 inb_S1x256_S1x256_0_0 xs0]
  · iexists _; isplitr
    swap; · iexact HS1
    ipureintro
    sl_unfold_run_names
    refine (View.read_writes_eq_canon _ _ _ (coverB0 _ _)).trans ?_
    rw [View.canon_unit_zero hz0]
    simp only [View.readAt_eq_ld, hf0, hf1, hf2, hf3, hfs1, View.ld_unit_zero (S := S1x256) hz0 inb_S1x256_S1x256_0_0 xs1]

end Cert.KernelIdeal.Hand

end
-- ==== Proof.KI.Lin0.lean ====
import proofs.«165926_j30305289241327_1_alg».proof.Proof.KI.Lin0b
import proofs.«165926_j30305289241327_1_alg».proof.Proof.KI.Lin0c
import proofs.«165926_j30305289241327_1_alg».proof.Proof.KI.Lin0d

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM0_0 : Memref sig .tc .vmem S1x256 .f32 := Memref.whole cc0_scratch0
noncomputable abbrev scM0_1 : Memref sig .tc .vmem S1x256 .f32 := Memref.whole cc0_scratch1

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable def zpay0 (c : Dev nD) (t : Fin cfg0.N) : FVec F S2000x256 .f32 :=
  k0_pay3 (View.ld (iblk0 V c 0 t) rA0) (View.ld (iblk0 V c 1 t) rA0) (View.ld (iblk0 V c 2 t) rW0) (View.ld (iblk0 V c 3 t) rB0)

noncomputable def acc0_1 (c : Dev nD) : (n : ℕ) → n < cfg0.N → FVec F S1x256 .f32
  | 0, hn => k0_pay4 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay1 (F := F))
  | n + 1, hn => k0_pay4 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_1 c n (Nat.lt_of_succ_lt hn))

noncomputable def acc0_2 (c : Dev nD) : (n : ℕ) → n < cfg0.N → FVec F S1x256 .f32
  | 0, hn => k0_pay5 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay2 (F := F))
  | n + 1, hn => k0_pay5 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_2 c n (Nat.lt_of_succ_lt hn))

theorem acc0_1_zero (c : Dev nD) (hn : 0 < cfg0.N) :
    acc0_1 V c 0 hn = k0_pay4 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay1 (F := F)) := rfl
theorem acc0_1_succ (c : Dev nD) (n : ℕ) (hn : n + 1 < cfg0.N) :
    acc0_1 V c (n + 1) hn = k0_pay4 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_1 V c n (Nat.lt_of_succ_lt hn)) := rfl
theorem acc0_2_zero (c : Dev nD) (hn : 0 < cfg0.N) :
    acc0_2 V c 0 hn = k0_pay5 (View.ld (iblk0 V c 0 ⟨0, hn⟩) rA0) (View.ld (iblk0 V c 1 ⟨0, hn⟩) rA0) (View.ld (iblk0 V c 2 ⟨0, hn⟩) rW0) (View.ld (iblk0 V c 3 ⟨0, hn⟩) rB0) (k0_pay2 (F := F)) := rfl
theorem acc0_2_succ (c : Dev nD) (n : ℕ) (hn : n + 1 < cfg0.N) :
    acc0_2 V c (n + 1) hn = k0_pay5 (View.ld (iblk0 V c 0 ⟨n + 1, hn⟩) rA0) (View.ld (iblk0 V c 1 ⟨n + 1, hn⟩) rA0) (View.ld (iblk0 V c 2 ⟨n + 1, hn⟩) rW0) (View.ld (iblk0 V c 3 ⟨n + 1, hn⟩) rB0) (acc0_2 V c n (Nat.lt_of_succ_lt hn)) := rfl

noncomputable def Phi0 (c : Dev nD) : (n : ℕ) → n ≤ cfg0.N → sProp 𝕄
  | 0, _ => Pipeline.ΦA spec0 c
  | n + 1, hn => iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1]) ∗ (∃ r, prngReg c r))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => View.canon [⟨rZ0, zpay0 V c t⟩]
    | ⟨5, _⟩ => View.canon [⟨rB0, acc0_1 V c t.val t.isLt⟩]
    | ⟨6, _⟩ => View.canon [⟨rB0, acc0_2 V c t.val t.isLt⟩]
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = View.canon [⟨rZ0, zpay0 V c t⟩] := by dsimp only [dat0]
theorem after0_5 (c : Dev nD) (t : Fin cfg0.N) : (dat0 V c).after 5 t = View.canon [⟨rB0, acc0_1 V c t.val t.isLt⟩] := by dsimp only [dat0]
theorem after0_6 (c : Dev nD) (t : Fin cfg0.N) : (dat0 V c).after 6 t = View.canon [⟨rB0, acc0_2 V c t.val t.isLt⟩] := by dsimp only [dat0]
theorem after0_5_last (c : Dev nD) (h : 49 < cfg0.N) : (dat0 V c).after 5 ⟨49, h⟩ = View.canon [⟨rB0, acc0_1 V c 49 h⟩] := after0_5 V c ⟨49, h⟩
theorem after0_6_last (c : Dev nD) (h : 49 < cfg0.N) : (dat0 V c).after 6 ⟨49, h⟩ = View.canon [⟨rB0, acc0_2 V c 49 h⟩] := after0_6 V c ⟨49, h⟩

theorem dat0_q (c : Dev nD) (w : Fin cfg0.W) : (dat0 V c).q w = fullShare := rfl
theorem dat0_owed (c : Dev nD) (t : Fin (cfg0.N + 1)) : (dat0 V c).owed t = 0 := rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1]) ∗ (∃ r, prngReg c r)) := rfl

theorem Phi0_pos (c : Dev nD) (n : ℕ) (h : n ≤ cfg0.N) (hz : n ≠ 0) :
    Phi0 V c n h = iprop(iprop(iprop(owns (c : Thread nD τ) scM0_0 fullShare (acc0_1 V c (n - 1) (by omega)) ∗ owns (c : Thread nD τ) scM0_1 fullShare (acc0_2 V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

theorem Phi0_castSucc (c : Dev nD) (t : Fin cfg0.N) :
    (dat0 V c).Φ t.castSucc = Phi0 V c t.val (Nat.le_of_lt t.isLt) := by
  dsimp only [dat0]; simp only [Fin.coe_castSucc]

theorem Phi0_first (c : Dev nD) : (dat0 V c).Φ 0 = Pipeline.ΦA spec0 c := by
  rw [show (dat0 V c).Φ 0 = Phi0 V c 0 (Nat.zero_le _) from rfl, Phi0_zero V c 0 _ rfl]

theorem Phi0_last (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = Phi0 V c (Fin.last cfg0.N).val (Nat.le_of_lt_succ (Fin.last cfg0.N).isLt) from rfl, Phi0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond0_1 : ∀ t : Fin cfg0.N, cond0_1 (grid0.coords t) ↔ t.val = 0 :=
  (by decide +kernel : ∀ t : Fin grid0.N, cond0_1 (grid0.coords t) ↔ t.val = 0)

theorem hcond0_2 : ∀ t : Fin cfg0.N, cond0_2 (grid0.coords t) ↔ t.val = 49 :=
  (by decide +kernel : ∀ t : Fin grid0.N, cond0_2 (grid0.coords t) ↔ t.val = 49)

theorem idleAt0_5 : ∀ t : Fin cfg0.N, t.val ≠ 49 → cfg0.idle 5 (grid0.coords t) = true := by decide +kernel
theorem idleAt0_6 : ∀ t : Fin cfg0.N, t.val ≠ 49 → cfg0.idle 6 (grid0.coords t) = true := by decide +kernel
theorem noFlush0_5 : ∀ t : Fin cfg0.N, t.val ≠ 49 → (cfg0.win 5).flush t = false := by decide +kernel
theorem noFlush0_6 : ∀ t : Fin cfg0.N, t.val ≠ 49 → (cfg0.win 6).flush t = false := by decide +kernel
theorem liveAt0_5 : ∀ t : Fin cfg0.N, t.val = 49 → cfg0.idle 5 (grid0.coords t) = false := by decide +kernel
theorem liveAt0_6 : ∀ t : Fin cfg0.N, t.val = 49 → cfg0.idle 6 (grid0.coords t) = false := by decide +kernel

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem dat0_recorded (c : Dev nD) (t : Fin (cfg0.N + 1)) : (dat0 V c).recorded t = Set.univ := rfl

theorem acc0_1_first (c : Dev nD) (t : Fin cfg0.N) (h : t.val = 0) :
    acc0_1 V c t.val t.isLt = k0_pay4 (View.ld (iblk0 V c 0 t) rA0) (View.ld (iblk0 V c 1 t) rA0) (View.ld (iblk0 V c 2 t) rW0) (View.ld (iblk0 V c 3 t) rB0) (k0_pay1 (F := F)) := by
  obtain ⟨n, hn⟩ := t
  cases n with
  | zero => rfl
  | succ n => exact absurd h (Nat.succ_ne_zero n)
theorem acc0_2_first (c : Dev nD) (t : Fin cfg0.N) (h : t.val = 0) :
    acc0_2 V c t.val t.isLt = k0_pay5 (View.ld (iblk0 V c 0 t) rA0) (View.ld (iblk0 V c 1 t) rA0) (View.ld (iblk0 V c 2 t) rW0) (View.ld (iblk0 V c 3 t) rB0) (k0_pay2 (F := F)) := by
  obtain ⟨n, hn⟩ := t
  cases n with
  | zero => rfl
  | succ n => exact absurd h (Nat.succ_ne_zero n)
theorem acc0_1_later (c : Dev nD) (t : Fin cfg0.N) (h : t.val ≠ 0) :
    acc0_1 V c t.val t.isLt = k0_pay4 (View.ld (iblk0 V c 0 t) rA0) (View.ld (iblk0 V c 1 t) rA0) (View.ld (iblk0 V c 2 t) rW0) (View.ld (iblk0 V c 3 t) rB0) (acc0_1 V c (t.val - 1) (Nat.lt_of_le_of_lt (Nat.sub_le _ _) t.isLt)) := by
  obtain ⟨n, hn⟩ := t
  cases n with
  | zero => exact absurd rfl h
  | succ n => rfl
theorem acc0_2_later (c : Dev nD) (t : Fin cfg0.N) (h : t.val ≠ 0) :
    acc0_2 V c t.val t.isLt = k0_pay5 (View.ld (iblk0 V c 0 t) rA0) (View.ld (iblk0 V c 1 t) rA0) (View.ld (iblk0 V c 2 t) rW0) (View.ld (iblk0 V c 3 t) rB0) (acc0_2 V c (t.val - 1) (Nat.lt_of_le_of_lt (Nat.sub_le _ _) t.isLt)) := by
  obtain ⟨n, hn⟩ := t
  cases n with
  | zero => exact absurd rfl h
  | succ n => rfl

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold zpay0
  have hN : t.val < 50 := lt_of_lt_of_eq t.isLt (show cfg0.N = 50 from N_0)
  by_cases h0 : t.val = 0
  ·
    have h49 : t.val ≠ 49 := by omega
    rw [Dat.leavesExact_idle (dat0 V c) 5 t (idleAt0_5 t h49) (noFlush0_5 t h49),
      Dat.leavesExact_idle (dat0 V c) 6 t (idleAt0_6 t h49) (noFlush0_6 t h49)]
    rw [Phi0_castSucc V c t, Phi0_zero V c _ _ h0, PhiA0_eq]
    rw [acc0_1_first V c t h0, acc0_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel0_A c Set.univ (grid0.coords t) _ _ _ _ _ _ _ _ _ _ _ _ _ _ _ _ _ _ ((hcond0_1 t).mpr h0) (fun h => h49 ((hcond0_2 t).mp h))
      (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat0 V c).leavesExact 5 t = owns (c : Thread nD τ) (st0_5 t) fullShare ((dat0 V c).after 5 t) from by
        unfold Dat.leavesExact; rw [liveAt0_5 t h49], after0_5]
      rw [show (dat0 V c).leavesExact 6 t = owns (c : Thread nD τ) (st0_6 t) fullShare ((dat0 V c).after 6 t) from by
        unfold Dat.leavesExact; rw [liveAt0_6 t h49], after0_6]
      rw [Phi0_castSucc V c t, Phi0_pos V c _ _ h0]
      rw [acc0_1_later V c t h0, acc0_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_C c Set.univ (grid0.coords t) _ _ _ _ _ _ _ _ _ _ _ _ _ _ _ _ _ _ (fun h => h0 ((hcond0_1 t).mp h)) ((hcond0_2 t).mpr h49)
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 5 t (idleAt0_5 t h49) (noFlush0_5 t h49),
        Dat.leavesExact_idle (dat0 V c) 6 t (idleAt0_6 t h49) (noFlush0_6 t h49)]
      rw [Phi0_castSucc V c t, Phi0_pos V c _ _ h0]
      rw [acc0_1_later V c t h0, acc0_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_B c Set.univ (grid0.coords t) _ _ _ _ _ _ _ _ _ _ _ _ _ _ _ _ _ _ (fun h => h0 ((hcond0_1 t).mp h)) (fun h => h49 ((hcond0_2 t).mp h))
        (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Bn1.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S1x256 := Rect.unit (s := S1x256) ![0, 0] S1x256.size inb_S1x256_S1x256_0_0
abbrev r1_2 : Rect S256x128 := Rect.unit (s := S256x128) ![0, 0] S256x128.size inb_S256x128_S256x128_0_0
abbrev r1_3 : Rect S1x128 := Rect.unit (s := S1x128) ![0, 0] S1x128.size inb_S1x128_S1x128_0_0
abbrev r1_4 : Rect S2000x128 := Rect.unit (s := S2000x128) ![0, 0] S2000x128.size inb_S2000x128_S2000x128_0_0

def out1_7 (x0 : Vec F S2000x256 .f32) (x1 x2 x3 x4 : Vec F S1x256 .f32) (x5 : Vec F S256x128 .f32) (x6 : Vec F S1x128 .f32) : Vec F S2000x128 .f32 :=
  View.canon [⟨r1_4, k1_pay1 (View.ld x0 r1_0) (View.ld x2 r1_1) (View.ld x3 r1_1) (View.ld x1 r1_1) (View.ld x4 r1_1) (View.ld x5 r1_2) (View.ld x6 r1_3)⟩]

theorem cover1_7 (p0 : Vec F S2000x128 .f32) (y : S2000x128.Idx) :
    ∃ pc ∈ ([⟨r1_4, p0⟩] : List (View.Piece (Elt F) S2000x128 .f32)), y ∈ pc.1.set :=
  View.cover_of_tiled [⟨r1_4, p0⟩] S2000x128.size (by rfl) y

set_option maxHeartbeats 1000000 in

theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x256 .f32) (x1 x2 x3 x4 : Vec F S1x256 .f32) (x5 : Vec F S256x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_lin2_kernel i arg1 harg1 arg2 harg2 arg3 harg3 arg4 harg4 arg5 harg5 arg6 harg6 arg7 harg7 arg8 harg8) K := by
  simp only [cc1__bn_lin2_kernel_eq_skeleton]; unfold cc1__bn_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem dat1_q (c : Dev nD) (w : Fin cfg1.W) : (dat1 V c).q w = fullShare := by dsimp only [dat1]
theorem dat1_owed (c : Dev nD) (t : Fin (cfg1.N + 1)) : (dat1 V c).owed t = 0 := by dsimp only [dat1]
theorem Phi1 (c : Dev nD) (t : Fin (cfg1.N + 1)) : (dat1 V c).Φ t = Pipeline.ΦA spec1 c := by dsimp only [dat1]
theorem dat1_recorded (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Body

end Cert.KernelIdeal.Hand
-- ==== Proof.KI.Lin2a.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev rA2 : Rect S2000x128 := Rect.unit (s := S2000x128) ![0, 0] S2000x128.size inb_S2000x128_S2000x128_0_0
noncomputable abbrev rW2 : Rect S128x256 := Rect.unit (s := S128x256) ![0, 0] S128x256.size inb_S128x256_S128x256_0_0
noncomputable abbrev rB2 : Rect S1x256 := Rect.unit (s := S1x256) ![0, 0] S1x256.size inb_S1x256_S1x256_0_0
noncomputable abbrev rZ2 : Rect S2000x256 := Rect.unit (s := S2000x256) ![0, 0] S2000x256.size inb_S2000x256_S2000x256_0_0

abbrev cond2_1 (i : grid2.Coords) : Prop :=
  Scalar.cmpi .ne (Scalar.extui (Scalar.cmpi .eq (BitVec.ofNat 32 (i 0).val) 0#32)) 0#32 = 1#1

abbrev cond2_2 (i : grid2.Coords) : Prop := k2_cond2 i = 1#1

theorem hz2 : (![0, 0] : Fin 2 → Nat) = fun _ => 0 := funext fun a => by fin_cases a <;> rfl

theorem mem_rZ2 (y : S2000x256.Idx) : y ∈ rZ2.set := View.mem_set_unit_zero hz2 inb_S2000x256_S2000x256_0_0 y
theorem mem_rB2 (y : S1x256.Idx) : y ∈ rB2.set := View.mem_set_unit_zero hz2 inb_S1x256_S1x256_0_0 y

theorem coverZ2 (p : rZ2.shape.Idx → Elt F .f32) (y : S2000x256.Idx) :
    ∃ pc ∈ ([⟨rZ2, p⟩] : List (View.Piece (Elt F) S2000x256 .f32)), y ∈ pc.1.set :=
  ⟨⟨rZ2, p⟩, List.mem_singleton_self _, mem_rZ2 y⟩
theorem coverB2 (p : rB2.shape.Idx → Elt F .f32) (L : List (View.Piece (Elt F) S1x256 .f32)) (y : S1x256.Idx) :
    ∃ pc ∈ (⟨rB2, p⟩ :: L : List (View.Piece (Elt F) S1x256 .f32)), y ∈ pc.1.set :=
  ⟨⟨rB2, p⟩, List.mem_cons.mpr (Or.inl rfl), mem_rB2 y⟩

end Cert.KernelIdeal.Hand

end
-- ==== Proof.KI.Lin2b.lean ====
import proofs.«165926_j30305289241327_1_alg».proof.Proof.KI.Lin2a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel2_A (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : cond2_1 i) (hc2 : ¬cond2_2 i)
    (x0 x1 : Vec F S2000x128 .f32) (x2 : Vec F S128x256 .f32) (x3 : Vec F S1x256 .f32) (xi5 xi6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩]) ∗ owns (c : Thread nD τ) arg6 fullShare xi5 ∗ owns (c : Thread nD τ) arg7 fullShare xi6
            ∗ owns (c : Thread nD τ) arg8 fullShare (k2_pay4 (View.ld x0 rA2) (View.ld x1 rA2) (View.ld x2 rW2) (View.ld x3 rB2) (k2_pay1 (F := F))) ∗ owns (c : Thread nD τ) arg9 fullShare (k2_pay5 (View.ld x0 rA2) (View.ld x1 rA2) (View.ld x2 rW2) (View.ld x3 rB2) (k2_pay2 (F := F)))) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB2 _ _)).trans ?_
    sl_unfold_run_names
    rw [View.canon_cons_unit_zero (S := S1x256) hz2]
    simp only [View.readCov_unit_zero (S := S1x256) _ hz2, View.readAt_eq_ld, hf0, hf1, hf2, hf3]
  · iexists _; isplitr
    swap; · iexact HS1
    ipureintro
    refine (View.read_writes_eq_canon _ _ _ (coverB2 _ _)).trans ?_
    sl_unfold_run_names
    rw [View.canon_cons_unit_zero (S := S1x256) hz2]
    simp only [View.readCov_unit_zero (S := S1x256) _ hz2, View.readAt_eq_ld, hf0, hf1, hf2, hf3]

end Cert.KernelIdeal.Hand

end
-- ==== Proof.KI.Lin2c.lean ====
import proofs.«165926_j30305289241327_1_alg».proof.Proof.KI.Lin2a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernel2_B (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond2_1 i) (hc2 : ¬cond2_2 i)
    (x0 x1 : Vec F S2000x128 .f32) (x2 : Vec F S128x256 .f32) (x3 : Vec F S1x256 .f32) (xi5 xi6 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩]) ∗ owns (c : Thread nD τ) arg6 fullShare xi5 ∗ owns (c : Thread nD τ) arg7 fullShare xi6
            ∗ owns (c : Thread nD τ) arg8 fullShare (k2_pay4 (View.ld x0 rA2) (View.ld x1 rA2) (View.ld x2 rW2) (View.ld x3 rB2) xs0) ∗ owns (c : Thread nD τ) arg9 fullShare (k2_pay5 (View.ld x0 rA2) (View.ld x1 rA2) (View.ld x2 rW2) (View.ld x3 rB2) xs1)) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr; · ipureintro; exact hf5
    iexact H5
  isplitl [H6]
  · iexists _; isplitr; · ipureintro; exact hf6
    iexact H6
  isplitl [HS0]
  · iexists _; isplitr
    swap; · iexact HS0
    ipureintro
    refine (View.read_writes_eq_canon _ _ _ (coverB2 _ _)).trans ?_
    rw [View.canon_unit_zero hz2]
    simp only [View.readAt_eq_ld, hf0, hf1, hf2, hf3, hfs0, View.ld_unit_zero (S := S1x256) hz2 inb_S1x256_S1x256_0_0 xs0]
  · iexists _; isplitr
    swap; · iexact HS1
    ipureintro
    refine (View.read_writes_eq_canon _ _ _ (coverB2 _ _)).trans ?_
    rw [View.canon_unit_zero hz2]
    sl_unfold_run_names
    simp only [View.readAt_eq_ld, hf0, hf1, hf2, hf3, hfs1, View.ld_unit_zero (S := S1x256) hz2 inb_S1x256_S1x256_0_0 xs1]

end Cert.KernelIdeal.Hand

end
-- ==== Proof.KI.Lin2d.lean ====
import proofs.«165926_j30305289241327_1_alg».proof.Proof.KI.Lin2a

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem kernel2_C (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc1 : ¬cond2_1 i) (hc2 : cond2_2 i)
    (x0 x1 : Vec F S2000x128 .f32) (x2 : Vec F S128x256 .f32) (x3 : Vec F S1x256 .f32) (xs0 xs1 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (View.canon [⟨rZ2, k2_pay3 (View.ld x0 rA2) (View.ld x1 rA2) (View.ld x2 rW2) (View.ld x3 rB2)⟩])
            ∗ owns (c : Thread nD τ) arg6 fullShare (View.canon [⟨rB2, k2_pay4 (View.ld x0 rA2) (View.ld x1 rA2) (View.ld x2 rW2) (View.ld x3 rB2) xs0⟩]) ∗ owns (c : Thread nD τ) arg7 fullShare (View.canon [⟨rB2, k2_pay5 (View.ld x0 rA2) (View.ld x1 rA2) (View.ld x2 rW2) (View.ld x3 rB2) xs1⟩])
            ∗ owns (c : Thread nD τ) arg8 fullShare (k2_pay4 (View.ld x0 rA2) (View.ld x1 rA2) (View.ld x2 rW2) (View.ld x3 rB2) xs0) ∗ owns (c : Thread nD τ) arg9 fullShare (k2_pay5 (View.ld x0 rA2) (View.ld x1 rA2) (View.ld x2 rW2) (View.ld x3 rB2) xs1)) -∗ K ⟨⟩))
      ⊢ wp frame (wpE (defs₀ (F := F)) Variants.none c none) E (cc2__lin1_kernel i arg1 harg1 arg2 harg2 arg3 harg3 arg4 harg4 arg5 harg5 arg6 harg6 arg7 harg7 arg8 harg8 arg9 harg9) K := by
  simp only [cc2__lin1_kernel_eq_skeleton]; unfold cc2__lin1_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_eq_canon _ _ _ (coverZ2 _)).trans ?_
    simp only [View.readAt_eq_ld, hf0, hf1, hf2, hf3]
  isplitl [H5]
  · iexists _; isplitr
    swap; · iexact H5
    ipureintro
    refine (View.read_writes_eq_canon _ _ _ (coverB2 _ _)).trans ?_
    sl_unfold_run_names
    simp only [View.readCov_unit_zero (S := S1x256) _ hz2, View.readAt_eq_ld, hf0, hf1, hf2, hf3, hfs0, View.ld_unit_zero (S := S1x256) hz2 inb_S1x256_S1x256_0_0 xs0]
  isplitl [H6]
  · iexists _; isplitr
    swap; · iexact H6
    ipureintro
    refine (View.read_writes_eq_canon _ _ _ (coverB2 _ _)).trans ?_
    sl_unfold_run_names
    simp only [View.readCov_unit_zero (S := S1x256) _ hz2, View.readAt_eq_ld, hf0, hf1, hf2, hf3, hfs1, View.ld_unit_zero (S := S1x256) hz2 inb_S1x256_S1x256_0_0 xs1]
  isplitl [HS0]
  · iexists _; isplitr
    swap; · iexact HS0
    ipureintro
    sl_unfold_run_names
    refine (View.read_writes_eq_canon _ _ _ (coverB2 _ _)).trans ?_
    rw [View.canon_unit_zero hz2]
    simp only [View.readAt_eq_ld, hf0, hf1, hf2, hf3, hfs0, View.ld_unit_zero (S := S1x256) hz2 inb_S1x256_S1x256_0_0 xs0]
  · iexists _; isplitr
    swap; · iexact HS1
    ipureintro
    sl_unfold_run_names
    refine (View.read_writes_eq_canon _ _ _ (coverB2 _ _)).trans ?_
    rw [View.canon_unit_zero hz2]
    simp only [View.readAt_eq_ld, hf0, hf1, hf2, hf3, hfs1, View.ld_unit_zero (S := S1x256) hz2 inb_S1x256_S1x256_0_0 xs1]

end Cert.KernelIdeal.Hand

end
-- ==== Proof.KI.Lin2.lean ====
import proofs.«165926_j30305289241327_1_alg».proof.Proof.KI.Lin2b
import proofs.«165926_j30305289241327_1_alg».proof.Proof.KI.Lin2c
import proofs.«165926_j30305289241327_1_alg».proof.Proof.KI.Lin2d

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM2_0 : Memref sig .tc .vmem S1x256 .f32 := Memref.whole cc2_scratch0
noncomputable abbrev scM2_1 : Memref sig .tc .vmem S1x256 .f32 := Memref.whole cc2_scratch1

section Region2

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def zpay2 (c : Dev nD) (t : Fin cfg2.N) : FVec F S2000x256 .f32 :=
  k2_pay3 (View.ld (iblk2 V c 0 t) rA2) (View.ld (iblk2 V c 1 t) rA2) (View.ld (iblk2 V c 2 t) rW2) (View.ld (iblk2 V c 3 t) rB2)

noncomputable def acc2_1 (c : Dev nD) : (n : ℕ) → n < cfg2.N → FVec F S1x256 .f32
  | 0, hn => k2_pay4 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay1 (F := F))
  | n + 1, hn => k2_pay4 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_1 c n (Nat.lt_of_succ_lt hn))

noncomputable def acc2_2 (c : Dev nD) : (n : ℕ) → n < cfg2.N → FVec F S1x256 .f32
  | 0, hn => k2_pay5 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay2 (F := F))
  | n + 1, hn => k2_pay5 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_2 c n (Nat.lt_of_succ_lt hn))

theorem acc2_1_zero (c : Dev nD) (hn : 0 < cfg2.N) :
    acc2_1 V c 0 hn = k2_pay4 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay1 (F := F)) := rfl
theorem acc2_1_succ (c : Dev nD) (n : ℕ) (hn : n + 1 < cfg2.N) :
    acc2_1 V c (n + 1) hn = k2_pay4 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_1 V c n (Nat.lt_of_succ_lt hn)) := rfl
theorem acc2_2_zero (c : Dev nD) (hn : 0 < cfg2.N) :
    acc2_2 V c 0 hn = k2_pay5 (View.ld (iblk2 V c 0 ⟨0, hn⟩) rA2) (View.ld (iblk2 V c 1 ⟨0, hn⟩) rA2) (View.ld (iblk2 V c 2 ⟨0, hn⟩) rW2) (View.ld (iblk2 V c 3 ⟨0, hn⟩) rB2) (k2_pay2 (F := F)) := rfl
theorem acc2_2_succ (c : Dev nD) (n : ℕ) (hn : n + 1 < cfg2.N) :
    acc2_2 V c (n + 1) hn = k2_pay5 (View.ld (iblk2 V c 0 ⟨n + 1, hn⟩) rA2) (View.ld (iblk2 V c 1 ⟨n + 1, hn⟩) rA2) (View.ld (iblk2 V c 2 ⟨n + 1, hn⟩) rW2) (View.ld (iblk2 V c 3 ⟨n + 1, hn⟩) rB2) (acc2_2 V c n (Nat.lt_of_succ_lt hn)) := rfl

noncomputable def Phi2 (c : Dev nD) : (n : ℕ) → n ≤ cfg2.N → sProp 𝕄
  | 0, _ => Pipeline.ΦA spec2 c
  | n + 1, hn => iprop(iprop(iprop(owns (c : Thread nD τ) scM2_0 fullShare (acc2_1 V c n hn) ∗ owns (c : Thread nD τ) scM2_1 fullShare (acc2_2 V c n hn))
      ∗ Pipeline.scopedRestBut (Ix := Unit) (Name := ℕ) (U := UR sig nD τ) (Lvl := ℕ) (Val := Elt F) spec2 c [cc2_scratch0, cc2_scratch1]) ∗ (∃ r, prngReg c r))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => View.canon [⟨rZ2, zpay2 V c t⟩]
    | ⟨5, _⟩ => View.canon [⟨rB2, acc2_1 V c t.val t.isLt⟩]
    | ⟨6, _⟩ => View.canon [⟨rB2, acc2_2 V c t.val t.isLt⟩]
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = View.canon [⟨rZ2, zpay2 V c t⟩] := by dsimp only [dat2]
theorem after2_5 (c : Dev nD) (t : Fin cfg2.N) : (dat2 V c).after 5 t = View.canon [⟨rB2, acc2_1 V c t.val t.isLt⟩] := by dsimp only [dat2]
theorem after2_6 (c : Dev nD) (t : Fin cfg2.N) : (dat2 V c).after 6 t = View.canon [⟨rB2, acc2_2 V c t.val t.isLt⟩] := by dsimp only [dat2]
theorem after2_5_last (c : Dev nD) (h : 49 < cfg2.N) : (dat2 V c).after 5 ⟨49, h⟩ = View.canon [⟨rB2, acc2_1 V c 49 h⟩] := after2_5 V c ⟨49, h⟩
theorem after2_6_last (c : Dev nD) (h : 49 < cfg2.N) : (dat2 V c).after 6 ⟨49, h⟩ = View.canon [⟨rB2, acc2_2 V c 49 h⟩] := after2_6 V c ⟨49, h⟩

theorem dat2_q (c : Dev nD) (w : Fin cfg2.W) : (dat2 V c).q w = fullShare := rfl
theorem dat2_owed (c : Dev nD) (t : Fin (cfg2.N + 1)) : (dat2 V c).owed t = 0 := rfl

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2_1 V c n hn) ∗ owns (c : Thread nD τ) scM2_1 fullShare (acc2_2 V c n hn))
      ∗ Pipeline.scopedRestBut (Ix := Unit) (Name := ℕ) (U := UR sig nD τ) (Lvl := ℕ) (Val := Elt F) spec2 c [cc2_scratch0, cc2_scratch1]) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2_1 V c (n - 1) (by omega)) ∗ owns (c : Thread nD τ) scM2_1 fullShare (acc2_2 V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem Phi2_castSucc (c : Dev nD) (t : Fin cfg2.N) :
    (dat2 V c).Φ t.castSucc = Phi2 V c t.val (Nat.le_of_lt t.isLt) := by
  dsimp only [dat2]; simp only [Fin.coe_castSucc]

theorem Phi2_first (c : Dev nD) : (dat2 V c).Φ 0 = Pipeline.ΦA spec2 c := by
  rw [show (dat2 V c).Φ 0 = Phi2 V c 0 (Nat.zero_le _) from rfl, Phi2_zero V c 0 _ rfl]

theorem Phi2_last (c : Dev nD) : (dat2 V c).Φ (Fin.last cfg2.N) ⊢ Pipeline.ΦA spec2 c := by
  have ht : (Fin.last cfg2.N).val ≠ 0 := by rw [Fin.val_last]; have : cfg2.N = 50 := N_2; omega
  rw [show (dat2 V c).Φ (Fin.last cfg2.N) = Phi2 V c (Fin.last cfg2.N).val (Nat.le_of_lt_succ (Fin.last cfg2.N).isLt) from rfl, Phi2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond2_1 : ∀ t : Fin cfg2.N, cond2_1 (grid2.coords t) ↔ t.val = 0 :=
  (by decide +kernel : ∀ t : Fin grid2.N, cond2_1 (grid2.coords t) ↔ t.val = 0)

theorem hcond2_2 : ∀ t : Fin cfg2.N, cond2_2 (grid2.coords t) ↔ t.val = 49 :=
  (by decide +kernel : ∀ t : Fin grid2.N, cond2_2 (grid2.coords t) ↔ t.val = 49)

theorem idleAt2_5 : ∀ t : Fin cfg2.N, t.val ≠ 49 → cfg2.idle 5 (grid2.coords t) = true := by decide +kernel
theorem idleAt2_6 : ∀ t : Fin cfg2.N, t.val ≠ 49 → cfg2.idle 6 (grid2.coords t) = true := by decide +kernel
theorem noFlush2_5 : ∀ t : Fin cfg2.N, t.val ≠ 49 → (cfg2.win 5).flush t = false := by decide +kernel
theorem noFlush2_6 : ∀ t : Fin cfg2.N, t.val ≠ 49 → (cfg2.win 6).flush t = false := by decide +kernel
theorem liveAt2_5 : ∀ t : Fin cfg2.N, t.val = 49 → cfg2.idle 5 (grid2.coords t) = false := by decide +kernel
theorem liveAt2_6 : ∀ t : Fin cfg2.N, t.val = 49 → cfg2.idle 6 (grid2.coords t) = false := by decide +kernel

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem dat2_recorded (c : Dev nD) (t : Fin (cfg2.N + 1)) : (dat2 V c).recorded t = Set.univ := rfl

theorem acc2_1_first (c : Dev nD) (t : Fin cfg2.N) (h : t.val = 0) :
    acc2_1 V c t.val t.isLt = k2_pay4 (View.ld (iblk2 V c 0 t) rA2) (View.ld (iblk2 V c 1 t) rA2) (View.ld (iblk2 V c 2 t) rW2) (View.ld (iblk2 V c 3 t) rB2) (k2_pay1 (F := F)) := by
  obtain ⟨n, hn⟩ := t
  cases n with
  | zero => rfl
  | succ n => exact absurd h (Nat.succ_ne_zero n)
theorem acc2_2_first (c : Dev nD) (t : Fin cfg2.N) (h : t.val = 0) :
    acc2_2 V c t.val t.isLt = k2_pay5 (View.ld (iblk2 V c 0 t) rA2) (View.ld (iblk2 V c 1 t) rA2) (View.ld (iblk2 V c 2 t) rW2) (View.ld (iblk2 V c 3 t) rB2) (k2_pay2 (F := F)) := by
  obtain ⟨n, hn⟩ := t
  cases n with
  | zero => rfl
  | succ n => exact absurd h (Nat.succ_ne_zero n)
theorem acc2_1_later (c : Dev nD) (t : Fin cfg2.N) (h : t.val ≠ 0) :
    acc2_1 V c t.val t.isLt = k2_pay4 (View.ld (iblk2 V c 0 t) rA2) (View.ld (iblk2 V c 1 t) rA2) (View.ld (iblk2 V c 2 t) rW2) (View.ld (iblk2 V c 3 t) rB2) (acc2_1 V c (t.val - 1) (Nat.lt_of_le_of_lt (Nat.sub_le _ _) t.isLt)) := by
  obtain ⟨n, hn⟩ := t
  cases n with
  | zero => exact absurd rfl h
  | succ n => rfl
theorem acc2_2_later (c : Dev nD) (t : Fin cfg2.N) (h : t.val ≠ 0) :
    acc2_2 V c t.val t.isLt = k2_pay5 (View.ld (iblk2 V c 0 t) rA2) (View.ld (iblk2 V c 1 t) rA2) (View.ld (iblk2 V c 2 t) rW2) (View.ld (iblk2 V c 3 t) rB2) (acc2_2 V c (t.val - 1) (Nat.lt_of_le_of_lt (Nat.sub_le _ _) t.isLt)) := by
  obtain ⟨n, hn⟩ := t
  cases n with
  | zero => exact absurd rfl h
  | succ n => rfl

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  unfold zpay2
  have hN : t.val < 50 := lt_of_lt_of_eq t.isLt (show cfg2.N = 50 from N_2)
  by_cases h0 : t.val = 0
  ·
    have h49 : t.val ≠ 49 := by omega
    rw [Dat.leavesExact_idle (dat2 V c) 5 t (idleAt2_5 t h49) (noFlush2_5 t h49),
      Dat.leavesExact_idle (dat2 V c) 6 t (idleAt2_6 t h49) (noFlush2_6 t h49)]
    rw [Phi2_castSucc V c t, Phi2_zero V c _ _ h0, PhiA2_eq]
    rw [acc2_1_first V c t h0, acc2_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid2.coords t) _ _ _ _ _ _ _ _ _ _ _ _ _ _ _ _ _ _ ((hcond2_1 t).mpr h0) (fun h => h49 ((hcond2_2 t).mp h))
      (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat2 V c).leavesExact 5 t = owns (c : Thread nD τ) (st2_5 t) fullShare ((dat2 V c).after 5 t) from by
        unfold Dat.leavesExact; rw [liveAt2_5 t h49], after2_5]
      rw [show (dat2 V c).leavesExact 6 t = owns (c : Thread nD τ) (st2_6 t) fullShare ((dat2 V c).after 6 t) from by
        unfold Dat.leavesExact; rw [liveAt2_6 t h49], after2_6]
      rw [Phi2_castSucc V c t, Phi2_pos V c _ _ h0]
      rw [acc2_1_later V c t h0, acc2_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid2.coords t) _ _ _ _ _ _ _ _ _ _ _ _ _ _ _ _ _ _ (fun h => h0 ((hcond2_1 t).mp h)) ((hcond2_2 t).mpr h49)
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat2 V c) 5 t (idleAt2_5 t h49) (noFlush2_5 t h49),
        Dat.leavesExact_idle (dat2 V c) 6 t (idleAt2_6 t h49) (noFlush2_6 t h49)]
      rw [Phi2_castSucc V c t, Phi2_pos V c _ _ h0]
      rw [acc2_1_later V c t h0, acc2_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid2.coords t) _ _ _ _ _ _ _ _ _ _ _ _ _ _ _ _ _ _ (fun h => h0 ((hcond2_1 t).mp h)) (fun h => h49 ((hcond2_2 t).mp h))
        (iblk2 V c 0 t) (iblk2 V c 1 t) (iblk2 V c 2 t) (iblk2 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Bn3.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.KI.Bn1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out1_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem dat3_q (c : Dev nD) (w : Fin cfg3.W) : (dat3 V c).q w = fullShare := by dsimp only [dat3]
theorem dat3_owed (c : Dev nD) (t : Fin (cfg3.N + 1)) : (dat3 V c).owed t = 0 := by dsimp only [dat3]
theorem Phi3 (c : Dev nD) (t : Fin (cfg3.N + 1)) : (dat3 V c).Φ t = Pipeline.ΦA spec3 c := by dsimp only [dat3]
theorem dat3_recorded (c : Dev nD) (t : Fin (cfg3.N + 1)) : (dat3 V c).recorded t = Set.univ := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out1_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

theorem cc3_eq : cc3__bn_lin2_kernel (F := F) = cc1__bn_lin2_kernel (F := F) := rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Body

end Cert.KernelIdeal.Hand
-- ==== Proof.KI.Lin4.lean ====
import proofs.«165926_j30305289241327_1_alg».proof.Proof.KI.Lin2b
import proofs.«165926_j30305289241327_1_alg».proof.Proof.KI.Lin2c
import proofs.«165926_j30305289241327_1_alg».proof.Proof.KI.Lin2d

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM4_0 : Memref sig .tc .vmem S1x256 .f32 := Memref.whole cc4_scratch0
noncomputable abbrev scM4_1 : Memref sig .tc .vmem S1x256 .f32 := Memref.whole cc4_scratch1

section Region4

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def zpay4 (c : Dev nD) (t : Fin cfg4.N) : FVec F S2000x256 .f32 :=
  k2_pay3 (View.ld (iblk4 V c 0 t) rA2) (View.ld (iblk4 V c 1 t) rA2) (View.ld (iblk4 V c 2 t) rW2) (View.ld (iblk4 V c 3 t) rB2)

noncomputable def acc4_1 (c : Dev nD) : (n : ℕ) → n < cfg4.N → FVec F S1x256 .f32
  | 0, hn => k2_pay4 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay1 (F := F))
  | n + 1, hn => k2_pay4 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_1 c n (Nat.lt_of_succ_lt hn))

noncomputable def acc4_2 (c : Dev nD) : (n : ℕ) → n < cfg4.N → FVec F S1x256 .f32
  | 0, hn => k2_pay5 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay2 (F := F))
  | n + 1, hn => k2_pay5 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_2 c n (Nat.lt_of_succ_lt hn))

theorem acc4_1_zero (c : Dev nD) (hn : 0 < cfg4.N) :
    acc4_1 V c 0 hn = k2_pay4 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay1 (F := F)) := rfl
theorem acc4_1_succ (c : Dev nD) (n : ℕ) (hn : n + 1 < cfg4.N) :
    acc4_1 V c (n + 1) hn = k2_pay4 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_1 V c n (Nat.lt_of_succ_lt hn)) := rfl
theorem acc4_2_zero (c : Dev nD) (hn : 0 < cfg4.N) :
    acc4_2 V c 0 hn = k2_pay5 (View.ld (iblk4 V c 0 ⟨0, hn⟩) rA2) (View.ld (iblk4 V c 1 ⟨0, hn⟩) rA2) (View.ld (iblk4 V c 2 ⟨0, hn⟩) rW2) (View.ld (iblk4 V c 3 ⟨0, hn⟩) rB2) (k2_pay2 (F := F)) := rfl
theorem acc4_2_succ (c : Dev nD) (n : ℕ) (hn : n + 1 < cfg4.N) :
    acc4_2 V c (n + 1) hn = k2_pay5 (View.ld (iblk4 V c 0 ⟨n + 1, hn⟩) rA2) (View.ld (iblk4 V c 1 ⟨n + 1, hn⟩) rA2) (View.ld (iblk4 V c 2 ⟨n + 1, hn⟩) rW2) (View.ld (iblk4 V c 3 ⟨n + 1, hn⟩) rB2) (acc4_2 V c n (Nat.lt_of_succ_lt hn)) := rfl

noncomputable def Phi4 (c : Dev nD) : (n : ℕ) → n ≤ cfg4.N → sProp 𝕄
  | 0, _ => Pipeline.ΦA spec4 c
  | n + 1, hn => iprop(iprop(iprop(owns (c : Thread nD τ) scM4_0 fullShare (acc4_1 V c n hn) ∗ owns (c : Thread nD τ) scM4_1 fullShare (acc4_2 V c n hn))
      ∗ Pipeline.scopedRestBut (Ix := Unit) (Name := ℕ) (U := UR sig nD τ) (Lvl := ℕ) (Val := Elt F) spec4 c [cc4_scratch0, cc4_scratch1]) ∗ (∃ r, prngReg c r))

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => View.canon [⟨rZ2, zpay4 V c t⟩]
    | ⟨5, _⟩ => View.canon [⟨rB2, acc4_1 V c t.val t.isLt⟩]
    | ⟨6, _⟩ => View.canon [⟨rB2, acc4_2 V c t.val t.isLt⟩]
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = View.canon [⟨rZ2, zpay4 V c t⟩] := by dsimp only [dat4]
theorem after4_5 (c : Dev nD) (t : Fin cfg4.N) : (dat4 V c).after 5 t = View.canon [⟨rB2, acc4_1 V c t.val t.isLt⟩] := by dsimp only [dat4]
theorem after4_6 (c : Dev nD) (t : Fin cfg4.N) : (dat4 V c).after 6 t = View.canon [⟨rB2, acc4_2 V c t.val t.isLt⟩] := by dsimp only [dat4]
theorem after4_5_last (c : Dev nD) (h : 49 < cfg4.N) : (dat4 V c).after 5 ⟨49, h⟩ = View.canon [⟨rB2, acc4_1 V c 49 h⟩] := after4_5 V c ⟨49, h⟩
theorem after4_6_last (c : Dev nD) (h : 49 < cfg4.N) : (dat4 V c).after 6 ⟨49, h⟩ = View.canon [⟨rB2, acc4_2 V c 49 h⟩] := after4_6 V c ⟨49, h⟩

theorem dat4_q (c : Dev nD) (w : Fin cfg4.W) : (dat4 V c).q w = fullShare := rfl
theorem dat4_owed (c : Dev nD) (t : Fin (cfg4.N + 1)) : (dat4 V c).owed t = 0 := rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4_1 V c n hn) ∗ owns (c : Thread nD τ) scM4_1 fullShare (acc4_2 V c n hn))
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4_1 V c (n - 1) (by omega)) ∗ owns (c : Thread nD τ) scM4_1 fullShare (acc4_2 V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := by
  rw [show (dat4 V c).Φ 0 = Phi4 V c 0 (Nat.zero_le _) from rfl, Phi4_zero V c 0 _ rfl]

theorem Phi4_last (c : Dev nD) : (dat4 V c).Φ (Fin.last cfg4.N) ⊢ Pipeline.ΦA spec4 c := by
  have ht : (Fin.last cfg4.N).val ≠ 0 := by rw [Fin.val_last]; have : cfg4.N = 50 := N_4; omega
  rw [show (dat4 V c).Φ (Fin.last cfg4.N) = Phi4 V c (Fin.last cfg4.N).val (Nat.le_of_lt_succ (Fin.last cfg4.N).isLt) from rfl, Phi4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond4_1 : ∀ t : Fin cfg4.N, cond2_1 (grid4.coords t) ↔ t.val = 0 :=
  (by decide +kernel : ∀ t : Fin grid4.N, cond2_1 (grid4.coords t) ↔ t.val = 0)

theorem hcond4_2 : ∀ t : Fin cfg4.N, cond2_2 (grid4.coords t) ↔ t.val = 49 :=
  (by decide +kernel : ∀ t : Fin grid4.N, cond2_2 (grid4.coords t) ↔ t.val = 49)

theorem idleAt4_5 : ∀ t : Fin cfg4.N, t.val ≠ 49 → cfg4.idle 5 (grid4.coords t) = true := by decide +kernel
theorem idleAt4_6 : ∀ t : Fin cfg4.N, t.val ≠ 49 → cfg4.idle 6 (grid4.coords t) = true := by decide +kernel
theorem noFlush4_5 : ∀ t : Fin cfg4.N, t.val ≠ 49 → (cfg4.win 5).flush t = false := by decide +kernel
theorem noFlush4_6 : ∀ t : Fin cfg4.N, t.val ≠ 49 → (cfg4.win 6).flush t = false := by decide +kernel
theorem liveAt4_5 : ∀ t : Fin cfg4.N, t.val = 49 → cfg4.idle 5 (grid4.coords t) = false := by decide +kernel
theorem liveAt4_6 : ∀ t : Fin cfg4.N, t.val = 49 → cfg4.idle 6 (grid4.coords t) = false := by decide +kernel

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem dat4_recorded (c : Dev nD) (t : Fin (cfg4.N + 1)) : (dat4 V c).recorded t = Set.univ := rfl

theorem acc4_1_first (c : Dev nD) (t : Fin cfg4.N) (h : t.val = 0) :
    acc4_1 V c t.val t.isLt = k2_pay4 (View.ld (iblk4 V c 0 t) rA2) (View.ld (iblk4 V c 1 t) rA2) (View.ld (iblk4 V c 2 t) rW2) (View.ld (iblk4 V c 3 t) rB2) (k2_pay1 (F := F)) := by
  obtain ⟨n, hn⟩ := t
  cases n with
  | zero => rfl
  | succ n => exact absurd h (Nat.succ_ne_zero n)
theorem acc4_2_first (c : Dev nD) (t : Fin cfg4.N) (h : t.val = 0) :
    acc4_2 V c t.val t.isLt = k2_pay5 (View.ld (iblk4 V c 0 t) rA2) (View.ld (iblk4 V c 1 t) rA2) (View.ld (iblk4 V c 2 t) rW2) (View.ld (iblk4 V c 3 t) rB2) (k2_pay2 (F := F)) := by
  obtain ⟨n, hn⟩ := t
  cases n with
  | zero => rfl
  | succ n => exact absurd h (Nat.succ_ne_zero n)
theorem acc4_1_later (c : Dev nD) (t : Fin cfg4.N) (h : t.val ≠ 0) :
    acc4_1 V c t.val t.isLt = k2_pay4 (View.ld (iblk4 V c 0 t) rA2) (View.ld (iblk4 V c 1 t) rA2) (View.ld (iblk4 V c 2 t) rW2) (View.ld (iblk4 V c 3 t) rB2) (acc4_1 V c (t.val - 1) (Nat.lt_of_le_of_lt (Nat.sub_le _ _) t.isLt)) := by
  obtain ⟨n, hn⟩ := t
  cases n with
  | zero => exact absurd rfl h
  | succ n => rfl
theorem acc4_2_later (c : Dev nD) (t : Fin cfg4.N) (h : t.val ≠ 0) :
    acc4_2 V c t.val t.isLt = k2_pay5 (View.ld (iblk4 V c 0 t) rA2) (View.ld (iblk4 V c 1 t) rA2) (View.ld (iblk4 V c 2 t) rW2) (View.ld (iblk4 V c 3 t) rB2) (acc4_2 V c (t.val - 1) (Nat.lt_of_le_of_lt (Nat.sub_le _ _) t.isLt)) := by
  obtain ⟨n, hn⟩ := t
  cases n with
  | zero => exact absurd rfl h
  | succ n => rfl

theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
theorem liveAt4_3 (t : Fin cfg4.N) : cfg4.idle 3 (grid4.coords t) = false := rfl
theorem liveAt4_4 (t : Fin cfg4.N) : cfg4.idle 4 (grid4.coords t) = false := rfl

theorem cc4_eq : cc4__lin1_kernel (F := F) = cc2__lin1_kernel (F := F) := rfl

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  unfold zpay4
  have hN : t.val < 50 := lt_of_lt_of_eq t.isLt (show cfg4.N = 50 from N_4)
  by_cases h0 : t.val = 0
  ·
    have h49 : t.val ≠ 49 := by omega
    rw [Dat.leavesExact_idle (dat4 V c) 5 t (idleAt4_5 t h49) (noFlush4_5 t h49),
      Dat.leavesExact_idle (dat4 V c) 6 t (idleAt4_6 t h49) (noFlush4_6 t h49)]
    rw [Phi4_castSucc V c t, Phi4_zero V c _ _ h0, PhiA4_eq]
    rw [acc4_1_first V c t h0, acc4_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid4.coords t) _ _ _ _ _ _ _ _ _ _ _ _ _ _ _ _ _ _ ((hcond4_1 t).mpr h0) (fun h => h49 ((hcond4_2 t).mp h))
      (iblk4 V c 0 t) (iblk4 V c 1 t) (iblk4 V c 2 t) (iblk4 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat4 V c).leavesExact 5 t = owns (c : Thread nD τ) (st4_5 t) fullShare ((dat4 V c).after 5 t) from by
        unfold Dat.leavesExact; rw [liveAt4_5 t h49], after4_5]
      rw [show (dat4 V c).leavesExact 6 t = owns (c : Thread nD τ) (st4_6 t) fullShare ((dat4 V c).after 6 t) from by
        unfold Dat.leavesExact; rw [liveAt4_6 t h49], after4_6]
      rw [Phi4_castSucc V c t, Phi4_pos V c _ _ h0]
      rw [acc4_1_later V c t h0, acc4_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid4.coords t) _ _ _ _ _ _ _ _ _ _ _ _ _ _ _ _ _ _ (fun h => h0 ((hcond4_1 t).mp h)) ((hcond4_2 t).mpr h49)
        (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat4 V c) 5 t (idleAt4_5 t h49) (noFlush4_5 t h49),
        Dat.leavesExact_idle (dat4 V c) 6 t (idleAt4_6 t h49) (noFlush4_6 t h49)]
      rw [Phi4_castSucc V c t, Phi4_pos V c _ _ h0]
      rw [acc4_1_later V c t h0, acc4_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid4.coords t) _ _ _ _ _ _ _ _ _ _ _ _ _ _ _ _ _ _ (fun h => h0 ((hcond4_1 t).mp h)) (fun h => h49 ((hcond4_2 t).mp h))
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Bn5.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.KI.Bn1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out1_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem dat5_q (c : Dev nD) (w : Fin cfg5.W) : (dat5 V c).q w = fullShare := by dsimp only [dat5]
theorem dat5_owed (c : Dev nD) (t : Fin (cfg5.N + 1)) : (dat5 V c).owed t = 0 := by dsimp only [dat5]
theorem Phi5 (c : Dev nD) (t : Fin (cfg5.N + 1)) : (dat5 V c).Φ t = Pipeline.ΦA spec5 c := by dsimp only [dat5]
theorem dat5_recorded (c : Dev nD) (t : Fin (cfg5.N + 1)) : (dat5 V c).recorded t = Set.univ := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out1_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

theorem cc5_eq : cc5__bn_lin2_kernel (F := F) = cc1__bn_lin2_kernel (F := F) := rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Body

end Cert.KernelIdeal.Hand
-- ==== Proof.KI.Lin6.lean ====
import proofs.«165926_j30305289241327_1_alg».proof.Proof.KI.Lin2b
import proofs.«165926_j30305289241327_1_alg».proof.Proof.KI.Lin2c
import proofs.«165926_j30305289241327_1_alg».proof.Proof.KI.Lin2d

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev scM6_0 : Memref sig .tc .vmem S1x256 .f32 := Memref.whole cc6_scratch0
noncomputable abbrev scM6_1 : Memref sig .tc .vmem S1x256 .f32 := Memref.whole cc6_scratch1

section Region6

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def zpay6 (c : Dev nD) (t : Fin cfg6.N) : FVec F S2000x256 .f32 :=
  k2_pay3 (View.ld (iblk6 V c 0 t) rA2) (View.ld (iblk6 V c 1 t) rA2) (View.ld (iblk6 V c 2 t) rW2) (View.ld (iblk6 V c 3 t) rB2)

noncomputable def acc6_1 (c : Dev nD) : (n : ℕ) → n < cfg6.N → FVec F S1x256 .f32
  | 0, hn => k2_pay4 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay1 (F := F))
  | n + 1, hn => k2_pay4 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_1 c n (Nat.lt_of_succ_lt hn))

noncomputable def acc6_2 (c : Dev nD) : (n : ℕ) → n < cfg6.N → FVec F S1x256 .f32
  | 0, hn => k2_pay5 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay2 (F := F))
  | n + 1, hn => k2_pay5 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_2 c n (Nat.lt_of_succ_lt hn))

theorem acc6_1_zero (c : Dev nD) (hn : 0 < cfg6.N) :
    acc6_1 V c 0 hn = k2_pay4 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay1 (F := F)) := rfl
theorem acc6_1_succ (c : Dev nD) (n : ℕ) (hn : n + 1 < cfg6.N) :
    acc6_1 V c (n + 1) hn = k2_pay4 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_1 V c n (Nat.lt_of_succ_lt hn)) := rfl
theorem acc6_2_zero (c : Dev nD) (hn : 0 < cfg6.N) :
    acc6_2 V c 0 hn = k2_pay5 (View.ld (iblk6 V c 0 ⟨0, hn⟩) rA2) (View.ld (iblk6 V c 1 ⟨0, hn⟩) rA2) (View.ld (iblk6 V c 2 ⟨0, hn⟩) rW2) (View.ld (iblk6 V c 3 ⟨0, hn⟩) rB2) (k2_pay2 (F := F)) := rfl
theorem acc6_2_succ (c : Dev nD) (n : ℕ) (hn : n + 1 < cfg6.N) :
    acc6_2 V c (n + 1) hn = k2_pay5 (View.ld (iblk6 V c 0 ⟨n + 1, hn⟩) rA2) (View.ld (iblk6 V c 1 ⟨n + 1, hn⟩) rA2) (View.ld (iblk6 V c 2 ⟨n + 1, hn⟩) rW2) (View.ld (iblk6 V c 3 ⟨n + 1, hn⟩) rB2) (acc6_2 V c n (Nat.lt_of_succ_lt hn)) := rfl

noncomputable def Phi6 (c : Dev nD) : (n : ℕ) → n ≤ cfg6.N → sProp 𝕄
  | 0, _ => Pipeline.ΦA spec6 c
  | n + 1, hn => iprop(iprop(iprop(owns (c : Thread nD τ) scM6_0 fullShare (acc6_1 V c n hn) ∗ owns (c : Thread nD τ) scM6_1 fullShare (acc6_2 V c n hn))
      ∗ Pipeline.scopedRestBut (Ix := Unit) (Name := ℕ) (U := UR sig nD τ) (Lvl := ℕ) (Val := Elt F) spec6 c [cc6_scratch0, cc6_scratch1]) ∗ (∃ r, prngReg c r))

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => View.canon [⟨rZ2, zpay6 V c t⟩]
    | ⟨5, _⟩ => View.canon [⟨rB2, acc6_1 V c t.val t.isLt⟩]
    | ⟨6, _⟩ => View.canon [⟨rB2, acc6_2 V c t.val t.isLt⟩]
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = View.canon [⟨rZ2, zpay6 V c t⟩] := by dsimp only [dat6]
theorem after6_5 (c : Dev nD) (t : Fin cfg6.N) : (dat6 V c).after 5 t = View.canon [⟨rB2, acc6_1 V c t.val t.isLt⟩] := by dsimp only [dat6]
theorem after6_6 (c : Dev nD) (t : Fin cfg6.N) : (dat6 V c).after 6 t = View.canon [⟨rB2, acc6_2 V c t.val t.isLt⟩] := by dsimp only [dat6]
theorem after6_5_last (c : Dev nD) (h : 49 < cfg6.N) : (dat6 V c).after 5 ⟨49, h⟩ = View.canon [⟨rB2, acc6_1 V c 49 h⟩] := after6_5 V c ⟨49, h⟩
theorem after6_6_last (c : Dev nD) (h : 49 < cfg6.N) : (dat6 V c).after 6 ⟨49, h⟩ = View.canon [⟨rB2, acc6_2 V c 49 h⟩] := after6_6 V c ⟨49, h⟩

theorem dat6_q (c : Dev nD) (w : Fin cfg6.W) : (dat6 V c).q w = fullShare := rfl
theorem dat6_owed (c : Dev nD) (t : Fin (cfg6.N + 1)) : (dat6 V c).owed t = 0 := rfl

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(iprop(owns (c : Thread nD τ) scM6_0 fullShare (acc6_1 V c n hn) ∗ owns (c : Thread nD τ) scM6_1 fullShare (acc6_2 V c n hn))
      ∗ Pipeline.scopedRestBut (Ix := Unit) (Name := ℕ) (U := UR sig nD τ) (Lvl := ℕ) (Val := Elt F) spec6 c [cc6_scratch0, cc6_scratch1]) ∗ (∃ r, prngReg c r)) := rfl

theorem Phi6_pos (c : Dev nD) (n : ℕ) (h : n ≤ cfg6.N) (hz : n ≠ 0) :
    Phi6 V c n h = iprop(iprop(iprop(owns (c : Thread nD τ) scM6_0 fullShare (acc6_1 V c (n - 1) (by omega)) ∗ owns (c : Thread nD τ) scM6_1 fullShare (acc6_2 V c (n - 1) (by omega)))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

theorem Phi6_castSucc (c : Dev nD) (t : Fin cfg6.N) :
    (dat6 V c).Φ t.castSucc = Phi6 V c t.val (Nat.le_of_lt t.isLt) := by
  dsimp only [dat6]; simp only [Fin.coe_castSucc]

theorem Phi6_first (c : Dev nD) : (dat6 V c).Φ 0 = Pipeline.ΦA spec6 c := by
  rw [show (dat6 V c).Φ 0 = Phi6 V c 0 (Nat.zero_le _) from rfl, Phi6_zero V c 0 _ rfl]

theorem Phi6_last (c : Dev nD) : (dat6 V c).Φ (Fin.last cfg6.N) ⊢ Pipeline.ΦA spec6 c := by
  have ht : (Fin.last cfg6.N).val ≠ 0 := by rw [Fin.val_last]; have : cfg6.N = 50 := N_6; omega
  rw [show (dat6 V c).Φ (Fin.last cfg6.N) = Phi6 V c (Fin.last cfg6.N).val (Nat.le_of_lt_succ (Fin.last cfg6.N).isLt) from rfl, Phi6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hcond6_1 : ∀ t : Fin cfg6.N, cond2_1 (grid6.coords t) ↔ t.val = 0 :=
  (by decide +kernel : ∀ t : Fin grid6.N, cond2_1 (grid6.coords t) ↔ t.val = 0)

theorem hcond6_2 : ∀ t : Fin cfg6.N, cond2_2 (grid6.coords t) ↔ t.val = 49 :=
  (by decide +kernel : ∀ t : Fin grid6.N, cond2_2 (grid6.coords t) ↔ t.val = 49)

theorem idleAt6_5 : ∀ t : Fin cfg6.N, t.val ≠ 49 → cfg6.idle 5 (grid6.coords t) = true := by decide +kernel
theorem idleAt6_6 : ∀ t : Fin cfg6.N, t.val ≠ 49 → cfg6.idle 6 (grid6.coords t) = true := by decide +kernel
theorem noFlush6_5 : ∀ t : Fin cfg6.N, t.val ≠ 49 → (cfg6.win 5).flush t = false := by decide +kernel
theorem noFlush6_6 : ∀ t : Fin cfg6.N, t.val ≠ 49 → (cfg6.win 6).flush t = false := by decide +kernel
theorem liveAt6_5 : ∀ t : Fin cfg6.N, t.val = 49 → cfg6.idle 5 (grid6.coords t) = false := by decide +kernel
theorem liveAt6_6 : ∀ t : Fin cfg6.N, t.val = 49 → cfg6.idle 6 (grid6.coords t) = false := by decide +kernel

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

theorem dat6_recorded (c : Dev nD) (t : Fin (cfg6.N + 1)) : (dat6 V c).recorded t = Set.univ := rfl

theorem acc6_1_first (c : Dev nD) (t : Fin cfg6.N) (h : t.val = 0) :
    acc6_1 V c t.val t.isLt = k2_pay4 (View.ld (iblk6 V c 0 t) rA2) (View.ld (iblk6 V c 1 t) rA2) (View.ld (iblk6 V c 2 t) rW2) (View.ld (iblk6 V c 3 t) rB2) (k2_pay1 (F := F)) := by
  obtain ⟨n, hn⟩ := t
  cases n with
  | zero => rfl
  | succ n => exact absurd h (Nat.succ_ne_zero n)
theorem acc6_2_first (c : Dev nD) (t : Fin cfg6.N) (h : t.val = 0) :
    acc6_2 V c t.val t.isLt = k2_pay5 (View.ld (iblk6 V c 0 t) rA2) (View.ld (iblk6 V c 1 t) rA2) (View.ld (iblk6 V c 2 t) rW2) (View.ld (iblk6 V c 3 t) rB2) (k2_pay2 (F := F)) := by
  obtain ⟨n, hn⟩ := t
  cases n with
  | zero => rfl
  | succ n => exact absurd h (Nat.succ_ne_zero n)
theorem acc6_1_later (c : Dev nD) (t : Fin cfg6.N) (h : t.val ≠ 0) :
    acc6_1 V c t.val t.isLt = k2_pay4 (View.ld (iblk6 V c 0 t) rA2) (View.ld (iblk6 V c 1 t) rA2) (View.ld (iblk6 V c 2 t) rW2) (View.ld (iblk6 V c 3 t) rB2) (acc6_1 V c (t.val - 1) (Nat.lt_of_le_of_lt (Nat.sub_le _ _) t.isLt)) := by
  obtain ⟨n, hn⟩ := t
  cases n with
  | zero => exact absurd rfl h
  | succ n => rfl
theorem acc6_2_later (c : Dev nD) (t : Fin cfg6.N) (h : t.val ≠ 0) :
    acc6_2 V c t.val t.isLt = k2_pay5 (View.ld (iblk6 V c 0 t) rA2) (View.ld (iblk6 V c 1 t) rA2) (View.ld (iblk6 V c 2 t) rW2) (View.ld (iblk6 V c 3 t) rB2) (acc6_2 V c (t.val - 1) (Nat.lt_of_le_of_lt (Nat.sub_le _ _) t.isLt)) := by
  obtain ⟨n, hn⟩ := t
  cases n with
  | zero => exact absurd rfl h
  | succ n => rfl

theorem liveAt6_0 (t : Fin cfg6.N) : cfg6.idle 0 (grid6.coords t) = false := rfl
theorem liveAt6_1 (t : Fin cfg6.N) : cfg6.idle 1 (grid6.coords t) = false := rfl
theorem liveAt6_2 (t : Fin cfg6.N) : cfg6.idle 2 (grid6.coords t) = false := rfl
theorem liveAt6_3 (t : Fin cfg6.N) : cfg6.idle 3 (grid6.coords t) = false := rfl
theorem liveAt6_4 (t : Fin cfg6.N) : cfg6.idle 4 (grid6.coords t) = false := rfl

theorem cc6_eq : cc6__lin1_kernel (F := F) = cc2__lin1_kernel (F := F) := rfl

noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1, before6_2, before6_3]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  unfold zpay6
  have hN : t.val < 50 := lt_of_lt_of_eq t.isLt (show cfg6.N = 50 from N_6)
  by_cases h0 : t.val = 0
  ·
    have h49 : t.val ≠ 49 := by omega
    rw [Dat.leavesExact_idle (dat6 V c) 5 t (idleAt6_5 t h49) (noFlush6_5 t h49),
      Dat.leavesExact_idle (dat6 V c) 6 t (idleAt6_6 t h49) (noFlush6_6 t h49)]
    rw [Phi6_castSucc V c t, Phi6_zero V c _ _ h0, PhiA6_eq]
    rw [acc6_1_first V c t h0, acc6_2_first V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel2_A c Set.univ (grid6.coords t) _ _ _ _ _ _ _ _ _ _ _ _ _ _ _ _ _ _ ((hcond6_1 t).mpr h0) (fun h => h49 ((hcond6_2 t).mp h))
      (iblk6 V c 0 t) (iblk6 V c 1 t) (iblk6 V c 2 t) (iblk6 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        · iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h49 : t.val = 49
    ·
      rw [show (dat6 V c).leavesExact 5 t = owns (c : Thread nD τ) (st6_5 t) fullShare ((dat6 V c).after 5 t) from by
        unfold Dat.leavesExact; rw [liveAt6_5 t h49], after6_5]
      rw [show (dat6 V c).leavesExact 6 t = owns (c : Thread nD τ) (st6_6 t) fullShare ((dat6 V c).after 6 t) from by
        unfold Dat.leavesExact; rw [liveAt6_6 t h49], after6_6]
      rw [Phi6_castSucc V c t, Phi6_pos V c _ _ h0]
      rw [acc6_1_later V c t h0, acc6_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_C c Set.univ (grid6.coords t) _ _ _ _ _ _ _ _ _ _ _ _ _ _ _ _ _ _ (fun h => h0 ((hcond6_1 t).mp h)) ((hcond6_2 t).mpr h49)
        (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat6 V c) 5 t (idleAt6_5 t h49) (noFlush6_5 t h49),
        Dat.leavesExact_idle (dat6 V c) 6 t (idleAt6_6 t h49) (noFlush6_6 t h49)]
      rw [Phi6_castSucc V c t, Phi6_pos V c _ _ h0]
      rw [acc6_1_later V c t h0, acc6_2_later V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel2_B c Set.univ (grid6.coords t) _ _ _ _ _ _ _ _ _ _ _ _ _ _ _ _ _ _ (fun h => h0 ((hcond6_1 t).mp h)) (fun h => h49 ((hcond6_2 t).mp h))
        (iblk6 V c 0 t) (iblk6 V c 1 t) (iblk6 V c 2 t) (iblk6 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          · iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.Bn7.lean ====
import proofs.«165926_j30305289241327_1_alg».proof.Proof.Gen.KernelIdeal.Launch
import proofs.«165926_j30305289241327_1_alg».proof.Proof.Gen.KernelIdeal.Skeleton
import proofs.«165926_j30305289241327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«165926_j30305289241327_1_alg».proof.Proof.KI.Bn1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out1_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem dat7_q (c : Dev nD) (w : Fin cfg7.W) : (dat7 V c).q w = fullShare := by dsimp only [dat7]
theorem dat7_owed (c : Dev nD) (t : Fin (cfg7.N + 1)) : (dat7 V c).owed t = 0 := by dsimp only [dat7]
theorem Phi7 (c : Dev nD) (t : Fin (cfg7.N + 1)) : (dat7 V c).Φ t = Pipeline.ΦA spec7 c := by dsimp only [dat7]
theorem dat7_recorded (c : Dev nD) (t : Fin (cfg7.N + 1)) : (dat7 V c).recorded t = Set.univ := by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out1_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

theorem cc7_eq : cc7__bn_lin2_kernel (F := F) = cc1__bn_lin2_kernel (F := F) := rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Body

end Cert.KernelIdeal.Hand
-- ==== Proof.KI.Regions8.lean ====
import proofs.«165926_j30305289241327_1_alg».proof.Proof.KI.Lin0
import proofs.«165926_j30305289241327_1_alg».proof.Proof.KI.Bn1
import proofs.«165926_j30305289241327_1_alg».proof.Proof.KI.Lin2
import proofs.«165926_j30305289241327_1_alg».proof.Proof.KI.Bn3
import proofs.«165926_j30305289241327_1_alg».proof.Proof.KI.Lin4
import proofs.«165926_j30305289241327_1_alg».proof.Proof.KI.Bn5
import proofs.«165926_j30305289241327_1_alg».proof.Proof.KI.Lin6
import proofs.«165926_j30305289241327_1_alg».proof.Proof.KI.Bn7

noncomputable section

namespace Cert.KernelIdeal.Hand

open Cert.KernelIdeal Idealize.ShloMosaic Idealize.ShloMosaic.TcCoe Idealize.SL.Sem

abbrev EntryV (F : FTy → Type) [FloatOps F] : Type :=
  (c : Dev nD) → (b : Ref sig .tc) → Buf (Elt F) ((c : Thread nD τ).loc b)

end Cert.KernelIdeal.Hand

end
-- ==== Proof.KI.Chain.lean ====
import proofs.«165926_j30305289241327_1_alg».proof.Proof.Gen.KernelIdeal.Regions
import proofs.«165926_j30305289241327_1_alg».proof.Proof.KI.Regions8
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 1888

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

def W1 (c : Dev nD) : Valuation τ sig (Elt F) := V1 m c

abbrev ent0 : EntryV F := fun c b => W1 m c b

def W2 (c : Dev nD) : Valuation τ sig (Elt F) :=
  Function.update (Function.update (Function.update (W1 m c) main_v30_0 ((dat0 (ent0 m) c).arrAt 4 cfg0.N)) main_v30_1 ((dat0 (ent0 m) c).arrAt 5 cfg0.N)) main_v30_2 ((dat0 (ent0 m) c).arrAt 6 cfg0.N)

def W3 (c : Dev nD) : Valuation τ sig (Elt F) := StableHlo.after hostOps1 (W2 m c)

abbrev ent1 : EntryV F := fun c b => W3 m c b

def W4 (c : Dev nD) : Valuation τ sig (Elt F) :=
  Function.update (W3 m c) main_v52 ((dat1 (ent1 m) c).arrAt 7 cfg1.N)

def W5 (c : Dev nD) : Valuation τ sig (Elt F) := StableHlo.after hostOps2 (W4 m c)

abbrev ent2 : EntryV F := fun c b => W5 m c b

def W6 (c : Dev nD) : Valuation τ sig (Elt F) :=
  Function.update (Function.update (Function.update (W5 m c) main_v71_0 ((dat2 (ent2 m) c).arrAt 4 cfg2.N)) main_v71_1 ((dat2 (ent2 m) c).arrAt 5 cfg2.N)) main_v71_2 ((dat2 (ent2 m) c).arrAt 6 cfg2.N)

def W7 (c : Dev nD) : Valuation τ sig (Elt F) := StableHlo.after hostOps3 (W6 m c)

abbrev ent3 : EntryV F := fun c b => W7 m c b

def W8 (c : Dev nD) : Valuation τ sig (Elt F) :=
  Function.update (W7 m c) main_v93 ((dat3 (ent3 m) c).arrAt 7 cfg3.N)

def W9 (c : Dev nD) : Valuation τ sig (Elt F) := StableHlo.after hostOps4 (W8 m c)

abbrev ent4 : EntryV F := fun c b => W9 m c b

def W10 (c : Dev nD) : Valuation τ sig (Elt F) :=
  Function.update (Function.update (Function.update (W9 m c) main_v112_0 ((dat4 (ent4 m) c).arrAt 4 cfg4.N)) main_v112_1 ((dat4 (ent4 m) c).arrAt 5 cfg4.N)) main_v112_2 ((dat4 (ent4 m) c).arrAt 6 cfg4.N)

def W11 (c : Dev nD) : Valuation τ sig (Elt F) := StableHlo.after hostOps5 (W10 m c)

abbrev ent5 : EntryV F := fun c b => W11 m c b

def W12 (c : Dev nD) : Valuation τ sig (Elt F) :=
  Function.update (W11 m c) main_v134 ((dat5 (ent5 m) c).arrAt 7 cfg5.N)

def W13 (c : Dev nD) : Valuation τ sig (Elt F) := StableHlo.after hostOps6 (W12 m c)

abbrev ent6 : EntryV F := fun c b => W13 m c b

def W14 (c : Dev nD) : Valuation τ sig (Elt F) :=
  Function.update (Function.update (Function.update (W13 m c) main_v153_0 ((dat6 (ent6 m) c).arrAt 4 cfg6.N)) main_v153_1 ((dat6 (ent6 m) c).arrAt 5 cfg6.N)) main_v153_2 ((dat6 (ent6 m) c).arrAt 6 cfg6.N)

def W15 (c : Dev nD) : Valuation τ sig (Elt F) := StableHlo.after hostOps7 (W14 m c)

abbrev ent7 : EntryV F := fun c b => W15 m c b

def W16 (c : Dev nD) : Valuation τ sig (Elt F) :=
  Function.update (W15 m c) main_v175 ((dat7 (ent7 m) c).arrAt 7 cfg7.N)

def W17 (c : Dev nD) : Valuation τ sig (Elt F) := StableHlo.after hostOps8 (W16 m c)

def W18 (c : Dev nD) : Valuation τ sig (Elt F) := StableHlo.after hostOps8_1 (W17 m c)

theorem update3_at0 {α : Type} [DecidableEq α] {β : α → Type} (f : ∀ a, β a) {a b c : α} (hab : a ≠ b) (hac : a ≠ c)
    (x : β a) (y : β b) (z : β c) :
    Function.update (Function.update (Function.update f a x) b y) c z a = x := by
  rw [Function.update_of_ne hac, Function.update_of_ne hab, Function.update_self]

theorem update3_at1 {α : Type} [DecidableEq α] {β : α → Type} (f : ∀ a, β a) {a b c : α} (hbc : b ≠ c)
    (x : β a) (y : β b) (z : β c) :
    Function.update (Function.update (Function.update f a x) b y) c z b = y := by
  rw [Function.update_of_ne hbc, Function.update_self]

theorem update3_of_ne {α : Type} [DecidableEq α] {β : α → Type} (f : ∀ a, β a) {a b c d : α} (hda : d ≠ a) (hdb : d ≠ b) (hdc : d ≠ c)
    (x : β a) (y : β b) (z : β c) :
    Function.update (Function.update (Function.update f a x) b y) c z d = f d := by
  rw [Function.update_of_ne hdc, Function.update_of_ne hdb, Function.update_of_ne hda]

theorem update3_congr {α : Type} [DecidableEq α] {β : α → Type} {f g : ∀ a, β a} (a b c : α) {x x' : β a} {y y' : β b} {z z' : β c}
    (hf : f = g) (hx : x = x') (hy : y = y') (hz : z = z') :
    Function.update (Function.update (Function.update f a x) b y) c z
      = Function.update (Function.update (Function.update g a x') b y') c z' := by
  subst hf hx hy hz; rfl

theorem update1_congr {α : Type} [DecidableEq α] {β : α → Type} {f g : ∀ a, β a} (a : α) {x x' : β a}
    (hf : f = g) (hx : x = x') : Function.update f a x = Function.update g a x' := by
  subst hf hx; rfl

theorem W2_at0 (c : Dev nD) : W2 m c main_v30_0 = (dat0 (ent0 m) c).arrAt 4 cfg0.N :=
  (congrFun (W2.eq_1 m c) _).trans (update3_at0 (W1 m c) (StableHlo.devRef_ne_of_ne (by decide)) (StableHlo.devRef_ne_of_ne (by decide)) _ _ _)
theorem W2_at1 (c : Dev nD) : W2 m c main_v30_1 = (dat0 (ent0 m) c).arrAt 5 cfg0.N :=
  (congrFun (W2.eq_1 m c) _).trans (update3_at1 (W1 m c) (StableHlo.devRef_ne_of_ne (by decide)) _ _ _)
theorem W2_at2 (c : Dev nD) : W2 m c main_v30_2 = (dat0 (ent0 m) c).arrAt 6 cfg0.N :=
  (congrFun (W2.eq_1 m c) _).trans (Function.update_self _ _ _)
theorem W2_of_ne (c : Dev nD) (b : Ref sig .tc) (h0 : b ≠ main_v30_0) (h1 : b ≠ main_v30_1) (h2 : b ≠ main_v30_2) : W2 m c b = W1 m c b :=
  (congrFun (W2.eq_1 m c) _).trans (update3_of_ne (W1 m c) (StableHlo.devRef_ne_of_ne h0) (StableHlo.devRef_ne_of_ne h1) (StableHlo.devRef_ne_of_ne h2) _ _ _)
theorem W4_at (c : Dev nD) : W4 m c main_v52 = (dat1 (ent1 m) c).arrAt 7 cfg1.N :=
  (congrFun (W4.eq_1 m c) _).trans (Function.update_self _ _ _)
theorem W4_of_ne (c : Dev nD) (b : Ref sig .tc) (h0 : b ≠ main_v52) : W4 m c b = W3 m c b :=
  (congrFun (W4.eq_1 m c) _).trans (Function.update_of_ne (StableHlo.devRef_ne_of_ne h0) _ _)
theorem W6_at0 (c : Dev nD) : W6 m c main_v71_0 = (dat2 (ent2 m) c).arrAt 4 cfg2.N :=
  (congrFun (W6.eq_1 m c) _).trans (update3_at0 (W5 m c) (StableHlo.devRef_ne_of_ne (by decide)) (StableHlo.devRef_ne_of_ne (by decide)) _ _ _)
theorem W6_at1 (c : Dev nD) : W6 m c main_v71_1 = (dat2 (ent2 m) c).arrAt 5 cfg2.N :=
  (congrFun (W6.eq_1 m c) _).trans (update3_at1 (W5 m c) (StableHlo.devRef_ne_of_ne (by decide)) _ _ _)
theorem W6_at2 (c : Dev nD) : W6 m c main_v71_2 = (dat2 (ent2 m) c).arrAt 6 cfg2.N :=
  (congrFun (W6.eq_1 m c) _).trans (Function.update_self _ _ _)
theorem W6_of_ne (c : Dev nD) (b : Ref sig .tc) (h0 : b ≠ main_v71_0) (h1 : b ≠ main_v71_1) (h2 : b ≠ main_v71_2) : W6 m c b = W5 m c b :=
  (congrFun (W6.eq_1 m c) _).trans (update3_of_ne (W5 m c) (StableHlo.devRef_ne_of_ne h0) (StableHlo.devRef_ne_of_ne h1) (StableHlo.devRef_ne_of_ne h2) _ _ _)
theorem W8_at (c : Dev nD) : W8 m c main_v93 = (dat3 (ent3 m) c).arrAt 7 cfg3.N :=
  (congrFun (W8.eq_1 m c) _).trans (Function.update_self _ _ _)
theorem W8_of_ne (c : Dev nD) (b : Ref sig .tc) (h0 : b ≠ main_v93) : W8 m c b = W7 m c b :=
  (congrFun (W8.eq_1 m c) _).trans (Function.update_of_ne (StableHlo.devRef_ne_of_ne h0) _ _)
theorem W10_at0 (c : Dev nD) : W10 m c main_v112_0 = (dat4 (ent4 m) c).arrAt 4 cfg4.N :=
  (congrFun (W10.eq_1 m c) _).trans (update3_at0 (W9 m c) (StableHlo.devRef_ne_of_ne (by decide)) (StableHlo.devRef_ne_of_ne (by decide)) _ _ _)
theorem W10_at1 (c : Dev nD) : W10 m c main_v112_1 = (dat4 (ent4 m) c).arrAt 5 cfg4.N :=
  (congrFun (W10.eq_1 m c) _).trans (update3_at1 (W9 m c) (StableHlo.devRef_ne_of_ne (by decide)) _ _ _)
theorem W10_at2 (c : Dev nD) : W10 m c main_v112_2 = (dat4 (ent4 m) c).arrAt 6 cfg4.N :=
  (congrFun (W10.eq_1 m c) _).trans (Function.update_self _ _ _)
theorem W10_of_ne (c : Dev nD) (b : Ref sig .tc) (h0 : b ≠ main_v112_0) (h1 : b ≠ main_v112_1) (h2 : b ≠ main_v112_2) : W10 m c b = W9 m c b :=
  (congrFun (W10.eq_1 m c) _).trans (update3_of_ne (W9 m c) (StableHlo.devRef_ne_of_ne h0) (StableHlo.devRef_ne_of_ne h1) (StableHlo.devRef_ne_of_ne h2) _ _ _)
theorem W12_at (c : Dev nD) : W12 m c main_v134 = (dat5 (ent5 m) c).arrAt 7 cfg5.N :=
  (congrFun (W12.eq_1 m c) _).trans (Function.update_self _ _ _)
theorem W12_of_ne (c : Dev nD) (b : Ref sig .tc) (h0 : b ≠ main_v134) : W12 m c b = W11 m c b :=
  (congrFun (W12.eq_1 m c) _).trans (Function.update_of_ne (StableHlo.devRef_ne_of_ne h0) _ _)
theorem W14_at0 (c : Dev nD) : W14 m c main_v153_0 = (dat6 (ent6 m) c).arrAt 4 cfg6.N :=
  (congrFun (W14.eq_1 m c) _).trans (update3_at0 (W13 m c) (StableHlo.devRef_ne_of_ne (by decide)) (StableHlo.devRef_ne_of_ne (by decide)) _ _ _)
theorem W14_at1 (c : Dev nD) : W14 m c main_v153_1 = (dat6 (ent6 m) c).arrAt 5 cfg6.N :=
  (congrFun (W14.eq_1 m c) _).trans (update3_at1 (W13 m c) (StableHlo.devRef_ne_of_ne (by decide)) _ _ _)
theorem W14_at2 (c : Dev nD) : W14 m c main_v153_2 = (dat6 (ent6 m) c).arrAt 6 cfg6.N :=
  (congrFun (W14.eq_1 m c) _).trans (Function.update_self _ _ _)
theorem W14_of_ne (c : Dev nD) (b : Ref sig .tc) (h0 : b ≠ main_v153_0) (h1 : b ≠ main_v153_1) (h2 : b ≠ main_v153_2) : W14 m c b = W13 m c b :=
  (congrFun (W14.eq_1 m c) _).trans (update3_of_ne (W13 m c) (StableHlo.devRef_ne_of_ne h0) (StableHlo.devRef_ne_of_ne h1) (StableHlo.devRef_ne_of_ne h2) _ _ _)
theorem W16_at (c : Dev nD) : W16 m c main_v175 = (dat7 (ent7 m) c).arrAt 7 cfg7.N :=
  (congrFun (W16.eq_1 m c) _).trans (Function.update_self _ _ _)
theorem W16_of_ne (c : Dev nD) (b : Ref sig .tc) (h0 : b ≠ main_v175) : W16 m c b = W15 m c b :=
  (congrFun (W16.eq_1 m c) _).trans (Function.update_of_ne (StableHlo.devRef_ne_of_ne h0) _ _)

def outsK : Outs (F := F) := fun J r c =>
  if J = 2 then W2 m c r else if J = 4 then W4 m c r else if J = 6 then W6 m c r else if J = 8 then W8 m c r else if J = 10 then W10 m c r else if J = 12 then W12 m c r else if J = 14 then W14 m c r else W16 m c r

theorem outsK_at2 (r : Ref sig .tc) (c : Dev nD) : outsK m 2 r c = W2 m c r := by unfold outsK; rw [if_pos rfl]
theorem outsK_at4 (r : Ref sig .tc) (c : Dev nD) : outsK m 4 r c = W4 m c r := by unfold outsK; rw [if_neg (by decide), if_pos rfl]
theorem outsK_at6 (r : Ref sig .tc) (c : Dev nD) : outsK m 6 r c = W6 m c r := by unfold outsK; rw [if_neg (by decide), if_neg (by decide), if_pos rfl]
theorem outsK_at8 (r : Ref sig .tc) (c : Dev nD) : outsK m 8 r c = W8 m c r := by unfold outsK; rw [if_neg (by decide), if_neg (by decide), if_neg (by decide), if_pos rfl]
theorem outsK_at10 (r : Ref sig .tc) (c : Dev nD) : outsK m 10 r c = W10 m c r := by unfold outsK; rw [if_neg (by decide), if_neg (by decide), if_neg (by decide), if_neg (by decide), if_pos rfl]
theorem outsK_at12 (r : Ref sig .tc) (c : Dev nD) : outsK m 12 r c = W12 m c r := by unfold outsK; rw [if_neg (by decide), if_neg (by decide), if_neg (by decide), if_neg (by decide), if_neg (by decide), if_pos rfl]
theorem outsK_at14 (r : Ref sig .tc) (c : Dev nD) : outsK m 14 r c = W14 m c r := by unfold outsK; rw [if_neg (by decide), if_neg (by decide), if_neg (by decide), if_neg (by decide), if_neg (by decide), if_neg (by decide), if_pos rfl]
theorem outsK_at16 (r : Ref sig .tc) (c : Dev nD) : outsK m 16 r c = W16 m c r := by unfold outsK; rw [if_neg (by decide), if_neg (by decide), if_neg (by decide), if_neg (by decide), if_neg (by decide), if_neg (by decide), if_neg (by decide)]
theorem outsK_2_0 (c : Dev nD) : outsK m 2 main_v30_0 c = (dat0 (ent0 m) c).arrAt 4 cfg0.N := (outsK_at2 m _ c).trans (W2_at0 m c)
theorem outsK_2_1 (c : Dev nD) : outsK m 2 main_v30_1 c = (dat0 (ent0 m) c).arrAt 5 cfg0.N := (outsK_at2 m _ c).trans (W2_at1 m c)
theorem outsK_2_2 (c : Dev nD) : outsK m 2 main_v30_2 c = (dat0 (ent0 m) c).arrAt 6 cfg0.N := (outsK_at2 m _ c).trans (W2_at2 m c)
theorem outsK_4 (c : Dev nD) : outsK m 4 main_v52 c = (dat1 (ent1 m) c).arrAt 7 cfg1.N := (outsK_at4 m _ c).trans (W4_at m c)
theorem outsK_6_0 (c : Dev nD) : outsK m 6 main_v71_0 c = (dat2 (ent2 m) c).arrAt 4 cfg2.N := (outsK_at6 m _ c).trans (W6_at0 m c)
theorem outsK_6_1 (c : Dev nD) : outsK m 6 main_v71_1 c = (dat2 (ent2 m) c).arrAt 5 cfg2.N := (outsK_at6 m _ c).trans (W6_at1 m c)
theorem outsK_6_2 (c : Dev nD) : outsK m 6 main_v71_2 c = (dat2 (ent2 m) c).arrAt 6 cfg2.N := (outsK_at6 m _ c).trans (W6_at2 m c)
theorem outsK_8 (c : Dev nD) : outsK m 8 main_v93 c = (dat3 (ent3 m) c).arrAt 7 cfg3.N := (outsK_at8 m _ c).trans (W8_at m c)
theorem outsK_10_0 (c : Dev nD) : outsK m 10 main_v112_0 c = (dat4 (ent4 m) c).arrAt 4 cfg4.N := (outsK_at10 m _ c).trans (W10_at0 m c)
theorem outsK_10_1 (c : Dev nD) : outsK m 10 main_v112_1 c = (dat4 (ent4 m) c).arrAt 5 cfg4.N := (outsK_at10 m _ c).trans (W10_at1 m c)
theorem outsK_10_2 (c : Dev nD) : outsK m 10 main_v112_2 c = (dat4 (ent4 m) c).arrAt 6 cfg4.N := (outsK_at10 m _ c).trans (W10_at2 m c)
theorem outsK_12 (c : Dev nD) : outsK m 12 main_v134 c = (dat5 (ent5 m) c).arrAt 7 cfg5.N := (outsK_at12 m _ c).trans (W12_at m c)
theorem outsK_14_0 (c : Dev nD) : outsK m 14 main_v153_0 c = (dat6 (ent6 m) c).arrAt 4 cfg6.N := (outsK_at14 m _ c).trans (W14_at0 m c)
theorem outsK_14_1 (c : Dev nD) : outsK m 14 main_v153_1 c = (dat6 (ent6 m) c).arrAt 5 cfg6.N := (outsK_at14 m _ c).trans (W14_at1 m c)
theorem outsK_14_2 (c : Dev nD) : outsK m 14 main_v153_2 c = (dat6 (ent6 m) c).arrAt 6 cfg6.N := (outsK_at14 m _ c).trans (W14_at2 m c)
theorem outsK_16 (c : Dev nD) : outsK m 16 main_v175 c = (dat7 (ent7 m) c).arrAt 7 cfg7.N := (outsK_at16 m _ c).trans (W16_at m c)

theorem V1_eq (c : Dev nD) : V1 m c = W1 m c := (W1.eq_1 m c).symm
theorem V2_eq (c : Dev nD) : V2 m (outsK m) c = W2 m c :=
  (update3_congr _ _ _ (V1_eq m c) (outsK_2_0 m c) (outsK_2_1 m c) (outsK_2_2 m c)).trans (W2.eq_1 m c).symm
theorem V3_eq (c : Dev nD) : V3 m (outsK m) c = W3 m c :=
  (congrArg (StableHlo.after hostOps1) (V2_eq m c)).trans (W3.eq_1 m c).symm
theorem V4_eq (c : Dev nD) : V4 m (outsK m) c = W4 m c :=
  (update1_congr _ (V3_eq m c) (outsK_4 m c)).trans (W4.eq_1 m c).symm
theorem V5_eq (c : Dev nD) : V5 m (outsK m) c = W5 m c :=
  (congrArg (StableHlo.after hostOps2) (V4_eq m c)).trans (W5.eq_1 m c).symm
theorem V6_eq (c : Dev nD) : V6 m (outsK m) c = W6 m c :=
  (update3_congr _ _ _ (V5_eq m c) (outsK_6_0 m c) (outsK_6_1 m c) (outsK_6_2 m c)).trans (W6.eq_1 m c).symm
theorem V7_eq (c : Dev nD) : V7 m (outsK m) c = W7 m c :=
  (congrArg (StableHlo.after hostOps3) (V6_eq m c)).trans (W7.eq_1 m c).symm
theorem V8_eq (c : Dev nD) : V8 m (outsK m) c = W8 m c :=
  (update1_congr _ (V7_eq m c) (outsK_8 m c)).trans (W8.eq_1 m c).symm
theorem V9_eq (c : Dev nD) : V9 m (outsK m) c = W9 m c :=
  (congrArg (StableHlo.after hostOps4) (V8_eq m c)).trans (W9.eq_1 m c).symm
theorem V10_eq (c : Dev nD) : V10 m (outsK m) c = W10 m c :=
  (update3_congr _ _ _ (V9_eq m c) (outsK_10_0 m c) (outsK_10_1 m c) (outsK_10_2 m c)).trans (W10.eq_1 m c).symm
theorem V11_eq (c : Dev nD) : V11 m (outsK m) c = W11 m c :=
  (congrArg (StableHlo.after hostOps5) (V10_eq m c)).trans (W11.eq_1 m c).symm
theorem V12_eq (c : Dev nD) : V12 m (outsK m) c = W12 m c :=
  (update1_congr _ (V11_eq m c) (outsK_12 m c)).trans (W12.eq_1 m c).symm
theorem V13_eq (c : Dev nD) : V13 m (outsK m) c = W13 m c :=
  (congrArg (StableHlo.after hostOps6) (V12_eq m c)).trans (W13.eq_1 m c).symm
theorem V14_eq (c : Dev nD) : V14 m (outsK m) c = W14 m c :=
  (update3_congr _ _ _ (V13_eq m c) (outsK_14_0 m c) (outsK_14_1 m c) (outsK_14_2 m c)).trans (W14.eq_1 m c).symm
theorem V15_eq (c : Dev nD) : V15 m (outsK m) c = W15 m c :=
  (congrArg (StableHlo.after hostOps7) (V14_eq m c)).trans (W15.eq_1 m c).symm
theorem V16_eq (c : Dev nD) : V16 m (outsK m) c = W16 m c :=
  (update1_congr _ (V15_eq m c) (outsK_16 m c)).trans (W16.eq_1 m c).symm
theorem V17_eq (c : Dev nD) : V17 m (outsK m) c = W17 m c :=
  (congrArg (StableHlo.after hostOps8) (V16_eq m c)).trans (W17.eq_1 m c).symm
theorem V18_eq (c : Dev nD) : V18 m (outsK m) c = W18 m c :=
  (congrArg (StableHlo.after hostOps8_1) (V17_eq m c)).trans (W18.eq_1 m c).symm

theorem ent0_eq (c : Dev nD) (b : Ref sig .tc) : ent0 m c b = V1 m c b := congrFun (V1_eq m c).symm _
theorem ent1_eq (c : Dev nD) (b : Ref sig .tc) : ent1 m c b = V3 m (outsK m) c b := congrFun (V3_eq m c).symm _
theorem ent2_eq (c : Dev nD) (b : Ref sig .tc) : ent2 m c b = V5 m (outsK m) c b := congrFun (V5_eq m c).symm _
theorem ent3_eq (c : Dev nD) (b : Ref sig .tc) : ent3 m c b = V7 m (outsK m) c b := congrFun (V7_eq m c).symm _
theorem ent4_eq (c : Dev nD) (b : Ref sig .tc) : ent4 m c b = V9 m (outsK m) c b := congrFun (V9_eq m c).symm _
theorem ent5_eq (c : Dev nD) (b : Ref sig .tc) : ent5 m c b = V11 m (outsK m) c b := congrFun (V11_eq m c).symm _
theorem ent6_eq (c : Dev nD) (b : Ref sig .tc) : ent6 m c b = V13 m (outsK m) c b := congrFun (V13_eq m c).symm _
theorem ent7_eq (c : Dev nD) (b : Ref sig .tc) : ent7 m c b = V15 m (outsK m) c b := congrFun (V15_eq m c).symm _

end Cert.KernelIdeal.Hand

end
-- ==== Proof.KI.Segs.lean ====
import proofs.«165926_j30305289241327_1_alg».proof.Proof.KI.Chain

set_option maxRecDepth 1888

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

def pdats : (p : Fin 8) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
def mkReg (p : Fin 8) (lf : Pipeline.LaunchFacts (nD := nD) (τ := τ) cfgs p)
    (Vin Vout : Dev nD → Valuation τ sig (Elt F))
    (hq : ∀ c w, (pdats m p c).q w = fullShare)
    (howed : ∀ c t, (pdats m p c).owed t = 0)
    (hrec : ∀ c, (pdats m p c).recorded 0 = Set.univ)
    (hΦ0 : ∀ c, (pdats m p c).Φ 0 = Pipeline.ΦA (cfgs p).spec c)
    (hΦN : ∀ c, (pdats m p c).Φ (Fin.last _) ⊢ Pipeline.ΦA (cfgs p).spec c)
    (hbody : ∀ c, BodyObligation (pdats m p c) (defs₀ (F := F)) Variants.none () Set.univ)
    (hA : ∀ c w, (pdats m p c).A w = Vin c (Pipeline.arrRef (cfgs p).spec w))
    (hF : ∀ c w, (pdats m p c).arrAt w (cfgs p).N = Vout c (Pipeline.arrRef (cfgs p).spec w))
    (hrest : ∀ c (b : Ref sig .tc), b ∉ Finset.univ.image (Pipeline.arrRef (cfgs p).spec) → Vout c b = Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m) lf.win lf.arr_whole c
      ((pdats m p c).share_full (hq c)) (fun b => Vin c b) (hA c)
    rw [Pipeline.unscopedBufs_held c (Vin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vin c b) (fun b => Vout c b) ((pdats m p c).arrAt · (cfgs p).N) (hF c) (hrest c)
    rw [Pipeline.unscopedBufs_held c (Vout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option maxHeartbeats 1600000 in
theorem hF0 (c : Dev nD) : ∀ w : Fin cfg0.W, (dat0 (ent0 m) c).arrAt w cfg0.N = W2 m c (Pipeline.arrRef spec0 w)
  | 0 => ((dat0 (ent0 m) c).arrAt_in 0 rfl _).trans ((A_eq0 (ent0 m) c 0).trans (W2_of_ne m c (Pipeline.arrRef spec0 0) (by decide) (by decide) (by decide)).symm)
  | 1 => ((dat0 (ent0 m) c).arrAt_in 1 rfl _).trans ((A_eq0 (ent0 m) c 1).trans (W2_of_ne m c (Pipeline.arrRef spec0 1) (by decide) (by decide) (by decide)).symm)
  | 2 => ((dat0 (ent0 m) c).arrAt_in 2 rfl _).trans ((A_eq0 (ent0 m) c 2).trans (W2_of_ne m c (Pipeline.arrRef spec0 2) (by decide) (by decide) (by decide)).symm)
  | 3 => ((dat0 (ent0 m) c).arrAt_in 3 rfl _).trans ((A_eq0 (ent0 m) c 3).trans (W2_of_ne m c (Pipeline.arrRef spec0 3) (by decide) (by decide) (by decide)).symm)
  | 4 => (W2_at0 m c).symm
  | 5 => (W2_at1 m c).symm
  | 6 => (W2_at2 m c).symm
  | ⟨_ + 7, h⟩ => absurd h (Nat.not_lt.2 (Nat.le_add_left _ _))
theorem hrest0 (c : Dev nD) (b : Ref sig .tc) (hb : b ∉ Finset.univ.image (Pipeline.arrRef spec0)) : W2 m c b = W1 m c b :=
  W2_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg0 : Pipeline.RegionSeg (pcfgs (F := F)) adm (pdats m) () defs₀ 𝒱₀ L lv 0 :=
  mkReg m 0 launch0 (W1 m) (W2 m)
    (fun c w => dat0_q (ent0 m) c w) (fun c t => dat0_owed (ent0 m) c t) (fun c => dat0_recorded (ent0 m) c 0)
    (fun c => Phi0_first (ent0 m) c) (fun c => Phi0_last (ent0 m) c)
    (fun c => body_obligation0 (ent0 m) c) (fun c w => A_eq0 (ent0 m) c w) (hF0 m) (hrest0 m)
set_option maxHeartbeats 1600000 in
theorem hF1 (c : Dev nD) : ∀ w : Fin cfg1.W, (dat1 (ent1 m) c).arrAt w cfg1.N = W4 m c (Pipeline.arrRef spec1 w)
  | 0 => ((dat1 (ent1 m) c).arrAt_in 0 rfl _).trans ((A_eq1 (ent1 m) c 0).trans (W4_of_ne m c (Pipeline.arrRef spec1 0) (by decide)).symm)
  | 1 => ((dat1 (ent1 m) c).arrAt_in 1 rfl _).trans ((A_eq1 (ent1 m) c 1).trans (W4_of_ne m c (Pipeline.arrRef spec1 1) (by decide)).symm)
  | 2 => ((dat1 (ent1 m) c).arrAt_in 2 rfl _).trans ((A_eq1 (ent1 m) c 2).trans (W4_of_ne m c (Pipeline.arrRef spec1 2) (by decide)).symm)
  | 3 => ((dat1 (ent1 m) c).arrAt_in 3 rfl _).trans ((A_eq1 (ent1 m) c 3).trans (W4_of_ne m c (Pipeline.arrRef spec1 3) (by decide)).symm)
  | 4 => ((dat1 (ent1 m) c).arrAt_in 4 rfl _).trans ((A_eq1 (ent1 m) c 4).trans (W4_of_ne m c (Pipeline.arrRef spec1 4) (by decide)).symm)
  | 5 => ((dat1 (ent1 m) c).arrAt_in 5 rfl _).trans ((A_eq1 (ent1 m) c 5).trans (W4_of_ne m c (Pipeline.arrRef spec1 5) (by decide)).symm)
  | 6 => ((dat1 (ent1 m) c).arrAt_in 6 rfl _).trans ((A_eq1 (ent1 m) c 6).trans (W4_of_ne m c (Pipeline.arrRef spec1 6) (by decide)).symm)
  | 7 => (W4_at m c).symm
  | ⟨_ + 8, h⟩ => absurd h (Nat.not_lt.2 (Nat.le_add_left _ _))
theorem hrest1 (c : Dev nD) (b : Ref sig .tc) (hb : b ∉ Finset.univ.image (Pipeline.arrRef spec1)) : W4 m c b = W3 m c b :=
  W4_of_ne m c b (fun e => hb (Finset.mem_image.mpr ⟨7, Finset.mem_univ _, e.symm⟩))

def reg1 : Pipeline.RegionSeg (pcfgs (F := F)) adm (pdats m) () defs₀ 𝒱₀ L lv 1 :=
  mkReg m 1 launch1 (W3 m) (W4 m)
    (fun c w => dat1_q (ent1 m) c w) (fun c t => dat1_owed (ent1 m) c t) (fun c => dat1_recorded (ent1 m) c 0)
    (fun c => Phi1 (ent1 m) c 0) (fun c => Entails.of_eq (Phi1 (ent1 m) c (Fin.last _)))
    (fun c => body_obligation1 (ent1 m) c) (fun c w => A_eq1 (ent1 m) c w) (hF1 m) (hrest1 m)
set_option maxHeartbeats 1600000 in
theorem hF2 (c : Dev nD) : ∀ w : Fin cfg2.W, (dat2 (ent2 m) c).arrAt w cfg2.N = W6 m c (Pipeline.arrRef spec2 w)
  | 0 => ((dat2 (ent2 m) c).arrAt_in 0 rfl _).trans ((A_eq2 (ent2 m) c 0).trans (W6_of_ne m c (Pipeline.arrRef spec2 0) (by decide) (by decide) (by decide)).symm)
  | 1 => ((dat2 (ent2 m) c).arrAt_in 1 rfl _).trans ((A_eq2 (ent2 m) c 1).trans (W6_of_ne m c (Pipeline.arrRef spec2 1) (by decide) (by decide) (by decide)).symm)
  | 2 => ((dat2 (ent2 m) c).arrAt_in 2 rfl _).trans ((A_eq2 (ent2 m) c 2).trans (W6_of_ne m c (Pipeline.arrRef spec2 2) (by decide) (by decide) (by decide)).symm)
  | 3 => ((dat2 (ent2 m) c).arrAt_in 3 rfl _).trans ((A_eq2 (ent2 m) c 3).trans (W6_of_ne m c (Pipeline.arrRef spec2 3) (by decide) (by decide) (by decide)).symm)
  | 4 => (W6_at0 m c).symm
  | 5 => (W6_at1 m c).symm
  | 6 => (W6_at2 m c).symm
  | ⟨_ + 7, h⟩ => absurd h (Nat.not_lt.2 (Nat.le_add_left _ _))
theorem hrest2 (c : Dev nD) (b : Ref sig .tc) (hb : b ∉ Finset.univ.image (Pipeline.arrRef spec2)) : W6 m c b = W5 m c b :=
  W6_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg2 : Pipeline.RegionSeg (pcfgs (F := F)) adm (pdats m) () defs₀ 𝒱₀ L lv 2 :=
  mkReg m 2 launch2 (W5 m) (W6 m)
    (fun c w => dat2_q (ent2 m) c w) (fun c t => dat2_owed (ent2 m) c t) (fun c => dat2_recorded (ent2 m) c 0)
    (fun c => Phi2_first (ent2 m) c) (fun c => Phi2_last (ent2 m) c)
    (fun c => body_obligation2 (ent2 m) c) (fun c w => A_eq2 (ent2 m) c w) (hF2 m) (hrest2 m)
set_option maxHeartbeats 1600000 in
theorem hF3 (c : Dev nD) : ∀ w : Fin cfg3.W, (dat3 (ent3 m) c).arrAt w cfg3.N = W8 m c (Pipeline.arrRef spec3 w)
  | 0 => ((dat3 (ent3 m) c).arrAt_in 0 rfl _).trans ((A_eq3 (ent3 m) c 0).trans (W8_of_ne m c (Pipeline.arrRef spec3 0) (by decide)).symm)
  | 1 => ((dat3 (ent3 m) c).arrAt_in 1 rfl _).trans ((A_eq3 (ent3 m) c 1).trans (W8_of_ne m c (Pipeline.arrRef spec3 1) (by decide)).symm)
  | 2 => ((dat3 (ent3 m) c).arrAt_in 2 rfl _).trans ((A_eq3 (ent3 m) c 2).trans (W8_of_ne m c (Pipeline.arrRef spec3 2) (by decide)).symm)
  | 3 => ((dat3 (ent3 m) c).arrAt_in 3 rfl _).trans ((A_eq3 (ent3 m) c 3).trans (W8_of_ne m c (Pipeline.arrRef spec3 3) (by decide)).symm)
  | 4 => ((dat3 (ent3 m) c).arrAt_in 4 rfl _).trans ((A_eq3 (ent3 m) c 4).trans (W8_of_ne m c (Pipeline.arrRef spec3 4) (by decide)).symm)
  | 5 => ((dat3 (ent3 m) c).arrAt_in 5 rfl _).trans ((A_eq3 (ent3 m) c 5).trans (W8_of_ne m c (Pipeline.arrRef spec3 5) (by decide)).symm)
  | 6 => ((dat3 (ent3 m) c).arrAt_in 6 rfl _).trans ((A_eq3 (ent3 m) c 6).trans (W8_of_ne m c (Pipeline.arrRef spec3 6) (by decide)).symm)
  | 7 => (W8_at m c).symm
  | ⟨_ + 8, h⟩ => absurd h (Nat.not_lt.2 (Nat.le_add_left _ _))
theorem hrest3 (c : Dev nD) (b : Ref sig .tc) (hb : b ∉ Finset.univ.image (Pipeline.arrRef spec3)) : W8 m c b = W7 m c b :=
  W8_of_ne m c b (fun e => hb (Finset.mem_image.mpr ⟨7, Finset.mem_univ _, e.symm⟩))

def reg3 : Pipeline.RegionSeg (pcfgs (F := F)) adm (pdats m) () defs₀ 𝒱₀ L lv 3 :=
  mkReg m 3 launch3 (W7 m) (W8 m)
    (fun c w => dat3_q (ent3 m) c w) (fun c t => dat3_owed (ent3 m) c t) (fun c => dat3_recorded (ent3 m) c 0)
    (fun c => Phi3 (ent3 m) c 0) (fun c => Entails.of_eq (Phi3 (ent3 m) c (Fin.last _)))
    (fun c => body_obligation3 (ent3 m) c) (fun c w => A_eq3 (ent3 m) c w) (hF3 m) (hrest3 m)
set_option maxHeartbeats 1600000 in
theorem hF4 (c : Dev nD) : ∀ w : Fin cfg4.W, (dat4 (ent4 m) c).arrAt w cfg4.N = W10 m c (Pipeline.arrRef spec4 w)
  | 0 => ((dat4 (ent4 m) c).arrAt_in 0 rfl _).trans ((A_eq4 (ent4 m) c 0).trans (W10_of_ne m c (Pipeline.arrRef spec4 0) (by decide) (by decide) (by decide)).symm)
  | 1 => ((dat4 (ent4 m) c).arrAt_in 1 rfl _).trans ((A_eq4 (ent4 m) c 1).trans (W10_of_ne m c (Pipeline.arrRef spec4 1) (by decide) (by decide) (by decide)).symm)
  | 2 => ((dat4 (ent4 m) c).arrAt_in 2 rfl _).trans ((A_eq4 (ent4 m) c 2).trans (W10_of_ne m c (Pipeline.arrRef spec4 2) (by decide) (by decide) (by decide)).symm)
  | 3 => ((dat4 (ent4 m) c).arrAt_in 3 rfl _).trans ((A_eq4 (ent4 m) c 3).trans (W10_of_ne m c (Pipeline.arrRef spec4 3) (by decide) (by decide) (by decide)).symm)
  | 4 => (W10_at0 m c).symm
  | 5 => (W10_at1 m c).symm
  | 6 => (W10_at2 m c).symm
  | ⟨_ + 7, h⟩ => absurd h (Nat.not_lt.2 (Nat.le_add_left _ _))
theorem hrest4 (c : Dev nD) (b : Ref sig .tc) (hb : b ∉ Finset.univ.image (Pipeline.arrRef spec4)) : W10 m c b = W9 m c b :=
  W10_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg4 : Pipeline.RegionSeg (pcfgs (F := F)) adm (pdats m) () defs₀ 𝒱₀ L lv 4 :=
  mkReg m 4 launch4 (W9 m) (W10 m)
    (fun c w => dat4_q (ent4 m) c w) (fun c t => dat4_owed (ent4 m) c t) (fun c => dat4_recorded (ent4 m) c 0)
    (fun c => Phi4_first (ent4 m) c) (fun c => Phi4_last (ent4 m) c)
    (fun c => body_obligation4 (ent4 m) c) (fun c w => A_eq4 (ent4 m) c w) (hF4 m) (hrest4 m)
set_option maxHeartbeats 1600000 in
theorem hF5 (c : Dev nD) : ∀ w : Fin cfg5.W, (dat5 (ent5 m) c).arrAt w cfg5.N = W12 m c (Pipeline.arrRef spec5 w)
  | 0 => ((dat5 (ent5 m) c).arrAt_in 0 rfl _).trans ((A_eq5 (ent5 m) c 0).trans (W12_of_ne m c (Pipeline.arrRef spec5 0) (by decide)).symm)
  | 1 => ((dat5 (ent5 m) c).arrAt_in 1 rfl _).trans ((A_eq5 (ent5 m) c 1).trans (W12_of_ne m c (Pipeline.arrRef spec5 1) (by decide)).symm)
  | 2 => ((dat5 (ent5 m) c).arrAt_in 2 rfl _).trans ((A_eq5 (ent5 m) c 2).trans (W12_of_ne m c (Pipeline.arrRef spec5 2) (by decide)).symm)
  | 3 => ((dat5 (ent5 m) c).arrAt_in 3 rfl _).trans ((A_eq5 (ent5 m) c 3).trans (W12_of_ne m c (Pipeline.arrRef spec5 3) (by decide)).symm)
  | 4 => ((dat5 (ent5 m) c).arrAt_in 4 rfl _).trans ((A_eq5 (ent5 m) c 4).trans (W12_of_ne m c (Pipeline.arrRef spec5 4) (by decide)).symm)
  | 5 => ((dat5 (ent5 m) c).arrAt_in 5 rfl _).trans ((A_eq5 (ent5 m) c 5).trans (W12_of_ne m c (Pipeline.arrRef spec5 5) (by decide)).symm)
  | 6 => ((dat5 (ent5 m) c).arrAt_in 6 rfl _).trans ((A_eq5 (ent5 m) c 6).trans (W12_of_ne m c (Pipeline.arrRef spec5 6) (by decide)).symm)
  | 7 => (W12_at m c).symm
  | ⟨_ + 8, h⟩ => absurd h (Nat.not_lt.2 (Nat.le_add_left _ _))
theorem hrest5 (c : Dev nD) (b : Ref sig .tc) (hb : b ∉ Finset.univ.image (Pipeline.arrRef spec5)) : W12 m c b = W11 m c b :=
  W12_of_ne m c b (fun e => hb (Finset.mem_image.mpr ⟨7, Finset.mem_univ _, e.symm⟩))

def reg5 : Pipeline.RegionSeg (pcfgs (F := F)) adm (pdats m) () defs₀ 𝒱₀ L lv 5 :=
  mkReg m 5 launch5 (W11 m) (W12 m)
    (fun c w => dat5_q (ent5 m) c w) (fun c t => dat5_owed (ent5 m) c t) (fun c => dat5_recorded (ent5 m) c 0)
    (fun c => Phi5 (ent5 m) c 0) (fun c => Entails.of_eq (Phi5 (ent5 m) c (Fin.last _)))
    (fun c => body_obligation5 (ent5 m) c) (fun c w => A_eq5 (ent5 m) c w) (hF5 m) (hrest5 m)
set_option maxHeartbeats 1600000 in
theorem hF6 (c : Dev nD) : ∀ w : Fin cfg6.W, (dat6 (ent6 m) c).arrAt w cfg6.N = W14 m c (Pipeline.arrRef spec6 w)
  | 0 => ((dat6 (ent6 m) c).arrAt_in 0 rfl _).trans ((A_eq6 (ent6 m) c 0).trans (W14_of_ne m c (Pipeline.arrRef spec6 0) (by decide) (by decide) (by decide)).symm)
  | 1 => ((dat6 (ent6 m) c).arrAt_in 1 rfl _).trans ((A_eq6 (ent6 m) c 1).trans (W14_of_ne m c (Pipeline.arrRef spec6 1) (by decide) (by decide) (by decide)).symm)
  | 2 => ((dat6 (ent6 m) c).arrAt_in 2 rfl _).trans ((A_eq6 (ent6 m) c 2).trans (W14_of_ne m c (Pipeline.arrRef spec6 2) (by decide) (by decide) (by decide)).symm)
  | 3 => ((dat6 (ent6 m) c).arrAt_in 3 rfl _).trans ((A_eq6 (ent6 m) c 3).trans (W14_of_ne m c (Pipeline.arrRef spec6 3) (by decide) (by decide) (by decide)).symm)
  | 4 => (W14_at0 m c).symm
  | 5 => (W14_at1 m c).symm
  | 6 => (W14_at2 m c).symm
  | ⟨_ + 7, h⟩ => absurd h (Nat.not_lt.2 (Nat.le_add_left _ _))
theorem hrest6 (c : Dev nD) (b : Ref sig .tc) (hb : b ∉ Finset.univ.image (Pipeline.arrRef spec6)) : W14 m c b = W13 m c b :=
  W14_of_ne m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg6 : Pipeline.RegionSeg (pcfgs (F := F)) adm (pdats m) () defs₀ 𝒱₀ L lv 6 :=
  mkReg m 6 launch6 (W13 m) (W14 m)
    (fun c w => dat6_q (ent6 m) c w) (fun c t => dat6_owed (ent6 m) c t) (fun c => dat6_recorded (ent6 m) c 0)
    (fun c => Phi6_first (ent6 m) c) (fun c => Phi6_last (ent6 m) c)
    (fun c => body_obligation6 (ent6 m) c) (fun c w => A_eq6 (ent6 m) c w) (hF6 m) (hrest6 m)
set_option maxHeartbeats 1600000 in
theorem hF7 (c : Dev nD) : ∀ w : Fin cfg7.W, (dat7 (ent7 m) c).arrAt w cfg7.N = W16 m c (Pipeline.arrRef spec7 w)
  | 0 => ((dat7 (ent7 m) c).arrAt_in 0 rfl _).trans ((A_eq7 (ent7 m) c 0).trans (W16_of_ne m c (Pipeline.arrRef spec7 0) (by decide)).symm)
  | 1 => ((dat7 (ent7 m) c).arrAt_in 1 rfl _).trans ((A_eq7 (ent7 m) c 1).trans (W16_of_ne m c (Pipeline.arrRef spec7 1) (by decide)).symm)
  | 2 => ((dat7 (ent7 m) c).arrAt_in 2 rfl _).trans ((A_eq7 (ent7 m) c 2).trans (W16_of_ne m c (Pipeline.arrRef spec7 2) (by decide)).symm)
  | 3 => ((dat7 (ent7 m) c).arrAt_in 3 rfl _).trans ((A_eq7 (ent7 m) c 3).trans (W16_of_ne m c (Pipeline.arrRef spec7 3) (by decide)).symm)
  | 4 => ((dat7 (ent7 m) c).arrAt_in 4 rfl _).trans ((A_eq7 (ent7 m) c 4).trans (W16_of_ne m c (Pipeline.arrRef spec7 4) (by decide)).symm)
  | 5 => ((dat7 (ent7 m) c).arrAt_in 5 rfl _).trans ((A_eq7 (ent7 m) c 5).trans (W16_of_ne m c (Pipeline.arrRef spec7 5) (by decide)).symm)
  | 6 => ((dat7 (ent7 m) c).arrAt_in 6 rfl _).trans ((A_eq7 (ent7 m) c 6).trans (W16_of_ne m c (Pipeline.arrRef spec7 6) (by decide)).symm)
  | 7 => (W16_at m c).symm
  | ⟨_ + 8, h⟩ => absurd h (Nat.not_lt.2 (Nat.le_add_left _ _))
theorem hrest7 (c : Dev nD) (b : Ref sig .tc) (hb : b ∉ Finset.univ.image (Pipeline.arrRef spec7)) : W16 m c b = W15 m c b :=
  W16_of_ne m c b (fun e => hb (Finset.mem_image.mpr ⟨7, Finset.mem_univ _, e.symm⟩))

def reg7 : Pipeline.RegionSeg (pcfgs (F := F)) adm (pdats m) () defs₀ 𝒱₀ L lv 7 :=
  mkReg m 7 launch7 (W15 m) (W16 m)
    (fun c w => dat7_q (ent7 m) c w) (fun c t => dat7_owed (ent7 m) c t) (fun c => dat7_recorded (ent7 m) c 0)
    (fun c => Phi7 (ent7 m) c 0) (fun c => Entails.of_eq (Phi7 (ent7 m) c (Fin.last _)))
    (fun c => body_obligation7 (ent7 m) c) (fun c w => A_eq7 (ent7 m) c w) (hF7 m) (hrest7 m)

end Cert.KernelIdeal.Hand

end
-- ==== Proof.KI.Run.lean ====
import proofs.«165926_j30305289241327_1_alg».proof.Proof.KI.Segs

set_option maxRecDepth 1888

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] dat0 dat1 dat2 dat3 dat4 dat5 dat6 dat7 Pipeline.Dat.arrAt

variable {F : FTy → Type} [FloatOps F]

local notation "𝕄" => MT nD τ sig Unit (Elt F) ℕ (UR sig nD τ) ℕ

variable (m : (ℓ : Loc nD τ sig) → Buf (Elt F) ℓ)

theorem hheld {V W : Valuation τ sig (Elt F)} (h : V = W) (c : Dev nD) :
    (iprop(StableHlo.held (c : Thread nD τ) (Pipeline.ucRefs τ sig) V ∗ R c) : sProp 𝕄)
      ⊢ iprop(StableHlo.held (c : Thread nD τ) (Pipeline.ucRefs τ sig) W ∗ R c) := by rw [h]

abbrev Tₙ (c : Dev nD) : sProp 𝕄 :=
  iprop(StableHlo.held (c : Thread nD τ) (Pipeline.ucRefs τ sig) (V18 m (outsK m) c) ∗ ∃ r, prngReg c r)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V18 m (outsK m) c b) := by
  refine Pipeline.θ_run_regions_kit_dev (pcfgs (F := F)) adm (pdats m) () cellOf_inj emb₁ defs₀ 𝒱₀ L lv m ρ main
    (segs m (outsK m) 𝒱₀ L lv (fun _ => R) () (pdats m) (reg0 m) (reg1 m) (reg2 m) (reg3 m) (reg4 m) (reg5 m) (reg6 m) (reg7 m))
    (fun c Q => by
      rewrite [main_chain c, Pipeline.Seg.run_eq_chain,
        show ((segs m (outsK m) 𝒱₀ L lv (fun _ => R) () (pdats m) (reg0 m) (reg1 m) (reg2 m) (reg3 m) (reg4 m) (reg5 m) (reg6 m) (reg7 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl,
      hheld (V1_eq m c) c,
      hheld (V2_eq m c).symm c,
      hheld (V3_eq m c) c,
      hheld (V4_eq m c).symm c,
      hheld (V5_eq m c) c,
      hheld (V6_eq m c).symm c,
      hheld (V7_eq m c) c,
      hheld (V8_eq m c).symm c,
      hheld (V9_eq m c) c,
      hheld (V10_eq m c).symm c,
      hheld (V11_eq m c) c,
      hheld (V12_eq m c).symm c,
      hheld (V13_eq m c) c,
      hheld (V14_eq m c).symm c,
      hheld (V15_eq m c) c,
      hheld (V16_eq m c).symm c,
      .rfl,
      (show iprop(StableHlo.held (c : Thread nD τ) (Pipeline.ucRefs τ sig) (V18 m (outsK m) c) ∗ R c) ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V18 m (outsK m) c b)
    (hfin := fun c s' => by
      iintro ⟨⟨Hh, -⟩, HSI⟩
      unfold StableHlo.held
      imodintro
      iapply (pointsTo_read_all (Pipeline.ucRefs τ sig) (fun b => ((c : Thread nD τ).1, b)) (V18 m (outsK m) c) s')
      isplitl [Hh] <;> iassumption)
    (hQ := fun s h c => h c)

theorem run_value (ρ : Dev nD → PrngReg) :
    θ_run defs (onTc (τ := τ) (main (F := F))) ⟨m, fun _ => 0, ρ⟩ (fun r => ∀ c : Dev nD,
      r.2.mem ((c.tc : Thread nD τ).loc main_v193) = V18 m (outsK m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨h c (Proc.devRef .tc main_v193) (Finset.mem_filter.mpr ⟨StableHlo.devRef_mem_tcRefs main_v193, by decide⟩),
      (h c (Proc.devRef .tc main_arg0) (Finset.mem_filter.mpr ⟨StableHlo.devRef_mem_tcRefs main_arg0, by decide⟩)).trans (V18_main_arg0 m (outsK m) c),
      (h c (Proc.devRef .tc main_arg1) (Finset.mem_filter.mpr ⟨StableHlo.devRef_mem_tcRefs main_arg1, by decide⟩)).trans (V18_main_arg1 m (outsK m) c),
      (h c (Proc.devRef .tc main_arg2) (Finset.mem_filter.mpr ⟨StableHlo.devRef_mem_tcRefs main_arg2, by decide⟩)).trans (V18_main_arg2 m (outsK m) c),
      (h c (Proc.devRef .tc main_arg3) (Finset.mem_filter.mpr ⟨StableHlo.devRef_mem_tcRefs main_arg3, by decide⟩)).trans (V18_main_arg3 m (outsK m) c),
      (h c (Proc.devRef .tc main_arg4) (Finset.mem_filter.mpr ⟨StableHlo.devRef_mem_tcRefs main_arg4, by decide⟩)).trans (V18_main_arg4 m (outsK m) c),
      (h c (Proc.devRef .tc main_arg5) (Finset.mem_filter.mpr ⟨StableHlo.devRef_mem_tcRefs main_arg5, by decide⟩)).trans (V18_main_arg5 m (outsK m) c),
      (h c (Proc.devRef .tc main_arg6) (Finset.mem_filter.mpr ⟨StableHlo.devRef_mem_tcRefs main_arg6, by decide⟩)).trans (V18_main_arg6 m (outsK m) c),
      (h c (Proc.devRef .tc main_arg7) (Finset.mem_filter.mpr ⟨StableHlo.devRef_mem_tcRefs main_arg7, by decide⟩)).trans (V18_main_arg7 m (outsK m) c),
      (h c (Proc.devRef .tc main_arg8) (Finset.mem_filter.mpr ⟨StableHlo.devRef_mem_tcRefs main_arg8, by decide⟩)).trans (V18_main_arg8 m (outsK m) c),
      (h c (Proc.devRef .tc main_arg9) (Finset.mem_filter.mpr ⟨StableHlo.devRef_mem_tcRefs main_arg9, by decide⟩)).trans (V18_main_arg9 m (outsK m) c),
      (h c (Proc.devRef .tc main_arg10) (Finset.mem_filter.mpr ⟨StableHlo.devRef_mem_tcRefs main_arg10, by decide⟩)).trans (V18_main_arg10 m (outsK m) c),
      (h c (Proc.devRef .tc main_arg11) (Finset.mem_filter.mpr ⟨StableHlo.devRef_mem_tcRefs main_arg11, by decide⟩)).trans (V18_main_arg11 m (outsK m) c)⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun _ h c => (h c).2) (run_value m ρ)

end Cert.KernelIdeal.Hand

end
-- ==== Proof.Ref.Chunks.lean ====
import proofs.«165926_j30305289241327_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

abbrev pre : List (HloOp τ sig (Elt F)) :=
  [ unary main_arg1 main_v0 ((extractStridedSlice S1x1600000 ![0, 0] · slices_S2x1600000_S1x1600000_0_0)),
    reshape main_v0 main_v1 rfl shapeCasts_S1x1600000_S1600000,
    unary main_arg1 main_v2 ((extractStridedSlice S1x1600000 ![1, 0] · slices_S2x1600000_S1x1600000_1_0)),
    reshape main_v2 main_v3 rfl shapeCasts_S1x1600000_S1600000,
    nullary main_cst (constant S_ .f32 0x3F800000#32),
    unary main_cst main_v4 (broadcastInDim S1600000 ![] bcast_S_S1600000),
    nullary main_cst_0 (constant S_ .f32 0x00000000#32),
    unary main_cst_0 main_v5 (broadcastInDim S100000 ![] bcast_S_S100000),
    unary main_v3 main_v6 (broadcastInDim S1600000x1 ![0] bcast_S1600000_S1600000x1_0),
    ternary main_v5 main_v6 main_v4 main_v7 ((fun x i u => Host.scatterAdd scatter_S100000_S1600000x1_S1600000_n_0_0_1 x i u)),
    nullary main_cst_1 (constant S_ .f32 0x3F800000#32),
    unary main_cst_1 main_v8 (broadcastInDim S100000 ![] bcast_S_S100000),
    binary main_v7 main_v8 main_v9 (maximumf),
    nullary main_cst_2 (constant S_ .f32 0x3F800000#32),
    unary main_cst_2 main_v10 (broadcastInDim S100000 ![] bcast_S_S100000),
    binary main_v10 main_v9 main_v11 (Host.divf) ]

set_option maxRecDepth 8192 in
set_option maxHeartbeats 4000000 in

abbrev lay0 : List (HloOp τ sig (Elt F)) :=
  [ nullary main_c (constantI S_ 32 0#32),
    unary main_c main_v12 (broadcastInDim S1600000 ![] bcast_S_S1600000),
    binary main_v1 main_v12 main_v13 (cmpi .slt),
    nullary main_c_3 (constantI S_ 32 100000#32),
    unary main_c_3 main_v14 (broadcastInDim S1600000 ![] bcast_S_S1600000),
    binary main_v1 main_v14 main_v15 (addi),
    ternary main_v13 main_v15 main_v1 main_v16 (select),
    unary main_v16 main_v17 (broadcastInDim S1600000x1 ![0] bcast_S1600000_S1600000x1_0),
    binary main_arg0 main_v17 main_v18 ((fun x i => Host.gather gather_S100000x128_S1600000x1_S1600000x128_1_0_n_n_0_1_1128 x i)),
    nullary main_cst_4 (constant S_ .f32 0x00000000#32),
    unary main_cst_4 main_v19 (broadcastInDim S100000x128 ![] bcast_S_S100000x128),
    unary main_v3 main_v20 (broadcastInDim S1600000x1 ![0] bcast_S1600000_S1600000x1_0),
    ternary main_v19 main_v20 main_v18 main_v21 ((fun x i u => Host.scatterAdd scatter_S100000x128_S1600000x1_S1600000x128_1_0_0_1 x i u)),
    unary main_v11 main_v22 (broadcastInDim S100000x1 ![0] bcast_S100000_S100000x1_0),
    unary main_v22 main_v23 (broadcastInDim S100000x128 ![0, 1] bcast_S100000x1_S100000x128_0_1),
    binary main_v21 main_v23 main_v24 (mulf),
    binary main_arg0 main_v24 main_v25 (addf),
    unary main_arg4 main_v26 ((extractStridedSlice S1x128x256 ![0, 0, 0] · slices_S4x128x256_S1x128x256_0_0_0)),
    reshape main_v26 main_v27 rfl shapeCasts_S1x128x256_S128x256,
    binary main_v25 main_v27 main_v28 ((fun l r => Host.dotGeneral dot_S100000x128_S128x256_S100000x256_1_0_0_1_n_n none l r)),
    unary main_arg5 main_v29 ((extractStridedSlice S1x256 ![0, 0] · slices_S4x256_S1x256_0_0)),
    reshape main_v29 main_v30 rfl shapeCasts_S1x256_S256,
    unary main_v30 main_v31 (broadcastInDim S1x256 ![1] bcast_S256_S1x256_1),
    unary main_v31 main_v32 (broadcastInDim S100000x256 ![0, 1] bcast_S1x256_S100000x256_0_1),
    binary main_v28 main_v32 main_v33 (addf),
    nullary main_cst_5 (constant S_ .f32 0x00000000#32),
    binary main_v33 main_cst_5 main_v34 ((fun x v => Host.reduceAdd x v reducesTo_S100000x256_S256_d0 h_S_)),
    nullary main_cst_6 (constant S_ .f32 0x47C35000#32),
    unary main_cst_6 main_v35 (broadcastInDim S256 ![] bcast_S_S256),
    binary main_v34 main_v35 main_v36 (Host.divf),
    unary main_v36 main_v37 (broadcastInDim S1x256 ![1] bcast_S256_S1x256_1),
    unary main_v37 main_v38 (broadcastInDim S100000x256 ![0, 1] bcast_S1x256_S100000x256_0_1),
    binary main_v33 main_v38 main_v39 (subf),
    binary main_v39 main_v39 main_v40 (mulf),
    nullary main_cst_7 (constant S_ .f32 0x00000000#32),
    binary main_v40 main_cst_7 main_v41 ((fun x v => Host.reduceAdd x v reducesTo_S100000x256_S256_d0 h_S_)),
    nullary main_cst_8 (constant S_ .f32 0x47C35000#32),
    unary main_cst_8 main_v42 (broadcastInDim S256 ![] bcast_S_S256),
    binary main_v41 main_v42 main_v43 (Host.divf),
    unary main_arg6 main_v44 ((extractStridedSlice S1x256 ![0, 0] · slices_S4x256_S1x256_0_0)),
    reshape main_v44 main_v45 rfl shapeCasts_S1x256_S256,
    unary main_v36 main_v46 (broadcastInDim S1x256 ![1] bcast_S256_S1x256_1),
    unary main_v46 main_v47 (broadcastInDim S100000x256 ![0, 1] bcast_S1x256_S100000x256_0_1),
    binary main_v33 main_v47 main_v48 (subf),
    unary main_v45 main_v49 (broadcastInDim S1x256 ![1] bcast_S256_S1x256_1),
    unary main_v49 main_v50 (broadcastInDim S100000x256 ![0, 1] bcast_S1x256_S100000x256_0_1),
    binary main_v50 main_v48 main_v51 (mulf),
    nullary main_cst_9 (constant S_ .f32 0x3727C5AC#32),
    unary main_cst_9 main_v52 (broadcastInDim S256 ![] bcast_S_S256),
    binary main_v43 main_v52 main_v53 (addf),
    unary main_v53 main_v54 (Host.rsqrt),
    unary main_v54 main_v55 (broadcastInDim S1x256 ![1] bcast_S256_S1x256_1),
    unary main_v55 main_v56 (broadcastInDim S100000x256 ![0, 1] bcast_S1x256_S100000x256_0_1),
    binary main_v51 main_v56 main_v57 (mulf),
    unary main_arg7 main_v58 ((extractStridedSlice S1x256 ![0, 0] · slices_S4x256_S1x256_0_0)),
    reshape main_v58 main_v59 rfl shapeCasts_S1x256_S256,
    unary main_v59 main_v60 (broadcastInDim S1x256 ![1] bcast_S256_S1x256_1),
    unary main_v60 main_v61 (broadcastInDim S100000x256 ![0, 1] bcast_S1x256_S100000x256_0_1),
    binary main_v57 main_v61 main_v62 (addf),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v62) (TRef.of (T := ⟨S100000x256, .f32⟩) main_call0_v0) (TRef.of (T := ⟨S100000x256, .f32⟩) main_v63) maximumf,
    unary main_arg8 main_v64 ((extractStridedSlice S1x256x128 ![0, 0, 0] · slices_S4x256x128_S1x256x128_0_0_0)),
    reshape main_v64 main_v65 rfl shapeCasts_S1x256x128_S256x128,
    binary main_v63 main_v65 main_v66 ((fun l r => Host.dotGeneral dot_S100000x256_S256x128_S100000x128_1_0_0_1_n_n none l r)),
    unary main_arg9 main_v67 ((extractStridedSlice S1x128 ![0, 0] · slices_S4x128_S1x128_0_0)),
    reshape main_v67 main_v68 rfl shapeCasts_S1x128_S128,
    unary main_v68 main_v69 (broadcastInDim S1x128 ![1] bcast_S128_S1x128_1),
    unary main_v69 main_v70 (broadcastInDim S100000x128 ![0, 1] bcast_S1x128_S100000x128_0_1),
    binary main_v66 main_v70 main_v71 (addf),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v71) (TRef.of (T := ⟨S100000x128, .f32⟩) main_call1_v0) (TRef.of (T := ⟨S100000x128, .f32⟩) main_v72) maximumf ]

set_option maxRecDepth 8192 in
set_option maxHeartbeats 4000000 in

abbrev lay1 : List (HloOp τ sig (Elt F)) :=
  [ nullary main_c_10 (constantI S_ 32 0#32),
    unary main_c_10 main_v73 (broadcastInDim S1600000 ![] bcast_S_S1600000),
    binary main_v1 main_v73 main_v74 (cmpi .slt),
    nullary main_c_11 (constantI S_ 32 100000#32),
    unary main_c_11 main_v75 (broadcastInDim S1600000 ![] bcast_S_S1600000),
    binary main_v1 main_v75 main_v76 (addi),
    ternary main_v74 main_v76 main_v1 main_v77 (select),
    unary main_v77 main_v78 (broadcastInDim S1600000x1 ![0] bcast_S1600000_S1600000x1_0),
    binary main_v72 main_v78 main_v79 ((fun x i => Host.gather gather_S100000x128_S1600000x1_S1600000x128_1_0_n_n_0_1_1128 x i)),
    nullary main_cst_12 (constant S_ .f32 0x00000000#32),
    unary main_cst_12 main_v80 (broadcastInDim S100000x128 ![] bcast_S_S100000x128),
    unary main_v3 main_v81 (broadcastInDim S1600000x1 ![0] bcast_S1600000_S1600000x1_0),
    ternary main_v80 main_v81 main_v79 main_v82 ((fun x i u => Host.scatterAdd scatter_S100000x128_S1600000x1_S1600000x128_1_0_0_1 x i u)),
    unary main_v11 main_v83 (broadcastInDim S100000x1 ![0] bcast_S100000_S100000x1_0),
    unary main_v83 main_v84 (broadcastInDim S100000x128 ![0, 1] bcast_S100000x1_S100000x128_0_1),
    binary main_v82 main_v84 main_v85 (mulf),
    binary main_v72 main_v85 main_v86 (addf),
    unary main_arg4 main_v87 ((extractStridedSlice S1x128x256 ![1, 0, 0] · slices_S4x128x256_S1x128x256_1_0_0)),
    reshape main_v87 main_v88 rfl shapeCasts_S1x128x256_S128x256,
    binary main_v86 main_v88 main_v89 ((fun l r => Host.dotGeneral dot_S100000x128_S128x256_S100000x256_1_0_0_1_n_n none l r)),
    unary main_arg5 main_v90 ((extractStridedSlice S1x256 ![1, 0] · slices_S4x256_S1x256_1_0)),
    reshape main_v90 main_v91 rfl shapeCasts_S1x256_S256,
    unary main_v91 main_v92 (broadcastInDim S1x256 ![1] bcast_S256_S1x256_1),
    unary main_v92 main_v93 (broadcastInDim S100000x256 ![0, 1] bcast_S1x256_S100000x256_0_1),
    binary main_v89 main_v93 main_v94 (addf),
    nullary main_cst_13 (constant S_ .f32 0x00000000#32),
    binary main_v94 main_cst_13 main_v95 ((fun x v => Host.reduceAdd x v reducesTo_S100000x256_S256_d0 h_S_)),
    nullary main_cst_14 (constant S_ .f32 0x47C35000#32),
    unary main_cst_14 main_v96 (broadcastInDim S256 ![] bcast_S_S256),
    binary main_v95 main_v96 main_v97 (Host.divf),
    unary main_v97 main_v98 (broadcastInDim S1x256 ![1] bcast_S256_S1x256_1),
    unary main_v98 main_v99 (broadcastInDim S100000x256 ![0, 1] bcast_S1x256_S100000x256_0_1),
    binary main_v94 main_v99 main_v100 (subf),
    binary main_v100 main_v100 main_v101 (mulf),
    nullary main_cst_15 (constant S_ .f32 0x00000000#32),
    binary main_v101 main_cst_15 main_v102 ((fun x v => Host.reduceAdd x v reducesTo_S100000x256_S256_d0 h_S_)),
    nullary main_cst_16 (constant S_ .f32 0x47C35000#32),
    unary main_cst_16 main_v103 (broadcastInDim S256 ![] bcast_S_S256),
    binary main_v102 main_v103 main_v104 (Host.divf),
    unary main_arg6 main_v105 ((extractStridedSlice S1x256 ![1, 0] · slices_S4x256_S1x256_1_0)),
    reshape main_v105 main_v106 rfl shapeCasts_S1x256_S256,
    unary main_v97 main_v107 (broadcastInDim S1x256 ![1] bcast_S256_S1x256_1),
    unary main_v107 main_v108 (broadcastInDim S100000x256 ![0, 1] bcast_S1x256_S100000x256_0_1),
    binary main_v94 main_v108 main_v109 (subf),
    unary main_v106 main_v110 (broadcastInDim S1x256 ![1] bcast_S256_S1x256_1),
    unary main_v110 main_v111 (broadcastInDim S100000x256 ![0, 1] bcast_S1x256_S100000x256_0_1),
    binary main_v111 main_v109 main_v112 (mulf),
    nullary main_cst_17 (constant S_ .f32 0x3727C5AC#32),
    unary main_cst_17 main_v113 (broadcastInDim S256 ![] bcast_S_S256),
    binary main_v104 main_v113 main_v114 (addf),
    unary main_v114 main_v115 (Host.rsqrt),
    unary main_v115 main_v116 (broadcastInDim S1x256 ![1] bcast_S256_S1x256_1),
    unary main_v116 main_v117 (broadcastInDim S100000x256 ![0, 1] bcast_S1x256_S100000x256_0_1),
    binary main_v112 main_v117 main_v118 (mulf),
    unary main_arg7 main_v119 ((extractStridedSlice S1x256 ![1, 0] · slices_S4x256_S1x256_1_0)),
    reshape main_v119 main_v120 rfl shapeCasts_S1x256_S256,
    unary main_v120 main_v121 (broadcastInDim S1x256 ![1] bcast_S256_S1x256_1),
    unary main_v121 main_v122 (broadcastInDim S100000x256 ![0, 1] bcast_S1x256_S100000x256_0_1),
    binary main_v118 main_v122 main_v123 (addf),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v123) (TRef.of (T := ⟨S100000x256, .f32⟩) main_call2_v0) (TRef.of (T := ⟨S100000x256, .f32⟩) main_v124) maximumf,
    unary main_arg8 main_v125 ((extractStridedSlice S1x256x128 ![1, 0, 0] · slices_S4x256x128_S1x256x128_1_0_0)),
    reshape main_v125 main_v126 rfl shapeCasts_S1x256x128_S256x128,
    binary main_v124 main_v126 main_v127 ((fun l r => Host.dotGeneral dot_S100000x256_S256x128_S100000x128_1_0_0_1_n_n none l r)),
    unary main_arg9 main_v128 ((extractStridedSlice S1x128 ![1, 0] · slices_S4x128_S1x128_1_0)),
    reshape main_v128 main_v129 rfl shapeCasts_S1x128_S128,
    unary main_v129 main_v130 (broadcastInDim S1x128 ![1] bcast_S128_S1x128_1),
    unary main_v130 main_v131 (broadcastInDim S100000x128 ![0, 1] bcast_S1x128_S100000x128_0_1),
    binary main_v127 main_v131 main_v132 (addf),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v132) (TRef.of (T := ⟨S100000x128, .f32⟩) main_call3_v0) (TRef.of (T := ⟨S100000x128, .f32⟩) main_v133) maximumf ]

set_option maxRecDepth 8192 in
set_option maxHeartbeats 4000000 in

abbrev lay2 : List (HloOp τ sig (Elt F)) :=
  [ nullary main_c_18 (constantI S_ 32 0#32),
    unary main_c_18 main_v134 (broadcastInDim S1600000 ![] bcast_S_S1600000),
    binary main_v1 main_v134 main_v135 (cmpi .slt),
    nullary main_c_19 (constantI S_ 32 100000#32),
    unary main_c_19 main_v136 (broadcastInDim S1600000 ![] bcast_S_S1600000),
    binary main_v1 main_v136 main_v137 (addi),
    ternary main_v135 main_v137 main_v1 main_v138 (select),
    unary main_v138 main_v139 (broadcastInDim S1600000x1 ![0] bcast_S1600000_S1600000x1_0),
    binary main_v133 main_v139 main_v140 ((fun x i => Host.gather gather_S100000x128_S1600000x1_S1600000x128_1_0_n_n_0_1_1128 x i)),
    nullary main_cst_20 (constant S_ .f32 0x00000000#32),
    unary main_cst_20 main_v141 (broadcastInDim S100000x128 ![] bcast_S_S100000x128),
    unary main_v3 main_v142 (broadcastInDim S1600000x1 ![0] bcast_S1600000_S1600000x1_0),
    ternary main_v141 main_v142 main_v140 main_v143 ((fun x i u => Host.scatterAdd scatter_S100000x128_S1600000x1_S1600000x128_1_0_0_1 x i u)),
    unary main_v11 main_v144 (broadcastInDim S100000x1 ![0] bcast_S100000_S100000x1_0),
    unary main_v144 main_v145 (broadcastInDim S100000x128 ![0, 1] bcast_S100000x1_S100000x128_0_1),
    binary main_v143 main_v145 main_v146 (mulf),
    binary main_v133 main_v146 main_v147 (addf),
    unary main_arg4 main_v148 ((extractStridedSlice S1x128x256 ![2, 0, 0] · slices_S4x128x256_S1x128x256_2_0_0)),
    reshape main_v148 main_v149 rfl shapeCasts_S1x128x256_S128x256,
    binary main_v147 main_v149 main_v150 ((fun l r => Host.dotGeneral dot_S100000x128_S128x256_S100000x256_1_0_0_1_n_n none l r)),
    unary main_arg5 main_v151 ((extractStridedSlice S1x256 ![2, 0] · slices_S4x256_S1x256_2_0)),
    reshape main_v151 main_v152 rfl shapeCasts_S1x256_S256,
    unary main_v152 main_v153 (broadcastInDim S1x256 ![1] bcast_S256_S1x256_1),
    unary main_v153 main_v154 (broadcastInDim S100000x256 ![0, 1] bcast_S1x256_S100000x256_0_1),
    binary main_v150 main_v154 main_v155 (addf),
    nullary main_cst_21 (constant S_ .f32 0x00000000#32),
    binary main_v155 main_cst_21 main_v156 ((fun x v => Host.reduceAdd x v reducesTo_S100000x256_S256_d0 h_S_)),
    nullary main_cst_22 (constant S_ .f32 0x47C35000#32),
    unary main_cst_22 main_v157 (broadcastInDim S256 ![] bcast_S_S256),
    binary main_v156 main_v157 main_v158 (Host.divf),
    unary main_v158 main_v159 (broadcastInDim S1x256 ![1] bcast_S256_S1x256_1),
    unary main_v159 main_v160 (broadcastInDim S100000x256 ![0, 1] bcast_S1x256_S100000x256_0_1),
    binary main_v155 main_v160 main_v161 (subf),
    binary main_v161 main_v161 main_v162 (mulf),
    nullary main_cst_23 (constant S_ .f32 0x00000000#32),
    binary main_v162 main_cst_23 main_v163 ((fun x v => Host.reduceAdd x v reducesTo_S100000x256_S256_d0 h_S_)),
    nullary main_cst_24 (constant S_ .f32 0x47C35000#32),
    unary main_cst_24 main_v164 (broadcastInDim S256 ![] bcast_S_S256),
    binary main_v163 main_v164 main_v165 (Host.divf),
    unary main_arg6 main_v166 ((extractStridedSlice S1x256 ![2, 0] · slices_S4x256_S1x256_2_0)),
    reshape main_v166 main_v167 rfl shapeCasts_S1x256_S256,
    unary main_v158 main_v168 (broadcastInDim S1x256 ![1] bcast_S256_S1x256_1),
    unary main_v168 main_v169 (broadcastInDim S100000x256 ![0, 1] bcast_S1x256_S100000x256_0_1),
    binary main_v155 main_v169 main_v170 (subf),
    unary main_v167 main_v171 (broadcastInDim S1x256 ![1] bcast_S256_S1x256_1),
    unary main_v171 main_v172 (broadcastInDim S100000x256 ![0, 1] bcast_S1x256_S100000x256_0_1),
    binary main_v172 main_v170 main_v173 (mulf),
    nullary main_cst_25 (constant S_ .f32 0x3727C5AC#32),
    unary main_cst_25 main_v174 (broadcastInDim S256 ![] bcast_S_S256),
    binary main_v165 main_v174 main_v175 (addf),
    unary main_v175 main_v176 (Host.rsqrt),
    unary main_v176 main_v177 (broadcastInDim S1x256 ![1] bcast_S256_S1x256_1),
    unary main_v177 main_v178 (broadcastInDim S100000x256 ![0, 1] bcast_S1x256_S100000x256_0_1),
    binary main_v173 main_v178 main_v179 (mulf),
    unary main_arg7 main_v180 ((extractStridedSlice S1x256 ![2, 0] · slices_S4x256_S1x256_2_0)),
    reshape main_v180 main_v181 rfl shapeCasts_S1x256_S256,
    unary main_v181 main_v182 (broadcastInDim S1x256 ![1] bcast_S256_S1x256_1),
    unary main_v182 main_v183 (broadcastInDim S100000x256 ![0, 1] bcast_S1x256_S100000x256_0_1),
    binary main_v179 main_v183 main_v184 (addf),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v184) (TRef.of (T := ⟨S100000x256, .f32⟩) main_call4_v0) (TRef.of (T := ⟨S100000x256, .f32⟩) main_v185) maximumf,
    unary main_arg8 main_v186 ((extractStridedSlice S1x256x128 ![2, 0, 0] · slices_S4x256x128_S1x256x128_2_0_0)),
    reshape main_v186 main_v187 rfl shapeCasts_S1x256x128_S256x128,
    binary main_v185 main_v187 main_v188 ((fun l r => Host.dotGeneral dot_S100000x256_S256x128_S100000x128_1_0_0_1_n_n none l r)),
    unary main_arg9 main_v189 ((extractStridedSlice S1x128 ![2, 0] · slices_S4x128_S1x128_2_0)),
    reshape main_v189 main_v190 rfl shapeCasts_S1x128_S128,
    unary main_v190 main_v191 (broadcastInDim S1x128 ![1] bcast_S128_S1x128_1),
    unary main_v191 main_v192 (broadcastInDim S100000x128 ![0, 1] bcast_S1x128_S100000x128_0_1),
    binary main_v188 main_v192 main_v193 (addf),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v193) (TRef.of (T := ⟨S100000x128, .f32⟩) main_call5_v0) (TRef.of (T := ⟨S100000x128, .f32⟩) main_v194) maximumf ]

set_option maxRecDepth 8192 in
set_option maxHeartbeats 4000000 in

abbrev lay3 : List (HloOp τ sig (Elt F)) :=
  [ nullary main_c_26 (constantI S_ 32 0#32),
    unary main_c_26 main_v195 (broadcastInDim S1600000 ![] bcast_S_S1600000),
    binary main_v1 main_v195 main_v196 (cmpi .slt),
    nullary main_c_27 (constantI S_ 32 100000#32),
    unary main_c_27 main_v197 (broadcastInDim S1600000 ![] bcast_S_S1600000),
    binary main_v1 main_v197 main_v198 (addi),
    ternary main_v196 main_v198 main_v1 main_v199 (select),
    unary main_v199 main_v200 (broadcastInDim S1600000x1 ![0] bcast_S1600000_S1600000x1_0),
    binary main_v194 main_v200 main_v201 ((fun x i => Host.gather gather_S100000x128_S1600000x1_S1600000x128_1_0_n_n_0_1_1128 x i)),
    nullary main_cst_28 (constant S_ .f32 0x00000000#32),
    unary main_cst_28 main_v202 (broadcastInDim S100000x128 ![] bcast_S_S100000x128),
    unary main_v3 main_v203 (broadcastInDim S1600000x1 ![0] bcast_S1600000_S1600000x1_0),
    ternary main_v202 main_v203 main_v201 main_v204 ((fun x i u => Host.scatterAdd scatter_S100000x128_S1600000x1_S1600000x128_1_0_0_1 x i u)),
    unary main_v11 main_v205 (broadcastInDim S100000x1 ![0] bcast_S100000_S100000x1_0),
    unary main_v205 main_v206 (broadcastInDim S100000x128 ![0, 1] bcast_S100000x1_S100000x128_0_1),
    binary main_v204 main_v206 main_v207 (mulf),
    binary main_v194 main_v207 main_v208 (addf),
    unary main_arg4 main_v209 ((extractStridedSlice S1x128x256 ![3, 0, 0] · slices_S4x128x256_S1x128x256_3_0_0)),
    reshape main_v209 main_v210 rfl shapeCasts_S1x128x256_S128x256,
    binary main_v208 main_v210 main_v211 ((fun l r => Host.dotGeneral dot_S100000x128_S128x256_S100000x256_1_0_0_1_n_n none l r)),
    unary main_arg5 main_v212 ((extractStridedSlice S1x256 ![3, 0] · slices_S4x256_S1x256_3_0)),
    reshape main_v212 main_v213 rfl shapeCasts_S1x256_S256,
    unary main_v213 main_v214 (broadcastInDim S1x256 ![1] bcast_S256_S1x256_1),
    unary main_v214 main_v215 (broadcastInDim S100000x256 ![0, 1] bcast_S1x256_S100000x256_0_1),
    binary main_v211 main_v215 main_v216 (addf),
    nullary main_cst_29 (constant S_ .f32 0x00000000#32),
    binary main_v216 main_cst_29 main_v217 ((fun x v => Host.reduceAdd x v reducesTo_S100000x256_S256_d0 h_S_)),
    nullary main_cst_30 (constant S_ .f32 0x47C35000#32),
    unary main_cst_30 main_v218 (broadcastInDim S256 ![] bcast_S_S256),
    binary main_v217 main_v218 main_v219 (Host.divf),
    unary main_v219 main_v220 (broadcastInDim S1x256 ![1] bcast_S256_S1x256_1),
    unary main_v220 main_v221 (broadcastInDim S100000x256 ![0, 1] bcast_S1x256_S100000x256_0_1),
    binary main_v216 main_v221 main_v222 (subf),
    binary main_v222 main_v222 main_v223 (mulf),
    nullary main_cst_31 (constant S_ .f32 0x00000000#32),
    binary main_v223 main_cst_31 main_v224 ((fun x v => Host.reduceAdd x v reducesTo_S100000x256_S256_d0 h_S_)),
    nullary main_cst_32 (constant S_ .f32 0x47C35000#32),
    unary main_cst_32 main_v225 (broadcastInDim S256 ![] bcast_S_S256),
    binary main_v224 main_v225 main_v226 (Host.divf),
    unary main_arg6 main_v227 ((extractStridedSlice S1x256 ![3, 0] · slices_S4x256_S1x256_3_0)),
    reshape main_v227 main_v228 rfl shapeCasts_S1x256_S256,
    unary main_v219 main_v229 (broadcastInDim S1x256 ![1] bcast_S256_S1x256_1),
    unary main_v229 main_v230 (broadcastInDim S100000x256 ![0, 1] bcast_S1x256_S100000x256_0_1),
    binary main_v216 main_v230 main_v231 (subf),
    unary main_v228 main_v232 (broadcastInDim S1x256 ![1] bcast_S256_S1x256_1),
    unary main_v232 main_v233 (broadcastInDim S100000x256 ![0, 1] bcast_S1x256_S100000x256_0_1),
    binary main_v233 main_v231 main_v234 (mulf),
    nullary main_cst_33 (constant S_ .f32 0x3727C5AC#32),
    unary main_cst_33 main_v235 (broadcastInDim S256 ![] bcast_S_S256),
    binary main_v226 main_v235 main_v236 (addf),
    unary main_v236 main_v237 (Host.rsqrt),
    unary main_v237 main_v238 (broadcastInDim S1x256 ![1] bcast_S256_S1x256_1),
    unary main_v238 main_v239 (broadcastInDim S100000x256 ![0, 1] bcast_S1x256_S100000x256_0_1),
    binary main_v234 main_v239 main_v240 (mulf),
    unary main_arg7 main_v241 ((extractStridedSlice S1x256 ![3, 0] · slices_S4x256_S1x256_3_0)),
    reshape main_v241 main_v242 rfl shapeCasts_S1x256_S256,
    unary main_v242 main_v243 (broadcastInDim S1x256 ![1] bcast_S256_S1x256_1),
    unary main_v243 main_v244 (broadcastInDim S100000x256 ![0, 1] bcast_S1x256_S100000x256_0_1),
    binary main_v240 main_v244 main_v245 (addf),
    TRef.nullary (TRef.of (T := ⟨S_, .f32⟩) main_call6_cst) (constant S_ .f32 0x00000000#32),
    TRef.unary (TRef.of (T := ⟨S_, .f32⟩) main_call6_cst) (TRef.of (T := ⟨S100000x256, .f32⟩) main_call6_v0) (broadcastInDim S100000x256 ![] bcast_S_S100000x256),
    TRef.binary (TRef.of (T := ⟨S100000x256, .f32⟩) main_v245) (TRef.of (T := ⟨S100000x256, .f32⟩) main_call6_v0) (TRef.of (T := ⟨S100000x256, .f32⟩) main_v246) maximumf,
    unary main_arg8 main_v247 ((extractStridedSlice S1x256x128 ![3, 0, 0] · slices_S4x256x128_S1x256x128_3_0_0)),
    reshape main_v247 main_v248 rfl shapeCasts_S1x256x128_S256x128,
    binary main_v246 main_v248 main_v249 ((fun l r => Host.dotGeneral dot_S100000x256_S256x128_S100000x128_1_0_0_1_n_n none l r)),
    unary main_arg9 main_v250 ((extractStridedSlice S1x128 ![3, 0] · slices_S4x128_S1x128_3_0)),
    reshape main_v250 main_v251 rfl shapeCasts_S1x128_S128,
    unary main_v251 main_v252 (broadcastInDim S1x128 ![1] bcast_S128_S1x128_1),
    unary main_v252 main_v253 (broadcastInDim S100000x128 ![0, 1] bcast_S1x128_S100000x128_0_1),
    binary main_v249 main_v253 main_v254 (addf),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v254) (TRef.of (T := ⟨S100000x128, .f32⟩) main_call7_v0) (TRef.of (T := ⟨S100000x128, .f32⟩) main_v255) maximumf ]

set_option maxRecDepth 8192 in
set_option maxHeartbeats 4000000 in

abbrev tl : List (HloOp τ sig (Elt F)) :=
  [ nary ![main_v72, main_v133, main_v194, main_v255] main_v256 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    nullary main_cst_34 (constant S_ .f32 0x00000000#32),
    unary main_cst_34 main_v257 (broadcastInDim S512x512 ![] bcast_S_S512x512),
    unary main_arg3 main_v258 (broadcastInDim S100000x1 ![0] bcast_S100000_S100000x1_0),
    ternary main_v257 main_v258 main_v256 main_v259 ((fun x i u => Host.scatterAdd scatter_S512x512_S100000x1_S100000x512_1_0_0_1 x i u)),
    nullary main_cst_35 (constant S_ .f32 0x3F800000#32),
    unary main_cst_35 main_v260 (broadcastInDim S100000 ![] bcast_S_S100000),
    nullary main_cst_36 (constant S_ .f32 0x00000000#32),
    unary main_cst_36 main_v261 (broadcastInDim S512 ![] bcast_S_S512),
    unary main_arg3 main_v262 (broadcastInDim S100000x1 ![0] bcast_S100000_S100000x1_0),
    ternary main_v261 main_v262 main_v260 main_v263 ((fun x i u => Host.scatterAdd scatter_S512_S100000x1_S100000_n_0_0_1 x i u)),
    nullary main_cst_37 (constant S_ .f32 0x3F800000#32),
    unary main_cst_37 main_v264 (broadcastInDim S512 ![] bcast_S_S512),
    binary main_v263 main_v264 main_v265 (maximumf),
    unary main_v265 main_v266 (broadcastInDim S512x1 ![0] bcast_S512_S512x1_0),
    unary main_v266 main_v267 (broadcastInDim S512x512 ![0, 1] bcast_S512x1_S512x512_0_1),
    binary main_v259 main_v267 main_v268 (Host.divf),
    binary main_v268 main_arg10 main_v269 ((fun l r => Host.dotGeneral dot_S512x512_S512x10_S512x10_1_0_0_1_n_n none l r)),
    unary main_arg11 main_v270 (broadcastInDim S1x10 ![1] bcast_S10_S1x10_1),
    unary main_v270 main_v271 (broadcastInDim S512x10 ![0, 1] bcast_S1x10_S512x10_0_1),
    binary main_v269 main_v271 main_v272 (addf),
    TRef.nullary (TRef.of (T := ⟨S_, .f32⟩) main_call8_cst) (constant S_ .f32 0xFF800000#32),
    TRef.binary (TRef.of (T := ⟨S512x10, .f32⟩) main_v272) (TRef.of (T := ⟨S_, .f32⟩) main_call8_cst) (TRef.of (T := ⟨S512, .f32⟩) main_call8_v0) (fun x v => Host.reduce FloatOps.maximumf x v reducesTo_S512x10_S512_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S512, .f32⟩) main_call8_v1) (broadcastInDim S512 ![] bcast_S_S512),
    TRef.binary (TRef.of (T := ⟨S512, .f32⟩) main_call8_v1) (TRef.of (T := ⟨S512, .f32⟩) main_call8_v0) (TRef.of (T := ⟨S512, .f32⟩) main_call8_v2) maximumf,
    TRef.unary (TRef.of (T := ⟨S512, .f32⟩) main_call8_v2) (TRef.of (T := ⟨S512x1, .f32⟩) main_call8_v3) (broadcastInDim S512x1 ![0] bcast_S512_S512x1_0),
    TRef.unary (TRef.of (T := ⟨S512x1, .f32⟩) main_call8_v3) (TRef.of (T := ⟨S512x10, .f32⟩) main_call8_v4) (broadcastInDim S512x10 ![0, 1] bcast_S512x1_S512x10_0_1),
    TRef.binary (TRef.of (T := ⟨S512x10, .f32⟩) main_v272) (TRef.of (T := ⟨S512x10, .f32⟩) main_call8_v4) (TRef.of (T := ⟨S512x10, .f32⟩) main_call8_v5) subf,
    TRef.unary (TRef.of (T := ⟨S512x10, .f32⟩) main_call8_v5) (TRef.of (T := ⟨S512x10, .f32⟩) main_call8_v6) Host.exp,
    TRef.nullary (TRef.of (T := ⟨S_, .f32⟩) main_call8_cst_1) (constant S_ .f32 0x00000000#32),
    TRef.binary (TRef.of (T := ⟨S512x10, .f32⟩) main_call8_v6) (TRef.of (T := ⟨S_, .f32⟩) main_call8_cst_1) (TRef.of (T := ⟨S512, .f32⟩) main_call8_v7) (fun x v => Host.reduceAdd x v reducesTo_S512x10_S512_d1 h_S_),
    TRef.unary (TRef.of (T := ⟨S512, .f32⟩) main_call8_v7) (TRef.of (T := ⟨S512x1, .f32⟩) main_call8_v8) (broadcastInDim S512x1 ![0] bcast_S512_S512x1_0),
    TRef.unary (TRef.of (T := ⟨S512x1, .f32⟩) main_call8_v8) (TRef.of (T := ⟨S512x1, .f32⟩) main_call8_v9) Host.log,
    TRef.unary (TRef.of (T := ⟨S512x1, .f32⟩) main_call8_v9) (TRef.of (T := ⟨S512x10, .f32⟩) main_call8_v10) (broadcastInDim S512x10 ![0, 1] bcast_S512x1_S512x10_0_1),
    TRef.binary (TRef.of (T := ⟨S512x10, .f32⟩) main_call8_v5) (TRef.of (T := ⟨S512x10, .f32⟩) main_call8_v10) (TRef.of (T := ⟨S512x10, .f32⟩) main_v273) subf ]

end Cert.ReferenceIdeal.Hand

end
-- ==== Proof.Ref.Ops.lean ====
import proofs.«165926_j30305289241327_1_alg».proof.Proof.Ref.Chunks
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := Hand.pre ++ Hand.lay0 ++ Hand.lay1 ++ Hand.lay2 ++ Hand.lay3 ++ Hand.tl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RunP

namespace Cert.ReferenceIdeal.Hand

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after tl (after lay3 (after lay2 (after lay1 (after lay0 (after pre V))))) := by
  show after (pre ++ lay0 ++ lay1 ++ lay2 ++ lay3 ++ tl) V = _
  rw [after_append, after_append, after_append, after_append, after_append]

end Cert.ReferenceIdeal.Hand

end
-- ==== Proof.Ref.Keep.lean ====
import proofs.«165926_j30305289241327_1_alg».proof.Proof.Ref.Ops

noncomputable section

namespace Cert.ReferenceIdeal.Hand

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

local macro "writes_mem" : tactic =>
  `(tactic| (simp only [nullary_writes, unary_writes, binary_writes, ternary_writes, reshape_writes, nary_writes,
      Finset.singleton_subset_iff, List.mem_toFinset]; exact List.mem_map_of_mem (by decide)))

abbrev pre_W : List (Ref sig .tc) :=
  [main_v0, main_v1, main_v2, main_v3, main_cst, main_v4, main_cst_0, main_v5, main_v6, main_v7, main_cst_1, main_v8, main_v9, main_cst_2, main_v10, main_v11]

set_option maxRecDepth 8192 in
theorem pre_writes : (pre : List (HloOp τ sig (Elt F))).Forall fun op => op.writes ⊆ (pre_W.map (Proc.devRef (τ := τ) .tc)).toFinset := by
  simp only [List.Forall]
  repeat' constructor
  all_goals writes_mem

theorem pre_keep (V : Valuation τ sig (Elt F)) (r : Ref sig .tc) (h : r ∉ pre_W) :
    after pre V (Proc.devRef .tc r) = V (Proc.devRef .tc r) :=
  after_of_writes_sub pre V pre_writes h

abbrev lay0_W : List (Ref sig .tc) :=
  [main_c, main_v12, main_v13, main_c_3, main_v14, main_v15, main_v16, main_v17, main_v18, main_cst_4, main_v19, main_v20, main_v21, main_v22, main_v23, main_v24, main_v25, main_v26, main_v27, main_v28, main_v29, main_v30, main_v31, main_v32, main_v33, main_cst_5, main_v34, main_cst_6, main_v35, main_v36, main_v37, main_v38, main_v39, main_v40, main_cst_7, main_v41, main_cst_8, main_v42, main_v43, main_v44, main_v45, main_v46, main_v47, main_v48, main_v49, main_v50, main_v51, main_cst_9, main_v52, main_v53, main_v54, main_v55, main_v56, main_v57, main_v58, main_v59, main_v60, main_v61, main_v62, main_call0_cst, main_call0_v0, main_v63, main_v64, main_v65, main_v66, main_v67, main_v68, main_v69, main_v70, main_v71, main_call1_cst, main_call1_v0, main_v72]

set_option maxRecDepth 8192 in
theorem lay0_writes : (lay0 : List (HloOp τ sig (Elt F))).Forall fun op => op.writes ⊆ (lay0_W.map (Proc.devRef (τ := τ) .tc)).toFinset := by
  simp only [List.Forall]
  repeat' constructor
  all_goals writes_mem

theorem lay0_keep (V : Valuation τ sig (Elt F)) (r : Ref sig .tc) (h : r ∉ lay0_W) :
    after lay0 V (Proc.devRef .tc r) = V (Proc.devRef .tc r) :=
  after_of_writes_sub lay0 V lay0_writes h

abbrev lay1_W : List (Ref sig .tc) :=
  [main_c_10, main_v73, main_v74, main_c_11, main_v75, main_v76, main_v77, main_v78, main_v79, main_cst_12, main_v80, main_v81, main_v82, main_v83, main_v84, main_v85, main_v86, main_v87, main_v88, main_v89, main_v90, main_v91, main_v92, main_v93, main_v94, main_cst_13, main_v95, main_cst_14, main_v96, main_v97, main_v98, main_v99, main_v100, main_v101, main_cst_15, main_v102, main_cst_16, main_v103, main_v104, main_v105, main_v106, main_v107, main_v108, main_v109, main_v110, main_v111, main_v112, main_cst_17, main_v113, main_v114, main_v115, main_v116, main_v117, main_v118, main_v119, main_v120, main_v121, main_v122, main_v123, main_call2_cst, main_call2_v0, main_v124, main_v125, main_v126, main_v127, main_v128, main_v129, main_v130, main_v131, main_v132, main_call3_cst, main_call3_v0, main_v133]

set_option maxRecDepth 8192 in
theorem lay1_writes : (lay1 : List (HloOp τ sig (Elt F))).Forall fun op => op.writes ⊆ (lay1_W.map (Proc.devRef (τ := τ) .tc)).toFinset := by
  simp only [List.Forall]
  repeat' constructor
  all_goals writes_mem

theorem lay1_keep (V : Valuation τ sig (Elt F)) (r : Ref sig .tc) (h : r ∉ lay1_W) :
    after lay1 V (Proc.devRef .tc r) = V (Proc.devRef .tc r) :=
  after_of_writes_sub lay1 V lay1_writes h

abbrev lay2_W : List (Ref sig .tc) :=
  [main_c_18, main_v134, main_v135, main_c_19, main_v136, main_v137, main_v138, main_v139, main_v140, main_cst_20, main_v141, main_v142, main_v143, main_v144, main_v145, main_v146, main_v147, main_v148, main_v149, main_v150, main_v151, main_v152, main_v153, main_v154, main_v155, main_cst_21, main_v156, main_cst_22, main_v157, main_v158, main_v159, main_v160, main_v161, main_v162, main_cst_23, main_v163, main_cst_24, main_v164, main_v165, main_v166, main_v167, main_v168, main_v169, main_v170, main_v171, main_v172, main_v173, main_cst_25, main_v174, main_v175, main_v176, main_v177, main_v178, main_v179, main_v180, main_v181, main_v182, main_v183, main_v184, main_call4_cst, main_call4_v0, main_v185, main_v186, main_v187, main_v188, main_v189, main_v190, main_v191, main_v192, main_v193, main_call5_cst, main_call5_v0, main_v194]

set_option maxRecDepth 8192 in
theorem lay2_writes : (lay2 : List (HloOp τ sig (Elt F))).Forall fun op => op.writes ⊆ (lay2_W.map (Proc.devRef (τ := τ) .tc)).toFinset := by
  simp only [List.Forall]
  repeat' constructor
  all_goals writes_mem

theorem lay2_keep (V : Valuation τ sig (Elt F)) (r : Ref sig .tc) (h : r ∉ lay2_W) :
    after lay2 V (Proc.devRef .tc r) = V (Proc.devRef .tc r) :=
  after_of_writes_sub lay2 V lay2_writes h

abbrev lay3_W : List (Ref sig .tc) :=
  [main_c_26, main_v195, main_v196, main_c_27, main_v197, main_v198, main_v199, main_v200, main_v201, main_cst_28, main_v202, main_v203, main_v204, main_v205, main_v206, main_v207, main_v208, main_v209, main_v210, main_v211, main_v212, main_v213, main_v214, main_v215, main_v216, main_cst_29, main_v217, main_cst_30, main_v218, main_v219, main_v220, main_v221, main_v222, main_v223, main_cst_31, main_v224, main_cst_32, main_v225, main_v226, main_v227, main_v228, main_v229, main_v230, main_v231, main_v232, main_v233, main_v234, main_cst_33, main_v235, main_v236, main_v237, main_v238, main_v239, main_v240, main_v241, main_v242, main_v243, main_v244, main_v245, main_call6_cst, main_call6_v0, main_v246, main_v247, main_v248, main_v249, main_v250, main_v251, main_v252, main_v253, main_v254, main_call7_cst, main_call7_v0, main_v255]

set_option maxRecDepth 8192 in
theorem lay3_writes : (lay3 : List (HloOp τ sig (Elt F))).Forall fun op => op.writes ⊆ (lay3_W.map (Proc.devRef (τ := τ) .tc)).toFinset := by
  simp only [List.Forall]
  repeat' constructor
  all_goals writes_mem

theorem lay3_keep (V : Valuation τ sig (Elt F)) (r : Ref sig .tc) (h : r ∉ lay3_W) :
    after lay3 V (Proc.devRef .tc r) = V (Proc.devRef .tc r) :=
  after_of_writes_sub lay3 V lay3_writes h

abbrev tl_W : List (Ref sig .tc) :=
  [main_v256, main_cst_34, main_v257, main_v258, main_v259, main_cst_35, main_v260, main_cst_36, main_v261, main_v262, main_v263, main_cst_37, main_v264, main_v265, main_v266, main_v267, main_v268, main_v269, main_v270, main_v271, main_v272, main_call8_cst, main_call8_v0, main_call8_cst_0, main_call8_v1, main_call8_v2, main_call8_v3, main_call8_v4, main_call8_v5, main_call8_v6, main_call8_cst_1, main_call8_v7, main_call8_v8, main_call8_v9, main_call8_v10, main_v273]

set_option maxRecDepth 8192 in
theorem tl_writes : (tl : List (HloOp τ sig (Elt F))).Forall fun op => op.writes ⊆ (tl_W.map (Proc.devRef (τ := τ) .tc)).toFinset := by
  simp only [List.Forall]
  repeat' constructor
  all_goals writes_mem

theorem tl_keep (V : Valuation τ sig (Elt F)) (r : Ref sig .tc) (h : r ∉ tl_W) :
    after tl V (Proc.devRef .tc r) = V (Proc.devRef .tc r) :=
  after_of_writes_sub tl V tl_writes h

theorem ops_keep (V : Valuation τ sig (Elt F)) (r : Ref sig .tc) (h0 : r ∉ pre_W) (h1 : r ∉ lay0_W) (h2 : r ∉ lay1_W)
    (h3 : r ∉ lay2_W) (h4 : r ∉ lay3_W) (h5 : r ∉ tl_W) :
    after ops V (Proc.devRef .tc r) = V (Proc.devRef .tc r) := by
  rw [after_ops, tl_keep _ r h5, lay3_keep _ r h4, lay2_keep _ r h3, lay1_keep _ r h2, lay0_keep _ r h1, pre_keep _ r h0]

end Cert.ReferenceIdeal.Hand

end
-- ==== Proof.Ref.Fns.lean ====
import proofs.«165926_j30305289241327_1_alg».proof.Proof.Gen.ReferenceIdeal
import Idealize.ShloMosaic.PureOps

noncomputable section

namespace Cert.ReferenceIdeal.Hand

open Cert.ReferenceIdeal Cert.ReferenceIdeal.Gen Idealize.ShloMosaic

variable {F : FTy → Type} [FloatOps F]

local notation "𝔸[" s ", " e "]" => BufTy.Contents (Elt F) (⟨s, e⟩ : BufTy)

def refSrc (ei : 𝔸[S2x1600000, .i32]) : 𝔸[S1600000, .i32] :=
  shapeCast S1600000 (extractStridedSlice S1x1600000 ![0, 0] ei slices_S2x1600000_S1x1600000_0_0) shapeCasts_S1x1600000_S1600000

def refDst (ei : 𝔸[S2x1600000, .i32]) : 𝔸[S1600000, .i32] :=
  shapeCast S1600000 (extractStridedSlice S1x1600000 ![1, 0] ei slices_S2x1600000_S1x1600000_1_0) shapeCasts_S1x1600000_S1600000

def refInvDeg (dst : 𝔸[S1600000, .i32]) : 𝔸[S100000, .f32] :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

def refAgg (h : 𝔸[S100000x128, .f32]) (src dst : 𝔸[S1600000, .i32]) (invdeg : 𝔸[S100000, .f32]) : 𝔸[S100000x128, .f32] :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0 invdeg))

def refZ (h agg : 𝔸[S100000x128, .f32]) (W1 : 𝔸[S128x256, .f32]) (b1 : 𝔸[S256, .f32]) : 𝔸[S100000x256, .f32] :=
  addf
    (Host.dotGeneral dot_S100000x128_S128x256_S100000x256_1_0_0_1_n_n none (addf h agg) W1)
    (broadcastInDim S100000x256 ![0, 1] bcast_S1x256_S100000x256_0_1 (broadcastInDim S1x256 ![1] bcast_S256_S1x256_1 b1))

def refMean (z : 𝔸[S100000x256, .f32]) : 𝔸[S256, .f32] :=
  Host.divf (Host.reduceAdd z (constant S_ .f32 0x00000000#32) reducesTo_S100000x256_S256_d0 h_S_)
    (broadcastInDim S256 ![] bcast_S_S256 (constant S_ .f32 0x47C35000#32))

def refCentred (z : 𝔸[S100000x256, .f32]) : 𝔸[S100000x256, .f32] :=
  subf z (broadcastInDim S100000x256 ![0, 1] bcast_S1x256_S100000x256_0_1 (broadcastInDim S1x256 ![1] bcast_S256_S1x256_1 (refMean z)))

def refVar (z : 𝔸[S100000x256, .f32]) : 𝔸[S256, .f32] :=
  Host.divf
    (Host.reduceAdd (mulf (refCentred z) (refCentred z)) (constant S_ .f32 0x00000000#32) reducesTo_S100000x256_S256_d0 h_S_)
    (broadcastInDim S256 ![] bcast_S_S256 (constant S_ .f32 0x47C35000#32))

def refBn (z : 𝔸[S100000x256, .f32]) (g be : 𝔸[S256, .f32]) : 𝔸[S100000x256, .f32] :=
  maximumf
    (addf
      (mulf
        (mulf (broadcastInDim S100000x256 ![0, 1] bcast_S1x256_S100000x256_0_1 (broadcastInDim S1x256 ![1] bcast_S256_S1x256_1 g))
          (refCentred z))
        (broadcastInDim S100000x256 ![0, 1] bcast_S1x256_S100000x256_0_1
          (broadcastInDim S1x256 ![1] bcast_S256_S1x256_1
            (Host.rsqrt (addf (refVar z) (broadcastInDim S256 ![] bcast_S_S256 (constant S_ .f32 0x3727C5AC#32)))))))
      (broadcastInDim S100000x256 ![0, 1] bcast_S1x256_S100000x256_0_1 (broadcastInDim S1x256 ![1] bcast_S256_S1x256_1 be)))
    (broadcastInDim S100000x256 ![] bcast_S_S100000x256 (constant S_ .f32 0x00000000#32))

def refOut (y : 𝔸[S100000x256, .f32]) (W2 : 𝔸[S256x128, .f32]) (b2 : 𝔸[S128, .f32]) : 𝔸[S100000x128, .f32] :=
  maximumf
    (addf
      (Host.dotGeneral dot_S100000x256_S256x128_S100000x128_1_0_0_1_n_n none y W2)
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

def refDense (h agg : 𝔸[S100000x128, .f32]) (W1 : 𝔸[S128x256, .f32]) (b1 g be : 𝔸[S256, .f32])
    (W2 : 𝔸[S256x128, .f32]) (b2 : 𝔸[S128, .f32]) : 𝔸[S100000x128, .f32] :=
  refOut (refBn (refZ h agg W1 b1) g be) W2 b2

def refLayer (h : 𝔸[S100000x128, .f32]) (src dst : 𝔸[S1600000, .i32]) (invdeg : 𝔸[S100000, .f32])
    (W1 : 𝔸[S128x256, .f32]) (b1 g be : 𝔸[S256, .f32]) (W2 : 𝔸[S256x128, .f32]) (b2 : 𝔸[S128, .f32]) : 𝔸[S100000x128, .f32] :=
  refDense h (refAgg h src dst invdeg) W1 b1 g be W2 b2

def refW1 (k : Fin 4) (a : 𝔸[S4x128x256, .f32]) : 𝔸[S128x256, .f32] :=
  match k with
  | 0 => shapeCast S128x256 (extractStridedSlice S1x128x256 ![0, 0, 0] a slices_S4x128x256_S1x128x256_0_0_0) shapeCasts_S1x128x256_S128x256
  | 1 => shapeCast S128x256 (extractStridedSlice S1x128x256 ![1, 0, 0] a slices_S4x128x256_S1x128x256_1_0_0) shapeCasts_S1x128x256_S128x256
  | 2 => shapeCast S128x256 (extractStridedSlice S1x128x256 ![2, 0, 0] a slices_S4x128x256_S1x128x256_2_0_0) shapeCasts_S1x128x256_S128x256
  | 3 => shapeCast S128x256 (extractStridedSlice S1x128x256 ![3, 0, 0] a slices_S4x128x256_S1x128x256_3_0_0) shapeCasts_S1x128x256_S128x256

def refRow256 (k : Fin 4) (a : 𝔸[S4x256, .f32]) : 𝔸[S256, .f32] :=
  match k with
  | 0 => shapeCast S256 (extractStridedSlice S1x256 ![0, 0] a slices_S4x256_S1x256_0_0) shapeCasts_S1x256_S256
  | 1 => shapeCast S256 (extractStridedSlice S1x256 ![1, 0] a slices_S4x256_S1x256_1_0) shapeCasts_S1x256_S256
  | 2 => shapeCast S256 (extractStridedSlice S1x256 ![2, 0] a slices_S4x256_S1x256_2_0) shapeCasts_S1x256_S256
  | 3 => shapeCast S256 (extractStridedSlice S1x256 ![3, 0] a slices_S4x256_S1x256_3_0) shapeCasts_S1x256_S256

abbrev refB1 (k : Fin 4) (a : 𝔸[S4x256, .f32]) : 𝔸[S256, .f32] := refRow256 k a

abbrev refG (k : Fin 4) (a : 𝔸[S4x256, .f32]) : 𝔸[S256, .f32] := refRow256 k a

abbrev refBe (k : Fin 4) (a : 𝔸[S4x256, .f32]) : 𝔸[S256, .f32] := refRow256 k a

def refW2 (k : Fin 4) (a : 𝔸[S4x256x128, .f32]) : 𝔸[S256x128, .f32] :=
  match k with
  | 0 => shapeCast S256x128 (extractStridedSlice S1x256x128 ![0, 0, 0] a slices_S4x256x128_S1x256x128_0_0_0) shapeCasts_S1x256x128_S256x128
  | 1 => shapeCast S256x128 (extractStridedSlice S1x256x128 ![1, 0, 0] a slices_S4x256x128_S1x256x128_1_0_0) shapeCasts_S1x256x128_S256x128
  | 2 => shapeCast S256x128 (extractStridedSlice S1x256x128 ![2, 0, 0] a slices_S4x256x128_S1x256x128_2_0_0) shapeCasts_S1x256x128_S256x128
  | 3 => shapeCast S256x128 (extractStridedSlice S1x256x128 ![3, 0, 0] a slices_S4x256x128_S1x256x128_3_0_0) shapeCasts_S1x256x128_S256x128

def refB2 (k : Fin 4) (a : 𝔸[S4x128, .f32]) : 𝔸[S128, .f32] :=
  match k with
  | 0 => shapeCast S128 (extractStridedSlice S1x128 ![0, 0] a slices_S4x128_S1x128_0_0) shapeCasts_S1x128_S128
  | 1 => shapeCast S128 (extractStridedSlice S1x128 ![1, 0] a slices_S4x128_S1x128_1_0) shapeCasts_S1x128_S128
  | 2 => shapeCast S128 (extractStridedSlice S1x128 ![2, 0] a slices_S4x128_S1x128_2_0) shapeCasts_S1x128_S128
  | 3 => shapeCast S128 (extractStridedSlice S1x128 ![3, 0] a slices_S4x128_S1x128_3_0) shapeCasts_S1x128_S128

def refCat (h1 h2 h3 h4 : 𝔸[S100000x128, .f32]) : 𝔸[S100000x512, .f32] :=
  concatenate S100000x512 1 [⟨S100000x128, h1⟩, ⟨S100000x128, h2⟩, ⟨S100000x128, h3⟩, ⟨S100000x128, h4⟩]
    concatenates_S100000x128_S100000x128_S100000x128_S100000x128_S100000x512_d1

def refPool (x : 𝔸[S100000x512, .f32]) (batch : 𝔸[S100000, .i32]) : 𝔸[S512x512, .f32] :=
  Host.divf
    (Host.scatterAdd scatter_S512x512_S100000x1_S100000x512_1_0_0_1
      (broadcastInDim S512x512 ![] bcast_S_S512x512 (constant S_ .f32 0x00000000#32))
      (broadcastInDim S100000x1 ![0] bcast_S100000_S100000x1_0 batch)
      x)
    (broadcastInDim S512x512 ![0, 1] bcast_S512x1_S512x512_0_1
      (broadcastInDim S512x1 ![0] bcast_S512_S512x1_0
        (maximumf
          (Host.scatterAdd scatter_S512_S100000x1_S100000_n_0_0_1
            (broadcastInDim S512 ![] bcast_S_S512 (constant S_ .f32 0x00000000#32))
            (broadcastInDim S100000x1 ![0] bcast_S100000_S100000x1_0 batch)
            (broadcastInDim S100000 ![] bcast_S_S100000 (constant S_ .f32 0x3F800000#32)))
          (broadcastInDim S512 ![] bcast_S_S512 (constant S_ .f32 0x3F800000#32)))))

def refLogits (p : 𝔸[S512x512, .f32]) (fcW : 𝔸[S512x10, .f32]) (fcb : 𝔸[S10, .f32]) : 𝔸[S512x10, .f32] :=
  addf (Host.dotGeneral dot_S512x512_S512x10_S512x10_1_0_0_1_n_n none p fcW)
    (broadcastInDim S512x10 ![0, 1] bcast_S1x10_S512x10_0_1 (broadcastInDim S1x10 ![1] bcast_S10_S1x10_1 fcb))

def refShifted (l : 𝔸[S512x10, .f32]) : 𝔸[S512x10, .f32] :=
  subf l
    (broadcastInDim S512x10 ![0, 1] bcast_S512x1_S512x10_0_1
      (broadcastInDim S512x1 ![0] bcast_S512_S512x1_0
        (maximumf (broadcastInDim S512 ![] bcast_S_S512 (constant S_ .f32 0xFF800000#32))
          (Host.reduce FloatOps.maximumf l (constant S_ .f32 0xFF800000#32) reducesTo_S512x10_S512_d1 h_S_))))

def refLogSoftmax (l : 𝔸[S512x10, .f32]) : 𝔸[S512x10, .f32] :=
  subf (refShifted l)
    (broadcastInDim S512x10 ![0, 1] bcast_S512x1_S512x10_0_1
      (Host.log
        (broadcastInDim S512x1 ![0] bcast_S512_S512x1_0
          (Host.reduceAdd (Host.exp (refShifted l)) (constant S_ .f32 0x00000000#32) reducesTo_S512x10_S512_d1 h_S_))))

def refTail (h1 h2 h3 h4 : 𝔸[S100000x128, .f32]) (batch : 𝔸[S100000, .i32]) (fcW : 𝔸[S512x10, .f32]) (fcb : 𝔸[S10, .f32]) :
    𝔸[S512x10, .f32] :=
  refLogSoftmax (refLogits (refPool (refCat h1 h2 h3 h4) batch) fcW fcb)

end Cert.ReferenceIdeal.Hand

end
-- ==== Proof.Ref.Out0.lean ====
import proofs.«165926_j30305289241327_1_alg».proof.Proof.Ref.Chunks
import proofs.«165926_j30305289241327_1_alg».proof.Proof.Ref.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem lay0_out (V : Valuation τ sig (Elt F)) :
    after lay0 V (Proc.devRef .tc main_v72) =
      refLayer (V (Proc.devRef .tc main_arg0)) (V (Proc.devRef .tc main_v1)) (V (Proc.devRef .tc main_v3)) (V (Proc.devRef .tc main_v11))
        (refW1 0 (V (Proc.devRef .tc main_arg4))) (refB1 0 (V (Proc.devRef .tc main_arg5))) (refG 0 (V (Proc.devRef .tc main_arg6)))
        (refBe 0 (V (Proc.devRef .tc main_arg7))) (refW2 0 (V (Proc.devRef .tc main_arg8))) (refB2 0 (V (Proc.devRef .tc main_arg9))) := by
  after_results_simp
  rfl

end Cert.ReferenceIdeal.Hand

end
-- ==== Proof.Ref.Out1.lean ====
import proofs.«165926_j30305289241327_1_alg».proof.Proof.Ref.Chunks
import proofs.«165926_j30305289241327_1_alg».proof.Proof.Ref.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem lay1_out (V : Valuation τ sig (Elt F)) :
    after lay1 V (Proc.devRef .tc main_v133) =
      refLayer (V (Proc.devRef .tc main_v72)) (V (Proc.devRef .tc main_v1)) (V (Proc.devRef .tc main_v3)) (V (Proc.devRef .tc main_v11))
        (refW1 1 (V (Proc.devRef .tc main_arg4))) (refB1 1 (V (Proc.devRef .tc main_arg5))) (refG 1 (V (Proc.devRef .tc main_arg6)))
        (refBe 1 (V (Proc.devRef .tc main_arg7))) (refW2 1 (V (Proc.devRef .tc main_arg8))) (refB2 1 (V (Proc.devRef .tc main_arg9))) := by
  after_results_simp
  rfl

end Cert.ReferenceIdeal.Hand

end
-- ==== Proof.Ref.Out2.lean ====
import proofs.«165926_j30305289241327_1_alg».proof.Proof.Ref.Chunks
import proofs.«165926_j30305289241327_1_alg».proof.Proof.Ref.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem lay2_out (V : Valuation τ sig (Elt F)) :
    after lay2 V (Proc.devRef .tc main_v194) =
      refLayer (V (Proc.devRef .tc main_v133)) (V (Proc.devRef .tc main_v1)) (V (Proc.devRef .tc main_v3)) (V (Proc.devRef .tc main_v11))
        (refW1 2 (V (Proc.devRef .tc main_arg4))) (refB1 2 (V (Proc.devRef .tc main_arg5))) (refG 2 (V (Proc.devRef .tc main_arg6)))
        (refBe 2 (V (Proc.devRef .tc main_arg7))) (refW2 2 (V (Proc.devRef .tc main_arg8))) (refB2 2 (V (Proc.devRef .tc main_arg9))) := by
  after_results_simp
  rfl

end Cert.ReferenceIdeal.Hand

end
-- ==== Proof.Ref.Out3.lean ====
import proofs.«165926_j30305289241327_1_alg».proof.Proof.Ref.Chunks
import proofs.«165926_j30305289241327_1_alg».proof.Proof.Ref.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem lay3_out (V : Valuation τ sig (Elt F)) :
    after lay3 V (Proc.devRef .tc main_v255) =
      refLayer (V (Proc.devRef .tc main_v194)) (V (Proc.devRef .tc main_v1)) (V (Proc.devRef .tc main_v3)) (V (Proc.devRef .tc main_v11))
        (refW1 3 (V (Proc.devRef .tc main_arg4))) (refB1 3 (V (Proc.devRef .tc main_arg5))) (refG 3 (V (Proc.devRef .tc main_arg6)))
        (refBe 3 (V (Proc.devRef .tc main_arg7))) (refW2 3 (V (Proc.devRef .tc main_arg8))) (refB2 3 (V (Proc.devRef .tc main_arg9))) := by
  after_results_simp
  rfl

end Cert.ReferenceIdeal.Hand

end
-- ==== Proof.Ref.Value.lean ====
import proofs.«165926_j30305289241327_1_alg».proof.Proof.Ref.Keep
import proofs.«165926_j30305289241327_1_alg».proof.Proof.Ref.Out0
import proofs.«165926_j30305289241327_1_alg».proof.Proof.Ref.Out1
import proofs.«165926_j30305289241327_1_alg».proof.Proof.Ref.Out2
import proofs.«165926_j30305289241327_1_alg».proof.Proof.Ref.Out3

noncomputable section

namespace Cert.ReferenceIdeal.Hand

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

local notation "𝔸[" s ", " e "]" => BufTy.Contents (Elt F) (⟨s, e⟩ : BufTy)

theorem pre_src (V : Valuation τ sig (Elt F)) :
    after pre V (Proc.devRef .tc main_v1) = refSrc (V (Proc.devRef .tc main_arg1)) := by
  after_results_simp
  rfl

theorem pre_dst (V : Valuation τ sig (Elt F)) :
    after pre V (Proc.devRef .tc main_v3) = refDst (V (Proc.devRef .tc main_arg1)) := by
  after_results_simp
  rfl

theorem pre_invdeg (V : Valuation τ sig (Elt F)) :
    after pre V (Proc.devRef .tc main_v11) = refInvDeg (refDst (V (Proc.devRef .tc main_arg1))) := by
  after_results_simp
  rfl

set_option maxHeartbeats 4000000 in

theorem tl_out (V : Valuation τ sig (Elt F)) :
    after tl V (Proc.devRef .tc main_v273) =
      refTail (V (Proc.devRef .tc main_v72)) (V (Proc.devRef .tc main_v133)) (V (Proc.devRef .tc main_v194)) (V (Proc.devRef .tc main_v255))
        (V (Proc.devRef .tc main_arg3)) (V (Proc.devRef .tc main_arg10)) (V (Proc.devRef .tc main_arg11)) := by
  after_results_simp
  rfl

def refLayerAt (V0 : Valuation τ sig (Elt F)) (k : Fin 4) (x : 𝔸[S100000x128, .f32]) : 𝔸[S100000x128, .f32] :=
  refLayer x (refSrc (V0 (Proc.devRef .tc main_arg1))) (refDst (V0 (Proc.devRef .tc main_arg1))) (refInvDeg (refDst (V0 (Proc.devRef .tc main_arg1))))
    (refW1 k (V0 (Proc.devRef .tc main_arg4))) (refB1 k (V0 (Proc.devRef .tc main_arg5))) (refG k (V0 (Proc.devRef .tc main_arg6)))
    (refBe k (V0 (Proc.devRef .tc main_arg7))) (refW2 k (V0 (Proc.devRef .tc main_arg8))) (refB2 k (V0 (Proc.devRef .tc main_arg9)))

def refL1 (V0 : Valuation τ sig (Elt F)) : 𝔸[S100000x128, .f32] := refLayerAt V0 0 (V0 (Proc.devRef .tc main_arg0))

def refL2 (V0 : Valuation τ sig (Elt F)) : 𝔸[S100000x128, .f32] := refLayerAt V0 1 (refL1 V0)

def refL3 (V0 : Valuation τ sig (Elt F)) : 𝔸[S100000x128, .f32] := refLayerAt V0 2 (refL2 V0)

def refL4 (V0 : Valuation τ sig (Elt F)) : 𝔸[S100000x128, .f32] := refLayerAt V0 3 (refL3 V0)

abbrev argRefs : List (Ref sig .tc) :=
  [main_arg0, main_arg1, main_arg2, main_arg3, main_arg4, main_arg5, main_arg6, main_arg7, main_arg8, main_arg9, main_arg10, main_arg11]

structure Shared (V0 V : Valuation τ sig (Elt F)) : Prop where
  src : V (Proc.devRef .tc main_v1) = refSrc (V0 (Proc.devRef .tc main_arg1))
  dst : V (Proc.devRef .tc main_v3) = refDst (V0 (Proc.devRef .tc main_arg1))
  inv : V (Proc.devRef .tc main_v11) = refInvDeg (refDst (V0 (Proc.devRef .tc main_arg1)))
  args : ∀ r ∈ argRefs, V (Proc.devRef .tc r) = V0 (Proc.devRef .tc r)

theorem Shared.pre (V0 : Valuation τ sig (Elt F)) : Shared V0 (after pre V0) :=
  ⟨pre_src V0, pre_dst V0, pre_invdeg V0, fun r hr => pre_keep V0 r ((by decide : ∀ r ∈ argRefs, r ∉ pre_W) r hr)⟩

theorem Shared.step {V0 V : Valuation τ sig (Elt F)} {c : List (HloOp τ sig (Elt F))} {W : List (Ref sig .tc)}
    (keep : ∀ (V : Valuation τ sig (Elt F)) (r : Ref sig .tc), r ∉ W → after c V (Proc.devRef .tc r) = V (Proc.devRef .tc r))
    (hW : ∀ r ∈ main_v1 :: main_v3 :: main_v11 :: argRefs, r ∉ W) (h : Shared V0 V) : Shared V0 (after c V) :=
  ⟨(keep V _ (hW _ (by decide))).trans h.src, (keep V _ (hW _ (by decide))).trans h.dst,
    (keep V _ (hW _ (by decide))).trans h.inv,
    fun r hr => (keep V r (hW r (List.mem_cons_of_mem _ (List.mem_cons_of_mem _ (List.mem_cons_of_mem _ hr))))).trans (h.args r hr)⟩

theorem Shared.layer {V0 V : Valuation τ sig (Elt F)} (h : Shared V0 V) (k : Fin 4) (x : 𝔸[S100000x128, .f32]) :
    refLayer x (V (Proc.devRef .tc main_v1)) (V (Proc.devRef .tc main_v3)) (V (Proc.devRef .tc main_v11))
        (refW1 k (V (Proc.devRef .tc main_arg4))) (refB1 k (V (Proc.devRef .tc main_arg5))) (refG k (V (Proc.devRef .tc main_arg6)))
        (refBe k (V (Proc.devRef .tc main_arg7))) (refW2 k (V (Proc.devRef .tc main_arg8))) (refB2 k (V (Proc.devRef .tc main_arg9)))
      = refLayerAt V0 k x := by
  rw [h.src, h.dst, h.inv, h.args main_arg4 (by decide), h.args main_arg5 (by decide), h.args main_arg6 (by decide),
    h.args main_arg7 (by decide), h.args main_arg8 (by decide), h.args main_arg9 (by decide)]
  rfl

theorem value_of_stages {V0 V1 V2 V3 V4 V5 : Valuation τ sig (Elt F)}
    (h1 : V1 = after pre V0) (h2 : V2 = after lay0 V1) (h3 : V3 = after lay1 V2) (h4 : V4 = after lay2 V3)
    (h5 : V5 = after lay3 V4) :
    after tl V5 (Proc.devRef .tc main_v273) =
      refTail (refL1 V0) (refL2 V0) (refL3 V0) (refL4 V0)
        (V0 (Proc.devRef .tc main_arg3)) (V0 (Proc.devRef .tc main_arg10)) (V0 (Proc.devRef .tc main_arg11)) := by
  have S1 : Shared V0 V1 := h1 ▸ Shared.pre V0
  have S2 : Shared V0 V2 := h2 ▸ S1.step lay0_keep (by decide)
  have S3 : Shared V0 V3 := h3 ▸ S2.step lay1_keep (by decide)
  have S4 : Shared V0 V4 := h4 ▸ S3.step lay2_keep (by decide)
  have S5 : Shared V0 V5 := h5 ▸ S4.step lay3_keep (by decide)

  have o1 : V2 (Proc.devRef .tc main_v72) = refL1 V0 := by
    rw [h2, lay0_out, S1.layer, S1.args main_arg0 (by decide)]; rfl
  have o2 : V3 (Proc.devRef .tc main_v133) = refL2 V0 := by
    rw [h3, lay1_out, S2.layer, o1]; rfl

  have c1 : V3 (Proc.devRef .tc main_v72) = refL1 V0 := by
    rw [h3, lay1_keep V2 main_v72 (by decide), o1]
  have o3 : V4 (Proc.devRef .tc main_v194) = refL3 V0 := by
    rw [h4, lay2_out, S3.layer, o2]; rfl
  have c1' : V4 (Proc.devRef .tc main_v72) = refL1 V0 := by
    rw [h4, lay2_keep V3 main_v72 (by decide), c1]
  have c2 : V4 (Proc.devRef .tc main_v133) = refL2 V0 := by
    rw [h4, lay2_keep V3 main_v133 (by decide), o2]
  have o4 : V5 (Proc.devRef .tc main_v255) = refL4 V0 := by
    rw [h5, lay3_out, S4.layer, o3]; rfl
  have c1'' : V5 (Proc.devRef .tc main_v72) = refL1 V0 := by
    rw [h5, lay3_keep V4 main_v72 (by decide), c1']
  have c2' : V5 (Proc.devRef .tc main_v133) = refL2 V0 := by
    rw [h5, lay3_keep V4 main_v133 (by decide), c2]
  have c3 : V5 (Proc.devRef .tc main_v194) = refL3 V0 := by
    rw [h5, lay3_keep V4 main_v194 (by decide), o3]
  rw [tl_out, c1'', c2', c3, o4, S5.args main_arg3 (by decide), S5.args main_arg10 (by decide), S5.args main_arg11 (by decide)]

theorem ref_value_of (V0 : Valuation τ sig (Elt F)) :
    after ops V0 (Proc.devRef .tc main_v273) =
      refTail (refL1 V0) (refL2 V0) (refL3 V0) (refL4 V0)
        (V0 (Proc.devRef .tc main_arg3)) (V0 (Proc.devRef .tc main_arg10)) (V0 (Proc.devRef .tc main_arg11)) := by
  rw [after_ops]
  exact value_of_stages rfl rfl rfl rfl rfl

theorem ref_value (m : (ℓ : Loc nD τ sig) → Buf (Elt F) ℓ) (d : Dev nD) :
    after (ops (F := F)) (launchContents m d) (Proc.devRef .tc main_v273) =
      refTail (refL1 (launchContents m d)) (refL2 (launchContents m d)) (refL3 (launchContents m d)) (refL4 (launchContents m d))
        (launchContents m d (Proc.devRef .tc main_arg3)) (launchContents m d (Proc.devRef .tc main_arg10)) (launchContents m d (Proc.devRef .tc main_arg11)) :=
  ref_value_of (launchContents m d)

theorem ref_args (V0 : Valuation τ sig (Elt F)) :
    ∀ r ∈ argRefs, after ops V0 (Proc.devRef .tc r) = V0 (Proc.devRef .tc r) := fun r hr =>
  ops_keep V0 r ((by decide : ∀ r ∈ argRefs, r ∉ pre_W) r hr) ((by decide : ∀ r ∈ argRefs, r ∉ lay0_W) r hr)
    ((by decide : ∀ r ∈ argRefs, r ∉ lay1_W) r hr) ((by decide : ∀ r ∈ argRefs, r ∉ lay2_W) r hr)
    ((by decide : ∀ r ∈ argRefs, r ∉ lay3_W) r hr) ((by decide : ∀ r ∈ argRefs, r ∉ tl_W) r hr)

end Cert.ReferenceIdeal.Hand

end
-- ==== Proof.KI.Fns.lean ====
import proofs.«165926_j30305289241327_1_alg».proof.KernelIdeal
import Idealize.ShloMosaic.PureOps

noncomputable section

namespace Cert.KernelIdeal.Hand

open Cert.KernelIdeal
open Idealize.ShloMosaic
open Cert.KernelIdeal.Facts₀

variable {F : FTy → Type} [FloatOps F] [Facts₀]

set_option quotPrecheck false in
local notation "𝔸[" s ", " e "]" => BufTy.Contents (Elt F) (⟨s, e⟩ : BufTy)

def kerSrc (ei : 𝔸[S2x1600000, .i32]) : 𝔸[S1600000, .i32] :=
  shapeCast S1600000 (extractStridedSlice S1x1600000 ![0, 0] ei slices_S2x1600000_S1x1600000_0_0) shapeCasts_S1x1600000_S1600000

def kerDst (ei : 𝔸[S2x1600000, .i32]) : 𝔸[S1600000, .i32] :=
  shapeCast S1600000 (extractStridedSlice S1x1600000 ![1, 0] ei slices_S2x1600000_S1x1600000_1_0) shapeCasts_S1x1600000_S1600000

def kerDeg (dst : 𝔸[S1600000, .i32]) : 𝔸[S100000, .f32] :=
  Host.scatterAdd scatter_S100000_S1600000x1_S1600000_n_0_0_1
    (broadcastInDim S100000 ![] bcast_S_S100000 (constant S_ .f32 0x00000000#32 : 𝔸[S_, .f32]))
    (broadcastInDim S1600000x1 ![0] bcast_S1600000_S1600000x1_0 dst)
    (broadcastInDim S1600000 ![] bcast_S_S1600000 (constant S_ .f32 0x3F800000#32 : 𝔸[S_, .f32]))

def kerInvDeg (dst : 𝔸[S1600000, .i32]) : 𝔸[S100000, .f32] :=
  Host.divf (broadcastInDim S100000 ![] bcast_S_S100000 (constant S_ .f32 0x3F800000#32 : 𝔸[S_, .f32]))
    (maximumf (kerDeg dst) (broadcastInDim S100000 ![] bcast_S_S100000 (constant S_ .f32 0x3F800000#32 : 𝔸[S_, .f32])))

def kerWrap (src : 𝔸[S1600000, .i32]) : 𝔸[S1600000, .i32] :=
  select (cmpi .slt src (broadcastInDim S1600000 ![] bcast_S_S1600000 (constantI S_ 32 0#32)))
    (addi src (broadcastInDim S1600000 ![] bcast_S_S1600000 (constantI S_ 32 100000#32))) src

def kerAggSum (h : 𝔸[S100000x128, .f32]) (src dst : 𝔸[S1600000, .i32]) : 𝔸[S100000x128, .f32] :=
  Host.scatterAdd scatter_S100000x128_S1600000x1_S1600000x128_1_0_0_1
    (broadcastInDim S100000x128 ![] bcast_S_S100000x128 (constant S_ .f32 0x00000000#32 : 𝔸[S_, .f32]))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (kerWrap src)))

def kerAgg (h : 𝔸[S100000x128, .f32]) (src dst : 𝔸[S1600000, .i32]) (invdeg : 𝔸[S100000, .f32]) : 𝔸[S100000x128, .f32] :=
  mulf (kerAggSum h src dst)
    (broadcastInDim S100000x128 ![0, 1] bcast_S100000x1_S100000x128_0_1
      (broadcastInDim S100000x1 ![0] bcast_S100000_S100000x1_0 invdeg))

def kerW1 : Fin 4 → 𝔸[S4x128x256, .f32] → 𝔸[S128x256, .f32]
  | 0, a => shapeCast S128x256 (extractStridedSlice S1x128x256 ![0, 0, 0] a slices_S4x128x256_S1x128x256_0_0_0) shapeCasts_S1x128x256_S128x256
  | 1, a => shapeCast S128x256 (extractStridedSlice S1x128x256 ![1, 0, 0] a slices_S4x128x256_S1x128x256_1_0_0) shapeCasts_S1x128x256_S128x256
  | 2, a => shapeCast S128x256 (extractStridedSlice S1x128x256 ![2, 0, 0] a slices_S4x128x256_S1x128x256_2_0_0) shapeCasts_S1x128x256_S128x256
  | 3, a => shapeCast S128x256 (extractStridedSlice S1x128x256 ![3, 0, 0] a slices_S4x128x256_S1x128x256_3_0_0) shapeCasts_S1x128x256_S128x256
  | ⟨_ + 4, h⟩, _ => absurd h (Nat.not_lt.2 (Nat.le_add_left _ _))

def kerRow256 : Fin 4 → 𝔸[S4x256, .f32] → 𝔸[S1x256, .f32]
  | 0, a => shapeCast S1x256 (shapeCast S256 (extractStridedSlice S1x256 ![0, 0] a slices_S4x256_S1x256_0_0) shapeCasts_S1x256_S256) shapeCasts_S256_S1x256
  | 1, a => shapeCast S1x256 (shapeCast S256 (extractStridedSlice S1x256 ![1, 0] a slices_S4x256_S1x256_1_0) shapeCasts_S1x256_S256) shapeCasts_S256_S1x256
  | 2, a => shapeCast S1x256 (shapeCast S256 (extractStridedSlice S1x256 ![2, 0] a slices_S4x256_S1x256_2_0) shapeCasts_S1x256_S256) shapeCasts_S256_S1x256
  | 3, a => shapeCast S1x256 (shapeCast S256 (extractStridedSlice S1x256 ![3, 0] a slices_S4x256_S1x256_3_0) shapeCasts_S1x256_S256) shapeCasts_S256_S1x256
  | ⟨_ + 4, h⟩, _ => absurd h (Nat.not_lt.2 (Nat.le_add_left _ _))

def kerB1 (k : Fin 4) (a : 𝔸[S4x256, .f32]) : 𝔸[S1x256, .f32] := kerRow256 k a

def kerG (k : Fin 4) (a : 𝔸[S4x256, .f32]) : 𝔸[S1x256, .f32] := kerRow256 k a

def kerBe (k : Fin 4) (a : 𝔸[S4x256, .f32]) : 𝔸[S1x256, .f32] := kerRow256 k a

def kerW2 : Fin 4 → 𝔸[S4x256x128, .f32] → 𝔸[S256x128, .f32]
  | 0, a => shapeCast S256x128 (extractStridedSlice S1x256x128 ![0, 0, 0] a slices_S4x256x128_S1x256x128_0_0_0) shapeCasts_S1x256x128_S256x128
  | 1, a => shapeCast S256x128 (extractStridedSlice S1x256x128 ![1, 0, 0] a slices_S4x256x128_S1x256x128_1_0_0) shapeCasts_S1x256x128_S256x128
  | 2, a => shapeCast S256x128 (extractStridedSlice S1x256x128 ![2, 0, 0] a slices_S4x256x128_S1x256x128_2_0_0) shapeCasts_S1x256x128_S256x128
  | 3, a => shapeCast S256x128 (extractStridedSlice S1x256x128 ![3, 0, 0] a slices_S4x256x128_S1x256x128_3_0_0) shapeCasts_S1x256x128_S256x128
  | ⟨_ + 4, h⟩, _ => absurd h (Nat.not_lt.2 (Nat.le_add_left _ _))

def kerB2 : Fin 4 → 𝔸[S4x128, .f32] → 𝔸[S1x128, .f32]
  | 0, a => shapeCast S1x128 (shapeCast S128 (extractStridedSlice S1x128 ![0, 0] a slices_S4x128_S1x128_0_0) shapeCasts_S1x128_S128) shapeCasts_S128_S1x128
  | 1, a => shapeCast S1x128 (shapeCast S128 (extractStridedSlice S1x128 ![1, 0] a slices_S4x128_S1x128_1_0) shapeCasts_S1x128_S128) shapeCasts_S128_S1x128
  | 2, a => shapeCast S1x128 (shapeCast S128 (extractStridedSlice S1x128 ![2, 0] a slices_S4x128_S1x128_2_0) shapeCasts_S1x128_S128) shapeCasts_S128_S1x128
  | 3, a => shapeCast S1x128 (shapeCast S128 (extractStridedSlice S1x128 ![3, 0] a slices_S4x128_S1x128_3_0) shapeCasts_S1x128_S128) shapeCasts_S128_S1x128
  | ⟨_ + 4, h⟩, _ => absurd h (Nat.not_lt.2 (Nat.le_add_left _ _))

def kerN : 𝔸[S256, .f32] := broadcastInDim S256 ![] bcast_S_S256 (constant S_ .f32 0x47C35000#32 : 𝔸[S_, .f32])

def kerMeanV (s : 𝔸[S1x256, .f32]) : 𝔸[S256, .f32] :=
  Host.divf (shapeCast S256 s shapeCasts_S1x256_S256) kerN

def kerVarV (s ss : 𝔸[S1x256, .f32]) : 𝔸[S256, .f32] :=
  subf (Host.divf (shapeCast S256 ss shapeCasts_S1x256_S256) kerN) (mulf (kerMeanV s) (kerMeanV s))

def kerMean (s : 𝔸[S1x256, .f32]) : 𝔸[S1x256, .f32] := shapeCast S1x256 (kerMeanV s) shapeCasts_S256_S1x256

def kerVar (s ss : 𝔸[S1x256, .f32]) : 𝔸[S1x256, .f32] := shapeCast S1x256 (kerVarV s ss) shapeCasts_S256_S1x256

def kerCat (h1 h2 h3 h4 : 𝔸[S100000x128, .f32]) : 𝔸[S100000x512, .f32] :=
  concatenate S100000x512 1 [⟨S100000x128, h1⟩, ⟨S100000x128, h2⟩, ⟨S100000x128, h3⟩, ⟨S100000x128, h4⟩]
    concatenates_S100000x128_S100000x128_S100000x128_S100000x128_S100000x512_d1

def kerCount (batch : 𝔸[S100000, .i32]) : 𝔸[S512, .f32] :=
  maximumf
    (Host.scatterAdd scatter_S512_S100000x1_S100000_n_0_0_1
      (broadcastInDim S512 ![] bcast_S_S512 (constant S_ .f32 0x00000000#32 : 𝔸[S_, .f32]))
      (broadcastInDim S100000x1 ![0] bcast_S100000_S100000x1_0 batch)
      (broadcastInDim S100000 ![] bcast_S_S100000 (constant S_ .f32 0x3F800000#32 : 𝔸[S_, .f32])))
    (broadcastInDim S512 ![] bcast_S_S512 (constant S_ .f32 0x3F800000#32 : 𝔸[S_, .f32]))

def kerPool (x : 𝔸[S100000x512, .f32]) (batch : 𝔸[S100000, .i32]) : 𝔸[S512x512, .f32] :=
  Host.divf
    (Host.scatterAdd scatter_S512x512_S100000x1_S100000x512_1_0_0_1
      (broadcastInDim S512x512 ![] bcast_S_S512x512 (constant S_ .f32 0x00000000#32 : 𝔸[S_, .f32]))
      (broadcastInDim S100000x1 ![0] bcast_S100000_S100000x1_0 batch) x)
    (broadcastInDim S512x512 ![0, 1] bcast_S512x1_S512x512_0_1
      (broadcastInDim S512x1 ![0] bcast_S512_S512x1_0 (kerCount batch)))

def kerLogits (p : 𝔸[S512x512, .f32]) (fcW : 𝔸[S512x10, .f32]) (fcb : 𝔸[S10, .f32]) : 𝔸[S512x10, .f32] :=
  addf (Host.dotGeneral dot_S512x512_S512x10_S512x10_1_0_0_1_n_n none p fcW)
    (broadcastInDim S512x10 ![0, 1] bcast_S1x10_S512x10_0_1 (broadcastInDim S1x10 ![1] bcast_S10_S1x10_1 fcb))

def kerShift (x : 𝔸[S512x10, .f32]) : 𝔸[S512x10, .f32] :=
  subf x
    (broadcastInDim S512x10 ![0, 1] bcast_S512x1_S512x10_0_1
      (broadcastInDim S512x1 ![0] bcast_S512_S512x1_0
        (maximumf (broadcastInDim S512 ![] bcast_S_S512 (constant S_ .f32 0xFF800000#32 : 𝔸[S_, .f32]))
          (Host.reduce FloatOps.maximumf x (constant S_ .f32 0xFF800000#32 : 𝔸[S_, .f32]) reducesTo_S512x10_S512_d1 h_S_))))

def kerLogSoftmax (x : 𝔸[S512x10, .f32]) : 𝔸[S512x10, .f32] :=
  subf (kerShift x)
    (broadcastInDim S512x10 ![0, 1] bcast_S512x1_S512x10_0_1
      (Host.log
        (broadcastInDim S512x1 ![0] bcast_S512_S512x1_0
          (Host.reduceAdd (Host.exp (kerShift x)) (constant S_ .f32 0x00000000#32 : 𝔸[S_, .f32]) reducesTo_S512x10_S512_d1 h_S_))))

def kerTail (h1 h2 h3 h4 : 𝔸[S100000x128, .f32]) (batch : 𝔸[S100000, .i32]) (fcW : 𝔸[S512x10, .f32]) (fcb : 𝔸[S10, .f32]) :
    𝔸[S512x10, .f32] :=
  kerLogSoftmax (kerLogits (kerPool (kerCat h1 h2 h3 h4) batch) fcW fcb)

end Cert.KernelIdeal.Hand

end
-- ==== Proof.Spec.lean ====
import Idealize.ShloMosaic.PureOps.Ideal
import Idealize.ShloMosaic.PureOps.Ideal.Laws

noncomputable section

open scoped BigOperators

namespace Cert.GinSpec

open Idealize.ShloMosaic

def nRows : EReal := ((100000 : ℝ) : EReal)

def zSpec (h agg : Fin 100000 → Fin 128 → EReal) (W1 : Fin 128 → Fin 256 → EReal) (b1 : Fin 256 → EReal)
    (p : Fin 100000) (j : Fin 256) : EReal :=
  (∑ k : Fin 128, (h p k + agg p k) * W1 k j) + b1 j

def colSum (z : Fin 100000 → Fin 256 → EReal) (j : Fin 256) : EReal := ∑ p : Fin 100000, z p j

def colSumSq (z : Fin 100000 → Fin 256 → EReal) (j : Fin 256) : EReal := ∑ p : Fin 100000, z p j * z p j

def meanSpec (z : Fin 100000 → Fin 256 → EReal) (j : Fin 256) : EReal := Ideal.div (colSum z j) nRows

def varDev (z : Fin 100000 → Fin 256 → EReal) (j : Fin 256) : EReal :=
  Ideal.div (∑ p : Fin 100000, (z p j - meanSpec z j) * (z p j - meanSpec z j)) nRows

def varSq (z : Fin 100000 → Fin 256 → EReal) (j : Fin 256) : EReal :=
  Ideal.div (colSumSq z j) nRows - meanSpec z j * meanSpec z j

def bnSpec (z : Fin 100000 → Fin 256 → EReal) (mean var g be : Fin 256 → EReal) (eps : EReal)
    (p : Fin 100000) (k : Fin 256) : EReal :=
  max (g k * (z p k - mean k) * Ideal.rsqrt (var k + eps) + be k) 0

def outSpec (y : Fin 100000 → Fin 256 → EReal) (W2 : Fin 256 → Fin 128 → EReal) (b2 : Fin 128 → EReal)
    (p : Fin 100000) (q : Fin 128) : EReal :=
  max ((∑ k : Fin 256, y p k * W2 k q) + b2 q) 0

def layerSq (h agg : Fin 100000 → Fin 128 → EReal) (W1 : Fin 128 → Fin 256 → EReal) (b1 g be : Fin 256 → EReal) (eps : EReal)
    (W2 : Fin 256 → Fin 128 → EReal) (b2 : Fin 128 → EReal) : Fin 100000 → Fin 128 → EReal :=
  outSpec (bnSpec (zSpec h agg W1 b1) (meanSpec (zSpec h agg W1 b1)) (varSq (zSpec h agg W1 b1)) g be eps) W2 b2

def layerDev (h agg : Fin 100000 → Fin 128 → EReal) (W1 : Fin 128 → Fin 256 → EReal) (b1 g be : Fin 256 → EReal) (eps : EReal)
    (W2 : Fin 256 → Fin 128 → EReal) (b2 : Fin 128 → EReal) : Fin 100000 → Fin 128 → EReal :=
  outSpec (bnSpec (zSpec h agg W1 b1) (meanSpec (zSpec h agg W1 b1)) (varDev (zSpec h agg W1 b1)) g be eps) W2 b2

end Cert.GinSpec

end
-- ==== Proof.MathVar.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Fin
import Mathlib.Algebra.BigOperators.Group.Finset.Basic
import Mathlib.Logic.Equiv.Fin.Basic
import Mathlib.Analysis.SpecialFunctions.Sqrt
import Mathlib.Tactic.Ring
import Mathlib.Tactic.FieldSimp
import Mathlib.Tactic.NormNum

noncomputable section

namespace Cert.GinMath

open Idealize.ShloMosaic

def IsFin (x : EReal) : Prop := ∃ r : ℝ, x = (r : EReal)

theorem isFin_coe (r : ℝ) : IsFin (r : EReal) := ⟨r, rfl⟩

theorem isFin_zero : IsFin (0 : EReal) := ⟨0, rfl⟩

theorem isFin_one : IsFin (1 : EReal) := ⟨1, rfl⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.sub {x y : EReal} (hx : IsFin x) (hy : IsFin y) : IsFin (x - y) := by
  obtain ⟨a, rfl⟩ := hx; obtain ⟨b, rfl⟩ := hy
  exact ⟨a - b, (EReal.coe_sub a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases max_choice x y with h | h <;> rw [h] <;> assumption

theorem coe_sum {ι : Type} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

theorem isFin_sum {ι : Type} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add (ih fun i hi => hf i (Finset.mem_insert_of_mem hi))

theorem div_coe_coe (a : ℝ) {c : ℝ} (hc : c ≠ 0) :
    Ideal.div (a : EReal) (c : EReal) = ((a / c : ℝ) : EReal) := by
  rw [Ideal.div_coe hc, ← EReal.coe_mul, mul_one_div]

theorem IsFin.div_real {x : EReal} (hx : IsFin x) {c : ℝ} (hc : c ≠ 0) :
    IsFin (Ideal.div x (c : EReal)) := by
  obtain ⟨a, rfl⟩ := hx
  exact ⟨a / c, div_coe_coe a hc⟩

theorem ofBits_zero : Ideal.ofBits .f32 0x00000000#32 = ((0 : ℝ) : EReal) :=
  Ideal.ofBits_zero_f32.trans EReal.coe_zero.symm

theorem ofBits_one : Ideal.ofBits .f32 0x3F800000#32 = ((1 : ℝ) : EReal) := by
  simp [Ideal.ofBits, Ideal.ieee]
  rw [← EReal.coe_mul]; norm_num

theorem ofBits_100000 : Ideal.ofBits .f32 0x47C35000#32 = ((100000 : ℝ) : EReal) := by
  simp [Ideal.ofBits, Ideal.ieee]
  rw [← EReal.coe_mul]; norm_num

theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee]

theorem isFin_ofBits_zero : IsFin (Ideal.ofBits .f32 0x00000000#32) := ⟨_, ofBits_zero⟩
theorem isFin_ofBits_one : IsFin (Ideal.ofBits .f32 0x3F800000#32) := ⟨_, ofBits_one⟩
theorem isFin_ofBits_100000 : IsFin (Ideal.ofBits .f32 0x47C35000#32) := ⟨_, ofBits_100000⟩
theorem isFin_ofBits_eps : IsFin (Ideal.ofBits .f32 0x3727C5AC#32) := by
  obtain ⟨e, -, h⟩ := ofBits_eps; exact ⟨e, h⟩

theorem real_var_identity {ι : Type} [Fintype ι] (r : ι → ℝ) (c : ℝ) (hc : c ≠ 0)
    (hcard : (Fintype.card ι : ℝ) = c) :
    (∑ i, r i * r i) / c - (∑ i, r i) / c * ((∑ i, r i) / c)
      = (∑ i, (r i - (∑ i, r i) / c) * (r i - (∑ i, r i) / c)) / c := by
  have key : ∑ i, (r i - (∑ i, r i) / c) * (r i - (∑ i, r i) / c)
      = ∑ i, r i * r i - 2 * ((∑ i, r i) / c) * ∑ i, r i + c * ((∑ i, r i) / c * ((∑ i, r i) / c)) := by
    have h : ∀ i, (r i - (∑ i, r i) / c) * (r i - (∑ i, r i) / c)
        = r i * r i - 2 * ((∑ i, r i) / c) * r i + (∑ i, r i) / c * ((∑ i, r i) / c) := fun i => by ring
    rw [Finset.sum_congr rfl fun i _ => h i, Finset.sum_add_distrib, Finset.sum_sub_distrib,
      ← Finset.mul_sum, Finset.sum_const, Finset.card_univ, nsmul_eq_mul, hcard]
  rw [key]
  field_simp
  ring

theorem var_coe {ι : Type} [Fintype ι] (r : ι → ℝ) (c : ℝ) (hc : c ≠ 0) :
    Ideal.div (∑ i, ((r i : EReal) - Ideal.div (∑ i, (r i : EReal)) (c : EReal))
        * ((r i : EReal) - Ideal.div (∑ i, (r i : EReal)) (c : EReal))) (c : EReal)
      = (((∑ i, (r i - (∑ i, r i) / c) * (r i - (∑ i, r i) / c)) / c : ℝ) : EReal) := by
  rw [coe_sum, div_coe_coe _ hc]
  simp only [← EReal.coe_sub, ← EReal.coe_mul]
  rw [coe_sum, div_coe_coe _ hc]

theorem var_identity {ι : Type} [Fintype ι] (z : ι → EReal) (hz : ∀ i, IsFin (z i)) (c : ℝ) (hc : c ≠ 0)
    (hcard : (Fintype.card ι : ℝ) = c) :
    Ideal.div (∑ i, z i * z i) (c : EReal) - Ideal.div (∑ i, z i) (c : EReal) * Ideal.div (∑ i, z i) (c : EReal)
      = Ideal.div (∑ i, (z i - Ideal.div (∑ i, z i) (c : EReal)) * (z i - Ideal.div (∑ i, z i) (c : EReal))) (c : EReal) := by
  choose r hr using hz
  obtain rfl : z = fun i => (r i : EReal) := funext hr
  rw [var_coe r c hc, ← real_var_identity r c hc hcard, coe_sum]
  simp only [← EReal.coe_mul]
  rw [coe_sum, div_coe_coe _ hc, div_coe_coe _ hc, ← EReal.coe_mul, ← EReal.coe_sub]

theorem var_isFin_nonneg {ι : Type} [Fintype ι] (z : ι → EReal) (hz : ∀ i, IsFin (z i)) (c : ℝ) (hc : c ≠ 0)
    (hcard : (Fintype.card ι : ℝ) = c) :
    ∃ v : ℝ, 0 ≤ v ∧
      Ideal.div (∑ i, (z i - Ideal.div (∑ i, z i) (c : EReal)) * (z i - Ideal.div (∑ i, z i) (c : EReal))) (c : EReal)
        = (v : EReal) := by
  choose r hr using hz
  obtain rfl : z = fun i => (r i : EReal) := funext hr
  have hpos : 0 < c := lt_of_le_of_ne (hcard ▸ Nat.cast_nonneg _) (Ne.symm hc)
  exact ⟨_, div_nonneg (Finset.sum_nonneg fun i _ => mul_self_nonneg _) hpos.le, var_coe r c hc⟩

theorem isFin_rsqrt_pos (v e : ℝ) (hv : 0 ≤ v) (he : 0 < e) :
    IsFin (Ideal.rsqrt ((v : EReal) + (e : EReal))) := by
  have hpos : 0 < v + e := by linarith
  rw [← EReal.coe_add, Ideal.rsqrt_coe, if_neg (not_lt.2 hpos.le), if_neg hpos.ne']
  exact ⟨_, rfl⟩

theorem sum_tiles (f : Fin 100000 → EReal) :
    ∑ p, f p = ∑ t : Fin 50, ∑ r : Fin 2000, f ⟨2000 * t.val + r.val, by omega⟩ := by
  rw [← Fintype.sum_prod_type' (f := fun (t : Fin 50) (r : Fin 2000) => f ⟨2000 * t.val + r.val, by omega⟩)]
  refine (Fintype.sum_equiv (finProdFinEquiv (m := 50) (n := 2000)) _ _ fun x => ?_).symm
  congr 1
  ext
  simp [finProdFinEquiv]
  omega

theorem zero_add_sum {ι : Type} (s : Finset ι) (f : ι → EReal) : (0 : EReal) + ∑ i ∈ s, f i = ∑ i ∈ s, f i :=
  zero_add _

theorem ofBits_zero_add (x : EReal) : Ideal.ofBits .f32 0x00000000#32 + x = x := by
  rw [Ideal.ofBits_zero_f32, zero_add]

theorem add_ofBits_zero (x : EReal) : x + Ideal.ofBits .f32 0x00000000#32 = x := by
  rw [Ideal.ofBits_zero_f32, add_zero]

end Cert.GinMath

end
-- ==== Proof.Cross.lean ====
import proofs.«165926_j30305289241327_1_alg».proof.Proof.KI.Fns
import proofs.«165926_j30305289241327_1_alg».proof.Proof.Ref.Fns
import proofs.«165926_j30305289241327_1_alg».proof.Proof.Spec
import proofs.«165926_j30305289241327_1_alg».proof.Proof.MathVar
import Idealize.ShloMosaic.Lib.ValueIdx
import Idealize.ShloMosaic.Lib.ValueLayout
import Idealize.ShloMosaic.Lib.IdealHost

noncomputable section

namespace Cert.Cross

open Idealize.ShloMosaic Idealize.ShloMosaic.ValueIdx
open Cert.KernelIdeal
open Cert.KernelIdeal.Hand Cert.ReferenceIdeal.Hand

variable {F : FTy → Type} [FloatOps F] [Cert.KernelIdeal.Facts₀]

local notation "𝔸[" s ", " e "]" => BufTy.Contents (Elt F) (⟨s, e⟩ : BufTy)

set_option maxHeartbeats 20000 in
theorem kerSrc_eq (ei : 𝔸[S2x1600000, .i32]) : kerSrc ei = refSrc ei := rfl

set_option maxHeartbeats 20000 in
theorem kerDst_eq (ei : 𝔸[S2x1600000, .i32]) : kerDst ei = refDst ei := rfl

set_option maxHeartbeats 20000 in
theorem kerInvDeg_eq (dst : 𝔸[S1600000, .i32]) : kerInvDeg dst = refInvDeg dst := rfl

set_option maxHeartbeats 20000 in
theorem kerAgg_eq (h : 𝔸[S100000x128, .f32]) (src dst : 𝔸[S1600000, .i32]) (invdeg : 𝔸[S100000, .f32]) :
    kerAgg h src dst invdeg = refAgg h src dst invdeg := rfl

set_option maxHeartbeats 20000 in
theorem kerW1_eq (k : Fin 4) (a : 𝔸[S4x128x256, .f32]) : kerW1 k a = refW1 k a :=
  match k with
  | 0 => rfl
  | 1 => rfl
  | 2 => rfl
  | 3 => rfl

set_option maxHeartbeats 20000 in
theorem kerW2_eq (k : Fin 4) (a : 𝔸[S4x256x128, .f32]) : kerW2 k a = refW2 k a :=
  match k with
  | 0 => rfl
  | 1 => rfl
  | 2 => rfl
  | 3 => rfl

set_option maxHeartbeats 20000 in

theorem kerRow256_eq (k : Fin 4) (a : 𝔸[S4x256, .f32]) :
    kerRow256 k a = shapeCast S1x256 (refRow256 k a) Facts₀.shapeCasts_S256_S1x256 :=
  match k with
  | 0 => rfl
  | 1 => rfl
  | 2 => rfl
  | 3 => rfl

set_option maxHeartbeats 20000 in
theorem kerB2_eq (k : Fin 4) (a : 𝔸[S4x128, .f32]) :
    kerB2 k a = shapeCast S1x128 (refB2 k a) Facts₀.shapeCasts_S128_S1x128 :=
  match k with
  | 0 => rfl
  | 1 => rfl
  | 2 => rfl
  | 3 => rfl

theorem kerRow256_apply (k : Fin 4) (a : 𝔸[S4x256, .f32]) (j : Fin 256) :
    kerRow256 k a (ix2 0 j) = refRow256 k a (ix1 j) := by
  rw [kerRow256_eq]
  exact shapeCast_a_1a_apply _ _ 0 j

theorem kerB2_apply (k : Fin 4) (a : 𝔸[S4x128, .f32]) (q : Fin 128) :
    kerB2 k a (ix2 0 q) = refB2 k a (ix1 q) := by
  rw [kerB2_eq]
  exact shapeCast_a_1a_apply _ _ 0 q

set_option maxHeartbeats 20000 in
theorem kerCat_eq (h1 h2 h3 h4 : 𝔸[S100000x128, .f32]) : kerCat h1 h2 h3 h4 = refCat h1 h2 h3 h4 := rfl

set_option maxHeartbeats 20000 in
theorem kerPool_eq (x : 𝔸[S100000x512, .f32]) (batch : 𝔸[S100000, .i32]) : kerPool x batch = refPool x batch := rfl

set_option maxHeartbeats 20000 in
theorem kerLogits_eq (p : 𝔸[S512x512, .f32]) (fcW : 𝔸[S512x10, .f32]) (fcb : 𝔸[S10, .f32]) :
    kerLogits p fcW fcb = refLogits p fcW fcb := rfl

set_option maxHeartbeats 20000 in
theorem kerShift_eq (x : 𝔸[S512x10, .f32]) : kerShift x = refShifted x := rfl

set_option maxHeartbeats 20000 in
theorem kerLogSoftmax_eq (x : 𝔸[S512x10, .f32]) : kerLogSoftmax x = refLogSoftmax x := rfl

set_option maxHeartbeats 20000 in
theorem kerTail_eq (h1 h2 h3 h4 : 𝔸[S100000x128, .f32]) (batch : 𝔸[S100000, .i32]) (fcW : 𝔸[S512x10, .f32])
    (fcb : 𝔸[S10, .f32]) : kerTail h1 h2 h3 h4 batch fcW fcb = refTail h1 h2 h3 h4 batch fcW fcb := rfl

section Stats

open Cert.GinSpec Cert.GinMath

theorem kerN_apply (k : Fin 256) : kerN (F := Ideal) (ix1 k) = nRows := by
  unfold kerN
  rw [broadcastInDim_scalar_apply]
  exact ofBits_100000

theorem kerMeanV_apply (s : BufTy.Contents (Elt Ideal) (⟨S1x256, .f32⟩ : BufTy)) (k : Fin 256) :
    kerMeanV (F := Ideal) s (ix1 k) = Ideal.div (s (ix2 0 k)) nRows := by
  unfold kerMeanV
  show Ideal.div (shapeCast S256 s _ (ix1 k)) (kerN (F := Ideal) (ix1 k)) = _
  rw [kerN_apply, shapeCast_1a_a_apply]

theorem kerMean_apply (s : BufTy.Contents (Elt Ideal) (⟨S1x256, .f32⟩ : BufTy)) (k : Fin 256) :
    kerMean (F := Ideal) s (ix2 0 k) = Ideal.div (s (ix2 0 k)) nRows := by
  unfold kerMean
  rw [shapeCast_a_1a_apply, kerMeanV_apply]

theorem kerVar_apply (s ss : BufTy.Contents (Elt Ideal) (⟨S1x256, .f32⟩ : BufTy)) (k : Fin 256) :
    kerVar (F := Ideal) s ss (ix2 0 k)
      = Ideal.div (ss (ix2 0 k)) nRows - Ideal.div (s (ix2 0 k)) nRows * Ideal.div (s (ix2 0 k)) nRows := by
  unfold kerVar
  rw [shapeCast_a_1a_apply]
  unfold kerVarV
  show Ideal.div (shapeCast S256 ss _ (ix1 k)) (kerN (F := Ideal) (ix1 k))
      - kerMeanV (F := Ideal) s (ix1 k) * kerMeanV (F := Ideal) s (ix1 k) = _
  rw [kerN_apply, shapeCast_1a_a_apply, kerMeanV_apply]

end Stats

end Cert.Cross

end
-- ==== Proof.Ref.Read.lean ====
import proofs.«165926_j30305289241327_1_alg».proof.Proof.Ref.Fns
import proofs.«165926_j30305289241327_1_alg».proof.Proof.Spec
import proofs.«165926_j30305289241327_1_alg».proof.Proof.MathVar
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.GinSpec

local notation "𝔸[" s "]" => BufTy.Contents (Elt Ideal) (BufTy.mk s EltTy.f32)

theorem lhs_dotZ_0 (i : S100000x256.Idx) (q : dot_S100000x128_S128x256_S100000x256_1_0_0_1_n_n.contr.Idx) :
    (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch by decide),
    dif_pos (show (0 : Fin S100000x128.rank) ∈ dot_S100000x128_S128x256_S100000x256_1_0_0_1_n_n.lhsNonContracting by decide)]
  rfl
theorem lhs_dotZ_1 (i : S100000x256.Idx) (q : dot_S100000x128_S128x256_S100000x256_1_0_0_1_n_n.contr.Idx) :
    (dot_S100000x128_S128x256_S100000x256_1_0_0_1_n_n.lhsIdx i q 1).val = (q ⟨0, by decide⟩).val :=
  dot_S100000x128_S128x256_S100000x256_1_0_0_1_n_n.lhsIdx_val_of_single rfl i q
theorem rhs_dotZ_0 (i : S100000x256.Idx) (q : dot_S100000x128_S128x256_S100000x256_1_0_0_1_n_n.contr.Idx) :
    (dot_S100000x128_S128x256_S100000x256_1_0_0_1_n_n.rhsIdx i q 0).val = (q ⟨0, by decide⟩).val :=
  dot_S100000x128_S128x256_S100000x256_1_0_0_1_n_n.rhsIdx_val_of_single rfl i q
theorem rhs_dotZ_1 (i : S100000x256.Idx) (q : dot_S100000x128_S128x256_S100000x256_1_0_0_1_n_n.contr.Idx) :
    (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch by decide),
    dif_pos (show (1 : Fin S128x256.rank) ∈ dot_S100000x128_S128x256_S100000x256_1_0_0_1_n_n.rhsNonContracting by decide)]
  rfl

theorem dotZ_apply (x : 𝔸[S100000x128]) (W : 𝔸[S128x256]) (p : Fin 100000) (j : Fin 256) :
    Host.dotGeneral (F := Ideal) (φ₁ := .f32) (φ₂ := .f32) dot_S100000x128_S128x256_S100000x256_1_0_0_1_n_n none x W (ix2 p j)
      = ∑ k : Fin 128, x (ix2 p k) * W (ix2 k j) := by
  simp only [Host.dotGeneral]
  rw [Ideal.dotGeneral_apply,
    ← Equiv.sum_comp (contrEquiv1 dot_S100000x128_S128x256_S100000x256_1_0_0_1_n_n 128 rfl rfl).symm]
  refine Finset.sum_congr rfl fun k _ => ?_
  have hk := contrEquiv1_symm_val dot_S100000x128_S128x256_S100000x256_1_0_0_1_n_n 128 rfl rfl k
  have el : dot_S100000x128_S128x256_S100000x256_1_0_0_1_n_n.lhsIdx (ix2 p j)
      ((contrEquiv1 dot_S100000x128_S128x256_S100000x256_1_0_0_1_n_n 128 rfl rfl).symm k) = ix2 p k :=
    funext fun a => Fin.ext (by
      match a with
      | ⟨0, _⟩ => exact lhs_dotZ_0 _ _
      | ⟨1, _⟩ => exact (lhs_dotZ_1 _ _).trans hk)
  have er : dot_S100000x128_S128x256_S100000x256_1_0_0_1_n_n.rhsIdx (ix2 p j)
      ((contrEquiv1 dot_S100000x128_S128x256_S100000x256_1_0_0_1_n_n 128 rfl rfl).symm k) = ix2 k j :=
    funext fun a => Fin.ext (by
      match a with
      | ⟨0, _⟩ => exact (rhs_dotZ_0 _ _).trans hk
      | ⟨1, _⟩ => exact rhs_dotZ_1 _ _)
  rw [el, er]

theorem lhs_dotOut_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide),
    dif_pos (show (0 : Fin S100000x256.rank) ∈ dot_S100000x256_S256x128_S100000x128_1_0_0_1_n_n.lhsNonContracting by decide)]
  rfl
theorem lhs_dotOut_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs_dotOut_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs_dotOut_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide),
    dif_pos (show (1 : Fin S256x128.rank) ∈ dot_S100000x256_S256x128_S100000x128_1_0_0_1_n_n.rhsNonContracting by decide)]
  rfl

theorem dotOut_apply (y : 𝔸[S100000x256]) (W : 𝔸[S256x128]) (p : Fin 100000) (q : Fin 128) :
    Host.dotGeneral (F := Ideal) (φ₁ := .f32) (φ₂ := .f32) dot_S100000x256_S256x128_S100000x128_1_0_0_1_n_n none y W (ix2 p q)
      = ∑ k : Fin 256, y (ix2 p k) * W (ix2 k q) := by
  simp only [Host.dotGeneral]
  rw [Ideal.dotGeneral_apply,
    ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 p q)
      ((contrEquiv1 dot_S100000x256_S256x128_S100000x128_1_0_0_1_n_n 256 rfl rfl).symm k) = ix2 p k :=
    funext fun a => Fin.ext (by
      match a with
      | ⟨0, _⟩ => exact lhs_dotOut_0 _ _
      | ⟨1, _⟩ => exact (lhs_dotOut_1 _ _).trans hk)
  have er : dot_S100000x256_S256x128_S100000x128_1_0_0_1_n_n.rhsIdx (ix2 p q)
      ((contrEquiv1 dot_S100000x256_S256x128_S100000x128_1_0_0_1_n_n 256 rfl rfl).symm k) = ix2 k q :=
    funext fun a => Fin.ext (by
      match a with
      | ⟨0, _⟩ => exact (rhs_dotOut_0 _ _).trans hk
      | ⟨1, _⟩ => exact rhs_dotOut_1 _ _)
  rw [el, er]

theorem row256_apply (v : 𝔸[S256]) (p : Fin 100000) (j : Fin 256) :
    broadcastInDim S100000x256 ![0, 1] bcast_S1x256_S100000x256_0_1 (broadcastInDim S1x256 ![1] bcast_S256_S1x256_1 v) (ix2 p j)
      = v (ix1 j) := by
  rw [broadcastInDim_oneRow_apply bcast_S1x256_S100000x256_0_1 _ p j]
  exact broadcastInDim_apply ![1] bcast_S256_S1x256_1 v (ix2 (0 : Fin 1) j) (ix1 j)
    (fun a => match a with | ⟨0, _⟩ => rfl)

theorem row128_apply (v : 𝔸[S128]) (p : Fin 100000) (q : Fin 128) :
    broadcastInDim S100000x128 ![0, 1] bcast_S1x128_S100000x128_0_1 (broadcastInDim S1x128 ![1] bcast_S128_S1x128_1 v) (ix2 p q)
      = v (ix1 q) := by
  rw [broadcastInDim_oneRow_apply bcast_S1x128_S100000x128_0_1 _ p q]
  exact broadcastInDim_apply ![1] bcast_S128_S1x128_1 v (ix2 (0 : Fin 1) q) (ix1 q)
    (fun a => match a with | ⟨0, _⟩ => rfl)

theorem colSum_apply (z : 𝔸[S100000x256]) (j : Fin 256) :
    Host.reduceAdd (F := Ideal) z (constant S_ .f32 0x00000000#32) reducesTo_S100000x256_S256_d0 h_S_ (ix1 j)
      = ∑ p : Fin 100000, z (ix2 p j) := by
  simp only [Host.reduceAdd, Ideal.hostReduceAdd_def]
  rw [Ideal.hostReduceAdd_single reducesTo_S100000x256_S256_d0 (by decide), constant_apply, Cert.GinMath.ofBits_zero_add]
  refine Finset.sum_congr rfl fun k _ => ?_
  exact congrArg z (funext fun a => Fin.ext (by match a with | ⟨0, _⟩ => rfl | ⟨1, _⟩ => rfl))

theorem refZ_apply (h agg : 𝔸[S100000x128]) (W1 : 𝔸[S128x256]) (b1 : 𝔸[S256]) (p : Fin 100000) (j : Fin 256) :
    refZ (F := Ideal) h agg W1 b1 (ix2 p j)
      = zSpec (fun p k => h (ix2 p k)) (fun p k => agg (ix2 p k)) (fun k j => W1 (ix2 k j)) (fun j => b1 (ix1 j)) p j := by
  unfold refZ zSpec
  rw [addf_apply, dotZ_apply, row256_apply]
  rfl

theorem refMean_apply (z : 𝔸[S100000x256]) (j : Fin 256) :
    refMean (F := Ideal) z (ix1 j) = meanSpec (fun p k => z (ix2 p k)) j := by
  unfold refMean meanSpec colSum nRows
  rw [hostDivf_apply, colSum_apply, broadcastInDim_scalar_apply, constant_apply, Cert.GinMath.ofBits_100000]

theorem refCentred_apply (z : 𝔸[S100000x256]) (p : Fin 100000) (k : Fin 256) :
    refCentred (F := Ideal) z (ix2 p k) = z (ix2 p k) - meanSpec (fun p k => z (ix2 p k)) k := by
  unfold refCentred
  rw [subf_apply, row256_apply, refMean_apply]

theorem refVar_apply (z : 𝔸[S100000x256]) (j : Fin 256) :
    refVar (F := Ideal) z (ix1 j) = varDev (fun p k => z (ix2 p k)) j := by
  unfold refVar varDev nRows
  rw [hostDivf_apply, colSum_apply, broadcastInDim_scalar_apply, constant_apply, Cert.GinMath.ofBits_100000]
  simp only [mulf_apply, refCentred_apply]

theorem refBn_apply (z : 𝔸[S100000x256]) (g be : 𝔸[S256]) (p : Fin 100000) (k : Fin 256) :
    refBn (F := Ideal) z g be (ix2 p k)
      = bnSpec (fun p k => z (ix2 p k)) (meanSpec (fun p k => z (ix2 p k))) (varDev (fun p k => z (ix2 p k)))
          (fun j => g (ix1 j)) (fun j => be (ix1 j)) (Ideal.ofBits .f32 0x3727C5AC#32) p k := by
  unfold refBn bnSpec
  rw [maximumf_apply, addf_apply, mulf_apply, mulf_apply, row256_apply, row256_apply, row256_apply, refCentred_apply,
    broadcastInDim_scalar_apply, constant_apply, Ideal.ofBits_zero_f32]
  unfold Host.rsqrt
  rw [Ideal.hostUnary_rsqrt_def, addf_apply, refVar_apply, broadcastInDim_scalar_apply, constant_apply]

theorem refOut_apply (y : 𝔸[S100000x256]) (W2 : 𝔸[S256x128]) (b2 : 𝔸[S128]) (p : Fin 100000) (q : Fin 128) :
    refOut (F := Ideal) y W2 b2 (ix2 p q)
      = outSpec (fun p k => y (ix2 p k)) (fun k q => W2 (ix2 k q)) (fun q => b2 (ix1 q)) p q := by
  unfold refOut outSpec
  rw [maximumf_apply, addf_apply, dotOut_apply, row128_apply, broadcastInDim_scalar_apply, constant_apply,
    Ideal.ofBits_zero_f32]

theorem refDense_apply (h agg : 𝔸[S100000x128]) (W1 : 𝔸[S128x256]) (b1 g be : 𝔸[S256]) (W2 : 𝔸[S256x128]) (b2 : 𝔸[S128])
    (p : Fin 100000) (q : Fin 128) :
    refDense (F := Ideal) h agg W1 b1 g be W2 b2 (ix2 p q)
      = layerDev (fun p k => h (ix2 p k)) (fun p k => agg (ix2 p k)) (fun k j => W1 (ix2 k j)) (fun j => b1 (ix1 j))
          (fun j => g (ix1 j)) (fun j => be (ix1 j)) (Ideal.ofBits .f32 0x3727C5AC#32)
          (fun k q => W2 (ix2 k q)) (fun q => b2 (ix1 q)) p q := by
  have hz : (fun p k => refZ (F := Ideal) h agg W1 b1 (ix2 p k))
      = zSpec (fun p k => h (ix2 p k)) (fun p k => agg (ix2 p k)) (fun k j => W1 (ix2 k j)) (fun j => b1 (ix1 j)) :=
    funext fun p => funext fun k => refZ_apply h agg W1 b1 p k
  unfold refDense layerDev
  rw [refOut_apply]
  refine congrArg (fun y => outSpec y _ _ p q) (funext fun p => funext fun k => ?_)
  rw [refBn_apply, hz]

end Cert.ReferenceIdeal.Hand

end
-- ==== Proof.HostFin.lean ====
import Idealize.ShloMosaic.PureOps
import Idealize.ShloMosaic.PureOps.Ideal
import Idealize.ShloMosaic.PureOps.Ideal.Laws
import Idealize.ShloMosaic.Lib.ValueIdx
import proofs.«165926_j30305289241327_1_alg».proof.Proof.MathVar

noncomputable section

namespace Cert.HostFin

open Idealize.ShloMosaic Cert.GinMath

def AllFin {S : Shape} (v : FVec Ideal S .f32) : Prop := ∀ i, IsFin (v i)

variable {S : Shape}

theorem gather_allFin {I R : Shape} {w : Nat} (d : GatherDims S I R) (x : FVec Ideal S .f32) (i : IVec I w)
    (hx : AllFin x) : AllFin (Host.gather d x i) :=
  fun j => hx (d.operandIdx j i)

theorem broadcastInDim_allFin {S' : Shape} {dims : Fin S.rank → Fin S'.rank} (hb : S.BroadcastsInDim S' dims)
    (x : FVec Ideal S .f32) (hx : AllFin x) : AllFin (broadcastInDim S' dims hb x) :=
  fun _ => hx _

theorem extractStridedSlice_allFin {T : Shape} (off : Fin S.rank → Nat) (x : FVec Ideal S .f32)
    (h : S.Slices off T) (hx : AllFin x) : AllFin (extractStridedSlice T off x h) :=
  fun _ => hx _

theorem shapeCast_allFin {T : Shape} (x : FVec Ideal S .f32) (h : S.ShapeCasts T) (hx : AllFin x) :
    AllFin (shapeCast T x h) :=
  fun _ => hx _

theorem constant_allFin (S : Shape) (w : BitVec 32) (hw : IsFin (Ideal.ofBits .f32 w)) :
    AllFin (constant (F := Ideal) S .f32 w) :=
  fun _ => hw

theorem constant_zero_allFin (S : Shape) : AllFin (constant (F := Ideal) S .f32 0x00000000#32) :=
  constant_allFin S _ isFin_ofBits_zero

theorem constant_one_allFin (S : Shape) : AllFin (constant (F := Ideal) S .f32 0x3F800000#32) :=
  constant_allFin S _ isFin_ofBits_one

theorem broadcastInDim_constant_apply {S0 : Shape} {dims : Fin S0.rank → Fin S.rank} (hb : S0.BroadcastsInDim S dims)
    (w : BitVec 32) (j : S.Idx) :
    broadcastInDim S dims hb (constant (F := Ideal) S0 .f32 w) j = Ideal.ofBits .f32 w := rfl

theorem mulf_allFin (a b : FVec Ideal S .f32) (ha : AllFin a) (hb : AllFin b) : AllFin (mulf a b) :=
  fun i => (ha i).mul (hb i)

theorem addf_allFin (a b : FVec Ideal S .f32) (ha : AllFin a) (hb : AllFin b) : AllFin (addf a b) :=
  fun i => (ha i).add (hb i)

theorem subf_allFin (a b : FVec Ideal S .f32) (ha : AllFin a) (hb : AllFin b) : AllFin (subf a b) :=
  fun i => (ha i).sub (hb i)

theorem maximumf_allFin (a b : FVec Ideal S .f32) (ha : AllFin a) (hb : AllFin b) : AllFin (maximumf a b) :=
  fun i => (ha i).max (hb i)

theorem select_allFin (c : IVec S 1) (a b : FVec Ideal S .f32) (ha : AllFin a) (hb : AllFin b) :
    AllFin (select c a b) := fun i => by
  show IsFin (if c i = 1 then a i else b i)
  split
  · exact ha i
  · exact hb i

theorem scatterAdd_allFin {I Uu : Shape} {w : Nat} (d : ScatterDims S I Uu) (x : FVec Ideal S .f32) (i : IVec I w)
    (u : FVec Ideal Uu .f32) (hx : AllFin x) (hu : AllFin u) : AllFin (Host.scatterAdd d x i u) :=
  fun j => (hx j).add (isFin_sum _ _ fun k _ => hu k)

theorem dotGeneral_allFin {sl sr so : Shape} (d : DotDims sl sr so) (prec : Option ContractPrecision)
    (l : FVec Ideal sl .f32) (r : FVec Ideal sr .f32) (hl : AllFin l) (hr : AllFin r) :
    AllFin (Host.dotGeneral d prec l r) := fun j => by
  show IsFin (FloatOps.dotGeneral d prec .single l r j)
  rw [Ideal.dotGeneral_apply]
  exact isFin_sum _ _ fun k _ => (hl _).mul (hr _)

theorem reduceAdd_allFin {T Uu : Shape} {axes : List (Fin S.rank)} (x : FVec Ideal S .f32)
    (init : Uu.Idx → Ideal .f32) (h : S.ReducesTo axes T) (hu : 0 < Uu.numel)
    (hx : AllFin x) (hi : AllFin init) : AllFin (Host.reduceAdd x init h hu) :=
  fun _ => (hi _).add (isFin_sum _ _ fun k _ => hx k)

theorem divf_const_allFin (a c : FVec Ideal S .f32) {r : ℝ} (hr : r ≠ 0) (hc : ∀ i, c i = (r : EReal))
    (ha : AllFin a) : AllFin (Host.divf a c) := fun i => by
  show IsFin (Ideal.div (a i) (c i))
  rw [hc i]
  exact (ha i).div_real hr

theorem divf_broadcast_constant_allFin {S0 : Shape} {dims : Fin S0.rank → Fin S.rank}
    (hb : S0.BroadcastsInDim S dims) (w : BitVec 32) {r : ℝ} (hr : r ≠ 0) (hw : Ideal.ofBits .f32 w = (r : EReal))
    (a : FVec Ideal S .f32) (ha : AllFin a) :
    AllFin (Host.divf a (broadcastInDim S dims hb (constant (F := Ideal) S0 .f32 w))) :=
  divf_const_allFin a _ hr (fun _ => hw) ha

theorem divf_100000_allFin {S0 : Shape} {dims : Fin S0.rank → Fin S.rank} (hb : S0.BroadcastsInDim S dims)
    (a : FVec Ideal S .f32) (ha : AllFin a) :
    AllFin (Host.divf a (broadcastInDim S dims hb (constant (F := Ideal) S0 .f32 0x47C35000#32))) :=
  divf_broadcast_constant_allFin hb _ (by norm_num) ofBits_100000 a ha

theorem max_one_real (x : EReal) (hx : IsFin x) : ∃ r : ℝ, 1 ≤ r ∧ max x ((1 : ℝ) : EReal) = (r : EReal) := by
  obtain ⟨a, rfl⟩ := hx
  exact ⟨max a 1, le_max_right a 1, (EReal.coe_strictMono.monotone.map_max).symm⟩

theorem divf_ones_max_allFin (ones deg : FVec Ideal S .f32) (hones : ∀ i, ones i = ((1 : ℝ) : EReal))
    (hdeg : AllFin deg) : AllFin (Host.divf ones (maximumf deg ones)) := fun i => by
  show IsFin (Ideal.div (ones i) (max (deg i) (ones i)))
  rw [hones i]
  obtain ⟨r, hr1, hr⟩ := max_one_real (deg i) (hdeg i)
  rw [hr]
  exact (isFin_coe 1).div_real (by linarith)

theorem divf_one_max_allFin {S0 : Shape} {dims : Fin S0.rank → Fin S.rank} (hb : S0.BroadcastsInDim S dims)
    (deg : FVec Ideal S .f32) (hdeg : AllFin deg) :
    AllFin (Host.divf (broadcastInDim S dims hb (constant (F := Ideal) S0 .f32 0x3F800000#32))
      (maximumf deg (broadcastInDim S dims hb (constant (F := Ideal) S0 .f32 0x3F800000#32)))) :=
  divf_ones_max_allFin _ deg (fun _ => ofBits_one) hdeg

theorem scatterAdd_ones_count {I Uu : Shape} {w : Nat} (d : ScatterDims S I Uu) (zeros : FVec Ideal S .f32)
    (i : IVec I w) (onesU : FVec Ideal Uu .f32) (hz : ∀ j, zeros j = ((0 : ℝ) : EReal))
    (ho : ∀ k, onesU k = ((1 : ℝ) : EReal)) (j : S.Idx) :
    ∃ n : ℕ, Host.scatterAdd d zeros i onesU j = ((n : ℝ) : EReal) := by
  have key : ∀ s : Finset Uu.Idx, zeros j + ∑ k ∈ s, onesU k = ((s.card : ℝ) : EReal) := fun s => by
    rw [hz j, Finset.sum_congr rfl (fun k _ => ho k), coe_sum, ← EReal.coe_add]
    simp
  exact ⟨_, key _⟩

theorem scatterAdd_ones_nonneg {I Uu : Shape} {w : Nat} (d : ScatterDims S I Uu) (zeros : FVec Ideal S .f32)
    (i : IVec I w) (onesU : FVec Ideal Uu .f32) (hz : ∀ j, zeros j = ((0 : ℝ) : EReal))
    (ho : ∀ k, onesU k = ((1 : ℝ) : EReal)) (j : S.Idx) :
    ∃ r : ℝ, 0 ≤ r ∧ Host.scatterAdd d zeros i onesU j = (r : EReal) := by
  obtain ⟨n, hn⟩ := scatterAdd_ones_count d zeros i onesU hz ho j
  exact ⟨n, Nat.cast_nonneg n, hn⟩

theorem divf_one_max_scatterAdd_allFin {I Uu S0 : Shape} {w : Nat} (d : ScatterDims S I Uu)
    {dims : Fin S0.rank → Fin S.rank} (hb : S0.BroadcastsInDim S dims)
    (zeros : FVec Ideal S .f32) (i : IVec I w) (onesU : FVec Ideal Uu .f32)
    (hz : AllFin zeros) (ho : AllFin onesU) :
    AllFin (Host.divf (broadcastInDim S dims hb (constant (F := Ideal) S0 .f32 0x3F800000#32))
      (maximumf (Host.scatterAdd d zeros i onesU)
        (broadcastInDim S dims hb (constant (F := Ideal) S0 .f32 0x3F800000#32)))) :=
  divf_one_max_allFin hb _ (scatterAdd_allFin d zeros i onesU hz ho)

end Cert.HostFin

end
-- ==== Proof.Ref.Fin.lean ====
import proofs.«165926_j30305289241327_1_alg».proof.Proof.Ref.Fns
import proofs.«165926_j30305289241327_1_alg».proof.Proof.MathVar
import proofs.«165926_j30305289241327_1_alg».proof.Proof.HostFin

noncomputable section

namespace Cert.ReferenceIdeal.Hand

open Cert.ReferenceIdeal Cert.ReferenceIdeal.Gen Idealize.ShloMosaic Cert.GinMath Cert.HostFin

local notation "𝔸[" s ", " e "]" => BufTy.Contents (Elt Ideal) (⟨s, e⟩ : BufTy)

theorem refInvDeg_isFin (dst : 𝔸[S1600000, .i32]) : ∀ i, IsFin (refInvDeg (F := Ideal) dst i) := by
  unfold refInvDeg
  exact divf_one_max_scatterAdd_allFin _ _ _ _ _
    (broadcastInDim_allFin _ _ (constant_zero_allFin _))
    (broadcastInDim_allFin _ _ (constant_one_allFin _))

theorem refAgg_isFin (h : 𝔸[S100000x128, .f32]) (src dst : 𝔸[S1600000, .i32]) (invdeg : 𝔸[S100000, .f32])
    (hh : ∀ i, IsFin (h i)) (hinv : ∀ i, IsFin (invdeg i)) :
    ∀ i, IsFin (refAgg (F := Ideal) h src dst invdeg i) := by
  unfold refAgg
  exact mulf_allFin _ _
    (scatterAdd_allFin _ _ _ _ (broadcastInDim_allFin _ _ (constant_zero_allFin _))
      (gather_allFin _ _ _ hh))
    (broadcastInDim_allFin _ _ (broadcastInDim_allFin _ _ hinv))

theorem refW1_isFin (k : Fin 4) (a : 𝔸[S4x128x256, .f32]) (ha : ∀ i, IsFin (a i)) :
    ∀ i, IsFin (refW1 (F := Ideal) k a i) := by
  match k with
  | 0 => exact shapeCast_allFin _ _ (extractStridedSlice_allFin _ _ _ ha)
  | 1 => exact shapeCast_allFin _ _ (extractStridedSlice_allFin _ _ _ ha)
  | 2 => exact shapeCast_allFin _ _ (extractStridedSlice_allFin _ _ _ ha)
  | 3 => exact shapeCast_allFin _ _ (extractStridedSlice_allFin _ _ _ ha)

theorem refRow256_isFin (k : Fin 4) (a : 𝔸[S4x256, .f32]) (ha : ∀ i, IsFin (a i)) :
    ∀ i, IsFin (refRow256 (F := Ideal) k a i) := by
  match k with
  | 0 => exact shapeCast_allFin _ _ (extractStridedSlice_allFin _ _ _ ha)
  | 1 => exact shapeCast_allFin _ _ (extractStridedSlice_allFin _ _ _ ha)
  | 2 => exact shapeCast_allFin _ _ (extractStridedSlice_allFin _ _ _ ha)
  | 3 => exact shapeCast_allFin _ _ (extractStridedSlice_allFin _ _ _ ha)

theorem refW2_isFin (k : Fin 4) (a : 𝔸[S4x256x128, .f32]) (ha : ∀ i, IsFin (a i)) :
    ∀ i, IsFin (refW2 (F := Ideal) k a i) := by
  match k with
  | 0 => exact shapeCast_allFin _ _ (extractStridedSlice_allFin _ _ _ ha)
  | 1 => exact shapeCast_allFin _ _ (extractStridedSlice_allFin _ _ _ ha)
  | 2 => exact shapeCast_allFin _ _ (extractStridedSlice_allFin _ _ _ ha)
  | 3 => exact shapeCast_allFin _ _ (extractStridedSlice_allFin _ _ _ ha)

theorem refB2_isFin (k : Fin 4) (a : 𝔸[S4x128, .f32]) (ha : ∀ i, IsFin (a i)) :
    ∀ i, IsFin (refB2 (F := Ideal) k a i) := by
  match k with
  | 0 => exact shapeCast_allFin _ _ (extractStridedSlice_allFin _ _ _ ha)
  | 1 => exact shapeCast_allFin _ _ (extractStridedSlice_allFin _ _ _ ha)
  | 2 => exact shapeCast_allFin _ _ (extractStridedSlice_allFin _ _ _ ha)
  | 3 => exact shapeCast_allFin _ _ (extractStridedSlice_allFin _ _ _ ha)

end Cert.ReferenceIdeal.Hand

end
-- ==== Proof.SpecMath.lean ====
import proofs.«165926_j30305289241327_1_alg».proof.Proof.Spec
import proofs.«165926_j30305289241327_1_alg».proof.Proof.MathVar

noncomputable section

open scoped BigOperators

namespace Cert.GinSpec

open Idealize.ShloMosaic Cert.GinMath

theorem nRows_ne_zero : (100000 : ℝ) ≠ 0 := by norm_num

theorem card_rows : (Fintype.card (Fin 100000) : ℝ) = 100000 := by simp

theorem zSpec_isFin (h agg : Fin 100000 → Fin 128 → EReal) (W1 : Fin 128 → Fin 256 → EReal) (b1 : Fin 256 → EReal)
    (hh : ∀ p k, IsFin (h p k)) (ha : ∀ p k, IsFin (agg p k)) (hW : ∀ k j, IsFin (W1 k j)) (hb : ∀ j, IsFin (b1 j)) :
    ∀ p j, IsFin (zSpec h agg W1 b1 p j) := fun p j =>
  (isFin_sum _ _ fun k _ => ((hh p k).add (ha p k)).mul (hW k j)).add (hb j)

theorem meanSpec_isFin (z : Fin 100000 → Fin 256 → EReal) (hz : ∀ p j, IsFin (z p j)) (j : Fin 256) :
    IsFin (meanSpec z j) :=
  (isFin_sum _ _ fun p _ => hz p j).div_real nRows_ne_zero

theorem varSq_eq_varDev (z : Fin 100000 → Fin 256 → EReal) (hz : ∀ p j, IsFin (z p j)) (j : Fin 256) :
    varSq z j = varDev z j :=
  var_identity (fun p => z p j) (fun p => hz p j) 100000 nRows_ne_zero card_rows

theorem varDev_isFin_nonneg (z : Fin 100000 → Fin 256 → EReal) (hz : ∀ p j, IsFin (z p j)) (j : Fin 256) :
    ∃ v : ℝ, 0 ≤ v ∧ varDev z j = (v : EReal) :=
  var_isFin_nonneg (fun p => z p j) (fun p => hz p j) 100000 nRows_ne_zero card_rows

theorem bnSpec_isFin (z : Fin 100000 → Fin 256 → EReal) (mean var g be : Fin 256 → EReal) (eps : EReal)
    (hz : ∀ p k, IsFin (z p k)) (hmean : ∀ k, IsFin (mean k)) (hvar : ∀ k, ∃ v : ℝ, 0 ≤ v ∧ var k = (v : EReal))
    (hg : ∀ k, IsFin (g k)) (hbe : ∀ k, IsFin (be k)) (heps : ∃ e : ℝ, 0 < e ∧ eps = (e : EReal)) :
    ∀ p k, IsFin (bnSpec z mean var g be eps p k) := by
  intro p k
  obtain ⟨v, hv, hvk⟩ := hvar k
  obtain ⟨e, he, rfl⟩ := heps
  unfold bnSpec
  rw [hvk]
  exact ((((hg k).mul ((hz p k).sub (hmean k))).mul (isFin_rsqrt_pos v e hv he)).add (hbe k)).max isFin_zero

theorem outSpec_isFin (y : Fin 100000 → Fin 256 → EReal) (W2 : Fin 256 → Fin 128 → EReal) (b2 : Fin 128 → EReal)
    (hy : ∀ p k, IsFin (y p k)) (hW : ∀ k q, IsFin (W2 k q)) (hb : ∀ q, IsFin (b2 q)) :
    ∀ p q, IsFin (outSpec y W2 b2 p q) := fun p q =>
  ((isFin_sum _ _ fun k _ => (hy p k).mul (hW k q)).add (hb q)).max isFin_zero

theorem layerSq_eq_layerDev (h agg : Fin 100000 → Fin 128 → EReal) (W1 : Fin 128 → Fin 256 → EReal)
    (b1 g be : Fin 256 → EReal) (eps : EReal) (W2 : Fin 256 → Fin 128 → EReal) (b2 : Fin 128 → EReal)
    (hh : ∀ p k, IsFin (h p k)) (ha : ∀ p k, IsFin (agg p k)) (hW1 : ∀ k j, IsFin (W1 k j)) (hb1 : ∀ j, IsFin (b1 j)) :
    layerSq h agg W1 b1 g be eps W2 b2 = layerDev h agg W1 b1 g be eps W2 b2 := by
  have hv : varSq (zSpec h agg W1 b1) = varDev (zSpec h agg W1 b1) :=
    funext fun j => varSq_eq_varDev _ (zSpec_isFin h agg W1 b1 hh ha hW1 hb1) j
  unfold layerSq layerDev
  rw [hv]

theorem layerDev_isFin (h agg : Fin 100000 → Fin 128 → EReal) (W1 : Fin 128 → Fin 256 → EReal)
    (b1 g be : Fin 256 → EReal) (eps : EReal) (W2 : Fin 256 → Fin 128 → EReal) (b2 : Fin 128 → EReal)
    (hh : ∀ p k, IsFin (h p k)) (ha : ∀ p k, IsFin (agg p k)) (hW1 : ∀ k j, IsFin (W1 k j)) (hb1 : ∀ j, IsFin (b1 j))
    (hg : ∀ k, IsFin (g k)) (hbe : ∀ k, IsFin (be k)) (heps : ∃ e : ℝ, 0 < e ∧ eps = (e : EReal))
    (hW2 : ∀ k q, IsFin (W2 k q)) (hb2 : ∀ q, IsFin (b2 q)) :
    ∀ p q, IsFin (layerDev h agg W1 b1 g be eps W2 b2 p q) := by
  have hz := zSpec_isFin h agg W1 b1 hh ha hW1 hb1
  exact outSpec_isFin _ W2 b2
    (bnSpec_isFin _ _ _ g be eps hz (meanSpec_isFin _ hz) (varDev_isFin_nonneg _ hz) hg hbe heps) hW2 hb2

theorem layerSq_isFin (h agg : Fin 100000 → Fin 128 → EReal) (W1 : Fin 128 → Fin 256 → EReal)
    (b1 g be : Fin 256 → EReal) (eps : EReal) (W2 : Fin 256 → Fin 128 → EReal) (b2 : Fin 128 → EReal)
    (hh : ∀ p k, IsFin (h p k)) (ha : ∀ p k, IsFin (agg p k)) (hW1 : ∀ k j, IsFin (W1 k j)) (hb1 : ∀ j, IsFin (b1 j))
    (hg : ∀ k, IsFin (g k)) (hbe : ∀ k, IsFin (be k)) (heps : ∃ e : ℝ, 0 < e ∧ eps = (e : EReal))
    (hW2 : ∀ k q, IsFin (W2 k q)) (hb2 : ∀ q, IsFin (b2 q)) :
    ∀ p q, IsFin (layerSq h agg W1 b1 g be eps W2 b2 p q) := by
  rw [layerSq_eq_layerDev h agg W1 b1 g be eps W2 b2 hh ha hW1 hb1]
  exact layerDev_isFin h agg W1 b1 g be eps W2 b2 hh ha hW1 hb1 hg hbe heps hW2 hb2

end Cert.GinSpec

end
-- ==== Proof.SpecLayer.lean ====
import proofs.«165926_j30305289241327_1_alg».proof.Proof.Spec
import proofs.«165926_j30305289241327_1_alg».proof.Proof.SpecMath

noncomputable section

namespace Cert.GinSpec

open Idealize.ShloMosaic Cert.GinMath

theorem layerSq_of_parts
    (h agg : Fin 100000 → Fin 128 → EReal) (W1 : Fin 128 → Fin 256 → EReal) (b1 g be : Fin 256 → EReal) (eps : EReal)
    (W2 : Fin 256 → Fin 128 → EReal) (b2 : Fin 128 → EReal)
    (z : Fin 100000 → Fin 256 → EReal) (s ss mean var : Fin 256 → EReal) (out : Fin 100000 → Fin 128 → EReal)
    (hz : ∀ p j, z p j = zSpec h agg W1 b1 p j)
    (hs : ∀ j, s j = colSum z j) (hss : ∀ j, ss j = colSumSq z j)
    (hmean : ∀ k, mean k = Ideal.div (s k) nRows)
    (hvar : ∀ k, var k = Ideal.div (ss k) nRows - Ideal.div (s k) nRows * Ideal.div (s k) nRows)
    (hout : ∀ p q, out p q = outSpec (bnSpec z mean var g be eps) W2 b2 p q) :
    out = layerSq h agg W1 b1 g be eps W2 b2 := by
  have ez : z = zSpec h agg W1 b1 := funext fun p => funext fun j => hz p j
  subst ez
  have emean : mean = meanSpec (zSpec h agg W1 b1) := funext fun k => by
    rw [hmean k, hs k]; rfl
  have evar : var = varSq (zSpec h agg W1 b1) := funext fun k => by
    rw [hvar k, hss k, hs k]; rfl
  subst emean evar
  funext p q
  rw [hout p q]; rfl

theorem layerSq_eq_layerDev_of_eq
    (h agg h' agg' : Fin 100000 → Fin 128 → EReal) (W1 W1' : Fin 128 → Fin 256 → EReal) (b1 g be b1' g' be' : Fin 256 → EReal) (eps : EReal)
    (W2 W2' : Fin 256 → Fin 128 → EReal) (b2 b2' : Fin 128 → EReal)
    (eh : h = h') (ea : agg = agg') (eW1 : W1 = W1') (eb1 : b1 = b1') (eg : g = g') (ebe : be = be') (eW2 : W2 = W2') (eb2 : b2 = b2')
    (hh : ∀ p k, IsFin (h' p k)) (ha : ∀ p k, IsFin (agg' p k)) (hW1 : ∀ k j, IsFin (W1' k j)) (hb1 : ∀ j, IsFin (b1' j))
    (hg : ∀ k, IsFin (g' k)) (hbe : ∀ k, IsFin (be' k)) (heps : ∃ e : ℝ, 0 < e ∧ eps = (e : EReal))
    (hW2 : ∀ k q, IsFin (W2' k q)) (hb2 : ∀ q, IsFin (b2' q)) :
    layerSq h agg W1 b1 g be eps W2 b2 = layerDev h' agg' W1' b1' g' be' eps W2' b2'
      ∧ ∀ p q, IsFin (layerDev h' agg' W1' b1' g' be' eps W2' b2' p q) := by
  subst eh ea eW1 eb1 eg ebe eW2 eb2
  exact ⟨layerSq_eq_layerDev h agg W1 b1 g be eps W2 b2 hh ha hW1 hb1,
    layerDev_isFin h agg W1 b1 g be eps W2 b2 hh ha hW1 hb1 hg hbe heps hW2 hb2⟩

end Cert.GinSpec

end
-- ==== Proof.BridgeArr.lean ====
import proofs.«165926_j30305289241327_1_alg».proof.Proof.Cross
import proofs.«165926_j30305289241327_1_alg».proof.Proof.Ref.Read
import proofs.«165926_j30305289241327_1_alg».proof.Proof.Ref.Fin
import proofs.«165926_j30305289241327_1_alg».proof.Proof.SpecLayer
import proofs.«165926_j30305289241327_1_alg».proof.Proof.Gen.KernelIdeal

noncomputable section

namespace Cert.BridgeArr

open Idealize.ShloMosaic Idealize.ShloMosaic.ValueIdx
open Cert.KernelIdeal
open Cert.KernelIdeal.Hand Cert.ReferenceIdeal.Hand
open Cert.GinSpec Cert.GinMath Cert.Cross

local notation "𝔸[" s ", " e "]" => BufTy.Contents (Elt Ideal) (⟨s, e⟩ : BufTy)

abbrev eps : EReal := Ideal.ofBits .f32 0x3727C5AC#32

theorem refLayer_apply (h : 𝔸[S100000x128, .f32]) (src dst : 𝔸[S1600000, .i32]) (inv : 𝔸[S100000, .f32])
    (W1 : 𝔸[S128x256, .f32]) (b1 g be : 𝔸[S256, .f32]) (W2 : 𝔸[S256x128, .f32]) (b2 : 𝔸[S128, .f32])
    (p : Fin 100000) (q : Fin 128) :
    refLayer (F := Ideal) h src dst inv W1 b1 g be W2 b2 (ix2 p q)
      = layerDev (fun p k => h (ix2 p k)) (fun p k => refAgg (F := Ideal) h src dst inv (ix2 p k))
          (fun k j => W1 (ix2 k j)) (fun j => b1 (ix1 j)) (fun j => g (ix1 j)) (fun j => be (ix1 j)) eps
          (fun k q => W2 (ix2 k q)) (fun q => b2 (ix1 q)) p q :=
  refDense_apply h (refAgg (F := Ideal) h src dst inv) W1 b1 g be W2 b2 p q

theorem layer_agree (k : Fin 4) (o x : 𝔸[S100000x128, .f32]) (ei : 𝔸[S2x1600000, .i32])
    (a4 : 𝔸[S4x128x256, .f32]) (a5 a6 a7 : 𝔸[S4x256, .f32]) (a8 : 𝔸[S4x256x128, .f32]) (a9 : 𝔸[S4x128, .f32])
    (hL : (fun p q => o (ix2 p q))
      = layerSq (fun p k => x (ix2 p k))
          (fun p k => kerAgg (F := Ideal) x (kerSrc ei) (kerDst ei) (kerInvDeg (kerDst ei)) (ix2 p k))
          (fun k' j => kerW1 (F := Ideal) k a4 (ix2 k' j)) (fun j => kerB1 (F := Ideal) k a5 (ix2 0 j))
          (fun j => kerG (F := Ideal) k a6 (ix2 0 j)) (fun j => kerBe (F := Ideal) k a7 (ix2 0 j)) eps
          (fun k' q => kerW2 (F := Ideal) k a8 (ix2 k' q)) (fun q => kerB2 (F := Ideal) k a9 (ix2 0 q)))
    (fx : ∀ i, IsFin (x i)) (f4 : ∀ i, IsFin (a4 i)) (f5 : ∀ i, IsFin (a5 i)) (f6 : ∀ i, IsFin (a6 i))
    (f7 : ∀ i, IsFin (a7 i)) (f8 : ∀ i, IsFin (a8 i)) (f9 : ∀ i, IsFin (a9 i)) :
    o = refLayer (F := Ideal) x (refSrc ei) (refDst ei) (refInvDeg (refDst ei)) (refW1 k a4) (refB1 k a5) (refG k a6)
          (refBe k a7) (refW2 k a8) (refB2 k a9)
      ∧ ∀ i, IsFin (refLayer (F := Ideal) x (refSrc ei) (refDst ei) (refInvDeg (refDst ei)) (refW1 k a4) (refB1 k a5)
          (refG k a6) (refBe k a7) (refW2 k a8) (refB2 k a9) i) := by
  have fagg := refAgg_isFin x (refSrc ei) (refDst ei) (refInvDeg (refDst ei)) fx (refInvDeg_isFin (refDst ei))
  obtain ⟨e1, e2⟩ := layerSq_eq_layerDev_of_eq
    (fun p k => x (ix2 p k))
    (fun p k => kerAgg (F := Ideal) x (kerSrc ei) (kerDst ei) (kerInvDeg (kerDst ei)) (ix2 p k))
    (fun p k => x (ix2 p k))
    (fun p k => refAgg (F := Ideal) x (refSrc ei) (refDst ei) (refInvDeg (refDst ei)) (ix2 p k))
    (fun k' j => kerW1 (F := Ideal) k a4 (ix2 k' j)) (fun k' j => refW1 (F := Ideal) k a4 (ix2 k' j))
    (fun j => kerB1 (F := Ideal) k a5 (ix2 0 j)) (fun j => kerG (F := Ideal) k a6 (ix2 0 j))
    (fun j => kerBe (F := Ideal) k a7 (ix2 0 j))
    (fun j => refB1 (F := Ideal) k a5 (ix1 j)) (fun j => refG (F := Ideal) k a6 (ix1 j))
    (fun j => refBe (F := Ideal) k a7 (ix1 j)) eps
    (fun k' q => kerW2 (F := Ideal) k a8 (ix2 k' q)) (fun k' q => refW2 (F := Ideal) k a8 (ix2 k' q))
    (fun q => kerB2 (F := Ideal) k a9 (ix2 0 q)) (fun q => refB2 (F := Ideal) k a9 (ix1 q))
    rfl
    (by rw [kerAgg_eq, kerInvDeg_eq, kerSrc_eq, kerDst_eq])
    (by rw [kerW1_eq])
    (funext fun j => kerRow256_apply k a5 j) (funext fun j => kerRow256_apply k a6 j)
    (funext fun j => kerRow256_apply k a7 j)
    (by rw [kerW2_eq])
    (funext fun q => kerB2_apply k a9 q)
    (fun p k' => fx _) (fun p k' => fagg _) (fun k' j => refW1_isFin k a4 f4 _)
    (fun j => refRow256_isFin k a5 f5 _) (fun j => refRow256_isFin k a6 f6 _) (fun j => refRow256_isFin k a7 f7 _)
    ofBits_eps (fun k' q => refW2_isFin k a8 f8 _) (fun q => refB2_isFin k a9 f9 _)
  have hpt : ∀ p q, refLayer (F := Ideal) x (refSrc ei) (refDst ei) (refInvDeg (refDst ei)) (refW1 k a4) (refB1 k a5)
      (refG k a6) (refBe k a7) (refW2 k a8) (refB2 k a9) (ix2 p q) = o (ix2 p q) := fun p q => by
    rw [refLayer_apply, ← e1, ← hL]
  refine ⟨funext fun i => ?_, fun i => ?_⟩
  · obtain ⟨p, q, rfl⟩ : ∃ (p : Fin 100000) (q : Fin 128), i = ix2 p q := ⟨i 0, i 1, eq_ix2 i⟩
    exact (hpt p q).symm
  · obtain ⟨p, q, rfl⟩ : ∃ (p : Fin 100000) (q : Fin 128), i = ix2 p q := ⟨i 0, i 1, eq_ix2 i⟩
    rw [refLayer_apply]; exact e2 p q

abbrev refLay (k : Fin 4) (x : 𝔸[S100000x128, .f32]) (ei : 𝔸[S2x1600000, .i32]) (a4 : 𝔸[S4x128x256, .f32])
    (a5 a6 a7 : 𝔸[S4x256, .f32]) (a8 : 𝔸[S4x256x128, .f32]) (a9 : 𝔸[S4x128, .f32]) : 𝔸[S100000x128, .f32] :=
  refLayer (F := Ideal) x (refSrc ei) (refDst ei) (refInvDeg (refDst ei)) (refW1 k a4) (refB1 k a5) (refG k a6)
    (refBe k a7) (refW2 k a8) (refB2 k a9)

abbrev KerLayer (k : Fin 4) (o x : 𝔸[S100000x128, .f32]) (ei : 𝔸[S2x1600000, .i32]) (a4 : 𝔸[S4x128x256, .f32])
    (a5 a6 a7 : 𝔸[S4x256, .f32]) (a8 : 𝔸[S4x256x128, .f32]) (a9 : 𝔸[S4x128, .f32]) : Prop :=
  (fun p q => o (ix2 p q))
    = layerSq (fun p k => x (ix2 p k))
        (fun p k => kerAgg (F := Ideal) x (kerSrc ei) (kerDst ei) (kerInvDeg (kerDst ei)) (ix2 p k))
        (fun k' j => kerW1 (F := Ideal) k a4 (ix2 k' j)) (fun j => kerB1 (F := Ideal) k a5 (ix2 0 j))
        (fun j => kerG (F := Ideal) k a6 (ix2 0 j)) (fun j => kerBe (F := Ideal) k a7 (ix2 0 j)) eps
        (fun k' q => kerW2 (F := Ideal) k a8 (ix2 k' q)) (fun q => kerB2 (F := Ideal) k a9 (ix2 0 q))

theorem result_agree (a0 : 𝔸[S100000x128, .f32]) (ei : 𝔸[S2x1600000, .i32]) (a3 : 𝔸[S100000, .i32])
    (a4 : 𝔸[S4x128x256, .f32]) (a5 a6 a7 : 𝔸[S4x256, .f32]) (a8 : 𝔸[S4x256x128, .f32]) (a9 : 𝔸[S4x128, .f32])
    (a10 : 𝔸[S512x10, .f32]) (a11 : 𝔸[S10, .f32]) (o1 o2 o3 o4 : 𝔸[S100000x128, .f32])
    (h0 : KerLayer 0 o1 a0 ei a4 a5 a6 a7 a8 a9) (h1 : KerLayer 1 o2 o1 ei a4 a5 a6 a7 a8 a9)
    (h2 : KerLayer 2 o3 o2 ei a4 a5 a6 a7 a8 a9) (h3 : KerLayer 3 o4 o3 ei a4 a5 a6 a7 a8 a9)
    (f0 : ∀ i, IsFin (a0 i)) (f4 : ∀ i, IsFin (a4 i)) (f5 : ∀ i, IsFin (a5 i)) (f6 : ∀ i, IsFin (a6 i))
    (f7 : ∀ i, IsFin (a7 i)) (f8 : ∀ i, IsFin (a8 i)) (f9 : ∀ i, IsFin (a9 i)) :
    kerTail (F := Ideal) o1 o2 o3 o4 a3 a10 a11
      = refTail (F := Ideal) (refLay 0 a0 ei a4 a5 a6 a7 a8 a9)
          (refLay 1 (refLay 0 a0 ei a4 a5 a6 a7 a8 a9) ei a4 a5 a6 a7 a8 a9)
          (refLay 2 (refLay 1 (refLay 0 a0 ei a4 a5 a6 a7 a8 a9) ei a4 a5 a6 a7 a8 a9) ei a4 a5 a6 a7 a8 a9)
          (refLay 3 (refLay 2 (refLay 1 (refLay 0 a0 ei a4 a5 a6 a7 a8 a9) ei a4 a5 a6 a7 a8 a9) ei a4 a5 a6 a7 a8 a9)
            ei a4 a5 a6 a7 a8 a9)
          a3 a10 a11 := by
  obtain ⟨e1, g1⟩ := layer_agree 0 o1 a0 ei a4 a5 a6 a7 a8 a9 h0 f0 f4 f5 f6 f7 f8 f9
  subst e1
  obtain ⟨e2, g2⟩ := layer_agree 1 o2 _ ei a4 a5 a6 a7 a8 a9 h1 g1 f4 f5 f6 f7 f8 f9
  subst e2
  obtain ⟨e3, g3⟩ := layer_agree 2 o3 _ ei a4 a5 a6 a7 a8 a9 h2 g2 f4 f5 f6 f7 f8 f9
  subst e3
  obtain ⟨e4, -⟩ := layer_agree 3 o4 _ ei a4 a5 a6 a7 a8 a9 h3 g3 f4 f5 f6 f7 f8 f9
  subst e4
  exact kerTail_eq _ _ _ _ a3 a10 a11

end Cert.BridgeArr

end
-- ==== Proof.KI.Host.lean ====
import proofs.«165926_j30305289241327_1_alg».proof.Proof.Gen.KernelIdeal.Regions
import proofs.«165926_j30305289241327_1_alg».proof.Proof.KI.Fns

set_option maxRecDepth 1888

noncomputable section

namespace Cert.KernelIdeal.Hand

open Cert.KernelIdeal Cert.KernelIdeal.Gen
open Idealize.ShloMosaic Idealize.ShloMosaic.TcCoe
open Idealize.SL.Sem

variable {F : FTy → Type} [FloatOps F]

section Stretch
variable (W : Valuation τ sig (Elt F))

theorem ops0_src : StableHlo.after hostOps0 W main_v1 = kerSrc (W main_arg1) := by after_results; rfl
theorem ops0_dst : StableHlo.after hostOps0 W main_v3 = kerDst (W main_arg1) := by after_results; rfl
theorem ops0_invdeg : StableHlo.after hostOps0 W main_v11 = kerInvDeg (kerDst (W main_arg1)) := by after_results; rfl
theorem ops0_agg : StableHlo.after hostOps0 W main_v24 = kerAgg (W main_arg0) (kerSrc (W main_arg1)) (kerDst (W main_arg1)) (kerInvDeg (kerDst (W main_arg1))) := by after_results_simp; rfl
theorem ops0_w1 : StableHlo.after hostOps0 W main_v26 = kerW1 0 (W main_arg4) := by after_results; rfl
theorem ops0_b1 : StableHlo.after hostOps0 W main_v29 = kerB1 0 (W main_arg5) := by after_results; rfl
theorem ops1_mean : StableHlo.after hostOps1 W main_v47 = kerMean (W main_v30_1) := by after_results; rfl
theorem ops1_var : StableHlo.after hostOps1 W main_v48 = kerVar (W main_v30_1) (W main_v30_2) := by after_results; rfl
theorem ops1_g : StableHlo.after hostOps1 W main_v49 = kerG 0 (W main_arg6) := by after_results; rfl
theorem ops1_be : StableHlo.after hostOps1 W main_v50 = kerBe 0 (W main_arg7) := by after_results; rfl
theorem ops1_w2 : StableHlo.after hostOps1 W main_v44 = kerW2 0 (W main_arg8) := by after_results; rfl
theorem ops1_b2 : StableHlo.after hostOps1 W main_v51 = kerB2 0 (W main_arg9) := by after_results; rfl
theorem ops2_agg : StableHlo.after hostOps2 W main_v65 = kerAgg (W main_v52) (W main_v1) (W main_v3) (W main_v11) := by after_results_simp; rfl
theorem ops2_w1 : StableHlo.after hostOps2 W main_v67 = kerW1 1 (W main_arg4) := by after_results; rfl
theorem ops2_b1 : StableHlo.after hostOps2 W main_v70 = kerB1 1 (W main_arg5) := by after_results; rfl
theorem ops3_mean : StableHlo.after hostOps3 W main_v88 = kerMean (W main_v71_1) := by after_results; rfl
theorem ops3_var : StableHlo.after hostOps3 W main_v89 = kerVar (W main_v71_1) (W main_v71_2) := by after_results; rfl
theorem ops3_g : StableHlo.after hostOps3 W main_v90 = kerG 1 (W main_arg6) := by after_results; rfl
theorem ops3_be : StableHlo.after hostOps3 W main_v91 = kerBe 1 (W main_arg7) := by after_results; rfl
theorem ops3_w2 : StableHlo.after hostOps3 W main_v85 = kerW2 1 (W main_arg8) := by after_results; rfl
theorem ops3_b2 : StableHlo.after hostOps3 W main_v92 = kerB2 1 (W main_arg9) := by after_results; rfl
theorem ops4_agg : StableHlo.after hostOps4 W main_v106 = kerAgg (W main_v93) (W main_v1) (W main_v3) (W main_v11) := by after_results_simp; rfl
theorem ops4_w1 : StableHlo.after hostOps4 W main_v108 = kerW1 2 (W main_arg4) := by after_results; rfl
theorem ops4_b1 : StableHlo.after hostOps4 W main_v111 = kerB1 2 (W main_arg5) := by after_results; rfl
theorem ops5_mean : StableHlo.after hostOps5 W main_v129 = kerMean (W main_v112_1) := by after_results; rfl
theorem ops5_var : StableHlo.after hostOps5 W main_v130 = kerVar (W main_v112_1) (W main_v112_2) := by after_results; rfl
theorem ops5_g : StableHlo.after hostOps5 W main_v131 = kerG 2 (W main_arg6) := by after_results; rfl
theorem ops5_be : StableHlo.after hostOps5 W main_v132 = kerBe 2 (W main_arg7) := by after_results; rfl
theorem ops5_w2 : StableHlo.after hostOps5 W main_v126 = kerW2 2 (W main_arg8) := by after_results; rfl
theorem ops5_b2 : StableHlo.after hostOps5 W main_v133 = kerB2 2 (W main_arg9) := by after_results; rfl
theorem ops6_agg : StableHlo.after hostOps6 W main_v147 = kerAgg (W main_v134) (W main_v1) (W main_v3) (W main_v11) := by after_results_simp; rfl
theorem ops6_w1 : StableHlo.after hostOps6 W main_v149 = kerW1 3 (W main_arg4) := by after_results; rfl
theorem ops6_b1 : StableHlo.after hostOps6 W main_v152 = kerB1 3 (W main_arg5) := by after_results; rfl
theorem ops7_mean : StableHlo.after hostOps7 W main_v170 = kerMean (W main_v153_1) := by after_results; rfl
theorem ops7_var : StableHlo.after hostOps7 W main_v171 = kerVar (W main_v153_1) (W main_v153_2) := by after_results; rfl
theorem ops7_g : StableHlo.after hostOps7 W main_v172 = kerG 3 (W main_arg6) := by after_results; rfl
theorem ops7_be : StableHlo.after hostOps7 W main_v173 = kerBe 3 (W main_arg7) := by after_results; rfl
theorem ops7_w2 : StableHlo.after hostOps7 W main_v167 = kerW2 3 (W main_arg8) := by after_results; rfl
theorem ops7_b2 : StableHlo.after hostOps7 W main_v174 = kerB2 3 (W main_arg9) := by after_results; rfl
theorem ops8_logits : StableHlo.after hostOps8 W main_v192 = kerLogits (kerPool (kerCat (W main_v52) (W main_v93) (W main_v134) (W main_v175)) (W main_arg3)) (W main_arg10) (W main_arg11) := by after_results_simp; rfl
theorem ops8_1_out : StableHlo.after hostOps8_1 W main_v193 = kerLogSoftmax (W main_v192) := by
  after_results_simp <;> (try simp only [StableHlo.TRef.ofBuf, StableHlo.TRef.toBuf, cast_eq]) <;> rfl

end Stretch

variable (m : (ℓ : Loc nD τ sig) → Buf (Elt F) ℓ) (outs : Outs (F := F))

theorem V2_z0 (c : Dev nD) : V2 m outs c main_v30_0 = outs 2 main_v30_0 c := by
  simp only [V2, Function.update_of_ne (StableHlo.devRef_ne_of_ne (show main_v30_0 ≠ main_v30_2 by decide) : (Proc.devRef .tc main_v30_0 : DevRef τ sig) ≠ Proc.devRef .tc main_v30_2), Function.update_of_ne (StableHlo.devRef_ne_of_ne (show main_v30_0 ≠ main_v30_1 by decide) : (Proc.devRef .tc main_v30_0 : DevRef τ sig) ≠ Proc.devRef .tc main_v30_1), Function.update_self]
theorem V2_z1 (c : Dev nD) : V2 m outs c main_v30_1 = outs 2 main_v30_1 c := by
  simp only [V2, Function.update_of_ne (StableHlo.devRef_ne_of_ne (show main_v30_1 ≠ main_v30_2 by decide) : (Proc.devRef .tc main_v30_1 : DevRef τ sig) ≠ Proc.devRef .tc main_v30_2), Function.update_self]
theorem V2_z2 (c : Dev nD) : V2 m outs c main_v30_2 = outs 2 main_v30_2 c := by
  simp only [V2, Function.update_self]
theorem V4_out (c : Dev nD) : V4 m outs c main_v52 = outs 4 main_v52 c := by
  simp only [V4, Function.update_self]
theorem V6_z0 (c : Dev nD) : V6 m outs c main_v71_0 = outs 6 main_v71_0 c := by
  simp only [V6, Function.update_of_ne (StableHlo.devRef_ne_of_ne (show main_v71_0 ≠ main_v71_2 by decide) : (Proc.devRef .tc main_v71_0 : DevRef τ sig) ≠ Proc.devRef .tc main_v71_2), Function.update_of_ne (StableHlo.devRef_ne_of_ne (show main_v71_0 ≠ main_v71_1 by decide) : (Proc.devRef .tc main_v71_0 : DevRef τ sig) ≠ Proc.devRef .tc main_v71_1), Function.update_self]
theorem V6_z1 (c : Dev nD) : V6 m outs c main_v71_1 = outs 6 main_v71_1 c := by
  simp only [V6, Function.update_of_ne (StableHlo.devRef_ne_of_ne (show main_v71_1 ≠ main_v71_2 by decide) : (Proc.devRef .tc main_v71_1 : DevRef τ sig) ≠ Proc.devRef .tc main_v71_2), Function.update_self]
theorem V6_z2 (c : Dev nD) : V6 m outs c main_v71_2 = outs 6 main_v71_2 c := by
  simp only [V6, Function.update_self]
theorem V8_out (c : Dev nD) : V8 m outs c main_v93 = outs 8 main_v93 c := by
  simp only [V8, Function.update_self]
theorem V10_z0 (c : Dev nD) : V10 m outs c main_v112_0 = outs 10 main_v112_0 c := by
  simp only [V10, Function.update_of_ne (StableHlo.devRef_ne_of_ne (show main_v112_0 ≠ main_v112_2 by decide) : (Proc.devRef .tc main_v112_0 : DevRef τ sig) ≠ Proc.devRef .tc main_v112_2), Function.update_of_ne (StableHlo.devRef_ne_of_ne (show main_v112_0 ≠ main_v112_1 by decide) : (Proc.devRef .tc main_v112_0 : DevRef τ sig) ≠ Proc.devRef .tc main_v112_1), Function.update_self]
theorem V10_z1 (c : Dev nD) : V10 m outs c main_v112_1 = outs 10 main_v112_1 c := by
  simp only [V10, Function.update_of_ne (StableHlo.devRef_ne_of_ne (show main_v112_1 ≠ main_v112_2 by decide) : (Proc.devRef .tc main_v112_1 : DevRef τ sig) ≠ Proc.devRef .tc main_v112_2), Function.update_self]
theorem V10_z2 (c : Dev nD) : V10 m outs c main_v112_2 = outs 10 main_v112_2 c := by
  simp only [V10, Function.update_self]
theorem V12_out (c : Dev nD) : V12 m outs c main_v134 = outs 12 main_v134 c := by
  simp only [V12, Function.update_self]
theorem V14_z0 (c : Dev nD) : V14 m outs c main_v153_0 = outs 14 main_v153_0 c := by
  simp only [V14, Function.update_of_ne (StableHlo.devRef_ne_of_ne (show main_v153_0 ≠ main_v153_2 by decide) : (Proc.devRef .tc main_v153_0 : DevRef τ sig) ≠ Proc.devRef .tc main_v153_2), Function.update_of_ne (StableHlo.devRef_ne_of_ne (show main_v153_0 ≠ main_v153_1 by decide) : (Proc.devRef .tc main_v153_0 : DevRef τ sig) ≠ Proc.devRef .tc main_v153_1), Function.update_self]
theorem V14_z1 (c : Dev nD) : V14 m outs c main_v153_1 = outs 14 main_v153_1 c := by
  simp only [V14, Function.update_of_ne (StableHlo.devRef_ne_of_ne (show main_v153_1 ≠ main_v153_2 by decide) : (Proc.devRef .tc main_v153_1 : DevRef τ sig) ≠ Proc.devRef .tc main_v153_2), Function.update_self]
theorem V14_z2 (c : Dev nD) : V14 m outs c main_v153_2 = outs 14 main_v153_2 c := by
  simp only [V14, Function.update_self]
theorem V16_out (c : Dev nD) : V16 m outs c main_v175 = outs 16 main_v175 c := by
  simp only [V16, Function.update_self]

theorem V1_src (c : Dev nD) : V1 m c main_v1 = kerSrc (m ((c : Thread nD τ).loc main_arg1)) := ops0_src (V0 m c)
theorem V1_dst (c : Dev nD) : V1 m c main_v3 = kerDst (m ((c : Thread nD τ).loc main_arg1)) := ops0_dst (V0 m c)
theorem V1_invdeg (c : Dev nD) : V1 m c main_v11 = kerInvDeg (kerDst (m ((c : Thread nD τ).loc main_arg1))) := ops0_invdeg (V0 m c)
theorem V4_src (c : Dev nD) : V4 m outs c main_v1 = kerSrc (m ((c : Thread nD τ).loc main_arg1)) :=
  (V4_of m outs c main_v1 (by decide)).trans <| (V3_of m outs c main_v1 (by decide)).trans <| (V2_of m outs c main_v1 (by decide)).trans <| (V1_src m c)
theorem V4_dst (c : Dev nD) : V4 m outs c main_v3 = kerDst (m ((c : Thread nD τ).loc main_arg1)) :=
  (V4_of m outs c main_v3 (by decide)).trans <| (V3_of m outs c main_v3 (by decide)).trans <| (V2_of m outs c main_v3 (by decide)).trans <| (V1_dst m c)
theorem V4_invdeg (c : Dev nD) : V4 m outs c main_v11 = kerInvDeg (kerDst (m ((c : Thread nD τ).loc main_arg1))) :=
  (V4_of m outs c main_v11 (by decide)).trans <| (V3_of m outs c main_v11 (by decide)).trans <| (V2_of m outs c main_v11 (by decide)).trans <| (V1_invdeg m c)
theorem V8_src (c : Dev nD) : V8 m outs c main_v1 = kerSrc (m ((c : Thread nD τ).loc main_arg1)) :=
  (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide)).trans <| (V1_src m c)
theorem V8_dst (c : Dev nD) : V8 m outs c main_v3 = kerDst (m ((c : Thread nD τ).loc main_arg1)) :=
  (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide)).trans <| (V1_dst m c)
theorem V8_invdeg (c : Dev nD) : V8 m outs c main_v11 = kerInvDeg (kerDst (m ((c : Thread nD τ).loc main_arg1))) :=
  (V8_of m outs c main_v11 (by decide)).trans <| (V7_of m outs c main_v11 (by decide)).trans <| (V6_of m outs c main_v11 (by decide)).trans <| (V5_of m outs c main_v11 (by decide)).trans <| (V4_of m outs c main_v11 (by decide)).trans <| (V3_of m outs c main_v11 (by decide)).trans <| (V2_of m outs c main_v11 (by decide)).trans <| (V1_invdeg m c)
theorem V12_src (c : Dev nD) : V12 m outs c main_v1 = kerSrc (m ((c : Thread nD τ).loc main_arg1)) :=
  (V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide)).trans <| (V1_src m c)
theorem V12_dst (c : Dev nD) : V12 m outs c main_v3 = kerDst (m ((c : Thread nD τ).loc main_arg1)) :=
  (V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide)).trans <| (V1_dst m c)
theorem V12_invdeg (c : Dev nD) : V12 m outs c main_v11 = kerInvDeg (kerDst (m ((c : Thread nD τ).loc main_arg1))) :=
  (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (V5_of m outs c main_v11 (by decide)).trans <| (V4_of m outs c main_v11 (by decide)).trans <| (V3_of m outs c main_v11 (by decide)).trans <| (V2_of m outs c main_v11 (by decide)).trans <| (V1_invdeg m c)

theorem V2_arg6 (c : Dev nD) : V2 m outs c main_arg6 = m ((c : Thread nD τ).loc main_arg6) :=
  (V2_of m outs c main_arg6 (by decide)).trans <| (V1_of m c main_arg6 (by decide)).trans <| rfl
theorem V2_arg7 (c : Dev nD) : V2 m outs c main_arg7 = m ((c : Thread nD τ).loc main_arg7) :=
  (V2_of m outs c main_arg7 (by decide)).trans <| (V1_of m c main_arg7 (by decide)).trans <| rfl
theorem V2_arg8 (c : Dev nD) : V2 m outs c main_arg8 = m ((c : Thread nD τ).loc main_arg8) :=
  (V2_of m outs c main_arg8 (by decide)).trans <| (V1_of m c main_arg8 (by decide)).trans <| rfl
theorem V2_arg9 (c : Dev nD) : V2 m outs c main_arg9 = m ((c : Thread nD τ).loc main_arg9) :=
  (V2_of m outs c main_arg9 (by decide)).trans <| (V1_of m c main_arg9 (by decide)).trans <| rfl
theorem V4_arg4 (c : Dev nD) : V4 m outs c main_arg4 = m ((c : Thread nD τ).loc main_arg4) :=
  (V4_of m outs c main_arg4 (by decide)).trans <| (V3_of m outs c main_arg4 (by decide)).trans <| (V2_of m outs c main_arg4 (by decide)).trans <| (V1_of m c main_arg4 (by decide)).trans <| rfl
theorem V4_arg5 (c : Dev nD) : V4 m outs c main_arg5 = m ((c : Thread nD τ).loc main_arg5) :=
  (V4_of m outs c main_arg5 (by decide)).trans <| (V3_of m outs c main_arg5 (by decide)).trans <| (V2_of m outs c main_arg5 (by decide)).trans <| (V1_of m c main_arg5 (by decide)).trans <| rfl
theorem V6_arg6 (c : Dev nD) : V6 m outs c main_arg6 = m ((c : Thread nD τ).loc main_arg6) :=
  (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans <| rfl
theorem V6_arg7 (c : Dev nD) : V6 m outs c main_arg7 = m ((c : Thread nD τ).loc main_arg7) :=
  (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans <| rfl
theorem V6_arg8 (c : Dev nD) : V6 m outs c main_arg8 = m ((c : Thread nD τ).loc main_arg8) :=
  (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans <| rfl
theorem V6_arg9 (c : Dev nD) : V6 m outs c main_arg9 = m ((c : Thread nD τ).loc main_arg9) :=
  (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans <| rfl
theorem V8_arg4 (c : Dev nD) : V8 m outs c main_arg4 = m ((c : Thread nD τ).loc main_arg4) :=
  (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans <| rfl
theorem V8_arg5 (c : Dev nD) : V8 m outs c main_arg5 = m ((c : Thread nD τ).loc main_arg5) :=
  (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide)).trans <| rfl
theorem V10_arg6 (c : Dev nD) : V10 m outs c main_arg6 = m ((c : Thread nD τ).loc main_arg6) :=
  (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans <| rfl
theorem V10_arg7 (c : Dev nD) : V10 m outs c main_arg7 = m ((c : Thread nD τ).loc main_arg7) :=
  (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans <| rfl
theorem V10_arg8 (c : Dev nD) : V10 m outs c main_arg8 = m ((c : Thread nD τ).loc main_arg8) :=
  (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans <| rfl
theorem V10_arg9 (c : Dev nD) : V10 m outs c main_arg9 = m ((c : Thread nD τ).loc main_arg9) :=
  (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans <| rfl
theorem V12_arg4 (c : Dev nD) : V12 m outs c main_arg4 = m ((c : Thread nD τ).loc main_arg4) :=
  (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans <| rfl
theorem V12_arg5 (c : Dev nD) : V12 m outs c main_arg5 = m ((c : Thread nD τ).loc main_arg5) :=
  (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide)).trans <| rfl
theorem V14_arg6 (c : Dev nD) : V14 m outs c main_arg6 = m ((c : Thread nD τ).loc main_arg6) :=
  (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans <| rfl
theorem V14_arg7 (c : Dev nD) : V14 m outs c main_arg7 = m ((c : Thread nD τ).loc main_arg7) :=
  (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans <| rfl
theorem V14_arg8 (c : Dev nD) : V14 m outs c main_arg8 = m ((c : Thread nD τ).loc main_arg8) :=
  (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans <| rfl
theorem V14_arg9 (c : Dev nD) : V14 m outs c main_arg9 = m ((c : Thread nD τ).loc main_arg9) :=
  (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans <| rfl
theorem V16_arg3 (c : Dev nD) : V16 m outs c main_arg3 = m ((c : Thread nD τ).loc main_arg3) :=
  (V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans <| rfl
theorem V16_arg10 (c : Dev nD) : V16 m outs c main_arg10 = m ((c : Thread nD τ).loc main_arg10) :=
  (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans <| rfl
theorem V16_arg11 (c : Dev nD) : V16 m outs c main_arg11 = m ((c : Thread nD τ).loc main_arg11) :=
  (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans <| rfl

theorem V1_h (c : Dev nD) : V1 m c main_arg0 = m ((c : Thread nD τ).loc main_arg0) :=
  (V1_of m c main_arg0 (by decide)).trans rfl
theorem V1_agg (c : Dev nD) : V1 m c main_v24 = kerAgg (m ((c : Thread nD τ).loc main_arg0)) (kerSrc (m ((c : Thread nD τ).loc main_arg1))) (kerDst (m ((c : Thread nD τ).loc main_arg1))) (kerInvDeg (kerDst (m ((c : Thread nD τ).loc main_arg1)))) :=
  ops0_agg (V0 m c)
theorem V1_w1 (c : Dev nD) : V1 m c main_v26 = kerW1 0 (m ((c : Thread nD τ).loc main_arg4)) :=
  ops0_w1 (V0 m c)
theorem V1_b1 (c : Dev nD) : V1 m c main_v29 = kerB1 0 (m ((c : Thread nD τ).loc main_arg5)) :=
  ops0_b1 (V0 m c)
theorem V3_z (c : Dev nD) : V3 m outs c main_v30_0 = outs 2 main_v30_0 c :=
  (V3_of m outs c main_v30_0 (by decide)).trans (V2_z0 m outs c)
theorem V3_mean (c : Dev nD) : V3 m outs c main_v47 = kerMean (outs 2 main_v30_1 c) :=
  (ops1_mean (V2 m outs c)).trans (by rw [V2_z1])
theorem V3_var (c : Dev nD) : V3 m outs c main_v48 = kerVar (outs 2 main_v30_1 c) (outs 2 main_v30_2 c) :=
  (ops1_var (V2 m outs c)).trans (by rw [V2_z1, V2_z2])
theorem V3_g (c : Dev nD) : V3 m outs c main_v49 = kerG 0 (m ((c : Thread nD τ).loc main_arg6)) :=
  (ops1_g (V2 m outs c)).trans (by rw [V2_arg6])
theorem V3_be (c : Dev nD) : V3 m outs c main_v50 = kerBe 0 (m ((c : Thread nD τ).loc main_arg7)) :=
  (ops1_be (V2 m outs c)).trans (by rw [V2_arg7])
theorem V3_w2 (c : Dev nD) : V3 m outs c main_v44 = kerW2 0 (m ((c : Thread nD τ).loc main_arg8)) :=
  (ops1_w2 (V2 m outs c)).trans (by rw [V2_arg8])
theorem V3_b2 (c : Dev nD) : V3 m outs c main_v51 = kerB2 0 (m ((c : Thread nD τ).loc main_arg9)) :=
  (ops1_b2 (V2 m outs c)).trans (by rw [V2_arg9])

theorem V5_h (c : Dev nD) : V5 m outs c main_v52 = outs 4 main_v52 c :=
  (V5_of m outs c main_v52 (by decide)).trans (V4_out m outs c)
theorem V5_agg (c : Dev nD) : V5 m outs c main_v65 = kerAgg (outs 4 main_v52 c) (kerSrc (m ((c : Thread nD τ).loc main_arg1))) (kerDst (m ((c : Thread nD τ).loc main_arg1))) (kerInvDeg (kerDst (m ((c : Thread nD τ).loc main_arg1)))) :=
  (ops2_agg (V4 m outs c)).trans (by rw [V4_out, V4_src, V4_dst, V4_invdeg])
theorem V5_w1 (c : Dev nD) : V5 m outs c main_v67 = kerW1 1 (m ((c : Thread nD τ).loc main_arg4)) :=
  (ops2_w1 (V4 m outs c)).trans (by rw [V4_arg4])
theorem V5_b1 (c : Dev nD) : V5 m outs c main_v70 = kerB1 1 (m ((c : Thread nD τ).loc main_arg5)) :=
  (ops2_b1 (V4 m outs c)).trans (by rw [V4_arg5])
theorem V7_z (c : Dev nD) : V7 m outs c main_v71_0 = outs 6 main_v71_0 c :=
  (V7_of m outs c main_v71_0 (by decide)).trans (V6_z0 m outs c)
theorem V7_mean (c : Dev nD) : V7 m outs c main_v88 = kerMean (outs 6 main_v71_1 c) :=
  (ops3_mean (V6 m outs c)).trans (by rw [V6_z1])
theorem V7_var (c : Dev nD) : V7 m outs c main_v89 = kerVar (outs 6 main_v71_1 c) (outs 6 main_v71_2 c) :=
  (ops3_var (V6 m outs c)).trans (by rw [V6_z1, V6_z2])
theorem V7_g (c : Dev nD) : V7 m outs c main_v90 = kerG 1 (m ((c : Thread nD τ).loc main_arg6)) :=
  (ops3_g (V6 m outs c)).trans (by rw [V6_arg6])
theorem V7_be (c : Dev nD) : V7 m outs c main_v91 = kerBe 1 (m ((c : Thread nD τ).loc main_arg7)) :=
  (ops3_be (V6 m outs c)).trans (by rw [V6_arg7])
theorem V7_w2 (c : Dev nD) : V7 m outs c main_v85 = kerW2 1 (m ((c : Thread nD τ).loc main_arg8)) :=
  (ops3_w2 (V6 m outs c)).trans (by rw [V6_arg8])
theorem V7_b2 (c : Dev nD) : V7 m outs c main_v92 = kerB2 1 (m ((c : Thread nD τ).loc main_arg9)) :=
  (ops3_b2 (V6 m outs c)).trans (by rw [V6_arg9])

theorem V9_h (c : Dev nD) : V9 m outs c main_v93 = outs 8 main_v93 c :=
  (V9_of m outs c main_v93 (by decide)).trans (V8_out m outs c)
theorem V9_agg (c : Dev nD) : V9 m outs c main_v106 = kerAgg (outs 8 main_v93 c) (kerSrc (m ((c : Thread nD τ).loc main_arg1))) (kerDst (m ((c : Thread nD τ).loc main_arg1))) (kerInvDeg (kerDst (m ((c : Thread nD τ).loc main_arg1)))) :=
  (ops4_agg (V8 m outs c)).trans (by rw [V8_out, V8_src, V8_dst, V8_invdeg])
theorem V9_w1 (c : Dev nD) : V9 m outs c main_v108 = kerW1 2 (m ((c : Thread nD τ).loc main_arg4)) :=
  (ops4_w1 (V8 m outs c)).trans (by rw [V8_arg4])
theorem V9_b1 (c : Dev nD) : V9 m outs c main_v111 = kerB1 2 (m ((c : Thread nD τ).loc main_arg5)) :=
  (ops4_b1 (V8 m outs c)).trans (by rw [V8_arg5])
theorem V11_z (c : Dev nD) : V11 m outs c main_v112_0 = outs 10 main_v112_0 c :=
  (V11_of m outs c main_v112_0 (by decide)).trans (V10_z0 m outs c)
theorem V11_mean (c : Dev nD) : V11 m outs c main_v129 = kerMean (outs 10 main_v112_1 c) :=
  (ops5_mean (V10 m outs c)).trans (by rw [V10_z1])
theorem V11_var (c : Dev nD) : V11 m outs c main_v130 = kerVar (outs 10 main_v112_1 c) (outs 10 main_v112_2 c) :=
  (ops5_var (V10 m outs c)).trans (by rw [V10_z1, V10_z2])
theorem V11_g (c : Dev nD) : V11 m outs c main_v131 = kerG 2 (m ((c : Thread nD τ).loc main_arg6)) :=
  (ops5_g (V10 m outs c)).trans (by rw [V10_arg6])
theorem V11_be (c : Dev nD) : V11 m outs c main_v132 = kerBe 2 (m ((c : Thread nD τ).loc main_arg7)) :=
  (ops5_be (V10 m outs c)).trans (by rw [V10_arg7])
theorem V11_w2 (c : Dev nD) : V11 m outs c main_v126 = kerW2 2 (m ((c : Thread nD τ).loc main_arg8)) :=
  (ops5_w2 (V10 m outs c)).trans (by rw [V10_arg8])
theorem V11_b2 (c : Dev nD) : V11 m outs c main_v133 = kerB2 2 (m ((c : Thread nD τ).loc main_arg9)) :=
  (ops5_b2 (V10 m outs c)).trans (by rw [V10_arg9])

theorem V13_h (c : Dev nD) : V13 m outs c main_v134 = outs 12 main_v134 c :=
  (V13_of m outs c main_v134 (by decide)).trans (V12_out m outs c)
theorem V13_agg (c : Dev nD) : V13 m outs c main_v147 = kerAgg (outs 12 main_v134 c) (kerSrc (m ((c : Thread nD τ).loc main_arg1))) (kerDst (m ((c : Thread nD τ).loc main_arg1))) (kerInvDeg (kerDst (m ((c : Thread nD τ).loc main_arg1)))) :=
  (ops6_agg (V12 m outs c)).trans (by rw [V12_out, V12_src, V12_dst, V12_invdeg])
theorem V13_w1 (c : Dev nD) : V13 m outs c main_v149 = kerW1 3 (m ((c : Thread nD τ).loc main_arg4)) :=
  (ops6_w1 (V12 m outs c)).trans (by rw [V12_arg4])
theorem V13_b1 (c : Dev nD) : V13 m outs c main_v152 = kerB1 3 (m ((c : Thread nD τ).loc main_arg5)) :=
  (ops6_b1 (V12 m outs c)).trans (by rw [V12_arg5])
theorem V15_z (c : Dev nD) : V15 m outs c main_v153_0 = outs 14 main_v153_0 c :=
  (V15_of m outs c main_v153_0 (by decide)).trans (V14_z0 m outs c)
theorem V15_mean (c : Dev nD) : V15 m outs c main_v170 = kerMean (outs 14 main_v153_1 c) :=
  (ops7_mean (V14 m outs c)).trans (by rw [V14_z1])
theorem V15_var (c : Dev nD) : V15 m outs c main_v171 = kerVar (outs 14 main_v153_1 c) (outs 14 main_v153_2 c) :=
  (ops7_var (V14 m outs c)).trans (by rw [V14_z1, V14_z2])
theorem V15_g (c : Dev nD) : V15 m outs c main_v172 = kerG 3 (m ((c : Thread nD τ).loc main_arg6)) :=
  (ops7_g (V14 m outs c)).trans (by rw [V14_arg6])
theorem V15_be (c : Dev nD) : V15 m outs c main_v173 = kerBe 3 (m ((c : Thread nD τ).loc main_arg7)) :=
  (ops7_be (V14 m outs c)).trans (by rw [V14_arg7])
theorem V15_w2 (c : Dev nD) : V15 m outs c main_v167 = kerW2 3 (m ((c : Thread nD τ).loc main_arg8)) :=
  (ops7_w2 (V14 m outs c)).trans (by rw [V14_arg8])
theorem V15_b2 (c : Dev nD) : V15 m outs c main_v174 = kerB2 3 (m ((c : Thread nD τ).loc main_arg9)) :=
  (ops7_b2 (V14 m outs c)).trans (by rw [V14_arg9])

theorem V16_h1 (c : Dev nD) : V16 m outs c main_v52 = outs 4 main_v52 c :=
  (V16_of m outs c main_v52 (by decide)).trans <| (V15_of m outs c main_v52 (by decide)).trans <| (V14_of m outs c main_v52 (by decide)).trans <| (V13_of m outs c main_v52 (by decide)).trans <| (V12_of m outs c main_v52 (by decide)).trans <| (V11_of m outs c main_v52 (by decide)).trans <| (V10_of m outs c main_v52 (by decide)).trans <| (V9_of m outs c main_v52 (by decide)).trans <| (V8_of m outs c main_v52 (by decide)).trans <| (V7_of m outs c main_v52 (by decide)).trans <| (V6_of m outs c main_v52 (by decide)).trans <| (V5_of m outs c main_v52 (by decide)).trans <| (V4_out m outs c)
theorem V16_h2 (c : Dev nD) : V16 m outs c main_v93 = outs 8 main_v93 c :=
  (V16_of m outs c main_v93 (by decide)).trans <| (V15_of m outs c main_v93 (by decide)).trans <| (V14_of m outs c main_v93 (by decide)).trans <| (V13_of m outs c main_v93 (by decide)).trans <| (V12_of m outs c main_v93 (by decide)).trans <| (V11_of m outs c main_v93 (by decide)).trans <| (V10_of m outs c main_v93 (by decide)).trans <| (V9_of m outs c main_v93 (by decide)).trans <| (V8_out m outs c)
theorem V16_h3 (c : Dev nD) : V16 m outs c main_v134 = outs 12 main_v134 c :=
  (V16_of m outs c main_v134 (by decide)).trans <| (V15_of m outs c main_v134 (by decide)).trans <| (V14_of m outs c main_v134 (by decide)).trans <| (V13_of m outs c main_v134 (by decide)).trans <| (V12_out m outs c)
theorem V17_logits (c : Dev nD) : V17 m outs c main_v192 = kerLogits (kerPool (kerCat (outs 4 main_v52 c) (outs 8 main_v93 c) (outs 12 main_v134 c) (outs 16 main_v175 c)) (m ((c : Thread nD τ).loc main_arg3))) (m ((c : Thread nD τ).loc main_arg10)) (m ((c : Thread nD τ).loc main_arg11)) :=
  (ops8_logits (V16 m outs c)).trans (by rw [V16_h1, V16_h2, V16_h3, V16_out, V16_arg3, V16_arg10, V16_arg11])
theorem V18_out (c : Dev nD) : V18 m outs c main_v193 = kerTail (outs 4 main_v52 c) (outs 8 main_v93 c) (outs 12 main_v134 c) (outs 16 main_v175 c) (m ((c : Thread nD τ).loc main_arg3)) (m ((c : Thread nD τ).loc main_arg10)) (m ((c : Thread nD τ).loc main_arg11)) :=
  (ops8_1_out (V17 m outs c)).trans (by rw [V17_logits]; rfl)

end Cert.KernelIdeal.Hand

end
-- ==== Proof.PreFin.lean ====
import proofs.«165926_j30305289241327_1_alg».proof.Pre_finite_inputs
import proofs.«165926_j30305289241327_1_alg».proof.Proof.Gen.Pre_finite_inputs
import proofs.«165926_j30305289241327_1_alg».proof.Proof.MathVar
import Idealize.ShloMosaic.Lib.ReduceAll
import Idealize.ShloMosaic.Lib.ValueIdx

noncomputable section

namespace Cert.PreFin

open Idealize.ShloMosaic Cert.Pre_finite_inputs Cert.GinMath

instance : Subsingleton S_.Idx := ⟨fun a b => funext fun d => d.elim0⟩

theorem inf_f32 : Ideal.ofBits .f32 0x7F800000#32 = (⊤ : EReal) := by
  simp [Ideal.ofBits, Ideal.ieee]

theorem isFin_of_abs_lt (x : EReal)
    (h : Ideal.cmp .olt (max x (-x)) (Ideal.ofBits .f32 0x7F800000#32) = 1#1) : IsFin x := by
  rw [inf_f32] at h
  induction x using EReal.rec with
  | bot => simp [Ideal.cmp] at h
  | coe r => exact ⟨r, rfl⟩
  | top => simp [Ideal.cmp] at h

theorem isFin_of_all {s : Shape} {axes : List (Fin s.rank)} (a : FVec Ideal s .f32)
    (bc : S_.BroadcastsInDim s (![] : Fin 0 → Fin s.rank)) (hr : s.ReducesTo axes S_)
    (hu : 0 < S_.numel)
    (e : Host.reduce IntOp.andi
        (cmpf .olt (Host.absf a) (broadcastInDim s ![] bc (constant (F := Ideal) S_ .f32 0x7F800000#32)))
        (constantI S_ 1 1#1) hr hu ValueIdx.ix0 = 1#1) (i : s.Idx) : IsFin (a i) :=
  isFin_of_abs_lt (a i) (Host.reduce_andi_all _ _ hr hu _ e i)

theorem isFin_all_of_pre [Cert.Pre_finite_inputs.Facts]
    (a0 : FVec Ideal S100000x128 .f32) (a1 : IVec S2x1600000 32) (a2 : FVec Ideal S1600000x8 .f32)
    (a3 : IVec S100000 32) (a4 : FVec Ideal S4x128x256 .f32) (a5 : FVec Ideal S4x256 .f32)
    (a6 : FVec Ideal S4x256 .f32) (a7 : FVec Ideal S4x256 .f32) (a8 : FVec Ideal S4x256x128 .f32)
    (a9 : FVec Ideal S4x128 .f32) (a10 : FVec Ideal S512x10 .f32) (a11 : FVec Ideal S10 .f32)
    (h : Cert.Pre_finite_inputs.fn (F := Ideal) a0 a1 a2 a3 a4 a5 a6 a7 a8 a9 a10 a11 = fun _ => 1#1) :
    (∀ i, IsFin (a0 i)) ∧ (∀ i, IsFin (a2 i)) ∧ (∀ i, IsFin (a4 i)) ∧ (∀ i, IsFin (a5 i)) ∧
      (∀ i, IsFin (a6 i)) ∧ (∀ i, IsFin (a7 i)) ∧ (∀ i, IsFin (a8 i)) ∧ (∀ i, IsFin (a9 i)) ∧
      (∀ i, IsFin (a10 i)) ∧ (∀ i, IsFin (a11 i)) := by
  have h0 := congrFun h ValueIdx.ix0
  dsimp only [fn, fn_part1, fn_part2] at h0
  obtain ⟨h0, t11⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨t0, t2⟩ := IntOp.andi_eq_one.1 h0
  exact ⟨isFin_of_all a0 _ _ _ t0, isFin_of_all a2 _ _ _ t2, isFin_of_all a4 _ _ _ t4,
    isFin_of_all a5 _ _ _ t5, isFin_of_all a6 _ _ _ t6, isFin_of_all a7 _ _ _ t7,
    isFin_of_all a8 _ _ _ t8, isFin_of_all a9 _ _ _ t9, isFin_of_all a10 _ _ _ t10,
    isFin_of_all a11 _ _ _ t11⟩

theorem isFin_of_pre [Cert.Pre_finite_inputs.Facts]
    (a0 : FVec Ideal S100000x128 .f32) (a1 : IVec S2x1600000 32) (a2 : FVec Ideal S1600000x8 .f32)
    (a3 : IVec S100000 32) (a4 : FVec Ideal S4x128x256 .f32) (a5 : FVec Ideal S4x256 .f32)
    (a6 : FVec Ideal S4x256 .f32) (a7 : FVec Ideal S4x256 .f32) (a8 : FVec Ideal S4x256x128 .f32)
    (a9 : FVec Ideal S4x128 .f32) (a10 : FVec Ideal S512x10 .f32) (a11 : FVec Ideal S10 .f32)
    (h : Cert.Pre_finite_inputs.fn (F := Ideal) a0 a1 a2 a3 a4 a5 a6 a7 a8 a9 a10 a11 = fun _ => 1#1) :
    (∀ i, IsFin (a0 i)) ∧ (∀ i, IsFin (a4 i)) ∧ (∀ i, IsFin (a5 i)) ∧ (∀ i, IsFin (a6 i)) ∧
      (∀ i, IsFin (a7 i)) ∧ (∀ i, IsFin (a8 i)) ∧ (∀ i, IsFin (a9 i)) ∧ (∀ i, IsFin (a10 i)) ∧
      (∀ i, IsFin (a11 i)) := by
  obtain ⟨f0, _, f4⟩ := isFin_all_of_pre a0 a1 a2 a3 a4 a5 a6 a7 a8 a9 a10 a11 h
  exact ⟨f0, f4⟩

end Cert.PreFin

end
-- ==== Proof.Bridge.lean ====
import proofs.«165926_j30305289241327_1_alg».proof.Defs
import proofs.«165926_j30305289241327_1_alg».proof.Proof.BridgeArr
import proofs.«165926_j30305289241327_1_alg».proof.Proof.KI.Host
import proofs.«165926_j30305289241327_1_alg».proof.Proof.Ref.Value
import proofs.«165926_j30305289241327_1_alg».proof.Proof.PreFin

noncomputable section

namespace Cert.Bridge

open Idealize.ShloMosaic Idealize.ShloMosaic.ValueIdx Idealize.ShloMosaic.TcCoe Idealize.SL.Sem
open Idealize.ShloMosaic.StableHlo
open Cert.KernelIdeal Cert.KernelIdeal.Gen
open Cert.KernelIdeal.Hand Cert.ReferenceIdeal.Hand
open Cert.GinSpec Cert.GinMath Cert.Cross Cert.BridgeArr

theorem result_eq_of_layers
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Outs (F := Ideal))
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD)
    (h0 : KerLayer 0 (outs 4 main_v52 c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (h1 : KerLayer 1 (outs 8 main_v93 c) (outs 4 main_v52 c) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (h2 : KerLayer 2 (outs 12 main_v134 c) (outs 8 main_v93 c) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (h3 : KerLayer 3 (outs 16 main_v175 c) (outs 12 main_v134 c) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) :
    V18 m outs c main_v193
      = StableHlo.after (Cert.ReferenceIdeal.RunP.ops (F := Ideal)) (StableHlo.launchContents m' c) (Proc.devRef .tc Cert.ReferenceIdeal.main_v273) := by
  obtain ⟨e0, e1, e2, e3, e4, e5, e6, e7, e8, e9, e10, e11⟩ := hagree c
  obtain ⟨f0, f4, f5, f6, f7, f8, f9, -, -⟩ := Cert.PreFin.isFin_of_pre _ _ _ _ _ _ _ _ _ _ _ _ (hpre c)
  have hR := result_agree (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (outs 4 main_v52 c) (outs 8 main_v93 c) (outs 12 main_v134 c) (outs 16 main_v175 c) h0 h1 h2 h3 f0 f4 f5 f6 f7 f8 f9
  have E0 : StableHlo.launchContents m' c (Proc.devRef .tc Cert.ReferenceIdeal.main_arg0) = (m ((c.tc : Thread Cert.KernelIdeal.nD Cert.KernelIdeal.τ).loc Cert.KernelIdeal.main_arg0)) := e0
  have E1 : StableHlo.launchContents m' c (Proc.devRef .tc Cert.ReferenceIdeal.main_arg1) = (m ((c.tc : Thread Cert.KernelIdeal.nD Cert.KernelIdeal.τ).loc Cert.KernelIdeal.main_arg1)) := e1
  have E3 : StableHlo.launchContents m' c (Proc.devRef .tc Cert.ReferenceIdeal.main_arg3) = (m ((c.tc : Thread Cert.KernelIdeal.nD Cert.KernelIdeal.τ).loc Cert.KernelIdeal.main_arg3)) := e3
  have E4 : StableHlo.launchContents m' c (Proc.devRef .tc Cert.ReferenceIdeal.main_arg4) = (m ((c.tc : Thread Cert.KernelIdeal.nD Cert.KernelIdeal.τ).loc Cert.KernelIdeal.main_arg4)) := e4
  have E5 : StableHlo.launchContents m' c (Proc.devRef .tc Cert.ReferenceIdeal.main_arg5) = (m ((c.tc : Thread Cert.KernelIdeal.nD Cert.KernelIdeal.τ).loc Cert.KernelIdeal.main_arg5)) := e5
  have E6 : StableHlo.launchContents m' c (Proc.devRef .tc Cert.ReferenceIdeal.main_arg6) = (m ((c.tc : Thread Cert.KernelIdeal.nD Cert.KernelIdeal.τ).loc Cert.KernelIdeal.main_arg6)) := e6
  have E7 : StableHlo.launchContents m' c (Proc.devRef .tc Cert.ReferenceIdeal.main_arg7) = (m ((c.tc : Thread Cert.KernelIdeal.nD Cert.KernelIdeal.τ).loc Cert.KernelIdeal.main_arg7)) := e7
  have E8 : StableHlo.launchContents m' c (Proc.devRef .tc Cert.ReferenceIdeal.main_arg8) = (m ((c.tc : Thread Cert.KernelIdeal.nD Cert.KernelIdeal.τ).loc Cert.KernelIdeal.main_arg8)) := e8
  have E9 : StableHlo.launchContents m' c (Proc.devRef .tc Cert.ReferenceIdeal.main_arg9) = (m ((c.tc : Thread Cert.KernelIdeal.nD Cert.KernelIdeal.τ).loc Cert.KernelIdeal.main_arg9)) := e9
  have E10 : StableHlo.launchContents m' c (Proc.devRef .tc Cert.ReferenceIdeal.main_arg10) = (m ((c.tc : Thread Cert.KernelIdeal.nD Cert.KernelIdeal.τ).loc Cert.KernelIdeal.main_arg10)) := e10
  have E11 : StableHlo.launchContents m' c (Proc.devRef .tc Cert.ReferenceIdeal.main_arg11) = (m ((c.tc : Thread Cert.KernelIdeal.nD Cert.KernelIdeal.τ).loc Cert.KernelIdeal.main_arg11)) := e11
  rw [V18_out, ref_value]
  refine hR.trans ?_
  unfold refL4 refL3 refL2 refL1 refLayerAt
  rw [E0, E1, E3, E4, E5, E6, E7, E8, E9, E10, E11]

end Cert.Bridge

end
-- ==== Proof.SpecSum.lean ====
import proofs.«165926_j30305289241327_1_alg».proof.Proof.Spec
import proofs.«165926_j30305289241327_1_alg».proof.Proof.MathVar
import Mathlib.Algebra.BigOperators.Fin
import Mathlib.Algebra.BigOperators.Intervals

noncomputable section

open scoped BigOperators

namespace Cert.GinSpec

open Idealize.ShloMosaic Cert.GinMath

theorem colSum_tiles (z : Fin 100000 → Fin 256 → EReal) (j : Fin 256) :
    colSum z j = ∑ t : Fin 50, ∑ r : Fin 2000, z ⟨2000 * t.val + r.val, by omega⟩ j :=
  sum_tiles fun p => z p j

theorem colSumSq_tiles (z : Fin 100000 → Fin 256 → EReal) (j : Fin 256) :
    colSumSq z j = ∑ t : Fin 50, ∑ r : Fin 2000,
      z ⟨2000 * t.val + r.val, by omega⟩ j * z ⟨2000 * t.val + r.val, by omega⟩ j :=
  sum_tiles fun p => z p j * z p j

theorem fold_sum (N : ℕ) (f a : ℕ → EReal) (h0 : a 0 = f 0)
    (hs : ∀ n, n + 1 < N → a (n + 1) = a n + f (n + 1)) :
    ∀ n, n < N → a n = ∑ t ∈ Finset.range (n + 1), f t := by
  intro n
  induction n with
  | zero => intro _; rw [h0, Finset.sum_range_one]
  | succ n ih => intro hn; rw [hs n hn, ih (by omega), ← Finset.sum_range_succ]

theorem fold_sum_left (N : ℕ) (f a : ℕ → EReal) (h0 : a 0 = f 0)
    (hs : ∀ n, n + 1 < N → a (n + 1) = f (n + 1) + a n) :
    ∀ n, n < N → a n = ∑ t ∈ Finset.range (n + 1), f t :=
  fold_sum N f a h0 fun n hn => (hs n hn).trans (add_comm _ _)

theorem fold_sum_zero (N : ℕ) (f a : ℕ → EReal) (h0 : a 0 = 0 + f 0)
    (hs : ∀ n, n + 1 < N → a (n + 1) = a n + f (n + 1)) :
    ∀ n, n < N → a n = ∑ t ∈ Finset.range (n + 1), f t :=
  fold_sum N f a (h0.trans (zero_add _)) hs

theorem fold_sum_zero_left (N : ℕ) (f a : ℕ → EReal) (h0 : a 0 = 0 + f 0)
    (hs : ∀ n, n + 1 < N → a (n + 1) = f (n + 1) + a n) :
    ∀ n, n < N → a n = ∑ t ∈ Finset.range (n + 1), f t :=
  fold_sum_left N f a (h0.trans (zero_add _)) hs

theorem sum_range_fifty (f : ℕ → EReal) : ∑ t ∈ Finset.range 50, f t = ∑ t : Fin 50, f t.val :=
  Finset.sum_range f

theorem total_of_fold (g : Fin 100000 → EReal) (f a : ℕ → EReal)
    (hf : ∀ t : Fin 50, f t.val = ∑ r : Fin 2000, g ⟨2000 * t.val + r.val, by omega⟩)
    (h0 : a 0 = 0 + f 0) (hs : ∀ n, n + 1 < 50 → a (n + 1) = a n + f (n + 1)) :
    a 49 = ∑ p, g p := by
  rw [fold_sum_zero 50 f a h0 hs 49 (by norm_num), sum_range_fifty, sum_tiles]
  exact Finset.sum_congr rfl fun t _ => hf t

theorem total_of_fold_left (g : Fin 100000 → EReal) (f a : ℕ → EReal)
    (hf : ∀ t : Fin 50, f t.val = ∑ r : Fin 2000, g ⟨2000 * t.val + r.val, by omega⟩)
    (h0 : a 0 = 0 + f 0) (hs : ∀ n, n + 1 < 50 → a (n + 1) = f (n + 1) + a n) :
    a 49 = ∑ p, g p :=
  total_of_fold g f a hf h0 fun n hn => (hs n hn).trans (add_comm _ _)

theorem colSum_of_fold (z : Fin 100000 → Fin 256 → EReal) (j : Fin 256) (f a : ℕ → EReal)
    (hf : ∀ t : Fin 50, f t.val = ∑ r : Fin 2000, z ⟨2000 * t.val + r.val, by omega⟩ j)
    (h0 : a 0 = 0 + f 0) (hs : ∀ n, n + 1 < 50 → a (n + 1) = a n + f (n + 1)) :
    a 49 = colSum z j :=
  total_of_fold (fun p => z p j) f a hf h0 hs

theorem colSumSq_of_fold (z : Fin 100000 → Fin 256 → EReal) (j : Fin 256) (f a : ℕ → EReal)
    (hf : ∀ t : Fin 50, f t.val = ∑ r : Fin 2000,
      z ⟨2000 * t.val + r.val, by omega⟩ j * z ⟨2000 * t.val + r.val, by omega⟩ j)
    (h0 : a 0 = 0 + f 0) (hs : ∀ n, n + 1 < 50 → a (n + 1) = a n + f (n + 1)) :
    a 49 = colSumSq z j :=
  total_of_fold (fun p => z p j * z p j) f a hf h0 hs

end Cert.GinSpec

end
-- ==== Proof.KI.LinVal0.lean ====
import proofs.«165926_j30305289241327_1_alg».proof.Proof.KI.Lin0
import proofs.«165926_j30305289241327_1_alg».proof.Proof.Spec
import proofs.«165926_j30305289241327_1_alg».proof.Proof.SpecSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Hand

open Cert.KernelIdeal.Gen
open Idealize.ShloMosaic Idealize.ShloMosaic.TcCoe
open Idealize.ShloMosaic.Pipeline (Dat Cfg Window)
open Idealize.ShloMosaic.ValueIdx Cert.GinSpec

section Pay0

theorem pay0_lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem pay0_lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem pay0_rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem pay0_rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem pay0_matmul (l : FVec Ideal S2000x128 .bf16) (w : FVec Ideal S128x256 .bf16) (r : Fin 2000) (j : Fin 256) :
    matmul dot_S2000x128_S128x256_S2000x256_1_0_0_1_n_n none l w (constant (F := Ideal) S2000x256 .f32 0x00000000#32) (ix2 r j)
      = ∑ k : Fin 128, l (ix2 r k) * w (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact pay0_lhs_0 _ _
    | ⟨1, _⟩ => exact (pay0_lhs_1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (pay0_rhs_0 _ _).trans hk
    | ⟨1, _⟩ => exact pay0_rhs_1 _ _)
  rw [el, er]

theorem pay0_colred (x : FVec Ideal S2000x256 .f32) (hφ : FKind.Formats .f32)
    (hacc : (0x00000000#32 : BitVec FTy.f32.bits) = FKind.add.neutral .f32 hφ) (j : Fin 256) :
    multiReduction (F := Ideal) .add [0] S256 x 0x00000000#32 reduces_S2000x256_S256 hφ hacc (ix1 j)
      = ∑ r : Fin 2000, x (ix2 r j) := by
  refine (Ideal.multiReduction_add_single x _ reduces_S2000x256_S256 hφ hacc (ix1 j)).trans ?_
  show ∑ k : Fin 2000, x (reduces_S2000x256_S256.lift (ix1 j) k) = _
  refine Finset.sum_congr rfl fun k _ => congrArg x ?_
  funext a
  apply Fin.ext
  match a with
  | ⟨0, _⟩ => rfl
  | ⟨1, _⟩ => rfl

theorem pay0_3_apply (v3 v4 : Vec Ideal S2000x128 .f32) (v8 : Vec Ideal S128x256 .f32) (v12 : Vec Ideal S1x256 .f32)
    (r : Fin 2000) (j : Fin 256) :
    k0_pay3 v3 v4 v8 v12 (ix2 r j)
      = (∑ k : Fin 128, (v3 (ix2 r k) + v4 (ix2 r k)) * v8 (ix2 k j)) + v12 (ix2 0 j) := by
  unfold k0_pay3
  refine (addf_apply _ _ _).trans ?_
  refine congrArg₂ (· + ·) ?_ ?_
  · refine (pay0_matmul _ _ r j).trans ?_
    refine Finset.sum_congr rfl fun k _ => ?_
    simp only [shapeCast_self]
    rfl
  · simp only [shapeCast_self]
    exact broadcastTo_1b_ab_apply v12 _ r j

theorem pay0_4_apply (v3 v4 : Vec Ideal S2000x128 .f32) (v8 : Vec Ideal S128x256 .f32) (v12 v17 : Vec Ideal S1x256 .f32)
    (j : Fin 256) :
    k0_pay4 v3 v4 v8 v12 v17 (ix2 0 j) = v17 (ix2 0 j) + ∑ r : Fin 2000, k0_pay3 v3 v4 v8 v12 (ix2 r j) := by
  unfold k0_pay4
  dsimp only
  simp only [shapeCast_self]
  refine (addf_apply _ _ _).trans ?_
  refine congrArg (v17 (ix2 0 j) + ·) ?_
  refine (shapeCast_a_1a_apply _ _ 0 j).trans ?_
  exact pay0_colred _ _ _ j

theorem pay0_5_apply (v3 v4 : Vec Ideal S2000x128 .f32) (v8 : Vec Ideal S128x256 .f32) (v12 v24 : Vec Ideal S1x256 .f32)
    (j : Fin 256) :
    k0_pay5 v3 v4 v8 v12 v24 (ix2 0 j)
      = v24 (ix2 0 j) + ∑ r : Fin 2000, k0_pay3 v3 v4 v8 v12 (ix2 r j) * k0_pay3 v3 v4 v8 v12 (ix2 r j) := by
  unfold k0_pay5
  dsimp only
  simp only [shapeCast_self]
  refine (addf_apply _ _ _).trans ?_
  refine congrArg (v24 (ix2 0 j) + ·) ?_
  refine (shapeCast_a_1a_apply _ _ 0 j).trans ?_
  exact pay0_colred _ _ _ j

theorem pay0_1_apply (j : Fin 256) : (k0_pay1 (F := Ideal)) (ix2 0 j) = 0 := by
  unfold k0_pay1
  simp only [shapeCast_self]
  exact Ideal.ofBits_zero_f32
theorem pay0_2_apply (j : Fin 256) : (k0_pay2 (F := Ideal)) (ix2 0 j) = 0 := by
  unfold k0_pay2
  simp only [shapeCast_self]
  exact Ideal.ofBits_zero_f32

end Pay0

section Values0

variable (V : (c : Dev nD) → (b : Ref sig .tc) → Buf (Elt Ideal) ((c : Thread nD τ).loc b))

abbrev hK0 (c : Dev nD) : Fin 100000 → Fin 128 → EReal :=
  fun p k => (V c (Pipeline.arrRef spec0 0) : S100000x128.Idx → EReal) (ix2 p k)

abbrev aggK0 (c : Dev nD) : Fin 100000 → Fin 128 → EReal :=
  fun p k => (V c (Pipeline.arrRef spec0 1) : S100000x128.Idx → EReal) (ix2 p k)

abbrev W1K0 (c : Dev nD) : Fin 128 → Fin 256 → EReal :=
  fun k j => (V c (Pipeline.arrRef spec0 2) : S128x256.Idx → EReal) (ix2 k j)

abbrev b1K0 (c : Dev nD) : Fin 256 → EReal :=
  fun j => (V c (Pipeline.arrRef spec0 3) : S1x256.Idx → EReal) (ix2 0 j)

abbrev zK0 (c : Dev nD) : Fin 100000 → Fin 256 → EReal := zSpec (hK0 V c) (aggK0 V c) (W1K0 V c) (b1K0 V c)

theorem idx0_hz : (![0, 0] : Fin 2 → Nat) = fun _ => 0 := funext fun a => by fin_cases a <;> rfl

theorem idx0_N : cfg0.N = 50 := N_0
theorem idx0_last : 49 < cfg0.N := by rw [idx0_N]; decide

theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem iblk0_0_apply (c : Dev nD) (t : Fin cfg0.N) (r : Fin 2000) (k : Fin 128) (p : Fin 100000)
    (hp : p.val = 2000 * t.val + r.val) :
    (iblk0 V c 0 t : Vec Ideal S2000x128 .f32) (ix2 r k) = hK0 V c p k := by
  obtain ⟨e0, e1, -⟩ := idx0_facts t
  unfold iblk0
  rw [View.read_apply]
  show (V c (Pipeline.arrRef spec0 0) : S100000x128.Idx → EReal) _ = (V c (Pipeline.arrRef spec0 0) : S100000x128.Idx → EReal) (ix2 p k)
  congr 1
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

theorem iblk0_1_apply (c : Dev nD) (t : Fin cfg0.N) (r : Fin 2000) (k : Fin 128) (p : Fin 100000)
    (hp : p.val = 2000 * t.val + r.val) :
    (iblk0 V c 1 t : Vec Ideal S2000x128 .f32) (ix2 r k) = aggK0 V c p k := by
  obtain ⟨-, -, e0, e1, -⟩ := idx0_facts t
  unfold iblk0
  rw [View.read_apply]
  show (V c (Pipeline.arrRef spec0 1) : S100000x128.Idx → EReal) _ = (V c (Pipeline.arrRef spec0 1) : S100000x128.Idx → EReal) (ix2 p k)
  congr 1
  funext a
  apply Fin.ext
  match a with
  | ⟨0, _⟩ => show win0_1.index t (0 : Fin 2) * 2000 + 1 * r.val = p.val; rw [e0, hp]; omega
  | ⟨1, _⟩ => show win0_1.index t (1 : Fin 2) * 128 + 1 * k.val = k.val; rw [e1]; omega

theorem iblk0_2_apply (c : Dev nD) (t : Fin cfg0.N) (k : Fin 128) (j : Fin 256) :
    (iblk0 V c 2 t : Vec Ideal S128x256 .f32) (ix2 k j) = W1K0 V c k j := by
  obtain ⟨-, -, -, -, e0, e1, -⟩ := idx0_facts t
  unfold iblk0
  rw [View.read_apply]
  show (V c (Pipeline.arrRef spec0 2) : S128x256.Idx → EReal) _ = (V c (Pipeline.arrRef spec0 2) : S128x256.Idx → EReal) (ix2 k j)
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * j.val = j.val; rw [e1]; omega

theorem iblk0_3_apply (c : Dev nD) (t : Fin cfg0.N) (j : Fin 256) :
    (iblk0 V c 3 t : Vec Ideal S1x256 .f32) (ix2 0 j) = b1K0 V c j := by
  obtain ⟨-, -, -, -, -, -, e0, e1, -⟩ := idx0_facts t
  unfold iblk0
  rw [View.read_apply]
  show (V c (Pipeline.arrRef spec0 3) : S1x256.Idx → EReal) _ = (V c (Pipeline.arrRef spec0 3) : S1x256.Idx → EReal) (ix2 0 j)
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 256 + 1 * j.val = j.val; rw [e1]; omega

theorem zpay0_apply (c : Dev nD) (t : Fin cfg0.N) (r : Fin 2000) (j : Fin 256) (p : Fin 100000)
    (hp : p.val = 2000 * t.val + r.val) :
    zpay0 V c t (ix2 r j) = zK0 V c p j := by
  unfold zpay0
  simp only [View.ld_unit_zero (S := S2000x128) idx0_hz, View.ld_unit_zero (S := S128x256) idx0_hz, View.ld_unit_zero (S := S1x256) idx0_hz]
  refine (pay0_3_apply _ _ _ _ r j).trans ?_
  refine congrArg₂ (· + ·) (Finset.sum_congr rfl fun k _ => ?_) ?_
  · rw [iblk0_0_apply V c t r k p hp, iblk0_1_apply V c t r k p hp, iblk0_2_apply V c t k j]
  · exact iblk0_3_apply V c t j

theorem zpay0_apply' (c : Dev nD) (t : Fin cfg0.N) (y : S2000x256.Idx) (p : Fin 100000) (j : Fin 256)
    (hp : p.val = 2000 * t.val + (y 0).val) (hj : j.val = (y 1).val) :
    zpay0 V c t y = zK0 V c p j := by
  obtain ⟨r, j', rfl⟩ : ∃ (r : Fin 2000) (j' : Fin 256), y = ix2 r j' := ⟨y 0, y 1, eq_ix2 y⟩
  obtain rfl : j = j' := Fin.ext hj
  exact zpay0_apply V c t r j p hp

abbrev zK0_arr (c : Dev nD) : S100000x256.Idx → EReal :=
  fun i => zK0 V c (i 0) (i 1)

theorem flushed0_4_eq (c : Dev nD) (t : Fin cfg0.N) :
    (dat0 V c).flushed 4 t = ((cfg0.win 4).blk t).view.read (Elt Ideal) (zK0_arr V c) := by
  obtain ⟨-, -, -, -, -, -, -, -, e0, e1, -⟩ := idx0_facts t
  show (cfg0.win 4).cut (grid0.coords t) ((dat0 V c).after 4 t) = _
  rw [after0_4, View.canon_unit_zero idx0_hz]
  funext y
  show zpay0 V c t ((cfg0.win 4).xinj (grid0.coords t) y) = zK0_arr V c (((cfg0.win 4).blk t).view.emb y)
  refine zpay0_apply' V c t _ _ _ ?_ ?_
  · show win0_4.index t (0 : Fin 2) * 2000 + 1 * (y 0).val = 2000 * t.val + (y 0).val
    rw [e0]; omega
  · show win0_4.index t (1 : Fin 2) * 256 + 1 * (y 1).val = (y 1).val
    rw [e1]; omega

theorem mem_blk0_4 (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole (Pipeline.arrRef spec0 4)).slice (win0_4.rect t)).set ↔ _
  rw [View.set_slice_whole, Rect.mem_set_unit]
  exact Iff.rfl

theorem cover0_4 (i : S100000x256.Idx) :
    ∃ t : Fin cfg0.N, (cfg0.win 4).flush t = true ∧ i ∈ ((cfg0.win 4).blk t).view.set := by
  have hN : cfg0.N = 50 := idx0_N
  have hi0 : (i 0).val < 100000 := (i 0).isLt
  have hi1 : (i 1).val < 256 := (i 1).isLt
  refine ⟨⟨(i 0).val / 2000, by rw [hN]; omega⟩, flush0_4 _, ?_⟩
  obtain ⟨-, -, -, -, -, -, -, -, e0, e1, -⟩ := idx0_facts ⟨(i 0).val / 2000, by rw [hN]; omega⟩
  rw [mem_blk0_4]
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 256 ≤ (i 1).val ∧ (i 1).val < win0_4.index _ (1 : Fin 2) * 256 + 256
    rw [e1]; omega

theorem final0_4 (c : Dev nD) : (dat0 V c).arrAt 4 cfg0.N = zK0_arr V c :=
  (dat0 V c).arrAt_eq_of_cover 4 (zK0_arr V c) (fun t _ => flushed0_4_eq V c t) cover0_4

theorem lin0_z (c : Dev nD) (p : Fin 100000) (j : Fin 256) :
    ((dat0 (F := Ideal) V c).arrAt 4 cfg0.N : S100000x256.Idx → EReal) (ix2 p j) = zK0 V c p j :=
  congrFun (final0_4 V c) (ix2 p j)

def tile0_sum (c : Dev nD) (j : Fin 256) (n : ℕ) : EReal :=
  if h : n < cfg0.N then ∑ r : Fin 2000, zpay0 V c ⟨n, h⟩ (ix2 r j) else 0

def acc0_1_val (c : Dev nD) (j : Fin 256) (n : ℕ) : EReal :=
  if h : n < cfg0.N then acc0_1 V c n h (ix2 0 j) else 0

theorem tile0_sum_eq (c : Dev nD) (j : Fin 256) (t : Fin 50) :
    tile0_sum V c j t.val = ∑ r : Fin 2000, zK0 V c ⟨2000 * t.val + r.val, by omega⟩ j := by
  have ht : t.val < cfg0.N := by rw [idx0_N]; exact t.isLt
  unfold tile0_sum
  rw [dif_pos ht]
  refine Finset.sum_congr rfl fun r _ => ?_
  rw [zpay0_apply V c ⟨t.val, ht⟩ r j ⟨2000 * t.val + r.val, by omega⟩ rfl]

theorem acc0_1_val_zero (c : Dev nD) (j : Fin 256) : acc0_1_val V c j 0 = 0 + tile0_sum V c j 0 := by
  have h0 : 0 < cfg0.N := by rw [idx0_N]; decide
  unfold acc0_1_val tile0_sum
  rw [dif_pos h0, dif_pos h0, acc0_1_zero]
  refine (pay0_4_apply _ _ _ _ _ j).trans ?_
  rw [pay0_1_apply]
  rfl

theorem acc0_1_val_succ (c : Dev nD) (j : Fin 256) (n : ℕ) (hn : n + 1 < 50) :
    acc0_1_val V c j (n + 1) = acc0_1_val V c j n + tile0_sum V c j (n + 1) := by
  have h1 : n + 1 < cfg0.N := by rw [idx0_N]; exact hn
  have h0 : n < cfg0.N := Nat.lt_of_succ_lt h1
  unfold acc0_1_val tile0_sum
  rw [dif_pos h1, dif_pos h0, dif_pos h1, acc0_1_succ]
  exact pay0_4_apply _ _ _ _ _ j

theorem acc0_1_last (c : Dev nD) (j : Fin 256) : acc0_1 V c 49 idx0_last (ix2 0 j) = colSum (zK0 V c) j := by
  have e : acc0_1_val V c j 49 = acc0_1 V c 49 idx0_last (ix2 0 j) := by unfold acc0_1_val; exact dif_pos idx0_last
  rw [← e]
  exact colSum_of_fold (zK0 V c) j (tile0_sum V c j) (acc0_1_val V c j) (tile0_sum_eq V c j) (acc0_1_val_zero V c j) (acc0_1_val_succ V c j)

theorem flushed0_5_eq (c : Dev nD) (t : Fin cfg0.N) (hf : (cfg0.win 5).flush t = true) :
    (dat0 V c).flushed 5 t = ((cfg0.win 5).blk t).view.read (Elt Ideal) (acc0_1 V c 49 idx0_last) := by
  have hN : cfg0.N = 50 := idx0_N
  have h1 : t.val = 49 := by have := (flush0_5 t).mp hf; have := t.isLt; omega
  obtain rfl : t = ⟨49, idx0_last⟩ := Fin.ext h1
  obtain ⟨-, -, -, -, -, -, -, -, -, -, e0, e1, -⟩ := idx0_facts ⟨49, idx0_last⟩
  show (cfg0.win 5).cut (grid0.coords ⟨49, idx0_last⟩) ((dat0 V c).after 5 ⟨49, idx0_last⟩) = _
  rw [after0_5_last, View.canon_unit_zero idx0_hz]
  have hz' : (fun a => win0_5.index ⟨49, idx0_last⟩ a * (Pipeline.arrRef spec0 5).ty.shape.size a) = fun _ => 0 := funext fun a => by
    match a with
    | ⟨0, _⟩ => show win0_5.index ⟨49, idx0_last⟩ (0 : Fin 2) * 1 = 0; rw [e0]
    | ⟨1, _⟩ => show win0_5.index ⟨49, idx0_last⟩ (1 : Fin 2) * 256 = 0; rw [e1]
  exact (Memref.read_access_unit_zero (Elt Ideal) (Pipeline.arrRef spec0 5) hz' (fun a => by rw [congrFun hz' a]; simp) (acc0_1 V c 49 idx0_last)).symm

theorem mem_blk0_5 (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole (Pipeline.arrRef spec0 5)).slice (win0_5.rect t)).set ↔ _
  rw [View.set_slice_whole, Rect.mem_set_unit]
  exact Iff.rfl

theorem cover0_5 (i : S1x256.Idx) :
    ∃ t : Fin cfg0.N, (cfg0.win 5).flush t = true ∧ i ∈ ((cfg0.win 5).blk t).view.set := by
  obtain ⟨-, -, -, -, -, -, -, -, -, -, e0, e1, -⟩ := idx0_facts ⟨49, idx0_last⟩
  refine ⟨⟨49, idx0_last⟩, (flush0_5 _).mpr rfl, ?_⟩
  rw [mem_blk0_5]
  intro a
  have hi0 : (i 0).val < 1 := (i 0).isLt
  have hi1 : (i 1).val < 256 := (i 1).isLt
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 256 ≤ (i 1).val ∧ (i 1).val < win0_5.index _ (1 : Fin 2) * 256 + 256
    rw [e1]; omega

theorem final0_5 (c : Dev nD) : (dat0 V c).arrAt 5 cfg0.N = acc0_1 V c 49 idx0_last :=
  (dat0 V c).arrAt_eq_of_cover 5 (acc0_1 V c 49 idx0_last) (flushed0_5_eq V c) cover0_5

def tile0_sumsq (c : Dev nD) (j : Fin 256) (n : ℕ) : EReal :=
  if h : n < cfg0.N then ∑ r : Fin 2000, zpay0 V c ⟨n, h⟩ (ix2 r j) * zpay0 V c ⟨n, h⟩ (ix2 r j) else 0

def acc0_2_val (c : Dev nD) (j : Fin 256) (n : ℕ) : EReal :=
  if h : n < cfg0.N then acc0_2 V c n h (ix2 0 j) else 0

theorem tile0_sumsq_eq (c : Dev nD) (j : Fin 256) (t : Fin 50) :
    tile0_sumsq V c j t.val = ∑ r : Fin 2000, zK0 V c ⟨2000 * t.val + r.val, by omega⟩ j * zK0 V c ⟨2000 * t.val + r.val, by omega⟩ j := by
  have ht : t.val < cfg0.N := by rw [idx0_N]; exact t.isLt
  unfold tile0_sumsq
  rw [dif_pos ht]
  refine Finset.sum_congr rfl fun r _ => ?_
  rw [zpay0_apply V c ⟨t.val, ht⟩ r j ⟨2000 * t.val + r.val, by omega⟩ rfl]

theorem acc0_2_val_zero (c : Dev nD) (j : Fin 256) : acc0_2_val V c j 0 = 0 + tile0_sumsq V c j 0 := by
  have h0 : 0 < cfg0.N := by rw [idx0_N]; decide
  unfold acc0_2_val tile0_sumsq
  rw [dif_pos h0, dif_pos h0, acc0_2_zero]
  refine (pay0_5_apply _ _ _ _ _ j).trans ?_
  rw [pay0_2_apply]
  rfl

theorem acc0_2_val_succ (c : Dev nD) (j : Fin 256) (n : ℕ) (hn : n + 1 < 50) :
    acc0_2_val V c j (n + 1) = acc0_2_val V c j n + tile0_sumsq V c j (n + 1) := by
  have h1 : n + 1 < cfg0.N := by rw [idx0_N]; exact hn
  have h0 : n < cfg0.N := Nat.lt_of_succ_lt h1
  unfold acc0_2_val tile0_sumsq
  rw [dif_pos h1, dif_pos h0, dif_pos h1, acc0_2_succ]
  exact pay0_5_apply _ _ _ _ _ j

theorem acc0_2_last (c : Dev nD) (j : Fin 256) : acc0_2 V c 49 idx0_last (ix2 0 j) = colSumSq (zK0 V c) j := by
  have e : acc0_2_val V c j 49 = acc0_2 V c 49 idx0_last (ix2 0 j) := by unfold acc0_2_val; exact dif_pos idx0_last
  rw [← e]
  exact colSumSq_of_fold (zK0 V c) j (tile0_sumsq V c j) (acc0_2_val V c j) (tile0_sumsq_eq V c j) (acc0_2_val_zero V c j) (acc0_2_val_succ V c j)

theorem flushed0_6_eq (c : Dev nD) (t : Fin cfg0.N) (hf : (cfg0.win 6).flush t = true) :
    (dat0 V c).flushed 6 t = ((cfg0.win 6).blk t).view.read (Elt Ideal) (acc0_2 V c 49 idx0_last) := by
  have hN : cfg0.N = 50 := idx0_N
  have h1 : t.val = 49 := by have := (flush0_6 t).mp hf; have := t.isLt; omega
  obtain rfl : t = ⟨49, idx0_last⟩ := Fin.ext h1
  obtain ⟨-, -, -, -, -, -, -, -, -, -, -, -, e0, e1⟩ := idx0_facts ⟨49, idx0_last⟩
  show (cfg0.win 6).cut (grid0.coords ⟨49, idx0_last⟩) ((dat0 V c).after 6 ⟨49, idx0_last⟩) = _
  rw [after0_6_last, View.canon_unit_zero idx0_hz]
  have hz' : (fun a => win0_6.index ⟨49, idx0_last⟩ a * (Pipeline.arrRef spec0 6).ty.shape.size a) = fun _ => 0 := funext fun a => by
    match a with
    | ⟨0, _⟩ => show win0_6.index ⟨49, idx0_last⟩ (0 : Fin 2) * 1 = 0; rw [e0]
    | ⟨1, _⟩ => show win0_6.index ⟨49, idx0_last⟩ (1 : Fin 2) * 256 = 0; rw [e1]
  exact (Memref.read_access_unit_zero (Elt Ideal) (Pipeline.arrRef spec0 6) hz' (fun a => by rw [congrFun hz' a]; simp) (acc0_2 V c 49 idx0_last)).symm

theorem mem_blk0_6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole (Pipeline.arrRef spec0 6)).slice (win0_6.rect t)).set ↔ _
  rw [View.set_slice_whole, Rect.mem_set_unit]
  exact Iff.rfl

theorem cover0_6 (i : S1x256.Idx) :
    ∃ t : Fin cfg0.N, (cfg0.win 6).flush t = true ∧ i ∈ ((cfg0.win 6).blk t).view.set := by
  obtain ⟨-, -, -, -, -, -, -, -, -, -, -, -, e0, e1⟩ := idx0_facts ⟨49, idx0_last⟩
  refine ⟨⟨49, idx0_last⟩, (flush0_6 _).mpr rfl, ?_⟩
  rw [mem_blk0_6]
  intro a
  have hi0 : (i 0).val < 1 := (i 0).isLt
  have hi1 : (i 1).val < 256 := (i 1).isLt
  match a with
  | ⟨0, _⟩ =>
    show win0_6.index _ (0 : Fin 2) * 1 ≤ (i 0).val ∧ (i 0).val < win0_6.index _ (0 : Fin 2) * 1 + 1
    rw [e0]; omega
  | ⟨1, _⟩ =>
    show win0_6.index _ (1 : Fin 2) * 256 ≤ (i 1).val ∧ (i 1).val < win0_6.index _ (1 : Fin 2) * 256 + 256
    rw [e1]; omega

theorem final0_6 (c : Dev nD) : (dat0 V c).arrAt 6 cfg0.N = acc0_2 V c 49 idx0_last :=
  (dat0 V c).arrAt_eq_of_cover 6 (acc0_2 V c 49 idx0_last) (flushed0_6_eq V c) cover0_6

theorem lin0_sum (c : Dev nD) (j : Fin 256) :
    ((dat0 (F := Ideal) V c).arrAt 5 cfg0.N : S1x256.Idx → EReal) (ix2 0 j) = colSum (zK0 V c) j :=
  (congrFun (final0_5 V c) (ix2 0 j)).trans (acc0_1_last V c j)

theorem lin0_sumsq (c : Dev nD) (j : Fin 256) :
    ((dat0 (F := Ideal) V c).arrAt 6 cfg0.N : S1x256.Idx → EReal) (ix2 0 j) = colSumSq (zK0 V c) j :=
  (congrFun (final0_6 V c) (ix2 0 j)).trans (acc0_2_last V c j)

end Values0

end Cert.KernelIdeal.Hand

end
-- ==== Proof.KI.BnPay1.lean ====
import proofs.«165926_j30305289241327_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Hand

open Cert.KernelIdeal.Gen
open Idealize.ShloMosaic Idealize.ShloMosaic.TcCoe Idealize.SL.Sem
open Idealize.ShloMosaic.ValueIdx

theorem pay1_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem pay1_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q

theorem pay1_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q

theorem pay1_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

theorem pay1_matmul (a : FVec Ideal S2000x256 .bf16) (b : FVec Ideal S256x128 .bf16) (r : Fin 2000) (q : Fin 128) :
    matmul dot_S2000x256_S256x128_S2000x128_1_0_0_1_n_n none a b (constant S2000x128 .f32 0x00000000#32) (ix2 r q)
      = ∑ k : Fin 256, a (ix2 r k) * b (ix2 k q) := by
  simp only [matmul]
  rw [Ideal.matmul_constant_zero_apply,
    ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r q)
      ((ValueIdx.contrEquiv1 dot_S2000x256_S256x128_S2000x128_1_0_0_1_n_n 256 rfl rfl).symm k) = ix2 r k :=
    funext fun a => Fin.ext (by
      match a with
      | ⟨0, _⟩ => exact pay1_lhs_0 _ _
      | ⟨1, _⟩ => exact (pay1_lhs_1 _ _).trans hk)
  have er : dot_S2000x256_S256x128_S2000x128_1_0_0_1_n_n.rhsIdx (ix2 r q)
      ((ValueIdx.contrEquiv1 dot_S2000x256_S256x128_S2000x128_1_0_0_1_n_n 256 rfl rfl).symm k) = ix2 k q :=
    funext fun a => Fin.ext (by
      match a with
      | ⟨0, _⟩ => exact (pay1_rhs_0 _ _).trans hk
      | ⟨1, _⟩ => exact pay1_rhs_1 _ _)
  rw [el, er]

def pay1_act (v0 : Vec Ideal S2000x256 .f32) (v2 v7 v9 v17 : Vec Ideal S1x256 .f32) (r : Fin 2000) (k : Fin 256) : EReal :=
  max (v7 (ix2 0 k) * (v0 (ix2 r k) - v9 (ix2 0 k)) * Ideal.rsqrt (v2 (ix2 0 k) + Ideal.ofBits .f32 0x3727C5AC#32) + v17 (ix2 0 k)) 0

theorem pay1_apply (v0 : Vec Ideal S2000x256 .f32) (v2 v7 v9 v17 : Vec Ideal S1x256 .f32) (v24 : Vec Ideal S256x128 .f32)
    (v28 : Vec Ideal S1x128 .f32) (r : Fin 2000) (q : Fin 128) :
    (k1_pay1 (F := Ideal) v0 v2 v7 v9 v17 v24 v28 : S2000x128.Idx → EReal) (ix2 r q)
      = max ((∑ k : Fin 256, pay1_act v0 v2 v7 v9 v17 r k * v24 (ix2 k q)) + v28 (ix2 0 q)) 0 := by
  unfold k1_pay1
  simp only [shapeCast_self]
  refine (congrArg₂ max (congrArg₂ (· + ·) (pay1_matmul _ _ r q) (broadcastTo_1b_ab_apply v28 broadcasts_S1x128_S2000x128 r q))
    Ideal.ofBits_zero_f32).trans ?_
  refine congrArg (fun s => max (s + v28 (ix2 0 q)) 0) (Finset.sum_congr rfl fun k _ => ?_)
  unfold pay1_act
  refine congrArg (· * v24 (ix2 k q)) ?_
  exact congrArg₂ max (congrArg₂ (· + ·) (congrArg₂ (· * ·) (congrArg₂ (· * ·)
      (broadcastTo_1b_ab_apply v7 broadcasts_S1x256_S2000x256 r k)
      (congrArg (v0 (ix2 r k) - ·) (broadcastTo_1b_ab_apply v9 broadcasts_S1x256_S2000x256 r k)))
      (broadcastTo_1b_ab_apply _ broadcasts_S1x256_S2000x256 r k))
      (broadcastTo_1b_ab_apply v17 broadcasts_S1x256_S2000x256 r k)) Ideal.ofBits_zero_f32

end Cert.KernelIdeal.Hand

end
-- ==== Proof.KI.BnBlk1.lean ====
import proofs.«165926_j30305289241327_1_alg».proof.Proof.Gen.KernelIdeal.Points
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

theorem blk1_N : cfg1.N = 50 := by decide

theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem blk1_0_read (X : S100000x256.Idx → EReal) (t : Fin cfg1.N) (r : Fin 2000) (k : Fin 256) (p : Fin 100000)
    (hp : p.val = 2000 * t.val + r.val) :
    (((cfg1.win 0).blk t).view.read (Elt Ideal) X : S2000x256.Idx → EReal) (ix2 r k) = X (ix2 p k) := by
  obtain ⟨e0, e1, -⟩ := idx1_facts t
  rw [View.read_apply]
  show X _ = _
  congr 1
  funext a
  apply Fin.ext
  match a with
  | ⟨0, _⟩ => show win1_0.index t (0 : Fin 2) * 2000 + 1 * r.val = p.val; omega
  | ⟨1, _⟩ => show win1_0.index t (1 : Fin 2) * 256 + 1 * k.val = k.val; omega

theorem blk1_1_read (X : S1x256.Idx → EReal) (t : Fin cfg1.N) (k : Fin 256) :
    (((cfg1.win 1).blk t).view.read (Elt Ideal) X : S1x256.Idx → EReal) (ix2 0 k) = X (ix2 0 k) := by
  obtain ⟨-, -, e0, e1, -⟩ := idx1_facts t
  rw [View.read_apply]
  show X _ = _
  congr 1
  funext a
  apply Fin.ext
  match a with
  | ⟨0, _⟩ => show win1_1.index t (0 : Fin 2) * 1 + 1 * 0 = 0; omega
  | ⟨1, _⟩ => show win1_1.index t (1 : Fin 2) * 256 + 1 * k.val = k.val; omega

theorem blk1_2_read (X : S1x256.Idx → EReal) (t : Fin cfg1.N) (k : Fin 256) :
    (((cfg1.win 2).blk t).view.read (Elt Ideal) X : S1x256.Idx → EReal) (ix2 0 k) = X (ix2 0 k) := by
  obtain ⟨-, -, -, -, e0, e1, -⟩ := idx1_facts t
  rw [View.read_apply]
  show X _ = _
  congr 1
  funext a
  apply Fin.ext
  match a with
  | ⟨0, _⟩ => show win1_2.index t (0 : Fin 2) * 1 + 1 * 0 = 0; omega
  | ⟨1, _⟩ => show win1_2.index t (1 : Fin 2) * 256 + 1 * k.val = k.val; omega

theorem blk1_3_read (X : S1x256.Idx → EReal) (t : Fin cfg1.N) (k : Fin 256) :
    (((cfg1.win 3).blk t).view.read (Elt Ideal) X : S1x256.Idx → EReal) (ix2 0 k) = X (ix2 0 k) := by
  obtain ⟨-, -, -, -, -, -, e0, e1, -⟩ := idx1_facts t
  rw [View.read_apply]
  show X _ = _
  congr 1
  funext a
  apply Fin.ext
  match a with
  | ⟨0, _⟩ => show win1_3.index t (0 : Fin 2) * 1 + 1 * 0 = 0; omega
  | ⟨1, _⟩ => show win1_3.index t (1 : Fin 2) * 256 + 1 * k.val = k.val; omega

theorem blk1_4_read (X : S1x256.Idx → EReal) (t : Fin cfg1.N) (k : Fin 256) :
    (((cfg1.win 4).blk t).view.read (Elt Ideal) X : S1x256.Idx → EReal) (ix2 0 k) = X (ix2 0 k) := by
  obtain ⟨-, -, -, -, -, -, -, -, e0, e1, -⟩ := idx1_facts t
  rw [View.read_apply]
  show X _ = _
  congr 1
  funext a
  apply Fin.ext
  match a with
  | ⟨0, _⟩ => show win1_4.index t (0 : Fin 2) * 1 + 1 * 0 = 0; omega
  | ⟨1, _⟩ => show win1_4.index t (1 : Fin 2) * 256 + 1 * k.val = k.val; omega

theorem blk1_5_read (X : S256x128.Idx → EReal) (t : Fin cfg1.N) (k : Fin 256) (q : Fin 128) :
    (((cfg1.win 5).blk t).view.read (Elt Ideal) X : S256x128.Idx → EReal) (ix2 k q) = X (ix2 k q) := by
  obtain ⟨-, -, -, -, -, -, -, -, -, -, e0, e1, -⟩ := idx1_facts t
  rw [View.read_apply]
  show X _ = _
  congr 1
  funext a
  apply Fin.ext
  match a with
  | ⟨0, _⟩ => show win1_5.index t (0 : Fin 2) * 256 + 1 * k.val = k.val; omega
  | ⟨1, _⟩ => show win1_5.index t (1 : Fin 2) * 128 + 1 * q.val = q.val; omega

theorem blk1_6_read (X : S1x128.Idx → EReal) (t : Fin cfg1.N) (q : Fin 128) :
    (((cfg1.win 6).blk t).view.read (Elt Ideal) X : S1x128.Idx → EReal) (ix2 0 q) = X (ix2 0 q) := by
  obtain ⟨-, -, -, -, -, -, -, -, -, -, -, -, e0, e1, -⟩ := idx1_facts t
  rw [View.read_apply]
  show X _ = _
  congr 1
  funext a
  apply Fin.ext
  match a with
  | ⟨0, _⟩ => show win1_6.index t (0 : Fin 2) * 1 + 1 * 0 = 0; omega
  | ⟨1, _⟩ => show win1_6.index t (1 : Fin 2) * 128 + 1 * q.val = q.val; omega

theorem blk1_7_read (Y : S100000x128.Idx → EReal) (t : Fin cfg1.N) (r : Fin 2000) (q : Fin 128) (p : Fin 100000)
    (hp : p.val = 2000 * t.val + r.val) :
    (((cfg1.win 7).blk t).view.read (Elt Ideal) Y : S2000x128.Idx → EReal) (ix2 r q) = Y (ix2 p q) := by
  obtain ⟨-, -, -, -, -, -, -, -, -, -, -, -, -, -, e0, e1⟩ := idx1_facts t
  rw [View.read_apply]
  show Y _ = _
  congr 1
  funext a
  apply Fin.ext
  match a with
  | ⟨0, _⟩ => show win1_7.index t (0 : Fin 2) * 2000 + 1 * r.val = p.val; omega
  | ⟨1, _⟩ => show win1_7.index t (1 : Fin 2) * 128 + 1 * q.val = q.val; omega

theorem tile1_7_ext (X : Vec Ideal S2000x128 .f32) (Y : S100000x128.Idx → EReal) (t : Fin cfg1.N)
    (h : ∀ (r : Fin 2000) (q : Fin 128) (p : Fin 100000), p.val = 2000 * t.val + r.val → X (ix2 r q) = Y (ix2 p q)) :
    (cfg1.win 7).cut (grid1.coords t) X = ((cfg1.win 7).blk t).view.read (Elt Ideal) Y := by
  funext j
  obtain ⟨r, q, rfl⟩ : ∃ (r : Fin 2000) (q : Fin 128), j = ix2 r q := ⟨j 0, j 1, eq_ix2 j⟩
  have hN : cfg1.N = 50 := blk1_N
  have ht : t.val < 50 := hN ▸ t.isLt
  have hp : 2000 * t.val + r.val < 100000 := by have := r.isLt; omega
  refine Eq.trans ?_ (blk1_7_read Y t r q ⟨2000 * t.val + r.val, hp⟩ rfl).symm
  exact h r q ⟨2000 * t.val + r.val, hp⟩ rfl

theorem mem_blk1 (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole (Pipeline.arrRef spec1 7)).slice (win1_7.rect t)).set ↔ _
  rw [View.set_slice_whole, Rect.mem_set_unit]
  exact Iff.rfl

theorem cov1 (i : S100000x128.Idx) :
    ∃ t : Fin cfg1.N, (cfg1.win 7).flush t = true ∧ i ∈ ((cfg1.win 7).blk t).view.set := by
  have hN : cfg1.N = 50 := blk1_N
  have hi0 : (i 0).val < 100000 := idx2_lt0 i
  have hi1 : (i 1).val < 128 := idx2_lt1 i
  have ht : (i 0).val / 2000 < cfg1.N := by rw [hN]; omega
  refine ⟨⟨(i 0).val / 2000, ht⟩, flush1_7 _, ?_⟩
  rw [mem_blk1]
  obtain ⟨-, -, -, -, -, -, -, -, -, -, -, -, -, -, e0, e1⟩ := idx1_facts ⟨(i 0).val / 2000, ht⟩
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e1]; omega

end Cert.KernelIdeal.Hand

end
-- ==== Proof.KI.BnVal1.lean ====
import proofs.«165926_j30305289241327_1_alg».proof.Proof.KI.Bn1
import proofs.«165926_j30305289241327_1_alg».proof.Proof.KI.BnPay1
import proofs.«165926_j30305289241327_1_alg».proof.Proof.KI.BnBlk1
import proofs.«165926_j30305289241327_1_alg».proof.Proof.Spec
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

theorem hz1 : (![0, 0] : Fin 2 → Nat) = fun _ => 0 := funext fun a => by fin_cases a <;> rfl

theorem out1_7_eq {F : FTy → Type} [FloatOps F] (x0 : Vec F S2000x256 .f32) (x1 x2 x3 x4 : Vec F S1x256 .f32)
    (x5 : Vec F S256x128 .f32) (x6 : Vec F S1x128 .f32) :
    out1_7 x0 x1 x2 x3 x4 x5 x6 = k1_pay1 x0 x2 x3 x1 x4 x5 x6 := by
  unfold out1_7
  rw [View.canon_unit_zero hz1]
  simp only [View.ld_unit_zero (S := S2000x256) hz1, View.ld_unit_zero (S := S1x256) hz1,
    View.ld_unit_zero (S := S256x128) hz1, View.ld_unit_zero (S := S1x128) hz1]

section Region1

variable (V : (c : Dev nD) → (b : Ref sig .tc) → Buf (Elt Ideal) ((c : Thread nD τ).loc b))

def G1 (c : Dev nD) : S100000x128.Idx → EReal := fun i =>
  Cert.GinSpec.outSpec
    (Cert.GinSpec.bnSpec
      (fun p k => (V c (Pipeline.arrRef spec1 0) : S100000x256.Idx → EReal) (ix2 p k))
      (fun k => (V c (Pipeline.arrRef spec1 1) : S1x256.Idx → EReal) (ix2 0 k))
      (fun k => (V c (Pipeline.arrRef spec1 2) : S1x256.Idx → EReal) (ix2 0 k))
      (fun k => (V c (Pipeline.arrRef spec1 3) : S1x256.Idx → EReal) (ix2 0 k))
      (fun k => (V c (Pipeline.arrRef spec1 4) : S1x256.Idx → EReal) (ix2 0 k))
      (Ideal.ofBits .f32 0x3727C5AC#32))
    (fun k q => (V c (Pipeline.arrRef spec1 5) : S256x128.Idx → EReal) (ix2 k q))
    (fun q => (V c (Pipeline.arrRef spec1 6) : S1x128.Idx → EReal) (ix2 0 q))
    (i 0) (i 1)

theorem pay1_act_blk (c : Dev nD) (t : Fin cfg1.N) (r : Fin 2000) (k : Fin 256) (p : Fin 100000)
    (hp : p.val = 2000 * t.val + r.val) :
    pay1_act (iblk1 V c 0 t) (iblk1 V c 2 t) (iblk1 V c 3 t) (iblk1 V c 1 t) (iblk1 V c 4 t) r k
      = Cert.GinSpec.bnSpec
          (fun p k => (V c (Pipeline.arrRef spec1 0) : S100000x256.Idx → EReal) (ix2 p k))
          (fun k => (V c (Pipeline.arrRef spec1 1) : S1x256.Idx → EReal) (ix2 0 k))
          (fun k => (V c (Pipeline.arrRef spec1 2) : S1x256.Idx → EReal) (ix2 0 k))
          (fun k => (V c (Pipeline.arrRef spec1 3) : S1x256.Idx → EReal) (ix2 0 k))
          (fun k => (V c (Pipeline.arrRef spec1 4) : S1x256.Idx → EReal) (ix2 0 k))
          (Ideal.ofBits .f32 0x3727C5AC#32) p k := by
  unfold pay1_act Cert.GinSpec.bnSpec iblk1
  exact congrArg₂ max (congrArg₂ (· + ·) (congrArg₂ (· * ·) (congrArg₂ (· * ·)
      (blk1_3_read (V c (Pipeline.arrRef spec1 3)) t k)
      (congrArg₂ (· - ·) (blk1_0_read (V c (Pipeline.arrRef spec1 0)) t r k p hp)
        (blk1_1_read (V c (Pipeline.arrRef spec1 1)) t k)))
      (congrArg (fun x => Ideal.rsqrt (x + Ideal.ofBits .f32 0x3727C5AC#32))
        (blk1_2_read (V c (Pipeline.arrRef spec1 2)) t k)))
      (blk1_4_read (V c (Pipeline.arrRef spec1 4)) t k)) rfl

theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7, out1_7_eq (iblk1 V c 0 t) (iblk1 V c 1 t) (iblk1 V c 2 t) (iblk1 V c 3 t) (iblk1 V c 4 t)
    (iblk1 V c 5 t) (iblk1 V c 6 t)]
  refine tile1_7_ext _ (G1 V c) t fun r q p hp => ?_
  refine (pay1_apply (iblk1 V c 0 t) (iblk1 V c 2 t) (iblk1 V c 3 t) (iblk1 V c 1 t) (iblk1 V c 4 t) (iblk1 V c 5 t)
    (iblk1 V c 6 t) r q).trans ?_
  unfold G1 Cert.GinSpec.outSpec
  refine congrArg₂ max (congrArg₂ (· + ·) (Finset.sum_congr rfl fun k _ =>
    congrArg₂ (· * ·) (pay1_act_blk V c t r k p hp) ?_) ?_) rfl
  · unfold iblk1; exact blk1_5_read (V c (Pipeline.arrRef spec1 5)) t k q
  · unfold iblk1; exact blk1_6_read (V c (Pipeline.arrRef spec1 6)) t q

theorem final1 (c : Dev nD) : (dat1 (F := Ideal) V c).arrAt 7 cfg1.N = G1 V c :=
  (dat1 (F := Ideal) V c).arrAt_eq_of_cover 7 (G1 V c) (fun t _ => flushed1_eq V c t) cov1

theorem bn1_value (c : Dev nD) (p : Fin 100000) (q : Fin 128) :
    ((dat1 (F := Ideal) V c).arrAt 7 cfg1.N : S100000x128.Idx → EReal) (ix2 p q)
      = Cert.GinSpec.outSpec
          (Cert.GinSpec.bnSpec
            (fun p k => (V c (Pipeline.arrRef spec1 0) : S100000x256.Idx → EReal) (ix2 p k))
            (fun k => (V c (Pipeline.arrRef spec1 1) : S1x256.Idx → EReal) (ix2 0 k))
            (fun k => (V c (Pipeline.arrRef spec1 2) : S1x256.Idx → EReal) (ix2 0 k))
            (fun k => (V c (Pipeline.arrRef spec1 3) : S1x256.Idx → EReal) (ix2 0 k))
            (fun k => (V c (Pipeline.arrRef spec1 4) : S1x256.Idx → EReal) (ix2 0 k))
            (Ideal.ofBits .f32 0x3727C5AC#32))
          (fun k q => (V c (Pipeline.arrRef spec1 5) : S256x128.Idx → EReal) (ix2 k q))
          (fun q => (V c (Pipeline.arrRef spec1 6) : S1x128.Idx → EReal) (ix2 0 q))
          p q :=
  congrFun (final1 V c) (ix2 p q)

end Region1

end Cert.KernelIdeal.Hand

end
-- ==== Proof.BridgeK0.lean ====
import proofs.«165926_j30305289241327_1_alg».proof.Proof.KI.Host
import proofs.«165926_j30305289241327_1_alg».proof.Proof.KI.LinVal0
import proofs.«165926_j30305289241327_1_alg».proof.Proof.KI.BnVal1
import proofs.«165926_j30305289241327_1_alg».proof.Proof.Cross
import proofs.«165926_j30305289241327_1_alg».proof.Proof.SpecLayer
import proofs.«165926_j30305289241327_1_alg».proof.Proof.BridgeArr

noncomputable section

namespace Cert.Bridge

open Cert.KernelIdeal Cert.KernelIdeal.Gen Cert.KernelIdeal.Hand
open Idealize.ShloMosaic Idealize.ShloMosaic.TcCoe
open Idealize.SL.Sem
open Idealize.ShloMosaic.ValueIdx Cert.GinSpec

abbrev Mem : Type := (ℓ : Loc nD τ sig) → Buf (Elt Ideal) ℓ

abbrev Entry : Type := (c : Dev nD) → (b : Ref sig .tc) → Buf (Elt Ideal) ((c : Thread nD τ).loc b)

set_option maxHeartbeats 1600000 in

theorem zK0_of (V : Entry) (c : Dev nD) (h agg : S100000x128.Idx → EReal) (W1 : S128x256.Idx → EReal)
    (b1 : S1x256.Idx → EReal)
    (e0 : V c (Pipeline.arrRef spec0 0) = h) (e1 : V c (Pipeline.arrRef spec0 1) = agg)
    (e2 : V c (Pipeline.arrRef spec0 2) = W1) (e3 : V c (Pipeline.arrRef spec0 3) = b1) :
    zK0 V c = zSpec (fun p k => h (ix2 p k)) (fun p k => agg (ix2 p k)) (fun k j => W1 (ix2 k j)) (fun j => b1 (ix2 0 j)) := by
  subst e0 e1 e2 e3
  rfl

set_option maxHeartbeats 1600000 in

theorem bn1_value_of (V : Entry) (c : Dev nD) (z : S100000x256.Idx → EReal) (mean var g be : S1x256.Idx → EReal)
    (W2 : S256x128.Idx → EReal) (b2 : S1x128.Idx → EReal)
    (e0 : V c (Pipeline.arrRef spec1 0) = z) (e1 : V c (Pipeline.arrRef spec1 1) = mean)
    (e2 : V c (Pipeline.arrRef spec1 2) = var) (e3 : V c (Pipeline.arrRef spec1 3) = g)
    (e4 : V c (Pipeline.arrRef spec1 4) = be) (e5 : V c (Pipeline.arrRef spec1 5) = W2)
    (e6 : V c (Pipeline.arrRef spec1 6) = b2) (p : Fin 100000) (q : Fin 128) :
    ((dat1 (F := Ideal) V c).arrAt 7 cfg1.N : S100000x128.Idx → EReal) (ix2 p q)
      = outSpec (bnSpec (fun p k => z (ix2 p k)) (fun k => mean (ix2 0 k)) (fun k => var (ix2 0 k)) (fun k => g (ix2 0 k))
          (fun k => be (ix2 0 k)) (Ideal.ofBits .f32 0x3727C5AC#32)) (fun k q => W2 (ix2 k q)) (fun q => b2 (ix2 0 q)) p q := by
  subst e0 e1 e2 e3 e4 e5 e6
  exact bn1_value V c p q

set_option maxHeartbeats 4000000 in

theorem kerLayer_0_of (m : Mem) (outs : Outs (F := Ideal)) (c : Dev nD) (E0 E1 : Entry)
    (hE0 : ∀ b, E0 c b = V1 m c b) (hE1 : ∀ b, E1 c b = V3 m outs c b)
    (hz : outs 2 main_v30_0 c = (dat0 (F := Ideal) E0 c).arrAt 4 cfg0.N)
    (hs : outs 2 main_v30_1 c = (dat0 (F := Ideal) E0 c).arrAt 5 cfg0.N)
    (hss : outs 2 main_v30_2 c = (dat0 (F := Ideal) E0 c).arrAt 6 cfg0.N)
    (ho : outs 4 main_v52 c = (dat1 (F := Ideal) E1 c).arrAt 7 cfg1.N) :
    Cert.BridgeArr.KerLayer 0 (outs 4 main_v52 c) (m ((c : Thread nD τ).loc main_arg0)) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by

  have ez := zK0_of E0 c _ _ _ _ ((hE0 _).trans (V1_h m c)) ((hE0 _).trans (V1_agg m c)) ((hE0 _).trans (V1_w1 m c))
    ((hE0 _).trans (V1_b1 m c))

  have hzK : (fun (p : Fin 100000) (j : Fin 256) => (outs 2 main_v30_0 c : S100000x256.Idx → EReal) (ix2 p j)) = zK0 E0 c :=
    funext fun p => funext fun j => by rw [hz]; exact lin0_z E0 c p j
  refine layerSq_of_parts _ _ _ _ _ _ _ _ _
    (fun p j => (outs 2 main_v30_0 c : S100000x256.Idx → EReal) (ix2 p j))
    (fun j => (outs 2 main_v30_1 c : S1x256.Idx → EReal) (ix2 0 j))
    (fun j => (outs 2 main_v30_2 c : S1x256.Idx → EReal) (ix2 0 j))
    (fun k => (kerMean (F := Ideal) (outs 2 main_v30_1 c) : S1x256.Idx → EReal) (ix2 0 k))
    (fun k => (kerVar (F := Ideal) (outs 2 main_v30_1 c) (outs 2 main_v30_2 c) : S1x256.Idx → EReal) (ix2 0 k))
    _ ?hz ?hs ?hss ?hmean ?hvar ?hout
  case hz =>
    intro p j
    rw [← ez]
    exact congrFun (congrFun hzK p) j
  case hs =>
    intro j
    rw [hzK]
    show (outs 2 main_v30_1 c : S1x256.Idx → EReal) (ix2 0 j) = _
    rw [hs]
    exact lin0_sum E0 c j
  case hss =>
    intro j
    rw [hzK]
    show (outs 2 main_v30_2 c : S1x256.Idx → EReal) (ix2 0 j) = _
    rw [hss]
    exact lin0_sumsq E0 c j
  case hmean => exact fun k => Cert.Cross.kerMean_apply _ k
  case hvar => exact fun k => Cert.Cross.kerVar_apply _ _ k
  case hout =>
    intro p q
    show (outs 4 main_v52 c : S100000x128.Idx → EReal) (ix2 p q) = _
    rw [ho]
    exact bn1_value_of E1 c _ _ _ _ _ _ _ ((hE1 _).trans (V3_z m outs c)) ((hE1 _).trans (V3_mean m outs c))
      ((hE1 _).trans (V3_var m outs c)) ((hE1 _).trans (V3_g m outs c)) ((hE1 _).trans (V3_be m outs c))
      ((hE1 _).trans (V3_w2 m outs c)) ((hE1 _).trans (V3_b2 m outs c)) p q

end Cert.Bridge

end
-- ==== Proof.KI.LinVal2.lean ====
import proofs.«165926_j30305289241327_1_alg».proof.Proof.KI.Lin2
import proofs.«165926_j30305289241327_1_alg».proof.Proof.Spec
import proofs.«165926_j30305289241327_1_alg».proof.Proof.SpecSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Hand

open Cert.KernelIdeal.Gen
open Idealize.ShloMosaic Idealize.ShloMosaic.TcCoe
open Idealize.ShloMosaic.Pipeline (Dat Cfg Window)
open Idealize.ShloMosaic.ValueIdx Cert.GinSpec

section Pay2

theorem pay2_lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem pay2_lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem pay2_rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem pay2_rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem pay2_matmul (l : FVec Ideal S2000x128 .bf16) (w : FVec Ideal S128x256 .bf16) (r : Fin 2000) (j : Fin 256) :
    matmul dot_S2000x128_S128x256_S2000x256_1_0_0_1_n_n none l w (constant (F := Ideal) S2000x256 .f32 0x00000000#32) (ix2 r j)
      = ∑ k : Fin 128, l (ix2 r k) * w (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact pay2_lhs_0 _ _
    | ⟨1, _⟩ => exact (pay2_lhs_1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (pay2_rhs_0 _ _).trans hk
    | ⟨1, _⟩ => exact pay2_rhs_1 _ _)
  rw [el, er]

theorem pay2_colred (x : FVec Ideal S2000x256 .f32) (hφ : FKind.Formats .f32)
    (hacc : (0x00000000#32 : BitVec FTy.f32.bits) = FKind.add.neutral .f32 hφ) (j : Fin 256) :
    multiReduction (F := Ideal) .add [0] S256 x 0x00000000#32 reduces_S2000x256_S256 hφ hacc (ix1 j)
      = ∑ r : Fin 2000, x (ix2 r j) := by
  refine (Ideal.multiReduction_add_single x _ reduces_S2000x256_S256 hφ hacc (ix1 j)).trans ?_
  show ∑ k : Fin 2000, x (reduces_S2000x256_S256.lift (ix1 j) k) = _
  refine Finset.sum_congr rfl fun k _ => congrArg x ?_
  funext a
  apply Fin.ext
  match a with
  | ⟨0, _⟩ => rfl
  | ⟨1, _⟩ => rfl

theorem pay2_3_apply (v3 v4 : Vec Ideal S2000x128 .f32) (v8 : Vec Ideal S128x256 .f32) (v12 : Vec Ideal S1x256 .f32)
    (r : Fin 2000) (j : Fin 256) :
    k2_pay3 v3 v4 v8 v12 (ix2 r j)
      = (∑ k : Fin 128, (v3 (ix2 r k) + v4 (ix2 r k)) * v8 (ix2 k j)) + v12 (ix2 0 j) := by
  unfold k2_pay3
  refine (addf_apply _ _ _).trans ?_
  refine congrArg₂ (· + ·) ?_ ?_
  · refine (pay2_matmul _ _ r j).trans ?_
    refine Finset.sum_congr rfl fun k _ => ?_
    simp only [shapeCast_self]
    rfl
  · simp only [shapeCast_self]
    exact broadcastTo_1b_ab_apply v12 _ r j

theorem pay2_4_apply (v3 v4 : Vec Ideal S2000x128 .f32) (v8 : Vec Ideal S128x256 .f32) (v12 v17 : Vec Ideal S1x256 .f32)
    (j : Fin 256) :
    k2_pay4 v3 v4 v8 v12 v17 (ix2 0 j) = v17 (ix2 0 j) + ∑ r : Fin 2000, k2_pay3 v3 v4 v8 v12 (ix2 r j) := by
  unfold k2_pay4
  dsimp only
  simp only [shapeCast_self]
  refine (addf_apply _ _ _).trans ?_
  refine congrArg (v17 (ix2 0 j) + ·) ?_
  refine (shapeCast_a_1a_apply _ _ 0 j).trans ?_
  exact pay2_colred _ _ _ j

theorem pay2_5_apply (v3 v4 : Vec Ideal S2000x128 .f32) (v8 : Vec Ideal S128x256 .f32) (v12 v24 : Vec Ideal S1x256 .f32)
    (j : Fin 256) :
    k2_pay5 v3 v4 v8 v12 v24 (ix2 0 j)
      = v24 (ix2 0 j) + ∑ r : Fin 2000, k2_pay3 v3 v4 v8 v12 (ix2 r j) * k2_pay3 v3 v4 v8 v12 (ix2 r j) := by
  unfold k2_pay5
  dsimp only
  simp only [shapeCast_self]
  refine (addf_apply _ _ _).trans ?_
  refine congrArg (v24 (ix2 0 j) + ·) ?_
  refine (shapeCast_a_1a_apply _ _ 0 j).trans ?_
  exact pay2_colred _ _ _ j

theorem pay2_1_apply (j : Fin 256) : (k2_pay1 (F := Ideal)) (ix2 0 j) = 0 := by
  unfold k2_pay1
  simp only [shapeCast_self]
  exact Ideal.ofBits_zero_f32
theorem pay2_2_apply (j : Fin 256) : (k2_pay2 (F := Ideal)) (ix2 0 j) = 0 := by
  unfold k2_pay2
  simp only [shapeCast_self]
  exact Ideal.ofBits_zero_f32

end Pay2

section Values2

variable (V : (c : Dev nD) → (b : Ref sig .tc) → Buf (Elt Ideal) ((c : Thread nD τ).loc b))

abbrev hK2 (c : Dev nD) : Fin 100000 → Fin 128 → EReal :=
  fun p k => (V c (Pipeline.arrRef spec2 0) : S100000x128.Idx → EReal) (ix2 p k)

abbrev aggK2 (c : Dev nD) : Fin 100000 → Fin 128 → EReal :=
  fun p k => (V c (Pipeline.arrRef spec2 1) : S100000x128.Idx → EReal) (ix2 p k)

abbrev W1K2 (c : Dev nD) : Fin 128 → Fin 256 → EReal :=
  fun k j => (V c (Pipeline.arrRef spec2 2) : S128x256.Idx → EReal) (ix2 k j)

abbrev b1K2 (c : Dev nD) : Fin 256 → EReal :=
  fun j => (V c (Pipeline.arrRef spec2 3) : S1x256.Idx → EReal) (ix2 0 j)

abbrev zK2 (c : Dev nD) : Fin 100000 → Fin 256 → EReal := zSpec (hK2 V c) (aggK2 V c) (W1K2 V c) (b1K2 V c)

theorem idx2_hz : (![0, 0] : Fin 2 → Nat) = fun _ => 0 := funext fun a => by fin_cases a <;> rfl

theorem idx2_N : cfg2.N = 50 := N_2
theorem idx2_last : 49 < cfg2.N := by rw [idx2_N]; decide

theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem iblk2_0_apply (c : Dev nD) (t : Fin cfg2.N) (r : Fin 2000) (k : Fin 128) (p : Fin 100000)
    (hp : p.val = 2000 * t.val + r.val) :
    (iblk2 V c 0 t : Vec Ideal S2000x128 .f32) (ix2 r k) = hK2 V c p k := by
  obtain ⟨e0, e1, -⟩ := idx2_facts t
  unfold iblk2
  rw [View.read_apply]
  show (V c (Pipeline.arrRef spec2 0) : S100000x128.Idx → EReal) _ = (V c (Pipeline.arrRef spec2 0) : S100000x128.Idx → EReal) (ix2 p k)
  congr 1
  funext a
  apply Fin.ext
  match a with
  | ⟨0, _⟩ => show win2_0.index t (0 : Fin 2) * 2000 + 1 * r.val = p.val; rw [e0, hp]; omega
  | ⟨1, _⟩ => show win2_0.index t (1 : Fin 2) * 128 + 1 * k.val = k.val; rw [e1]; omega

theorem iblk2_1_apply (c : Dev nD) (t : Fin cfg2.N) (r : Fin 2000) (k : Fin 128) (p : Fin 100000)
    (hp : p.val = 2000 * t.val + r.val) :
    (iblk2 V c 1 t : Vec Ideal S2000x128 .f32) (ix2 r k) = aggK2 V c p k := by
  obtain ⟨-, -, e0, e1, -⟩ := idx2_facts t
  unfold iblk2
  rw [View.read_apply]
  show (V c (Pipeline.arrRef spec2 1) : S100000x128.Idx → EReal) _ = (V c (Pipeline.arrRef spec2 1) : S100000x128.Idx → EReal) (ix2 p k)
  congr 1
  funext a
  apply Fin.ext
  match a with
  | ⟨0, _⟩ => show win2_1.index t (0 : Fin 2) * 2000 + 1 * r.val = p.val; rw [e0, hp]; omega
  | ⟨1, _⟩ => show win2_1.index t (1 : Fin 2) * 128 + 1 * k.val = k.val; rw [e1]; omega

theorem iblk2_2_apply (c : Dev nD) (t : Fin cfg2.N) (k : Fin 128) (j : Fin 256) :
    (iblk2 V c 2 t : Vec Ideal S128x256 .f32) (ix2 k j) = W1K2 V c k j := by
  obtain ⟨-, -, -, -, e0, e1, -⟩ := idx2_facts t
  unfold iblk2
  rw [View.read_apply]
  show (V c (Pipeline.arrRef spec2 2) : S128x256.Idx → EReal) _ = (V c (Pipeline.arrRef spec2 2) : S128x256.Idx → EReal) (ix2 k j)
  congr 1
  funext a
  apply Fin.ext
  match a with
  | ⟨0, _⟩ => show win2_2.index t (0 : Fin 2) * 128 + 1 * k.val = k.val; rw [e0]; omega
  | ⟨1, _⟩ => show win2_2.index t (1 : Fin 2) * 256 + 1 * j.val = j.val; rw [e1]; omega

theorem iblk2_3_apply (c : Dev nD) (t : Fin cfg2.N) (j : Fin 256) :
    (iblk2 V c 3 t : Vec Ideal S1x256 .f32) (ix2 0 j) = b1K2 V c j := by
  obtain ⟨-, -, -, -, -, -, e0, e1, -⟩ := idx2_facts t
  unfold iblk2
  rw [View.read_apply]
  show (V c (Pipeline.arrRef spec2 3) : S1x256.Idx → EReal) _ = (V c (Pipeline.arrRef spec2 3) : S1x256.Idx → EReal) (ix2 0 j)
  congr 1
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 256 + 1 * j.val = j.val; rw [e1]; omega

theorem zpay2_apply (c : Dev nD) (t : Fin cfg2.N) (r : Fin 2000) (j : Fin 256) (p : Fin 100000)
    (hp : p.val = 2000 * t.val + r.val) :
    zpay2 V c t (ix2 r j) = zK2 V c p j := by
  unfold zpay2
  simp only [View.ld_unit_zero (S := S2000x128) idx2_hz, View.ld_unit_zero (S := S128x256) idx2_hz, View.ld_unit_zero (S := S1x256) idx2_hz]
  refine (pay2_3_apply _ _ _ _ r j).trans ?_
  refine congrArg₂ (· + ·) (Finset.sum_congr rfl fun k _ => ?_) ?_
  · rw [iblk2_0_apply V c t r k p hp, iblk2_1_apply V c t r k p hp, iblk2_2_apply V c t k j]
  · exact iblk2_3_apply V c t j

theorem zpay2_apply' (c : Dev nD) (t : Fin cfg2.N) (y : S2000x256.Idx) (p : Fin 100000) (j : Fin 256)
    (hp : p.val = 2000 * t.val + (y 0).val) (hj : j.val = (y 1).val) :
    zpay2 V c t y = zK2 V c p j := by
  obtain ⟨r, j', rfl⟩ : ∃ (r : Fin 2000) (j' : Fin 256), y = ix2 r j' := ⟨y 0, y 1, eq_ix2 y⟩
  obtain rfl : j = j' := Fin.ext hj
  exact zpay2_apply V c t r j p hp

abbrev zK2_arr (c : Dev nD) : S100000x256.Idx → EReal :=
  fun i => zK2 V c (i 0) (i 1)

theorem flushed2_4_eq (c : Dev nD) (t : Fin cfg2.N) :
    (dat2 V c).flushed 4 t = ((cfg2.win 4).blk t).view.read (Elt Ideal) (zK2_arr V c) := by
  obtain ⟨-, -, -, -, -, -, -, -, e0, e1, -⟩ := idx2_facts t
  show (cfg2.win 4).cut (grid2.coords t) ((dat2 V c).after 4 t) = _
  rw [after2_4, View.canon_unit_zero idx2_hz]
  funext y
  show zpay2 V c t ((cfg2.win 4).xinj (grid2.coords t) y) = zK2_arr V c (((cfg2.win 4).blk t).view.emb y)
  refine zpay2_apply' V c t _ _ _ ?_ ?_
  · show win2_4.index t (0 : Fin 2) * 2000 + 1 * (y 0).val = 2000 * t.val + (y 0).val
    rw [e0]; omega
  · show win2_4.index t (1 : Fin 2) * 256 + 1 * (y 1).val = (y 1).val
    rw [e1]; omega

theorem mem_blk2_4 (t : Fin cfg2.N) (i : S100000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole (Pipeline.arrRef spec2 4)).slice (win2_4.rect t)).set ↔ _
  rw [View.set_slice_whole, Rect.mem_set_unit]
  exact Iff.rfl

theorem cover2_4 (i : S100000x256.Idx) :
    ∃ t : Fin cfg2.N, (cfg2.win 4).flush t = true ∧ i ∈ ((cfg2.win 4).blk t).view.set := by
  have hN : cfg2.N = 50 := idx2_N
  have hi0 : (i 0).val < 100000 := (i 0).isLt
  have hi1 : (i 1).val < 256 := (i 1).isLt
  refine ⟨⟨(i 0).val / 2000, by rw [hN]; omega⟩, flush2_4 _, ?_⟩
  obtain ⟨-, -, -, -, -, -, -, -, e0, e1, -⟩ := idx2_facts ⟨(i 0).val / 2000, by rw [hN]; omega⟩
  rw [mem_blk2_4]
  intro a
  match a with
  | ⟨0, _⟩ =>
    show win2_4.index _ (0 : Fin 2) * 2000 ≤ (i 0).val ∧ (i 0).val < win2_4.index _ (0 : Fin 2) * 2000 + 2000
    rw [e0]; show (i 0).val / 2000 * 2000 ≤ (i 0).val ∧ (i 0).val < (i 0).val / 2000 * 2000 + 2000; omega
  | ⟨1, _⟩ =>
    show win2_4.index _ (1 : Fin 2) * 256 ≤ (i 1).val ∧ (i 1).val < win2_4.index _ (1 : Fin 2) * 256 + 256
    rw [e1]; omega

theorem final2_4 (c : Dev nD) : (dat2 V c).arrAt 4 cfg2.N = zK2_arr V c :=
  (dat2 V c).arrAt_eq_of_cover 4 (zK2_arr V c) (fun t _ => flushed2_4_eq V c t) cover2_4

theorem lin2_z (c : Dev nD) (p : Fin 100000) (j : Fin 256) :
    ((dat2 (F := Ideal) V c).arrAt 4 cfg2.N : S100000x256.Idx → EReal) (ix2 p j) = zK2 V c p j :=
  congrFun (final2_4 V c) (ix2 p j)

def tile2_sum (c : Dev nD) (j : Fin 256) (n : ℕ) : EReal :=
  if h : n < cfg2.N then ∑ r : Fin 2000, zpay2 V c ⟨n, h⟩ (ix2 r j) else 0

def acc2_1_val (c : Dev nD) (j : Fin 256) (n : ℕ) : EReal :=
  if h : n < cfg2.N then acc2_1 V c n h (ix2 0 j) else 0

theorem tile2_sum_eq (c : Dev nD) (j : Fin 256) (t : Fin 50) :
    tile2_sum V c j t.val = ∑ r : Fin 2000, zK2 V c ⟨2000 * t.val + r.val, by omega⟩ j := by
  have ht : t.val < cfg2.N := by rw [idx2_N]; exact t.isLt
  unfold tile2_sum
  rw [dif_pos ht]
  refine Finset.sum_congr rfl fun r _ => ?_
  rw [zpay2_apply V c ⟨t.val, ht⟩ r j ⟨2000 * t.val + r.val, by omega⟩ rfl]

theorem acc2_1_val_zero (c : Dev nD) (j : Fin 256) : acc2_1_val V c j 0 = 0 + tile2_sum V c j 0 := by
  have h0 : 0 < cfg2.N := by rw [idx2_N]; decide
  unfold acc2_1_val tile2_sum
  rw [dif_pos h0, dif_pos h0, acc2_1_zero]
  refine (pay2_4_apply _ _ _ _ _ j).trans ?_
  rw [pay2_1_apply]
  rfl

theorem acc2_1_val_succ (c : Dev nD) (j : Fin 256) (n : ℕ) (hn : n + 1 < 50) :
    acc2_1_val V c j (n + 1) = acc2_1_val V c j n + tile2_sum V c j (n + 1) := by
  have h1 : n + 1 < cfg2.N := by rw [idx2_N]; exact hn
  have h0 : n < cfg2.N := Nat.lt_of_succ_lt h1
  unfold acc2_1_val tile2_sum
  rw [dif_pos h1, dif_pos h0, dif_pos h1, acc2_1_succ]
  exact pay2_4_apply _ _ _ _ _ j

theorem acc2_1_last (c : Dev nD) (j : Fin 256) : acc2_1 V c 49 idx2_last (ix2 0 j) = colSum (zK2 V c) j := by
  have e : acc2_1_val V c j 49 = acc2_1 V c 49 idx2_last (ix2 0 j) := by unfold acc2_1_val; exact dif_pos idx2_last
  rw [← e]
  exact colSum_of_fold (zK2 V c) j (tile2_sum V c j) (acc2_1_val V c j) (tile2_sum_eq V c j) (acc2_1_val_zero V c j) (acc2_1_val_succ V c j)

theorem flushed2_5_eq (c : Dev nD) (t : Fin cfg2.N) (hf : (cfg2.win 5).flush t = true) :
    (dat2 V c).flushed 5 t = ((cfg2.win 5).blk t).view.read (Elt Ideal) (acc2_1 V c 49 idx2_last) := by
  have hN : cfg2.N = 50 := idx2_N
  have h1 : t.val = 49 := by have := (flush2_5 t).mp hf; have := t.isLt; omega
  obtain rfl : t = ⟨49, idx2_last⟩ := Fin.ext h1
  obtain ⟨-, -, -, -, -, -, -, -, -, -, e0, e1, -⟩ := idx2_facts ⟨49, idx2_last⟩
  show (cfg2.win 5).cut (grid2.coords ⟨49, idx2_last⟩) ((dat2 V c).after 5 ⟨49, idx2_last⟩) = _
  rw [after2_5_last, View.canon_unit_zero idx2_hz]
  have hz' : (fun a => win2_5.index ⟨49, idx2_last⟩ a * (Pipeline.arrRef spec2 5).ty.shape.size a) = fun _ => 0 := funext fun a => by
    match a with
    | ⟨0, _⟩ => show win2_5.index ⟨49, idx2_last⟩ (0 : Fin 2) * 1 = 0; rw [e0]
    | ⟨1, _⟩ => show win2_5.index ⟨49, idx2_last⟩ (1 : Fin 2) * 256 = 0; rw [e1]
  exact (Memref.read_access_unit_zero (Elt Ideal) (Pipeline.arrRef spec2 5) hz' (fun a => by rw [congrFun hz' a]; simp) (acc2_1 V c 49 idx2_last)).symm

theorem mem_blk2_5 (t : Fin cfg2.N) (i : S1x256.Idx) :
    i ∈ ((cfg2.win 5).blk t).view.set ↔ ∀ a : Fin 2, win2_5.index t a * S1x256.size a ≤ (i a).val ∧ (i a).val < win2_5.index t a * S1x256.size a + S1x256.size a := by
  show i ∈ ((View.whole (Pipeline.arrRef spec2 5)).slice (win2_5.rect t)).set ↔ _
  rw [View.set_slice_whole, Rect.mem_set_unit]
  exact Iff.rfl

theorem cover2_5 (i : S1x256.Idx) :
    ∃ t : Fin cfg2.N, (cfg2.win 5).flush t = true ∧ i ∈ ((cfg2.win 5).blk t).view.set := by
  obtain ⟨-, -, -, -, -, -, -, -, -, -, e0, e1, -⟩ := idx2_facts ⟨49, idx2_last⟩
  refine ⟨⟨49, idx2_last⟩, (flush2_5 _).mpr rfl, ?_⟩
  rw [mem_blk2_5]
  intro a
  have hi0 : (i 0).val < 1 := (i 0).isLt
  have hi1 : (i 1).val < 256 := (i 1).isLt
  match a with
  | ⟨0, _⟩ =>
    show win2_5.index _ (0 : Fin 2) * 1 ≤ (i 0).val ∧ (i 0).val < win2_5.index _ (0 : Fin 2) * 1 + 1
    rw [e0]; omega
  | ⟨1, _⟩ =>
    show win2_5.index _ (1 : Fin 2) * 256 ≤ (i 1).val ∧ (i 1).val < win2_5.index _ (1 : Fin 2) * 256 + 256
    rw [e1]; omega

theorem final2_5 (c : Dev nD) : (dat2 V c).arrAt 5 cfg2.N = acc2_1 V c 49 idx2_last :=
  (dat2 V c).arrAt_eq_of_cover 5 (acc2_1 V c 49 idx2_last) (flushed2_5_eq V c) cover2_5

def tile2_sumsq (c : Dev nD) (j : Fin 256) (n : ℕ) : EReal :=
  if h : n < cfg2.N then ∑ r : Fin 2000, zpay2 V c ⟨n, h⟩ (ix2 r j) * zpay2 V c ⟨n, h⟩ (ix2 r j) else 0

def acc2_2_val (c : Dev nD) (j : Fin 256) (n : ℕ) : EReal :=
  if h : n < cfg2.N then acc2_2 V c n h (ix2 0 j) else 0

theorem tile2_sumsq_eq (c : Dev nD) (j : Fin 256) (t : Fin 50) :
    tile2_sumsq V c j t.val = ∑ r : Fin 2000, zK2 V c ⟨2000 * t.val + r.val, by omega⟩ j * zK2 V c ⟨2000 * t.val + r.val, by omega⟩ j := by
  have ht : t.val < cfg2.N := by rw [idx2_N]; exact t.isLt
  unfold tile2_sumsq
  rw [dif_pos ht]
  refine Finset.sum_congr rfl fun r _ => ?_
  rw [zpay2_apply V c ⟨t.val, ht⟩ r j ⟨2000 * t.val + r.val, by omega⟩ rfl]

theorem acc2_2_val_zero (c : Dev nD) (j : Fin 256) : acc2_2_val V c j 0 = 0 + tile2_sumsq V c j 0 := by
  have h0 : 0 < cfg2.N := by rw [idx2_N]; decide
  unfold acc2_2_val tile2_sumsq
  rw [dif_pos h0, dif_pos h0, acc2_2_zero]
  refine (pay2_5_apply _ _ _ _ _ j).trans ?_
  rw [pay2_2_apply]
  rfl

theorem acc2_2_val_succ (c : Dev nD) (j : Fin 256) (n : ℕ) (hn : n + 1 < 50) :
    acc2_2_val V c j (n + 1) = acc2_2_val V c j n + tile2_sumsq V c j (n + 1) := by
  have h1 : n + 1 < cfg2.N := by rw [idx2_N]; exact hn
  have h0 : n < cfg2.N := Nat.lt_of_succ_lt h1
  unfold acc2_2_val tile2_sumsq
  rw [dif_pos h1, dif_pos h0, dif_pos h1, acc2_2_succ]
  exact pay2_5_apply _ _ _ _ _ j

theorem acc2_2_last (c : Dev nD) (j : Fin 256) : acc2_2 V c 49 idx2_last (ix2 0 j) = colSumSq (zK2 V c) j := by
  have e : acc2_2_val V c j 49 = acc2_2 V c 49 idx2_last (ix2 0 j) := by unfold acc2_2_val; exact dif_pos idx2_last
  rw [← e]
  exact colSumSq_of_fold (zK2 V c) j (tile2_sumsq V c j) (acc2_2_val V c j) (tile2_sumsq_eq V c j) (acc2_2_val_zero V c j) (acc2_2_val_succ V c j)

theorem flushed2_6_eq (c : Dev nD) (t : Fin cfg2.N) (hf : (cfg2.win 6).flush t = true) :
    (dat2 V c).flushed 6 t = ((cfg2.win 6).blk t).view.read (Elt Ideal) (acc2_2 V c 49 idx2_last) := by
  have hN : cfg2.N = 50 := idx2_N
  have h1 : t.val = 49 := by have := (flush2_6 t).mp hf; have := t.isLt; omega
  obtain rfl : t = ⟨49, idx2_last⟩ := Fin.ext h1
  obtain ⟨-, -, -, -, -, -, -, -, -, -, -, -, e0, e1⟩ := idx2_facts ⟨49, idx2_last⟩
  show (cfg2.win 6).cut (grid2.coords ⟨49, idx2_last⟩) ((dat2 V c).after 6 ⟨49, idx2_last⟩) = _
  rw [after2_6_last, View.canon_unit_zero idx2_hz]
  have hz' : (fun a => win2_6.index ⟨49, idx2_last⟩ a * (Pipeline.arrRef spec2 6).ty.shape.size a) = fun _ => 0 := funext fun a => by
    match a with
    | ⟨0, _⟩ => show win2_6.index ⟨49, idx2_last⟩ (0 : Fin 2) * 1 = 0; rw [e0]
    | ⟨1, _⟩ => show win2_6.index ⟨49, idx2_last⟩ (1 : Fin 2) * 256 = 0; rw [e1]
  exact (Memref.read_access_unit_zero (Elt Ideal) (Pipeline.arrRef spec2 6) hz' (fun a => by rw [congrFun hz' a]; simp) (acc2_2 V c 49 idx2_last)).symm

theorem mem_blk2_6 (t : Fin cfg2.N) (i : S1x256.Idx) :
    i ∈ ((cfg2.win 6).blk t).view.set ↔ ∀ a : Fin 2, win2_6.index t a * S1x256.size a ≤ (i a).val ∧ (i a).val < win2_6.index t a * S1x256.size a + S1x256.size a := by
  show i ∈ ((View.whole (Pipeline.arrRef spec2 6)).slice (win2_6.rect t)).set ↔ _
  rw [View.set_slice_whole, Rect.mem_set_unit]
  exact Iff.rfl

theorem cover2_6 (i : S1x256.Idx) :
    ∃ t : Fin cfg2.N, (cfg2.win 6).flush t = true ∧ i ∈ ((cfg2.win 6).blk t).view.set := by
  obtain ⟨-, -, -, -, -, -, -, -, -, -, -, -, e0, e1⟩ := idx2_facts ⟨49, idx2_last⟩
  refine ⟨⟨49, idx2_last⟩, (flush2_6 _).mpr rfl, ?_⟩
  rw [mem_blk2_6]
  intro a
  have hi0 : (i 0).val < 1 := (i 0).isLt
  have hi1 : (i 1).val < 256 := (i 1).isLt
  match a with
  | ⟨0, _⟩ =>
    show win2_6.index _ (0 : Fin 2) * 1 ≤ (i 0).val ∧ (i 0).val < win2_6.index _ (0 : Fin 2) * 1 + 1
    rw [e0]; omega
  | ⟨1, _⟩ =>
    show win2_6.index _ (1 : Fin 2) * 256 ≤ (i 1).val ∧ (i 1).val < win2_6.index _ (1 : Fin 2) * 256 + 256
    rw [e1]; omega

theorem final2_6 (c : Dev nD) : (dat2 V c).arrAt 6 cfg2.N = acc2_2 V c 49 idx2_last :=
  (dat2 V c).arrAt_eq_of_cover 6 (acc2_2 V c 49 idx2_last) (flushed2_6_eq V c) cover2_6

theorem lin2_sum (c : Dev nD) (j : Fin 256) :
    ((dat2 (F := Ideal) V c).arrAt 5 cfg2.N : S1x256.Idx → EReal) (ix2 0 j) = colSum (zK2 V c) j :=
  (congrFun (final2_5 V c) (ix2 0 j)).trans (acc2_1_last V c j)

theorem lin2_sumsq (c : Dev nD) (j : Fin 256) :
    ((dat2 (F := Ideal) V c).arrAt 6 cfg2.N : S1x256.Idx → EReal) (ix2 0 j) = colSumSq (zK2 V c) j :=
  (congrFun (final2_6 V c) (ix2 0 j)).trans (acc2_2_last V c j)

end Values2

end Cert.KernelIdeal.Hand

end
-- ==== Proof.KI.BnBlk3.lean ====
import proofs.«165926_j30305289241327_1_alg».proof.Proof.Gen.KernelIdeal.Points
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

theorem blk3_N : cfg3.N = 50 := by decide

theorem idx3_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem blk3_0_read (X : S100000x256.Idx → EReal) (t : Fin cfg3.N) (r : Fin 2000) (k : Fin 256) (p : Fin 100000)
    (hp : p.val = 2000 * t.val + r.val) :
    (((cfg3.win 0).blk t).view.read (Elt Ideal) X : S2000x256.Idx → EReal) (ix2 r k) = X (ix2 p k) := by
  obtain ⟨e0, e1, -⟩ := idx3_facts t
  rw [View.read_apply]
  show X _ = _
  congr 1
  funext a
  apply Fin.ext
  match a with
  | ⟨0, _⟩ => show win3_0.index t (0 : Fin 2) * 2000 + 1 * r.val = p.val; omega
  | ⟨1, _⟩ => show win3_0.index t (1 : Fin 2) * 256 + 1 * k.val = k.val; omega

theorem blk3_1_read (X : S1x256.Idx → EReal) (t : Fin cfg3.N) (k : Fin 256) :
    (((cfg3.win 1).blk t).view.read (Elt Ideal) X : S1x256.Idx → EReal) (ix2 0 k) = X (ix2 0 k) := by
  obtain ⟨-, -, e0, e1, -⟩ := idx3_facts t
  rw [View.read_apply]
  show X _ = _
  congr 1
  funext a
  apply Fin.ext
  match a with
  | ⟨0, _⟩ => show win3_1.index t (0 : Fin 2) * 1 + 1 * 0 = 0; omega
  | ⟨1, _⟩ => show win3_1.index t (1 : Fin 2) * 256 + 1 * k.val = k.val; omega

theorem blk3_2_read (X : S1x256.Idx → EReal) (t : Fin cfg3.N) (k : Fin 256) :
    (((cfg3.win 2).blk t).view.read (Elt Ideal) X : S1x256.Idx → EReal) (ix2 0 k) = X (ix2 0 k) := by
  obtain ⟨-, -, -, -, e0, e1, -⟩ := idx3_facts t
  rw [View.read_apply]
  show X _ = _
  congr 1
  funext a
  apply Fin.ext
  match a with
  | ⟨0, _⟩ => show win3_2.index t (0 : Fin 2) * 1 + 1 * 0 = 0; omega
  | ⟨1, _⟩ => show win3_2.index t (1 : Fin 2) * 256 + 1 * k.val = k.val; omega

theorem blk3_3_read (X : S1x256.Idx → EReal) (t : Fin cfg3.N) (k : Fin 256) :
    (((cfg3.win 3).blk t).view.read (Elt Ideal) X : S1x256.Idx → EReal) (ix2 0 k) = X (ix2 0 k) := by
  obtain ⟨-, -, -, -, -, -, e0, e1, -⟩ := idx3_facts t
  rw [View.read_apply]
  show X _ = _
  congr 1
  funext a
  apply Fin.ext
  match a with
  | ⟨0, _⟩ => show win3_3.index t (0 : Fin 2) * 1 + 1 * 0 = 0; omega
  | ⟨1, _⟩ => show win3_3.index t (1 : Fin 2) * 256 + 1 * k.val = k.val; omega

theorem blk3_4_read (X : S1x256.Idx → EReal) (t : Fin cfg3.N) (k : Fin 256) :
    (((cfg3.win 4).blk t).view.read (Elt Ideal) X : S1x256.Idx → EReal) (ix2 0 k) = X (ix2 0 k) := by
  obtain ⟨-, -, -, -, -, -, -, -, e0, e1, -⟩ := idx3_facts t
  rw [View.read_apply]
  show X _ = _
  congr 1
  funext a
  apply Fin.ext
  match a with
  | ⟨0, _⟩ => show win3_4.index t (0 : Fin 2) * 1 + 1 * 0 = 0; omega
  | ⟨1, _⟩ => show win3_4.index t (1 : Fin 2) * 256 + 1 * k.val = k.val; omega

theorem blk3_5_read (X : S256x128.Idx → EReal) (t : Fin cfg3.N) (k : Fin 256) (q : Fin 128) :
    (((cfg3.win 5).blk t).view.read (Elt Ideal) X : S256x128.Idx → EReal) (ix2 k q) = X (ix2 k q) := by
  obtain ⟨-, -, -, -, -, -, -, -, -, -, e0, e1, -⟩ := idx3_facts t
  rw [View.read_apply]
  show X _ = _
  congr 1
  funext a
  apply Fin.ext
  match a with
  | ⟨0, _⟩ => show win3_5.index t (0 : Fin 2) * 256 + 1 * k.val = k.val; omega
  | ⟨1, _⟩ => show win3_5.index t (1 : Fin 2) * 128 + 1 * q.val = q.val; omega

theorem blk3_6_read (X : S1x128.Idx → EReal) (t : Fin cfg3.N) (q : Fin 128) :
    (((cfg3.win 6).blk t).view.read (Elt Ideal) X : S1x128.Idx → EReal) (ix2 0 q) = X (ix2 0 q) := by
  obtain ⟨-, -, -, -, -, -, -, -, -, -, -, -, e0, e1, -⟩ := idx3_facts t
  rw [View.read_apply]
  show X _ = _
  congr 1
  funext a
  apply Fin.ext
  match a with
  | ⟨0, _⟩ => show win3_6.index t (0 : Fin 2) * 1 + 1 * 0 = 0; omega
  | ⟨1, _⟩ => show win3_6.index t (1 : Fin 2) * 128 + 1 * q.val = q.val; omega

theorem blk3_7_read (Y : S100000x128.Idx → EReal) (t : Fin cfg3.N) (r : Fin 2000) (q : Fin 128) (p : Fin 100000)
    (hp : p.val = 2000 * t.val + r.val) :
    (((cfg3.win 7).blk t).view.read (Elt Ideal) Y : S2000x128.Idx → EReal) (ix2 r q) = Y (ix2 p q) := by
  obtain ⟨-, -, -, -, -, -, -, -, -, -, -, -, -, -, e0, e1⟩ := idx3_facts t
  rw [View.read_apply]
  show Y _ = _
  congr 1
  funext a
  apply Fin.ext
  match a with
  | ⟨0, _⟩ => show win3_7.index t (0 : Fin 2) * 2000 + 1 * r.val = p.val; omega
  | ⟨1, _⟩ => show win3_7.index t (1 : Fin 2) * 128 + 1 * q.val = q.val; omega

theorem tile3_7_ext (X : Vec Ideal S2000x128 .f32) (Y : S100000x128.Idx → EReal) (t : Fin cfg3.N)
    (h : ∀ (r : Fin 2000) (q : Fin 128) (p : Fin 100000), p.val = 2000 * t.val + r.val → X (ix2 r q) = Y (ix2 p q)) :
    (cfg3.win 7).cut (grid3.coords t) X = ((cfg3.win 7).blk t).view.read (Elt Ideal) Y := by
  funext j
  obtain ⟨r, q, rfl⟩ : ∃ (r : Fin 2000) (q : Fin 128), j = ix2 r q := ⟨j 0, j 1, eq_ix2 j⟩
  have hN : cfg3.N = 50 := blk3_N
  have ht : t.val < 50 := hN ▸ t.isLt
  have hp : 2000 * t.val + r.val < 100000 := by have := r.isLt; omega
  refine Eq.trans ?_ (blk3_7_read Y t r q ⟨2000 * t.val + r.val, hp⟩ rfl).symm
  exact h r q ⟨2000 * t.val + r.val, hp⟩ rfl

theorem mem_blk3 (t : Fin cfg3.N) (i : S100000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole (Pipeline.arrRef spec3 7)).slice (win3_7.rect t)).set ↔ _
  rw [View.set_slice_whole, Rect.mem_set_unit]
  exact Iff.rfl

theorem cov3 (i : S100000x128.Idx) :
    ∃ t : Fin cfg3.N, (cfg3.win 7).flush t = true ∧ i ∈ ((cfg3.win 7).blk t).view.set := by
  have hN : cfg3.N = 50 := blk3_N
  have hi0 : (i 0).val < 100000 := idx2_lt0 i
  have hi1 : (i 1).val < 128 := idx2_lt1 i
  have ht : (i 0).val / 2000 < cfg3.N := by rw [hN]; omega
  refine ⟨⟨(i 0).val / 2000, ht⟩, flush3_7 _, ?_⟩
  rw [mem_blk3]
  obtain ⟨-, -, -, -, -, -, -, -, -, -, -, -, -, -, e0, e1⟩ := idx3_facts ⟨(i 0).val / 2000, ht⟩
  intro a
  match a with
  | ⟨0, _⟩ =>
    show win3_7.index ⟨(i 0).val / 2000, ht⟩ (0 : Fin 2) * 2000 ≤ (i 0).val
      ∧ (i 0).val < win3_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_7.index ⟨(i 0).val / 2000, ht⟩ (1 : Fin 2) * 128 ≤ (i 1).val
      ∧ (i 1).val < win3_7.index ⟨(i 0).val / 2000, ht⟩ (1 : Fin 2) * 128 + 128
    rw [e1]; omega

end Cert.KernelIdeal.Hand

end
-- ==== Proof.KI.BnVal3.lean ====
import proofs.«165926_j30305289241327_1_alg».proof.Proof.KI.Bn3
import proofs.«165926_j30305289241327_1_alg».proof.Proof.KI.BnVal1
import proofs.«165926_j30305289241327_1_alg».proof.Proof.KI.BnBlk3
import proofs.«165926_j30305289241327_1_alg».proof.Proof.Spec
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

section Region3

variable (V : (c : Dev nD) → (b : Ref sig .tc) → Buf (Elt Ideal) ((c : Thread nD τ).loc b))

def G3 (c : Dev nD) : S100000x128.Idx → EReal := fun i =>
  Cert.GinSpec.outSpec
    (Cert.GinSpec.bnSpec
      (fun p k => (V c (Pipeline.arrRef spec3 0) : S100000x256.Idx → EReal) (ix2 p k))
      (fun k => (V c (Pipeline.arrRef spec3 1) : S1x256.Idx → EReal) (ix2 0 k))
      (fun k => (V c (Pipeline.arrRef spec3 2) : S1x256.Idx → EReal) (ix2 0 k))
      (fun k => (V c (Pipeline.arrRef spec3 3) : S1x256.Idx → EReal) (ix2 0 k))
      (fun k => (V c (Pipeline.arrRef spec3 4) : S1x256.Idx → EReal) (ix2 0 k))
      (Ideal.ofBits .f32 0x3727C5AC#32))
    (fun k q => (V c (Pipeline.arrRef spec3 5) : S256x128.Idx → EReal) (ix2 k q))
    (fun q => (V c (Pipeline.arrRef spec3 6) : S1x128.Idx → EReal) (ix2 0 q))
    (i 0) (i 1)

theorem pay3_act_blk (c : Dev nD) (t : Fin cfg3.N) (r : Fin 2000) (k : Fin 256) (p : Fin 100000)
    (hp : p.val = 2000 * t.val + r.val) :
    pay1_act (iblk3 V c 0 t) (iblk3 V c 2 t) (iblk3 V c 3 t) (iblk3 V c 1 t) (iblk3 V c 4 t) r k
      = Cert.GinSpec.bnSpec
          (fun p k => (V c (Pipeline.arrRef spec3 0) : S100000x256.Idx → EReal) (ix2 p k))
          (fun k => (V c (Pipeline.arrRef spec3 1) : S1x256.Idx → EReal) (ix2 0 k))
          (fun k => (V c (Pipeline.arrRef spec3 2) : S1x256.Idx → EReal) (ix2 0 k))
          (fun k => (V c (Pipeline.arrRef spec3 3) : S1x256.Idx → EReal) (ix2 0 k))
          (fun k => (V c (Pipeline.arrRef spec3 4) : S1x256.Idx → EReal) (ix2 0 k))
          (Ideal.ofBits .f32 0x3727C5AC#32) p k := by
  unfold pay1_act Cert.GinSpec.bnSpec iblk3
  exact congrArg₂ max (congrArg₂ (· + ·) (congrArg₂ (· * ·) (congrArg₂ (· * ·)
      (blk3_3_read (V c (Pipeline.arrRef spec3 3)) t k)
      (congrArg₂ (· - ·) (blk3_0_read (V c (Pipeline.arrRef spec3 0)) t r k p hp)
        (blk3_1_read (V c (Pipeline.arrRef spec3 1)) t k)))
      (congrArg (fun x => Ideal.rsqrt (x + Ideal.ofBits .f32 0x3727C5AC#32))
        (blk3_2_read (V c (Pipeline.arrRef spec3 2)) t k)))
      (blk3_4_read (V c (Pipeline.arrRef spec3 4)) t k)) rfl

theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7, out1_7_eq (iblk3 V c 0 t) (iblk3 V c 1 t) (iblk3 V c 2 t) (iblk3 V c 3 t) (iblk3 V c 4 t)
    (iblk3 V c 5 t) (iblk3 V c 6 t)]
  refine tile3_7_ext _ (G3 V c) t fun r q p hp => ?_
  refine (pay1_apply (iblk3 V c 0 t) (iblk3 V c 2 t) (iblk3 V c 3 t) (iblk3 V c 1 t) (iblk3 V c 4 t) (iblk3 V c 5 t)
    (iblk3 V c 6 t) r q).trans ?_
  unfold G3 Cert.GinSpec.outSpec
  refine congrArg₂ max (congrArg₂ (· + ·) (Finset.sum_congr rfl fun k _ =>
    congrArg₂ (· * ·) (pay3_act_blk V c t r k p hp) ?_) ?_) rfl
  · unfold iblk3; exact blk3_5_read (V c (Pipeline.arrRef spec3 5)) t k q
  · unfold iblk3; exact blk3_6_read (V c (Pipeline.arrRef spec3 6)) t q

theorem final3 (c : Dev nD) : (dat3 (F := Ideal) V c).arrAt 7 cfg3.N = G3 V c :=
  (dat3 (F := Ideal) V c).arrAt_eq_of_cover 7 (G3 V c) (fun t _ => flushed3_eq V c t) cov3

theorem bn3_value (c : Dev nD) (p : Fin 100000) (q : Fin 128) :
    ((dat3 (F := Ideal) V c).arrAt 7 cfg3.N : S100000x128.Idx → EReal) (ix2 p q)
      = Cert.GinSpec.outSpec
          (Cert.GinSpec.bnSpec
            (fun p k => (V c (Pipeline.arrRef spec3 0) : S100000x256.Idx → EReal) (ix2 p k))
            (fun k => (V c (Pipeline.arrRef spec3 1) : S1x256.Idx → EReal) (ix2 0 k))
            (fun k => (V c (Pipeline.arrRef spec3 2) : S1x256.Idx → EReal) (ix2 0 k))
            (fun k => (V c (Pipeline.arrRef spec3 3) : S1x256.Idx → EReal) (ix2 0 k))
            (fun k => (V c (Pipeline.arrRef spec3 4) : S1x256.Idx → EReal) (ix2 0 k))
            (Ideal.ofBits .f32 0x3727C5AC#32))
          (fun k q => (V c (Pipeline.arrRef spec3 5) : S256x128.Idx → EReal) (ix2 k q))
          (fun q => (V c (Pipeline.arrRef spec3 6) : S1x128.Idx → EReal) (ix2 0 q))
          p q :=
  congrFun (final3 V c) (ix2 p q)

end Region3

end Cert.KernelIdeal.Hand

end
-- ==== Proof.BridgeK1.lean ====
import proofs.«165926_j30305289241327_1_alg».proof.Proof.KI.LinVal2
import proofs.«165926_j30305289241327_1_alg».proof.Proof.KI.BnVal3
import proofs.«165926_j30305289241327_1_alg».proof.Proof.BridgeK0

noncomputable section

namespace Cert.Bridge

open Cert.KernelIdeal Cert.KernelIdeal.Gen Cert.KernelIdeal.Hand
open Idealize.ShloMosaic Idealize.ShloMosaic.TcCoe
open Idealize.SL.Sem
open Idealize.ShloMosaic.ValueIdx Cert.GinSpec

set_option maxHeartbeats 1600000 in

theorem zK2_of (V : Entry) (c : Dev nD) (h agg : S100000x128.Idx → EReal) (W1 : S128x256.Idx → EReal)
    (b1 : S1x256.Idx → EReal)
    (e0 : V c (Pipeline.arrRef spec2 0) = h) (e1 : V c (Pipeline.arrRef spec2 1) = agg)
    (e2 : V c (Pipeline.arrRef spec2 2) = W1) (e3 : V c (Pipeline.arrRef spec2 3) = b1) :
    zK2 V c = zSpec (fun p k => h (ix2 p k)) (fun p k => agg (ix2 p k)) (fun k j => W1 (ix2 k j)) (fun j => b1 (ix2 0 j)) := by
  subst e0 e1 e2 e3
  rfl

set_option maxHeartbeats 1600000 in

theorem bn3_value_of (V : Entry) (c : Dev nD) (z : S100000x256.Idx → EReal) (mean var g be : S1x256.Idx → EReal)
    (W2 : S256x128.Idx → EReal) (b2 : S1x128.Idx → EReal)
    (e0 : V c (Pipeline.arrRef spec3 0) = z) (e1 : V c (Pipeline.arrRef spec3 1) = mean)
    (e2 : V c (Pipeline.arrRef spec3 2) = var) (e3 : V c (Pipeline.arrRef spec3 3) = g)
    (e4 : V c (Pipeline.arrRef spec3 4) = be) (e5 : V c (Pipeline.arrRef spec3 5) = W2)
    (e6 : V c (Pipeline.arrRef spec3 6) = b2) (p : Fin 100000) (q : Fin 128) :
    ((dat3 (F := Ideal) V c).arrAt 7 cfg3.N : S100000x128.Idx → EReal) (ix2 p q)
      = outSpec (bnSpec (fun p k => z (ix2 p k)) (fun k => mean (ix2 0 k)) (fun k => var (ix2 0 k)) (fun k => g (ix2 0 k))
          (fun k => be (ix2 0 k)) (Ideal.ofBits .f32 0x3727C5AC#32)) (fun k q => W2 (ix2 k q)) (fun q => b2 (ix2 0 q)) p q := by
  subst e0 e1 e2 e3 e4 e5 e6
  exact bn3_value V c p q

set_option maxHeartbeats 4000000 in

theorem kerLayer_1_of (m : Mem) (outs : Outs (F := Ideal)) (c : Dev nD) (E0 E1 : Entry)
    (hE0 : ∀ b, E0 c b = V5 m outs c b) (hE1 : ∀ b, E1 c b = V7 m outs c b)
    (hz : outs 6 main_v71_0 c = (dat2 (F := Ideal) E0 c).arrAt 4 cfg2.N)
    (hs : outs 6 main_v71_1 c = (dat2 (F := Ideal) E0 c).arrAt 5 cfg2.N)
    (hss : outs 6 main_v71_2 c = (dat2 (F := Ideal) E0 c).arrAt 6 cfg2.N)
    (ho : outs 8 main_v93 c = (dat3 (F := Ideal) E1 c).arrAt 7 cfg3.N) :
    Cert.BridgeArr.KerLayer 1 (outs 8 main_v93 c) (outs 4 main_v52 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by

  have ez := zK2_of E0 c _ _ _ _ ((hE0 _).trans (V5_h m outs c)) ((hE0 _).trans (V5_agg m outs c))
    ((hE0 _).trans (V5_w1 m outs c)) ((hE0 _).trans (V5_b1 m outs c))

  have hzK : (fun (p : Fin 100000) (j : Fin 256) => (outs 6 main_v71_0 c : S100000x256.Idx → EReal) (ix2 p j)) = zK2 E0 c :=
    funext fun p => funext fun j => by rw [hz]; exact lin2_z E0 c p j
  refine layerSq_of_parts _ _ _ _ _ _ _ _ _
    (fun p j => (outs 6 main_v71_0 c : S100000x256.Idx → EReal) (ix2 p j))
    (fun j => (outs 6 main_v71_1 c : S1x256.Idx → EReal) (ix2 0 j))
    (fun j => (outs 6 main_v71_2 c : S1x256.Idx → EReal) (ix2 0 j))
    (fun k => (kerMean (F := Ideal) (outs 6 main_v71_1 c) : S1x256.Idx → EReal) (ix2 0 k))
    (fun k => (kerVar (F := Ideal) (outs 6 main_v71_1 c) (outs 6 main_v71_2 c) : S1x256.Idx → EReal) (ix2 0 k))
    _ ?hz ?hs ?hss ?hmean ?hvar ?hout
  case hz =>
    intro p j
    rw [← ez]
    exact congrFun (congrFun hzK p) j
  case hs =>
    intro j
    rw [hzK]
    show (outs 6 main_v71_1 c : S1x256.Idx → EReal) (ix2 0 j) = _
    rw [hs]
    exact lin2_sum E0 c j
  case hss =>
    intro j
    rw [hzK]
    show (outs 6 main_v71_2 c : S1x256.Idx → EReal) (ix2 0 j) = _
    rw [hss]
    exact lin2_sumsq E0 c j
  case hmean => exact fun k => Cert.Cross.kerMean_apply _ k
  case hvar => exact fun k => Cert.Cross.kerVar_apply _ _ k
  case hout =>
    intro p q
    show (outs 8 main_v93 c : S100000x128.Idx → EReal) (ix2 p q) = _
    rw [ho]
    exact bn3_value_of E1 c _ _ _ _ _ _ _ ((hE1 _).trans (V7_z m outs c)) ((hE1 _).trans (V7_mean m outs c))
      ((hE1 _).trans (V7_var m outs c)) ((hE1 _).trans (V7_g m outs c)) ((hE1 _).trans (V7_be m outs c))
      ((hE1 _).trans (V7_w2 m outs c)) ((hE1 _).trans (V7_b2 m outs c)) p q

end Cert.Bridge

end
-- ==== Proof.KI.LinVal4.lean ====
import proofs.«165926_j30305289241327_1_alg».proof.Proof.KI.Lin4
import proofs.«165926_j30305289241327_1_alg».proof.Proof.KI.LinVal2
import proofs.«165926_j30305289241327_1_alg».proof.Proof.Spec
import proofs.«165926_j30305289241327_1_alg».proof.Proof.SpecSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Hand

open Cert.KernelIdeal.Gen
open Idealize.ShloMosaic Idealize.ShloMosaic.TcCoe
open Idealize.ShloMosaic.Pipeline (Dat Cfg Window)
open Idealize.ShloMosaic.ValueIdx Cert.GinSpec

section Values4

variable (V : (c : Dev nD) → (b : Ref sig .tc) → Buf (Elt Ideal) ((c : Thread nD τ).loc b))

abbrev hK4 (c : Dev nD) : Fin 100000 → Fin 128 → EReal :=
  fun p k => (V c (Pipeline.arrRef spec4 0) : S100000x128.Idx → EReal) (ix2 p k)

abbrev aggK4 (c : Dev nD) : Fin 100000 → Fin 128 → EReal :=
  fun p k => (V c (Pipeline.arrRef spec4 1) : S100000x128.Idx → EReal) (ix2 p k)

abbrev W1K4 (c : Dev nD) : Fin 128 → Fin 256 → EReal :=
  fun k j => (V c (Pipeline.arrRef spec4 2) : S128x256.Idx → EReal) (ix2 k j)

abbrev b1K4 (c : Dev nD) : Fin 256 → EReal :=
  fun j => (V c (Pipeline.arrRef spec4 3) : S1x256.Idx → EReal) (ix2 0 j)

abbrev zK4 (c : Dev nD) : Fin 100000 → Fin 256 → EReal := zSpec (hK4 V c) (aggK4 V c) (W1K4 V c) (b1K4 V c)

theorem idx4_hz : (![0, 0] : Fin 2 → Nat) = fun _ => 0 := funext fun a => by fin_cases a <;> rfl

theorem idx4_N : cfg4.N = 50 := N_4
theorem idx4_last : 49 < cfg4.N := by rw [idx4_N]; decide

theorem idx4_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem iblk4_0_apply (c : Dev nD) (t : Fin cfg4.N) (r : Fin 2000) (k : Fin 128) (p : Fin 100000)
    (hp : p.val = 2000 * t.val + r.val) :
    (iblk4 V c 0 t : Vec Ideal S2000x128 .f32) (ix2 r k) = hK4 V c p k := by
  obtain ⟨e0, e1, -⟩ := idx4_facts t
  unfold iblk4
  rw [View.read_apply]
  show (V c (Pipeline.arrRef spec4 0) : S100000x128.Idx → EReal) _ = (V c (Pipeline.arrRef spec4 0) : S100000x128.Idx → EReal) (ix2 p k)
  congr 1
  funext a
  apply Fin.ext
  match a with
  | ⟨0, _⟩ => show win4_0.index t (0 : Fin 2) * 2000 + 1 * r.val = p.val; rw [e0, hp]; omega
  | ⟨1, _⟩ => show win4_0.index t (1 : Fin 2) * 128 + 1 * k.val = k.val; rw [e1]; omega

theorem iblk4_1_apply (c : Dev nD) (t : Fin cfg4.N) (r : Fin 2000) (k : Fin 128) (p : Fin 100000)
    (hp : p.val = 2000 * t.val + r.val) :
    (iblk4 V c 1 t : Vec Ideal S2000x128 .f32) (ix2 r k) = aggK4 V c p k := by
  obtain ⟨-, -, e0, e1, -⟩ := idx4_facts t
  unfold iblk4
  rw [View.read_apply]
  show (V c (Pipeline.arrRef spec4 1) : S100000x128.Idx → EReal) _ = (V c (Pipeline.arrRef spec4 1) : S100000x128.Idx → EReal) (ix2 p k)
  congr 1
  funext a
  apply Fin.ext
  match a with
  | ⟨0, _⟩ => show win4_1.index t (0 : Fin 2) * 2000 + 1 * r.val = p.val; rw [e0, hp]; omega
  | ⟨1, _⟩ => show win4_1.index t (1 : Fin 2) * 128 + 1 * k.val = k.val; rw [e1]; omega

theorem iblk4_2_apply (c : Dev nD) (t : Fin cfg4.N) (k : Fin 128) (j : Fin 256) :
    (iblk4 V c 2 t : Vec Ideal S128x256 .f32) (ix2 k j) = W1K4 V c k j := by
  obtain ⟨-, -, -, -, e0, e1, -⟩ := idx4_facts t
  unfold iblk4
  rw [View.read_apply]
  show (V c (Pipeline.arrRef spec4 2) : S128x256.Idx → EReal) _ = (V c (Pipeline.arrRef spec4 2) : S128x256.Idx → EReal) (ix2 k j)
  congr 1
  funext a
  apply Fin.ext
  match a with
  | ⟨0, _⟩ => show win4_2.index t (0 : Fin 2) * 128 + 1 * k.val = k.val; rw [e0]; omega
  | ⟨1, _⟩ => show win4_2.index t (1 : Fin 2) * 256 + 1 * j.val = j.val; rw [e1]; omega

theorem iblk4_3_apply (c : Dev nD) (t : Fin cfg4.N) (j : Fin 256) :
    (iblk4 V c 3 t : Vec Ideal S1x256 .f32) (ix2 0 j) = b1K4 V c j := by
  obtain ⟨-, -, -, -, -, -, e0, e1, -⟩ := idx4_facts t
  unfold iblk4
  rw [View.read_apply]
  show (V c (Pipeline.arrRef spec4 3) : S1x256.Idx → EReal) _ = (V c (Pipeline.arrRef spec4 3) : S1x256.Idx → EReal) (ix2 0 j)
  congr 1
  funext a
  apply Fin.ext
  match a with
  | ⟨0, _⟩ => show win4_3.index t (0 : Fin 2) * 1 + 1 * (0 : Fin 1).val = (0 : Fin 1).val; rw [e0]; rfl
  | ⟨1, _⟩ => show win4_3.index t (1 : Fin 2) * 256 + 1 * j.val = j.val; rw [e1]; omega

theorem zpay4_apply (c : Dev nD) (t : Fin cfg4.N) (r : Fin 2000) (j : Fin 256) (p : Fin 100000)
    (hp : p.val = 2000 * t.val + r.val) :
    zpay4 V c t (ix2 r j) = zK4 V c p j := by
  unfold zpay4
  simp only [View.ld_unit_zero (S := S2000x128) idx4_hz, View.ld_unit_zero (S := S128x256) idx4_hz, View.ld_unit_zero (S := S1x256) idx4_hz]
  refine (pay2_3_apply _ _ _ _ r j).trans ?_
  refine congrArg₂ (· + ·) (Finset.sum_congr rfl fun k _ => ?_) ?_
  · rw [iblk4_0_apply V c t r k p hp, iblk4_1_apply V c t r k p hp, iblk4_2_apply V c t k j]
  · exact iblk4_3_apply V c t j

theorem zpay4_apply' (c : Dev nD) (t : Fin cfg4.N) (y : S2000x256.Idx) (p : Fin 100000) (j : Fin 256)
    (hp : p.val = 2000 * t.val + (y 0).val) (hj : j.val = (y 1).val) :
    zpay4 V c t y = zK4 V c p j := by
  obtain ⟨r, j', rfl⟩ : ∃ (r : Fin 2000) (j' : Fin 256), y = ix2 r j' := ⟨y 0, y 1, eq_ix2 y⟩
  obtain rfl : j = j' := Fin.ext hj
  exact zpay4_apply V c t r j p hp

abbrev zK4_arr (c : Dev nD) : S100000x256.Idx → EReal :=
  fun i => zK4 V c (i 0) (i 1)

theorem flushed4_4_eq (c : Dev nD) (t : Fin cfg4.N) :
    (dat4 V c).flushed 4 t = ((cfg4.win 4).blk t).view.read (Elt Ideal) (zK4_arr V c) := by
  obtain ⟨-, -, -, -, -, -, -, -, e0, e1, -⟩ := idx4_facts t
  show (cfg4.win 4).cut (grid4.coords t) ((dat4 V c).after 4 t) = _
  rw [after4_4, View.canon_unit_zero idx4_hz]
  funext y
  show zpay4 V c t ((cfg4.win 4).xinj (grid4.coords t) y) = zK4_arr V c (((cfg4.win 4).blk t).view.emb y)
  refine zpay4_apply' V c t _ _ _ ?_ ?_
  · show win4_4.index t (0 : Fin 2) * 2000 + 1 * (y 0).val = 2000 * t.val + (y 0).val
    rw [e0]; omega
  · show win4_4.index t (1 : Fin 2) * 256 + 1 * (y 1).val = (y 1).val
    rw [e1]; omega

theorem mem_blk4_4 (t : Fin cfg4.N) (i : S100000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole (Pipeline.arrRef spec4 4)).slice (win4_4.rect t)).set ↔ _
  rw [View.set_slice_whole, Rect.mem_set_unit]
  exact Iff.rfl

theorem cover4_4 (i : S100000x256.Idx) :
    ∃ t : Fin cfg4.N, (cfg4.win 4).flush t = true ∧ i ∈ ((cfg4.win 4).blk t).view.set := by
  have hN : cfg4.N = 50 := idx4_N
  have hi0 : (i 0).val < 100000 := (i 0).isLt
  have hi1 : (i 1).val < 256 := (i 1).isLt
  refine ⟨⟨(i 0).val / 2000, by rw [hN]; omega⟩, flush4_4 _, ?_⟩
  obtain ⟨-, -, -, -, -, -, -, -, e0, e1, -⟩ := idx4_facts ⟨(i 0).val / 2000, by rw [hN]; omega⟩
  rw [mem_blk4_4]
  intro a
  match a with
  | ⟨0, _⟩ =>
    show win4_4.index _ (0 : Fin 2) * 2000 ≤ (i 0).val ∧ (i 0).val < win4_4.index _ (0 : Fin 2) * 2000 + 2000
    rw [e0]; show (i 0).val / 2000 * 2000 ≤ (i 0).val ∧ (i 0).val < (i 0).val / 2000 * 2000 + 2000; omega
  | ⟨1, _⟩ =>
    show win4_4.index _ (1 : Fin 2) * 256 ≤ (i 1).val ∧ (i 1).val < win4_4.index _ (1 : Fin 2) * 256 + 256
    rw [e1]; omega

theorem final4_4 (c : Dev nD) : (dat4 V c).arrAt 4 cfg4.N = zK4_arr V c :=
  (dat4 V c).arrAt_eq_of_cover 4 (zK4_arr V c) (fun t _ => flushed4_4_eq V c t) cover4_4

theorem lin4_z (c : Dev nD) (p : Fin 100000) (j : Fin 256) :
    ((dat4 (F := Ideal) V c).arrAt 4 cfg4.N : S100000x256.Idx → EReal) (ix2 p j) = zK4 V c p j :=
  congrFun (final4_4 V c) (ix2 p j)

def tile4_sum (c : Dev nD) (j : Fin 256) (n : ℕ) : EReal :=
  if h : n < cfg4.N then ∑ r : Fin 2000, zpay4 V c ⟨n, h⟩ (ix2 r j) else 0

def acc4_1_val (c : Dev nD) (j : Fin 256) (n : ℕ) : EReal :=
  if h : n < cfg4.N then acc4_1 V c n h (ix2 0 j) else 0

theorem tile4_sum_eq (c : Dev nD) (j : Fin 256) (t : Fin 50) :
    tile4_sum V c j t.val = ∑ r : Fin 2000, zK4 V c ⟨2000 * t.val + r.val, by omega⟩ j := by
  have ht : t.val < cfg4.N := by rw [idx4_N]; exact t.isLt
  unfold tile4_sum
  rw [dif_pos ht]
  refine Finset.sum_congr rfl fun r _ => ?_
  rw [zpay4_apply V c ⟨t.val, ht⟩ r j ⟨2000 * t.val + r.val, by omega⟩ rfl]

theorem acc4_1_val_zero (c : Dev nD) (j : Fin 256) : acc4_1_val V c j 0 = 0 + tile4_sum V c j 0 := by
  have h0 : 0 < cfg4.N := by rw [idx4_N]; decide
  unfold acc4_1_val tile4_sum
  rw [dif_pos h0, dif_pos h0, acc4_1_zero]
  refine (pay2_4_apply _ _ _ _ _ j).trans ?_
  rw [pay2_1_apply]
  rfl

theorem acc4_1_val_succ (c : Dev nD) (j : Fin 256) (n : ℕ) (hn : n + 1 < 50) :
    acc4_1_val V c j (n + 1) = acc4_1_val V c j n + tile4_sum V c j (n + 1) := by
  have h1 : n + 1 < cfg4.N := by rw [idx4_N]; exact hn
  have h0 : n < cfg4.N := Nat.lt_of_succ_lt h1
  unfold acc4_1_val tile4_sum
  rw [dif_pos h1, dif_pos h0, dif_pos h1, acc4_1_succ]
  exact pay2_4_apply _ _ _ _ _ j

theorem acc4_1_last (c : Dev nD) (j : Fin 256) : acc4_1 V c 49 idx4_last (ix2 0 j) = colSum (zK4 V c) j := by
  have e : acc4_1_val V c j 49 = acc4_1 V c 49 idx4_last (ix2 0 j) := by unfold acc4_1_val; exact dif_pos idx4_last
  rw [← e]
  exact colSum_of_fold (zK4 V c) j (tile4_sum V c j) (acc4_1_val V c j) (tile4_sum_eq V c j) (acc4_1_val_zero V c j) (acc4_1_val_succ V c j)

theorem flushed4_5_eq (c : Dev nD) (t : Fin cfg4.N) (hf : (cfg4.win 5).flush t = true) :
    (dat4 V c).flushed 5 t = ((cfg4.win 5).blk t).view.read (Elt Ideal) (acc4_1 V c 49 idx4_last) := by
  have hN : cfg4.N = 50 := idx4_N
  have h1 : t.val = 49 := by have := (flush4_5 t).mp hf; have := t.isLt; omega
  obtain rfl : t = ⟨49, idx4_last⟩ := Fin.ext h1
  obtain ⟨-, -, -, -, -, -, -, -, -, -, e0, e1, -⟩ := idx4_facts ⟨49, idx4_last⟩
  show (cfg4.win 5).cut (grid4.coords ⟨49, idx4_last⟩) ((dat4 V c).after 5 ⟨49, idx4_last⟩) = _
  rw [after4_5_last, View.canon_unit_zero idx4_hz]
  have hz' : (fun a => win4_5.index ⟨49, idx4_last⟩ a * (Pipeline.arrRef spec4 5).ty.shape.size a) = fun _ => 0 := funext fun a => by
    match a with
    | ⟨0, _⟩ => show win4_5.index ⟨49, idx4_last⟩ (0 : Fin 2) * 1 = 0; rw [e0]
    | ⟨1, _⟩ => show win4_5.index ⟨49, idx4_last⟩ (1 : Fin 2) * 256 = 0; rw [e1]
  exact (Memref.read_access_unit_zero (Elt Ideal) (Pipeline.arrRef spec4 5) hz' (fun a => by rw [congrFun hz' a]; simp) (acc4_1 V c 49 idx4_last)).symm

theorem mem_blk4_5 (t : Fin cfg4.N) (i : S1x256.Idx) :
    i ∈ ((cfg4.win 5).blk t).view.set ↔ ∀ a : Fin 2, win4_5.index t a * S1x256.size a ≤ (i a).val ∧ (i a).val < win4_5.index t a * S1x256.size a + S1x256.size a := by
  show i ∈ ((View.whole (Pipeline.arrRef spec4 5)).slice (win4_5.rect t)).set ↔ _
  rw [View.set_slice_whole, Rect.mem_set_unit]
  exact Iff.rfl

theorem cover4_5 (i : S1x256.Idx) :
    ∃ t : Fin cfg4.N, (cfg4.win 5).flush t = true ∧ i ∈ ((cfg4.win 5).blk t).view.set := by
  obtain ⟨-, -, -, -, -, -, -, -, -, -, e0, e1, -⟩ := idx4_facts ⟨49, idx4_last⟩
  refine ⟨⟨49, idx4_last⟩, (flush4_5 _).mpr rfl, ?_⟩
  rw [mem_blk4_5]
  intro a
  have hi0 : (i 0).val < 1 := (i 0).isLt
  have hi1 : (i 1).val < 256 := (i 1).isLt
  match a with
  | ⟨0, _⟩ =>
    show win4_5.index _ (0 : Fin 2) * 1 ≤ (i 0).val ∧ (i 0).val < win4_5.index _ (0 : Fin 2) * 1 + 1
    rw [e0]; omega
  | ⟨1, _⟩ =>
    show win4_5.index _ (1 : Fin 2) * 256 ≤ (i 1).val ∧ (i 1).val < win4_5.index _ (1 : Fin 2) * 256 + 256
    rw [e1]; omega

theorem final4_5 (c : Dev nD) : (dat4 V c).arrAt 5 cfg4.N = acc4_1 V c 49 idx4_last :=
  (dat4 V c).arrAt_eq_of_cover 5 (acc4_1 V c 49 idx4_last) (flushed4_5_eq V c) cover4_5

def tile4_sumsq (c : Dev nD) (j : Fin 256) (n : ℕ) : EReal :=
  if h : n < cfg4.N then ∑ r : Fin 2000, zpay4 V c ⟨n, h⟩ (ix2 r j) * zpay4 V c ⟨n, h⟩ (ix2 r j) else 0

def acc4_2_val (c : Dev nD) (j : Fin 256) (n : ℕ) : EReal :=
  if h : n < cfg4.N then acc4_2 V c n h (ix2 0 j) else 0

theorem tile4_sumsq_eq (c : Dev nD) (j : Fin 256) (t : Fin 50) :
    tile4_sumsq V c j t.val = ∑ r : Fin 2000, zK4 V c ⟨2000 * t.val + r.val, by omega⟩ j * zK4 V c ⟨2000 * t.val + r.val, by omega⟩ j := by
  have ht : t.val < cfg4.N := by rw [idx4_N]; exact t.isLt
  unfold tile4_sumsq
  rw [dif_pos ht]
  refine Finset.sum_congr rfl fun r _ => ?_
  rw [zpay4_apply V c ⟨t.val, ht⟩ r j ⟨2000 * t.val + r.val, by omega⟩ rfl]

theorem acc4_2_val_zero (c : Dev nD) (j : Fin 256) : acc4_2_val V c j 0 = 0 + tile4_sumsq V c j 0 := by
  have h0 : 0 < cfg4.N := by rw [idx4_N]; decide
  unfold acc4_2_val tile4_sumsq
  rw [dif_pos h0, dif_pos h0, acc4_2_zero]
  refine (pay2_5_apply _ _ _ _ _ j).trans ?_
  rw [pay2_2_apply]
  rfl

theorem acc4_2_val_succ (c : Dev nD) (j : Fin 256) (n : ℕ) (hn : n + 1 < 50) :
    acc4_2_val V c j (n + 1) = acc4_2_val V c j n + tile4_sumsq V c j (n + 1) := by
  have h1 : n + 1 < cfg4.N := by rw [idx4_N]; exact hn
  have h0 : n < cfg4.N := Nat.lt_of_succ_lt h1
  unfold acc4_2_val tile4_sumsq
  rw [dif_pos h1, dif_pos h0, dif_pos h1, acc4_2_succ]
  exact pay2_5_apply _ _ _ _ _ j

theorem acc4_2_last (c : Dev nD) (j : Fin 256) : acc4_2 V c 49 idx4_last (ix2 0 j) = colSumSq (zK4 V c) j := by
  have e : acc4_2_val V c j 49 = acc4_2 V c 49 idx4_last (ix2 0 j) := by unfold acc4_2_val; exact dif_pos idx4_last
  rw [← e]
  exact colSumSq_of_fold (zK4 V c) j (tile4_sumsq V c j) (acc4_2_val V c j) (tile4_sumsq_eq V c j) (acc4_2_val_zero V c j) (acc4_2_val_succ V c j)

theorem flushed4_6_eq (c : Dev nD) (t : Fin cfg4.N) (hf : (cfg4.win 6).flush t = true) :
    (dat4 V c).flushed 6 t = ((cfg4.win 6).blk t).view.read (Elt Ideal) (acc4_2 V c 49 idx4_last) := by
  have hN : cfg4.N = 50 := idx4_N
  have h1 : t.val = 49 := by have := (flush4_6 t).mp hf; have := t.isLt; omega
  obtain rfl : t = ⟨49, idx4_last⟩ := Fin.ext h1
  obtain ⟨-, -, -, -, -, -, -, -, -, -, -, -, e0, e1⟩ := idx4_facts ⟨49, idx4_last⟩
  show (cfg4.win 6).cut (grid4.coords ⟨49, idx4_last⟩) ((dat4 V c).after 6 ⟨49, idx4_last⟩) = _
  rw [after4_6_last, View.canon_unit_zero idx4_hz]
  have hz' : (fun a => win4_6.index ⟨49, idx4_last⟩ a * (Pipeline.arrRef spec4 6).ty.shape.size a) = fun _ => 0 := funext fun a => by
    match a with
    | ⟨0, _⟩ => show win4_6.index ⟨49, idx4_last⟩ (0 : Fin 2) * 1 = 0; rw [e0]
    | ⟨1, _⟩ => show win4_6.index ⟨49, idx4_last⟩ (1 : Fin 2) * 256 = 0; rw [e1]
  exact (Memref.read_access_unit_zero (Elt Ideal) (Pipeline.arrRef spec4 6) hz' (fun a => by rw [congrFun hz' a]; simp) (acc4_2 V c 49 idx4_last)).symm

theorem mem_blk4_6 (t : Fin cfg4.N) (i : S1x256.Idx) :
    i ∈ ((cfg4.win 6).blk t).view.set ↔ ∀ a : Fin 2, win4_6.index t a * S1x256.size a ≤ (i a).val ∧ (i a).val < win4_6.index t a * S1x256.size a + S1x256.size a := by
  show i ∈ ((View.whole (Pipeline.arrRef spec4 6)).slice (win4_6.rect t)).set ↔ _
  rw [View.set_slice_whole, Rect.mem_set_unit]
  exact Iff.rfl

theorem cover4_6 (i : S1x256.Idx) :
    ∃ t : Fin cfg4.N, (cfg4.win 6).flush t = true ∧ i ∈ ((cfg4.win 6).blk t).view.set := by
  obtain ⟨-, -, -, -, -, -, -, -, -, -, -, -, e0, e1⟩ := idx4_facts ⟨49, idx4_last⟩
  refine ⟨⟨49, idx4_last⟩, (flush4_6 _).mpr rfl, ?_⟩
  rw [mem_blk4_6]
  intro a
  have hi0 : (i 0).val < 1 := (i 0).isLt
  have hi1 : (i 1).val < 256 := (i 1).isLt
  match a with
  | ⟨0, _⟩ =>
    show win4_6.index _ (0 : Fin 2) * 1 ≤ (i 0).val ∧ (i 0).val < win4_6.index _ (0 : Fin 2) * 1 + 1
    rw [e0]; omega
  | ⟨1, _⟩ =>
    show win4_6.index _ (1 : Fin 2) * 256 ≤ (i 1).val ∧ (i 1).val < win4_6.index _ (1 : Fin 2) * 256 + 256
    rw [e1]; omega

theorem final4_6 (c : Dev nD) : (dat4 V c).arrAt 6 cfg4.N = acc4_2 V c 49 idx4_last :=
  (dat4 V c).arrAt_eq_of_cover 6 (acc4_2 V c 49 idx4_last) (flushed4_6_eq V c) cover4_6

theorem lin4_sum (c : Dev nD) (j : Fin 256) :
    ((dat4 (F := Ideal) V c).arrAt 5 cfg4.N : S1x256.Idx → EReal) (ix2 0 j) = colSum (zK4 V c) j :=
  (congrFun (final4_5 V c) (ix2 0 j)).trans (acc4_1_last V c j)

theorem lin4_sumsq (c : Dev nD) (j : Fin 256) :
    ((dat4 (F := Ideal) V c).arrAt 6 cfg4.N : S1x256.Idx → EReal) (ix2 0 j) = colSumSq (zK4 V c) j :=
  (congrFun (final4_6 V c) (ix2 0 j)).trans (acc4_2_last V c j)

end Values4

end Cert.KernelIdeal.Hand

end
-- ==== Proof.KI.BnBlk5.lean ====
import proofs.«165926_j30305289241327_1_alg».proof.Proof.Gen.KernelIdeal.Points
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

theorem blk5_N : cfg5.N = 50 := by decide

theorem idx5_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

theorem blk5_0_read (X : S100000x256.Idx → EReal) (t : Fin cfg5.N) (r : Fin 2000) (k : Fin 256) (p : Fin 100000)
    (hp : p.val = 2000 * t.val + r.val) :
    (((cfg5.win 0).blk t).view.read (Elt Ideal) X : S2000x256.Idx → EReal) (ix2 r k) = X (ix2 p k) := by
  obtain ⟨e0, e1, -⟩ := idx5_facts t
  rw [View.read_apply]
  show X _ = _
  congr 1
  funext a
  apply Fin.ext
  match a with
  | ⟨0, _⟩ => show win5_0.index t (0 : Fin 2) * 2000 + 1 * r.val = p.val; omega
  | ⟨1, _⟩ => show win5_0.index t (1 : Fin 2) * 256 + 1 * k.val = k.val; omega

theorem blk5_1_read (X : S1x256.Idx → EReal) (t : Fin cfg5.N) (k : Fin 256) :
    (((cfg5.win 1).blk t).view.read (Elt Ideal) X : S1x256.Idx → EReal) (ix2 0 k) = X (ix2 0 k) := by
  obtain ⟨-, -, e0, e1, -⟩ := idx5_facts t
  rw [View.read_apply]
  show X _ = _
  congr 1
  funext a
  apply Fin.ext
  match a with
  | ⟨0, _⟩ => show win5_1.index t (0 : Fin 2) * 1 + 1 * 0 = 0; omega
  | ⟨1, _⟩ => show win5_1.index t (1 : Fin 2) * 256 + 1 * k.val = k.val; omega

theorem blk5_2_read (X : S1x256.Idx → EReal) (t : Fin cfg5.N) (k : Fin 256) :
    (((cfg5.win 2).blk t).view.read (Elt Ideal) X : S1x256.Idx → EReal) (ix2 0 k) = X (ix2 0 k) := by
  obtain ⟨-, -, -, -, e0, e1, -⟩ := idx5_facts t
  rw [View.read_apply]
  show X _ = _
  congr 1
  funext a
  apply Fin.ext
  match a with
  | ⟨0, _⟩ => show win5_2.index t (0 : Fin 2) * 1 + 1 * 0 = 0; omega
  | ⟨1, _⟩ => show win5_2.index t (1 : Fin 2) * 256 + 1 * k.val = k.val; omega

theorem blk5_3_read (X : S1x256.Idx → EReal) (t : Fin cfg5.N) (k : Fin 256) :
    (((cfg5.win 3).blk t).view.read (Elt Ideal) X : S1x256.Idx → EReal) (ix2 0 k) = X (ix2 0 k) := by
  obtain ⟨-, -, -, -, -, -, e0, e1, -⟩ := idx5_facts t
  rw [View.read_apply]
  show X _ = _
  congr 1
  funext a
  apply Fin.ext
  match a with
  | ⟨0, _⟩ => show win5_3.index t (0 : Fin 2) * 1 + 1 * 0 = 0; omega
  | ⟨1, _⟩ => show win5_3.index t (1 : Fin 2) * 256 + 1 * k.val = k.val; omega

theorem blk5_4_read (X : S1x256.Idx → EReal) (t : Fin cfg5.N) (k : Fin 256) :
    (((cfg5.win 4).blk t).view.read (Elt Ideal) X : S1x256.Idx → EReal) (ix2 0 k) = X (ix2 0 k) := by
  obtain ⟨-, -, -, -, -, -, -, -, e0, e1, -⟩ := idx5_facts t
  rw [View.read_apply]
  show X _ = _
  congr 1
  funext a
  apply Fin.ext
  match a with
  | ⟨0, _⟩ => show win5_4.index t (0 : Fin 2) * 1 + 1 * 0 = 0; omega
  | ⟨1, _⟩ => show win5_4.index t (1 : Fin 2) * 256 + 1 * k.val = k.val; omega

theorem blk5_5_read (X : S256x128.Idx → EReal) (t : Fin cfg5.N) (k : Fin 256) (q : Fin 128) :
    (((cfg5.win 5).blk t).view.read (Elt Ideal) X : S256x128.Idx → EReal) (ix2 k q) = X (ix2 k q) := by
  obtain ⟨-, -, -, -, -, -, -, -, -, -, e0, e1, -⟩ := idx5_facts t
  rw [View.read_apply]
  show X _ = _
  congr 1
  funext a
  apply Fin.ext
  match a with
  | ⟨0, _⟩ => show win5_5.index t (0 : Fin 2) * 256 + 1 * k.val = k.val; omega
  | ⟨1, _⟩ => show win5_5.index t (1 : Fin 2) * 128 + 1 * q.val = q.val; omega

theorem blk5_6_read (X : S1x128.Idx → EReal) (t : Fin cfg5.N) (q : Fin 128) :
    (((cfg5.win 6).blk t).view.read (Elt Ideal) X : S1x128.Idx → EReal) (ix2 0 q) = X (ix2 0 q) := by
  obtain ⟨-, -, -, -, -, -, -, -, -, -, -, -, e0, e1, -⟩ := idx5_facts t
  rw [View.read_apply]
  show X _ = _
  congr 1
  funext a
  apply Fin.ext
  match a with
  | ⟨0, _⟩ => show win5_6.index t (0 : Fin 2) * 1 + 1 * 0 = 0; omega
  | ⟨1, _⟩ => show win5_6.index t (1 : Fin 2) * 128 + 1 * q.val = q.val; omega

theorem blk5_7_read (Y : S100000x128.Idx → EReal) (t : Fin cfg5.N) (r : Fin 2000) (q : Fin 128) (p : Fin 100000)
    (hp : p.val = 2000 * t.val + r.val) :
    (((cfg5.win 7).blk t).view.read (Elt Ideal) Y : S2000x128.Idx → EReal) (ix2 r q) = Y (ix2 p q) := by
  obtain ⟨-, -, -, -, -, -, -, -, -, -, -, -, -, -, e0, e1⟩ := idx5_facts t
  rw [View.read_apply]
  show Y _ = _
  congr 1
  funext a
  apply Fin.ext
  match a with
  | ⟨0, _⟩ => show win5_7.index t (0 : Fin 2) * 2000 + 1 * r.val = p.val; omega
  | ⟨1, _⟩ => show win5_7.index t (1 : Fin 2) * 128 + 1 * q.val = q.val; omega

theorem tile5_7_ext (X : Vec Ideal S2000x128 .f32) (Y : S100000x128.Idx → EReal) (t : Fin cfg5.N)
    (h : ∀ (r : Fin 2000) (q : Fin 128) (p : Fin 100000), p.val = 2000 * t.val + r.val → X (ix2 r q) = Y (ix2 p q)) :
    (cfg5.win 7).cut (grid5.coords t) X = ((cfg5.win 7).blk t).view.read (Elt Ideal) Y := by
  funext j
  obtain ⟨r, q, rfl⟩ : ∃ (r : Fin 2000) (q : Fin 128), j = ix2 r q := ⟨j 0, j 1, eq_ix2 j⟩
  have hN : cfg5.N = 50 := blk5_N
  have ht : t.val < 50 := hN ▸ t.isLt
  have hp : 2000 * t.val + r.val < 100000 := by have := r.isLt; omega
  refine Eq.trans ?_ (blk5_7_read Y t r q ⟨2000 * t.val + r.val, hp⟩ rfl).symm
  exact h r q ⟨2000 * t.val + r.val, hp⟩ rfl

theorem mem_blk5 (t : Fin cfg5.N) (i : S100000x128.Idx) :
    i ∈ ((cfg5.win 7).blk t).view.set ↔ ∀ a : Fin 2, win5_7.index t a * S2000x128.size a ≤ (i a).val
      ∧ (i a).val < win5_7.index t a * S2000x128.size a + S2000x128.size a := by
  show i ∈ ((View.whole (Pipeline.arrRef spec5 7)).slice (win5_7.rect t)).set ↔ _
  rw [View.set_slice_whole, Rect.mem_set_unit]
  exact Iff.rfl

theorem cov5 (i : S100000x128.Idx) :
    ∃ t : Fin cfg5.N, (cfg5.win 7).flush t = true ∧ i ∈ ((cfg5.win 7).blk t).view.set := by
  have hN : cfg5.N = 50 := blk5_N
  have hi0 : (i 0).val < 100000 := idx2_lt0 i
  have hi1 : (i 1).val < 128 := idx2_lt1 i
  have ht : (i 0).val / 2000 < cfg5.N := by rw [hN]; omega
  refine ⟨⟨(i 0).val / 2000, ht⟩, flush5_7 _, ?_⟩
  rw [mem_blk5]
  obtain ⟨-, -, -, -, -, -, -, -, -, -, -, -, -, -, e0, e1⟩ := idx5_facts ⟨(i 0).val / 2000, ht⟩
  intro a
  match a with
  | ⟨0, _⟩ =>
    show win5_7.index ⟨(i 0).val / 2000, ht⟩ (0 : Fin 2) * 2000 ≤ (i 0).val
      ∧ (i 0).val < win5_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_7.index ⟨(i 0).val / 2000, ht⟩ (1 : Fin 2) * 128 ≤ (i 1).val
      ∧ (i 1).val < win5_7.index ⟨(i 0).val / 2000, ht⟩ (1 : Fin 2) * 128 + 128
    rw [e1]; omega

end Cert.KernelIdeal.Hand

end
-- ==== Proof.KI.BnVal5.lean ====
import proofs.«165926_j30305289241327_1_alg».proof.Proof.KI.Bn5
import proofs.«165926_j30305289241327_1_alg».proof.Proof.KI.BnVal1
import proofs.«165926_j30305289241327_1_alg».proof.Proof.KI.BnBlk5
import proofs.«165926_j30305289241327_1_alg».proof.Proof.Spec
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

section Region5

variable (V : (c : Dev nD) → (b : Ref sig .tc) → Buf (Elt Ideal) ((c : Thread nD τ).loc b))

def G5 (c : Dev nD) : S100000x128.Idx → EReal := fun i =>
  Cert.GinSpec.outSpec
    (Cert.GinSpec.bnSpec
      (fun p k => (V c (Pipeline.arrRef spec5 0) : S100000x256.Idx → EReal) (ix2 p k))
      (fun k => (V c (Pipeline.arrRef spec5 1) : S1x256.Idx → EReal) (ix2 0 k))
      (fun k => (V c (Pipeline.arrRef spec5 2) : S1x256.Idx → EReal) (ix2 0 k))
      (fun k => (V c (Pipeline.arrRef spec5 3) : S1x256.Idx → EReal) (ix2 0 k))
      (fun k => (V c (Pipeline.arrRef spec5 4) : S1x256.Idx → EReal) (ix2 0 k))
      (Ideal.ofBits .f32 0x3727C5AC#32))
    (fun k q => (V c (Pipeline.arrRef spec5 5) : S256x128.Idx → EReal) (ix2 k q))
    (fun q => (V c (Pipeline.arrRef spec5 6) : S1x128.Idx → EReal) (ix2 0 q))
    (i 0) (i 1)

theorem pay5_act_blk (c : Dev nD) (t : Fin cfg5.N) (r : Fin 2000) (k : Fin 256) (p : Fin 100000)
    (hp : p.val = 2000 * t.val + r.val) :
    pay1_act (iblk5 V c 0 t) (iblk5 V c 2 t) (iblk5 V c 3 t) (iblk5 V c 1 t) (iblk5 V c 4 t) r k
      = Cert.GinSpec.bnSpec
          (fun p k => (V c (Pipeline.arrRef spec5 0) : S100000x256.Idx → EReal) (ix2 p k))
          (fun k => (V c (Pipeline.arrRef spec5 1) : S1x256.Idx → EReal) (ix2 0 k))
          (fun k => (V c (Pipeline.arrRef spec5 2) : S1x256.Idx → EReal) (ix2 0 k))
          (fun k => (V c (Pipeline.arrRef spec5 3) : S1x256.Idx → EReal) (ix2 0 k))
          (fun k => (V c (Pipeline.arrRef spec5 4) : S1x256.Idx → EReal) (ix2 0 k))
          (Ideal.ofBits .f32 0x3727C5AC#32) p k := by
  unfold pay1_act Cert.GinSpec.bnSpec iblk5
  exact congrArg₂ max (congrArg₂ (· + ·) (congrArg₂ (· * ·) (congrArg₂ (· * ·)
      (blk5_3_read (V c (Pipeline.arrRef spec5 3)) t k)
      (congrArg₂ (· - ·) (blk5_0_read (V c (Pipeline.arrRef spec5 0)) t r k p hp)
        (blk5_1_read (V c (Pipeline.arrRef spec5 1)) t k)))
      (congrArg (fun x => Ideal.rsqrt (x + Ideal.ofBits .f32 0x3727C5AC#32))
        (blk5_2_read (V c (Pipeline.arrRef spec5 2)) t k)))
      (blk5_4_read (V c (Pipeline.arrRef spec5 4)) t k)) rfl

theorem flushed5_eq (c : Dev nD) (t : Fin cfg5.N) :
    (dat5 (F := Ideal) V c).flushed 7 t = ((cfg5.win 7).blk t).view.read (Elt Ideal) (G5 V c) := by
  show (cfg5.win 7).cut (grid5.coords t) ((dat5 (F := Ideal) V c).after 7 t) = _
  rw [after5_7, out1_7_eq (iblk5 V c 0 t) (iblk5 V c 1 t) (iblk5 V c 2 t) (iblk5 V c 3 t) (iblk5 V c 4 t)
    (iblk5 V c 5 t) (iblk5 V c 6 t)]
  refine tile5_7_ext _ (G5 V c) t fun r q p hp => ?_
  refine (pay1_apply (iblk5 V c 0 t) (iblk5 V c 2 t) (iblk5 V c 3 t) (iblk5 V c 1 t) (iblk5 V c 4 t) (iblk5 V c 5 t)
    (iblk5 V c 6 t) r q).trans ?_
  unfold G5 Cert.GinSpec.outSpec
  refine congrArg₂ max (congrArg₂ (· + ·) (Finset.sum_congr rfl fun k _ =>
    congrArg₂ (· * ·) (pay5_act_blk V c t r k p hp) ?_) ?_) rfl
  · unfold iblk5; exact blk5_5_read (V c (Pipeline.arrRef spec5 5)) t k q
  · unfold iblk5; exact blk5_6_read (V c (Pipeline.arrRef spec5 6)) t q

theorem final5 (c : Dev nD) : (dat5 (F := Ideal) V c).arrAt 7 cfg5.N = G5 V c :=
  (dat5 (F := Ideal) V c).arrAt_eq_of_cover 7 (G5 V c) (fun t _ => flushed5_eq V c t) cov5

theorem bn5_value (c : Dev nD) (p : Fin 100000) (q : Fin 128) :
    ((dat5 (F := Ideal) V c).arrAt 7 cfg5.N : S100000x128.Idx → EReal) (ix2 p q)
      = Cert.GinSpec.outSpec
          (Cert.GinSpec.bnSpec
            (fun p k => (V c (Pipeline.arrRef spec5 0) : S100000x256.Idx → EReal) (ix2 p k))
            (fun k => (V c (Pipeline.arrRef spec5 1) : S1x256.Idx → EReal) (ix2 0 k))
            (fun k => (V c (Pipeline.arrRef spec5 2) : S1x256.Idx → EReal) (ix2 0 k))
            (fun k => (V c (Pipeline.arrRef spec5 3) : S1x256.Idx → EReal) (ix2 0 k))
            (fun k => (V c (Pipeline.arrRef spec5 4) : S1x256.Idx → EReal) (ix2 0 k))
            (Ideal.ofBits .f32 0x3727C5AC#32))
          (fun k q => (V c (Pipeline.arrRef spec5 5) : S256x128.Idx → EReal) (ix2 k q))
          (fun q => (V c (Pipeline.arrRef spec5 6) : S1x128.Idx → EReal) (ix2 0 q))
          p q :=
  congrFun (final5 V c) (ix2 p q)

end Region5

end Cert.KernelIdeal.Hand

end
-- ==== Proof.BridgeK2.lean ====
import proofs.«165926_j30305289241327_1_alg».proof.Proof.KI.LinVal4
import proofs.«165926_j30305289241327_1_alg».proof.Proof.KI.BnVal5
import proofs.«165926_j30305289241327_1_alg».proof.Proof.BridgeK0

noncomputable section

namespace Cert.Bridge

open Cert.KernelIdeal Cert.KernelIdeal.Gen Cert.KernelIdeal.Hand
open Idealize.ShloMosaic Idealize.ShloMosaic.TcCoe
open Idealize.SL.Sem
open Idealize.ShloMosaic.ValueIdx Cert.GinSpec

set_option maxHeartbeats 1600000 in

theorem zK4_of (V : Entry) (c : Dev nD) (h agg : S100000x128.Idx → EReal) (W1 : S128x256.Idx → EReal)
    (b1 : S1x256.Idx → EReal)
    (e0 : V c (Pipeline.arrRef spec4 0) = h) (e1 : V c (Pipeline.arrRef spec4 1) = agg)
    (e2 : V c (Pipeline.arrRef spec4 2) = W1) (e3 : V c (Pipeline.arrRef spec4 3) = b1) :
    zK4 V c = zSpec (fun p k => h (ix2 p k)) (fun p k => agg (ix2 p k)) (fun k j => W1 (ix2 k j)) (fun j => b1 (ix2 0 j)) := by
  subst e0 e1 e2 e3
  rfl

set_option maxHeartbeats 1600000 in

theorem bn5_value_of (V : Entry) (c : Dev nD) (z : S100000x256.Idx → EReal) (mean var g be : S1x256.Idx → EReal)
    (W2 : S256x128.Idx → EReal) (b2 : S1x128.Idx → EReal)
    (e0 : V c (Pipeline.arrRef spec5 0) = z) (e1 : V c (Pipeline.arrRef spec5 1) = mean)
    (e2 : V c (Pipeline.arrRef spec5 2) = var) (e3 : V c (Pipeline.arrRef spec5 3) = g)
    (e4 : V c (Pipeline.arrRef spec5 4) = be) (e5 : V c (Pipeline.arrRef spec5 5) = W2)
    (e6 : V c (Pipeline.arrRef spec5 6) = b2) (p : Fin 100000) (q : Fin 128) :
    ((dat5 (F := Ideal) V c).arrAt 7 cfg5.N : S100000x128.Idx → EReal) (ix2 p q)
      = outSpec (bnSpec (fun p k => z (ix2 p k)) (fun k => mean (ix2 0 k)) (fun k => var (ix2 0 k)) (fun k => g (ix2 0 k))
          (fun k => be (ix2 0 k)) (Ideal.ofBits .f32 0x3727C5AC#32)) (fun k q => W2 (ix2 k q)) (fun q => b2 (ix2 0 q)) p q := by
  subst e0 e1 e2 e3 e4 e5 e6
  exact bn5_value V c p q

set_option maxHeartbeats 4000000 in

theorem kerLayer_2_of (m : Mem) (outs : Outs (F := Ideal)) (c : Dev nD) (E0 E1 : Entry)
    (hE0 : ∀ b, E0 c b = V9 m outs c b) (hE1 : ∀ b, E1 c b = V11 m outs c b)
    (hz : outs 10 main_v112_0 c = (dat4 (F := Ideal) E0 c).arrAt 4 cfg4.N)
    (hs : outs 10 main_v112_1 c = (dat4 (F := Ideal) E0 c).arrAt 5 cfg4.N)
    (hss : outs 10 main_v112_2 c = (dat4 (F := Ideal) E0 c).arrAt 6 cfg4.N)
    (ho : outs 12 main_v134 c = (dat5 (F := Ideal) E1 c).arrAt 7 cfg5.N) :
    Cert.BridgeArr.KerLayer 2 (outs 12 main_v134 c) (outs 8 main_v93 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by

  have ez := zK4_of E0 c _ _ _ _ ((hE0 _).trans (V9_h m outs c)) ((hE0 _).trans (V9_agg m outs c))
    ((hE0 _).trans (V9_w1 m outs c)) ((hE0 _).trans (V9_b1 m outs c))

  have hzK : (fun (p : Fin 100000) (j : Fin 256) => (outs 10 main_v112_0 c : S100000x256.Idx → EReal) (ix2 p j)) = zK4 E0 c :=
    funext fun p => funext fun j => by rw [hz]; exact lin4_z E0 c p j
  refine layerSq_of_parts _ _ _ _ _ _ _ _ _
    (fun p j => (outs 10 main_v112_0 c : S100000x256.Idx → EReal) (ix2 p j))
    (fun j => (outs 10 main_v112_1 c : S1x256.Idx → EReal) (ix2 0 j))
    (fun j => (outs 10 main_v112_2 c : S1x256.Idx → EReal) (ix2 0 j))
    (fun k => (kerMean (F := Ideal) (outs 10 main_v112_1 c) : S1x256.Idx → EReal) (ix2 0 k))
    (fun k => (kerVar (F := Ideal) (outs 10 main_v112_1 c) (outs 10 main_v112_2 c) : S1x256.Idx → EReal) (ix2 0 k))
    _ ?hz ?hs ?hss ?hmean ?hvar ?hout
  case hz =>
    intro p j
    rw [← ez]
    exact congrFun (congrFun hzK p) j
  case hs =>
    intro j
    rw [hzK]
    show (outs 10 main_v112_1 c : S1x256.Idx → EReal) (ix2 0 j) = _
    rw [hs]
    exact lin4_sum E0 c j
  case hss =>
    intro j
    rw [hzK]
    show (outs 10 main_v112_2 c : S1x256.Idx → EReal) (ix2 0 j) = _
    rw [hss]
    exact lin4_sumsq E0 c j
  case hmean => exact fun k => Cert.Cross.kerMean_apply _ k
  case hvar => exact fun k => Cert.Cross.kerVar_apply _ _ k
  case hout =>
    intro p q
    show (outs 12 main_v134 c : S100000x128.Idx → EReal) (ix2 p q) = _
    rw [ho]
    exact bn5_value_of E1 c _ _ _ _ _ _ _ ((hE1 _).trans (V11_z m outs c)) ((hE1 _).trans (V11_mean m outs c))
      ((hE1 _).trans (V11_var m outs c)) ((hE1 _).trans (V11_g m outs c)) ((hE1 _).trans (V11_be m outs c))
      ((hE1 _).trans (V11_w2 m outs c)) ((hE1 _).trans (V11_b2 m outs c)) p q

end Cert.Bridge

end
-- ==== Proof.KI.LinVal6.lean ====
import proofs.«165926_j30305289241327_1_alg».proof.Proof.KI.Lin6
import proofs.«165926_j30305289241327_1_alg».proof.Proof.KI.LinVal2
import proofs.«165926_j30305289241327_1_alg».proof.Proof.Spec
import proofs.«165926_j30305289241327_1_alg».proof.Proof.SpecSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Hand

open Cert.KernelIdeal.Gen
open Idealize.ShloMosaic Idealize.ShloMosaic.TcCoe
open Idealize.ShloMosaic.Pipeline (Dat Cfg Window)
open Idealize.ShloMosaic.ValueIdx Cert.GinSpec

section Values6

variable (V : (c : Dev nD) → (b : Ref sig .tc) → Buf (Elt Ideal) ((c : Thread nD τ).loc b))

abbrev hK6 (c : Dev nD) : Fin 100000 → Fin 128 → EReal :=
  fun p k => (V c (Pipeline.arrRef spec6 0) : S100000x128.Idx → EReal) (ix2 p k)

abbrev aggK6 (c : Dev nD) : Fin 100000 → Fin 128 → EReal :=
  fun p k => (V c (Pipeline.arrRef spec6 1) : S100000x128.Idx → EReal) (ix2 p k)

abbrev W1K6 (c : Dev nD) : Fin 128 → Fin 256 → EReal :=
  fun k j => (V c (Pipeline.arrRef spec6 2) : S128x256.Idx → EReal) (ix2 k j)

abbrev b1K6 (c : Dev nD) : Fin 256 → EReal :=
  fun j => (V c (Pipeline.arrRef spec6 3) : S1x256.Idx → EReal) (ix2 0 j)

abbrev zK6 (c : Dev nD) : Fin 100000 → Fin 256 → EReal := zSpec (hK6 V c) (aggK6 V c) (W1K6 V c) (b1K6 V c)

theorem idx6_hz : (![0, 0] : Fin 2 → Nat) = fun _ => 0 := funext fun a => by fin_cases a <;> rfl

theorem idx6_N : cfg6.N = 50 := N_6
theorem idx6_last : 49 < cfg6.N := by rw [idx6_N]; decide

theorem idx6_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem iblk6_0_apply (c : Dev nD) (t : Fin cfg6.N) (r : Fin 2000) (k : Fin 128) (p : Fin 100000)
    (hp : p.val = 2000 * t.val + r.val) :
    (iblk6 V c 0 t : Vec Ideal S2000x128 .f32) (ix2 r k) = hK6 V c p k := by
  obtain ⟨e0, e1, -⟩ := idx6_facts t
  unfold iblk6
  rw [View.read_apply]
  show (V c (Pipeline.arrRef spec6 0) : S100000x128.Idx → EReal) _ = (V c (Pipeline.arrRef spec6 0) : S100000x128.Idx → EReal) (ix2 p k)
  congr 1
  funext a
  apply Fin.ext
  match a with
  | ⟨0, _⟩ => show win6_0.index t (0 : Fin 2) * 2000 + 1 * r.val = p.val; rw [e0, hp]; omega
  | ⟨1, _⟩ => show win6_0.index t (1 : Fin 2) * 128 + 1 * k.val = k.val; rw [e1]; omega

theorem iblk6_1_apply (c : Dev nD) (t : Fin cfg6.N) (r : Fin 2000) (k : Fin 128) (p : Fin 100000)
    (hp : p.val = 2000 * t.val + r.val) :
    (iblk6 V c 1 t : Vec Ideal S2000x128 .f32) (ix2 r k) = aggK6 V c p k := by
  obtain ⟨-, -, e0, e1, -⟩ := idx6_facts t
  unfold iblk6
  rw [View.read_apply]
  show (V c (Pipeline.arrRef spec6 1) : S100000x128.Idx → EReal) _ = (V c (Pipeline.arrRef spec6 1) : S100000x128.Idx → EReal) (ix2 p k)
  congr 1
  funext a
  apply Fin.ext
  match a with
  | ⟨0, _⟩ => show win6_1.index t (0 : Fin 2) * 2000 + 1 * r.val = p.val; rw [e0, hp]; omega
  | ⟨1, _⟩ => show win6_1.index t (1 : Fin 2) * 128 + 1 * k.val = k.val; rw [e1]; omega

theorem iblk6_2_apply (c : Dev nD) (t : Fin cfg6.N) (k : Fin 128) (j : Fin 256) :
    (iblk6 V c 2 t : Vec Ideal S128x256 .f32) (ix2 k j) = W1K6 V c k j := by
  obtain ⟨-, -, -, -, e0, e1, -⟩ := idx6_facts t
  unfold iblk6
  rw [View.read_apply]
  show (V c (Pipeline.arrRef spec6 2) : S128x256.Idx → EReal) _ = (V c (Pipeline.arrRef spec6 2) : S128x256.Idx → EReal) (ix2 k j)
  congr 1
  funext a
  apply Fin.ext
  match a with
  | ⟨0, _⟩ => show win6_2.index t (0 : Fin 2) * 128 + 1 * k.val = k.val; rw [e0]; omega
  | ⟨1, _⟩ => show win6_2.index t (1 : Fin 2) * 256 + 1 * j.val = j.val; rw [e1]; omega

theorem iblk6_3_apply (c : Dev nD) (t : Fin cfg6.N) (j : Fin 256) :
    (iblk6 V c 3 t : Vec Ideal S1x256 .f32) (ix2 0 j) = b1K6 V c j := by
  obtain ⟨-, -, -, -, -, -, e0, e1, -⟩ := idx6_facts t
  unfold iblk6
  rw [View.read_apply]
  show (V c (Pipeline.arrRef spec6 3) : S1x256.Idx → EReal) _ = (V c (Pipeline.arrRef spec6 3) : S1x256.Idx → EReal) (ix2 0 j)
  congr 1
  funext a
  apply Fin.ext
  match a with
  | ⟨0, _⟩ => show win6_3.index t (0 : Fin 2) * 1 + 1 * (0 : Fin 1).val = (0 : Fin 1).val; rw [e0]; rfl
  | ⟨1, _⟩ => show win6_3.index t (1 : Fin 2) * 256 + 1 * j.val = j.val; rw [e1]; omega

theorem zpay6_apply (c : Dev nD) (t : Fin cfg6.N) (r : Fin 2000) (j : Fin 256) (p : Fin 100000)
    (hp : p.val = 2000 * t.val + r.val) :
    zpay6 V c t (ix2 r j) = zK6 V c p j := by
  unfold zpay6
  simp only [View.ld_unit_zero (S := S2000x128) idx6_hz, View.ld_unit_zero (S := S128x256) idx6_hz, View.ld_unit_zero (S := S1x256) idx6_hz]
  refine (pay2_3_apply _ _ _ _ r j).trans ?_
  refine congrArg₂ (· + ·) (Finset.sum_congr rfl fun k _ => ?_) ?_
  · rw [iblk6_0_apply V c t r k p hp, iblk6_1_apply V c t r k p hp, iblk6_2_apply V c t k j]
  · exact iblk6_3_apply V c t j

theorem zpay6_apply' (c : Dev nD) (t : Fin cfg6.N) (y : S2000x256.Idx) (p : Fin 100000) (j : Fin 256)
    (hp : p.val = 2000 * t.val + (y 0).val) (hj : j.val = (y 1).val) :
    zpay6 V c t y = zK6 V c p j := by
  obtain ⟨r, j', rfl⟩ : ∃ (r : Fin 2000) (j' : Fin 256), y = ix2 r j' := ⟨y 0, y 1, eq_ix2 y⟩
  obtain rfl : j = j' := Fin.ext hj
  exact zpay6_apply V c t r j p hp

abbrev zK6_arr (c : Dev nD) : S100000x256.Idx → EReal :=
  fun i => zK6 V c (i 0) (i 1)

theorem flushed6_4_eq (c : Dev nD) (t : Fin cfg6.N) :
    (dat6 V c).flushed 4 t = ((cfg6.win 4).blk t).view.read (Elt Ideal) (zK6_arr V c) := by
  obtain ⟨-, -, -, -, -, -, -, -, e0, e1, -⟩ := idx6_facts t
  show (cfg6.win 4).cut (grid6.coords t) ((dat6 V c).after 4 t) = _
  rw [after6_4, View.canon_unit_zero idx6_hz]
  funext y
  show zpay6 V c t ((cfg6.win 4).xinj (grid6.coords t) y) = zK6_arr V c (((cfg6.win 4).blk t).view.emb y)
  refine zpay6_apply' V c t _ _ _ ?_ ?_
  · show win6_4.index t (0 : Fin 2) * 2000 + 1 * (y 0).val = 2000 * t.val + (y 0).val
    rw [e0]; omega
  · show win6_4.index t (1 : Fin 2) * 256 + 1 * (y 1).val = (y 1).val
    rw [e1]; omega

theorem mem_blk6_4 (t : Fin cfg6.N) (i : S100000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole (Pipeline.arrRef spec6 4)).slice (win6_4.rect t)).set ↔ _
  rw [View.set_slice_whole, Rect.mem_set_unit]
  exact Iff.rfl

theorem cover6_4 (i : S100000x256.Idx) :
    ∃ t : Fin cfg6.N, (cfg6.win 4).flush t = true ∧ i ∈ ((cfg6.win 4).blk t).view.set := by
  have hN : cfg6.N = 50 := idx6_N
  have hi0 : (i 0).val < 100000 := (i 0).isLt
  have hi1 : (i 1).val < 256 := (i 1).isLt
  refine ⟨⟨(i 0).val / 2000, by rw [hN]; omega⟩, flush6_4 _, ?_⟩
  obtain ⟨-, -, -, -, -, -, -, -, e0, e1, -⟩ := idx6_facts ⟨(i 0).val / 2000, by rw [hN]; omega⟩
  rw [mem_blk6_4]
  intro a
  match a with
  | ⟨0, _⟩ =>
    show win6_4.index _ (0 : Fin 2) * 2000 ≤ (i 0).val ∧ (i 0).val < win6_4.index _ (0 : Fin 2) * 2000 + 2000
    rw [e0]; show (i 0).val / 2000 * 2000 ≤ (i 0).val ∧ (i 0).val < (i 0).val / 2000 * 2000 + 2000; omega
  | ⟨1, _⟩ =>
    show win6_4.index _ (1 : Fin 2) * 256 ≤ (i 1).val ∧ (i 1).val < win6_4.index _ (1 : Fin 2) * 256 + 256
    rw [e1]; omega

theorem final6_4 (c : Dev nD) : (dat6 V c).arrAt 4 cfg6.N = zK6_arr V c :=
  (dat6 V c).arrAt_eq_of_cover 4 (zK6_arr V c) (fun t _ => flushed6_4_eq V c t) cover6_4

theorem lin6_z (c : Dev nD) (p : Fin 100000) (j : Fin 256) :
    ((dat6 (F := Ideal) V c).arrAt 4 cfg6.N : S100000x256.Idx → EReal) (ix2 p j) = zK6 V c p j :=
  congrFun (final6_4 V c) (ix2 p j)

def tile6_sum (c : Dev nD) (j : Fin 256) (n : ℕ) : EReal :=
  if h : n < cfg6.N then ∑ r : Fin 2000, zpay6 V c ⟨n, h⟩ (ix2 r j) else 0

def acc6_1_val (c : Dev nD) (j : Fin 256) (n : ℕ) : EReal :=
  if h : n < cfg6.N then acc6_1 V c n h (ix2 0 j) else 0

theorem tile6_sum_eq (c : Dev nD) (j : Fin 256) (t : Fin 50) :
    tile6_sum V c j t.val = ∑ r : Fin 2000, zK6 V c ⟨2000 * t.val + r.val, by omega⟩ j := by
  have ht : t.val < cfg6.N := by rw [idx6_N]; exact t.isLt
  unfold tile6_sum
  rw [dif_pos ht]
  refine Finset.sum_congr rfl fun r _ => ?_
  rw [zpay6_apply V c ⟨t.val, ht⟩ r j ⟨2000 * t.val + r.val, by omega⟩ rfl]

theorem acc6_1_val_zero (c : Dev nD) (j : Fin 256) : acc6_1_val V c j 0 = 0 + tile6_sum V c j 0 := by
  have h0 : 0 < cfg6.N := by rw [idx6_N]; decide
  unfold acc6_1_val tile6_sum
  rw [dif_pos h0, dif_pos h0, acc6_1_zero]
  refine (pay2_4_apply _ _ _ _ _ j).trans ?_
  rw [pay2_1_apply]
  rfl

theorem acc6_1_val_succ (c : Dev nD) (j : Fin 256) (n : ℕ) (hn : n + 1 < 50) :
    acc6_1_val V c j (n + 1) = acc6_1_val V c j n + tile6_sum V c j (n + 1) := by
  have h1 : n + 1 < cfg6.N := by rw [idx6_N]; exact hn
  have h0 : n < cfg6.N := Nat.lt_of_succ_lt h1
  unfold acc6_1_val tile6_sum
  rw [dif_pos h1, dif_pos h0, dif_pos h1, acc6_1_succ]
  exact pay2_4_apply _ _ _ _ _ j

theorem acc6_1_last (c : Dev nD) (j : Fin 256) : acc6_1 V c 49 idx6_last (ix2 0 j) = colSum (zK6 V c) j := by
  have e : acc6_1_val V c j 49 = acc6_1 V c 49 idx6_last (ix2 0 j) := by unfold acc6_1_val; exact dif_pos idx6_last
  rw [← e]
  exact colSum_of_fold (zK6 V c) j (tile6_sum V c j) (acc6_1_val V c j) (tile6_sum_eq V c j) (acc6_1_val_zero V c j) (acc6_1_val_succ V c j)

theorem flushed6_5_eq (c : Dev nD) (t : Fin cfg6.N) (hf : (cfg6.win 5).flush t = true) :
    (dat6 V c).flushed 5 t = ((cfg6.win 5).blk t).view.read (Elt Ideal) (acc6_1 V c 49 idx6_last) := by
  have hN : cfg6.N = 50 := idx6_N
  have h1 : t.val = 49 := by have := (flush6_5 t).mp hf; have := t.isLt; omega
  obtain rfl : t = ⟨49, idx6_last⟩ := Fin.ext h1
  obtain ⟨-, -, -, -, -, -, -, -, -, -, e0, e1, -⟩ := idx6_facts ⟨49, idx6_last⟩
  show (cfg6.win 5).cut (grid6.coords ⟨49, idx6_last⟩) ((dat6 V c).after 5 ⟨49, idx6_last⟩) = _
  rw [after6_5_last, View.canon_unit_zero idx6_hz]
  have hz' : (fun a => win6_5.index ⟨49, idx6_last⟩ a * (Pipeline.arrRef spec6 5).ty.shape.size a) = fun _ => 0 := funext fun a => by
    match a with
    | ⟨0, _⟩ => show win6_5.index ⟨49, idx6_last⟩ (0 : Fin 2) * 1 = 0; rw [e0]
    | ⟨1, _⟩ => show win6_5.index ⟨49, idx6_last⟩ (1 : Fin 2) * 256 = 0; rw [e1]
  exact (Memref.read_access_unit_zero (Elt Ideal) (Pipeline.arrRef spec6 5) hz' (fun a => by rw [congrFun hz' a]; simp) (acc6_1 V c 49 idx6_last)).symm

theorem mem_blk6_5 (t : Fin cfg6.N) (i : S1x256.Idx) :
    i ∈ ((cfg6.win 5).blk t).view.set ↔ ∀ a : Fin 2, win6_5.index t a * S1x256.size a ≤ (i a).val ∧ (i a).val < win6_5.index t a * S1x256.size a + S1x256.size a := by
  show i ∈ ((View.whole (Pipeline.arrRef spec6 5)).slice (win6_5.rect t)).set ↔ _
  rw [View.set_slice_whole, Rect.mem_set_unit]
  exact Iff.rfl

theorem cover6_5 (i : S1x256.Idx) :
    ∃ t : Fin cfg6.N, (cfg6.win 5).flush t = true ∧ i ∈ ((cfg6.win 5).blk t).view.set := by
  obtain ⟨-, -, -, -, -, -, -, -, -, -, e0, e1, -⟩ := idx6_facts ⟨49, idx6_last⟩
  refine ⟨⟨49, idx6_last⟩, (flush6_5 _).mpr rfl, ?_⟩
  rw [mem_blk6_5]
  intro a
  have hi0 : (i 0).val < 1 := (i 0).isLt
  have hi1 : (i 1).val < 256 := (i 1).isLt
  match a with
  | ⟨0, _⟩ =>
    show win6_5.index _ (0 : Fin 2) * 1 ≤ (i 0).val ∧ (i 0).val < win6_5.index _ (0 : Fin 2) * 1 + 1
    rw [e0]; omega
  | ⟨1, _⟩ =>
    show win6_5.index _ (1 : Fin 2) * 256 ≤ (i 1).val ∧ (i 1).val < win6_5.index _ (1 : Fin 2) * 256 + 256
    rw [e1]; omega

theorem final6_5 (c : Dev nD) : (dat6 V c).arrAt 5 cfg6.N = acc6_1 V c 49 idx6_last :=
  (dat6 V c).arrAt_eq_of_cover 5 (acc6_1 V c 49 idx6_last) (flushed6_5_eq V c) cover6_5

def tile6_sumsq (c : Dev nD) (j : Fin 256) (n : ℕ) : EReal :=
  if h : n < cfg6.N then ∑ r : Fin 2000, zpay6 V c ⟨n, h⟩ (ix2 r j) * zpay6 V c ⟨n, h⟩ (ix2 r j) else 0

def acc6_2_val (c : Dev nD) (j : Fin 256) (n : ℕ) : EReal :=
  if h : n < cfg6.N then acc6_2 V c n h (ix2 0 j) else 0

theorem tile6_sumsq_eq (c : Dev nD) (j : Fin 256) (t : Fin 50) :
    tile6_sumsq V c j t.val = ∑ r : Fin 2000, zK6 V c ⟨2000 * t.val + r.val, by omega⟩ j * zK6 V c ⟨2000 * t.val + r.val, by omega⟩ j := by
  have ht : t.val < cfg6.N := by rw [idx6_N]; exact t.isLt
  unfold tile6_sumsq
  rw [dif_pos ht]
  refine Finset.sum_congr rfl fun r _ => ?_
  rw [zpay6_apply V c ⟨t.val, ht⟩ r j ⟨2000 * t.val + r.val, by omega⟩ rfl]

theorem acc6_2_val_zero (c : Dev nD) (j : Fin 256) : acc6_2_val V c j 0 = 0 + tile6_sumsq V c j 0 := by
  have h0 : 0 < cfg6.N := by rw [idx6_N]; decide
  unfold acc6_2_val tile6_sumsq
  rw [dif_pos h0, dif_pos h0, acc6_2_zero]
  refine (pay2_5_apply _ _ _ _ _ j).trans ?_
  rw [pay2_2_apply]
  rfl

theorem acc6_2_val_succ (c : Dev nD) (j : Fin 256) (n : ℕ) (hn : n + 1 < 50) :
    acc6_2_val V c j (n + 1) = acc6_2_val V c j n + tile6_sumsq V c j (n + 1) := by
  have h1 : n + 1 < cfg6.N := by rw [idx6_N]; exact hn
  have h0 : n < cfg6.N := Nat.lt_of_succ_lt h1
  unfold acc6_2_val tile6_sumsq
  rw [dif_pos h1, dif_pos h0, dif_pos h1, acc6_2_succ]
  exact pay2_5_apply _ _ _ _ _ j

theorem acc6_2_last (c : Dev nD) (j : Fin 256) : acc6_2 V c 49 idx6_last (ix2 0 j) = colSumSq (zK6 V c) j := by
  have e : acc6_2_val V c j 49 = acc6_2 V c 49 idx6_last (ix2 0 j) := by unfold acc6_2_val; exact dif_pos idx6_last
  rw [← e]
  exact colSumSq_of_fold (zK6 V c) j (tile6_sumsq V c j) (acc6_2_val V c j) (tile6_sumsq_eq V c j) (acc6_2_val_zero V c j) (acc6_2_val_succ V c j)

theorem flushed6_6_eq (c : Dev nD) (t : Fin cfg6.N) (hf : (cfg6.win 6).flush t = true) :
    (dat6 V c).flushed 6 t = ((cfg6.win 6).blk t).view.read (Elt Ideal) (acc6_2 V c 49 idx6_last) := by
  have hN : cfg6.N = 50 := idx6_N
  have h1 : t.val = 49 := by have := (flush6_6 t).mp hf; have := t.isLt; omega
  obtain rfl : t = ⟨49, idx6_last⟩ := Fin.ext h1
  obtain ⟨-, -, -, -, -, -, -, -, -, -, -, -, e0, e1⟩ := idx6_facts ⟨49, idx6_last⟩
  show (cfg6.win 6).cut (grid6.coords ⟨49, idx6_last⟩) ((dat6 V c).after 6 ⟨49, idx6_last⟩) = _
  rw [after6_6_last, View.canon_unit_zero idx6_hz]
  have hz' : (fun a => win6_6.index ⟨49, idx6_last⟩ a * (Pipeline.arrRef spec6 6).ty.shape.size a) = fun _ => 0 := funext fun a => by
    match a with
    | ⟨0, _⟩ => show win6_6.index ⟨49, idx6_last⟩ (0 : Fin 2) * 1 = 0; rw [e0]
    | ⟨1, _⟩ => show win6_6.index ⟨49, idx6_last⟩ (1 : Fin 2) * 256 = 0; rw [e1]
  exact (Memref.read_access_unit_zero (Elt Ideal) (Pipeline.arrRef spec6 6) hz' (fun a => by rw [congrFun hz' a]; simp) (acc6_2 V c 49 idx6_last)).symm

theorem mem_blk6_6 (t : Fin cfg6.N) (i : S1x256.Idx) :
    i ∈ ((cfg6.win 6).blk t).view.set ↔ ∀ a : Fin 2, win6_6.index t a * S1x256.size a ≤ (i a).val ∧ (i a).val < win6_6.index t a * S1x256.size a + S1x256.size a := by
  show i ∈ ((View.whole (Pipeline.arrRef spec6 6)).slice (win6_6.rect t)).set ↔ _
  rw [View.set_slice_whole, Rect.mem_set_unit]
  exact Iff.rfl

theorem cover6_6 (i : S1x256.Idx) :
    ∃ t : Fin cfg6.N, (cfg6.win 6).flush t = true ∧ i ∈ ((cfg6.win 6).blk t).view.set := by
  obtain ⟨-, -, -, -, -, -, -, -, -, -, -, -, e0, e1⟩ := idx6_facts ⟨49, idx6_last⟩
  refine ⟨⟨49, idx6_last⟩, (flush6_6 _).mpr rfl, ?_⟩
  rw [mem_blk6_6]
  intro a
  have hi0 : (i 0).val < 1 := (i 0).isLt
  have hi1 : (i 1).val < 256 := (i 1).isLt
  match a with
  | ⟨0, _⟩ =>
    show win6_6.index _ (0 : Fin 2) * 1 ≤ (i 0).val ∧ (i 0).val < win6_6.index _ (0 : Fin 2) * 1 + 1
    rw [e0]; omega
  | ⟨1, _⟩ =>
    show win6_6.index _ (1 : Fin 2) * 256 ≤ (i 1).val ∧ (i 1).val < win6_6.index _ (1 : Fin 2) * 256 + 256
    rw [e1]; omega

theorem final6_6 (c : Dev nD) : (dat6 V c).arrAt 6 cfg6.N = acc6_2 V c 49 idx6_last :=
  (dat6 V c).arrAt_eq_of_cover 6 (acc6_2 V c 49 idx6_last) (flushed6_6_eq V c) cover6_6

theorem lin6_sum (c : Dev nD) (j : Fin 256) :
    ((dat6 (F := Ideal) V c).arrAt 5 cfg6.N : S1x256.Idx → EReal) (ix2 0 j) = colSum (zK6 V c) j :=
  (congrFun (final6_5 V c) (ix2 0 j)).trans (acc6_1_last V c j)

theorem lin6_sumsq (c : Dev nD) (j : Fin 256) :
    ((dat6 (F := Ideal) V c).arrAt 6 cfg6.N : S1x256.Idx → EReal) (ix2 0 j) = colSumSq (zK6 V c) j :=
  (congrFun (final6_6 V c) (ix2 0 j)).trans (acc6_2_last V c j)

end Values6

end Cert.KernelIdeal.Hand

end
-- ==== Proof.KI.BnBlk7.lean ====
import proofs.«165926_j30305289241327_1_alg».proof.Proof.Gen.KernelIdeal.Points
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

theorem blk7_N : cfg7.N = 50 := by decide

theorem idx7_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

theorem blk7_0_read (X : S100000x256.Idx → EReal) (t : Fin cfg7.N) (r : Fin 2000) (k : Fin 256) (p : Fin 100000)
    (hp : p.val = 2000 * t.val + r.val) :
    (((cfg7.win 0).blk t).view.read (Elt Ideal) X : S2000x256.Idx → EReal) (ix2 r k) = X (ix2 p k) := by
  obtain ⟨e0, e1, -⟩ := idx7_facts t
  rw [View.read_apply]
  show X _ = _
  congr 1
  funext a
  apply Fin.ext
  match a with
  | ⟨0, _⟩ => show win7_0.index t (0 : Fin 2) * 2000 + 1 * r.val = p.val; omega
  | ⟨1, _⟩ => show win7_0.index t (1 : Fin 2) * 256 + 1 * k.val = k.val; omega

theorem blk7_1_read (X : S1x256.Idx → EReal) (t : Fin cfg7.N) (k : Fin 256) :
    (((cfg7.win 1).blk t).view.read (Elt Ideal) X : S1x256.Idx → EReal) (ix2 0 k) = X (ix2 0 k) := by
  obtain ⟨-, -, e0, e1, -⟩ := idx7_facts t
  rw [View.read_apply]
  show X _ = _
  congr 1
  funext a
  apply Fin.ext
  match a with
  | ⟨0, _⟩ => show win7_1.index t (0 : Fin 2) * 1 + 1 * 0 = 0; omega
  | ⟨1, _⟩ => show win7_1.index t (1 : Fin 2) * 256 + 1 * k.val = k.val; omega

theorem blk7_2_read (X : S1x256.Idx → EReal) (t : Fin cfg7.N) (k : Fin 256) :
    (((cfg7.win 2).blk t).view.read (Elt Ideal) X : S1x256.Idx → EReal) (ix2 0 k) = X (ix2 0 k) := by
  obtain ⟨-, -, -, -, e0, e1, -⟩ := idx7_facts t
  rw [View.read_apply]
  show X _ = _
  congr 1
  funext a
  apply Fin.ext
  match a with
  | ⟨0, _⟩ => show win7_2.index t (0 : Fin 2) * 1 + 1 * 0 = 0; omega
  | ⟨1, _⟩ => show win7_2.index t (1 : Fin 2) * 256 + 1 * k.val = k.val; omega

theorem blk7_3_read (X : S1x256.Idx → EReal) (t : Fin cfg7.N) (k : Fin 256) :
    (((cfg7.win 3).blk t).view.read (Elt Ideal) X : S1x256.Idx → EReal) (ix2 0 k) = X (ix2 0 k) := by
  obtain ⟨-, -, -, -, -, -, e0, e1, -⟩ := idx7_facts t
  rw [View.read_apply]
  show X _ = _
  congr 1
  funext a
  apply Fin.ext
  match a with
  | ⟨0, _⟩ => show win7_3.index t (0 : Fin 2) * 1 + 1 * 0 = 0; omega
  | ⟨1, _⟩ => show win7_3.index t (1 : Fin 2) * 256 + 1 * k.val = k.val; omega

theorem blk7_4_read (X : S1x256.Idx → EReal) (t : Fin cfg7.N) (k : Fin 256) :
    (((cfg7.win 4).blk t).view.read (Elt Ideal) X : S1x256.Idx → EReal) (ix2 0 k) = X (ix2 0 k) := by
  obtain ⟨-, -, -, -, -, -, -, -, e0, e1, -⟩ := idx7_facts t
  rw [View.read_apply]
  show X _ = _
  congr 1
  funext a
  apply Fin.ext
  match a with
  | ⟨0, _⟩ => show win7_4.index t (0 : Fin 2) * 1 + 1 * 0 = 0; omega
  | ⟨1, _⟩ => show win7_4.index t (1 : Fin 2) * 256 + 1 * k.val = k.val; omega

theorem blk7_5_read (X : S256x128.Idx → EReal) (t : Fin cfg7.N) (k : Fin 256) (q : Fin 128) :
    (((cfg7.win 5).blk t).view.read (Elt Ideal) X : S256x128.Idx → EReal) (ix2 k q) = X (ix2 k q) := by
  obtain ⟨-, -, -, -, -, -, -, -, -, -, e0, e1, -⟩ := idx7_facts t
  rw [View.read_apply]
  show X _ = _
  congr 1
  funext a
  apply Fin.ext
  match a with
  | ⟨0, _⟩ => show win7_5.index t (0 : Fin 2) * 256 + 1 * k.val = k.val; omega
  | ⟨1, _⟩ => show win7_5.index t (1 : Fin 2) * 128 + 1 * q.val = q.val; omega

theorem blk7_6_read (X : S1x128.Idx → EReal) (t : Fin cfg7.N) (q : Fin 128) :
    (((cfg7.win 6).blk t).view.read (Elt Ideal) X : S1x128.Idx → EReal) (ix2 0 q) = X (ix2 0 q) := by
  obtain ⟨-, -, -, -, -, -, -, -, -, -, -, -, e0, e1, -⟩ := idx7_facts t
  rw [View.read_apply]
  show X _ = _
  congr 1
  funext a
  apply Fin.ext
  match a with
  | ⟨0, _⟩ => show win7_6.index t (0 : Fin 2) * 1 + 1 * 0 = 0; omega
  | ⟨1, _⟩ => show win7_6.index t (1 : Fin 2) * 128 + 1 * q.val = q.val; omega

theorem blk7_7_read (Y : S100000x128.Idx → EReal) (t : Fin cfg7.N) (r : Fin 2000) (q : Fin 128) (p : Fin 100000)
    (hp : p.val = 2000 * t.val + r.val) :
    (((cfg7.win 7).blk t).view.read (Elt Ideal) Y : S2000x128.Idx → EReal) (ix2 r q) = Y (ix2 p q) := by
  obtain ⟨-, -, -, -, -, -, -, -, -, -, -, -, -, -, e0, e1⟩ := idx7_facts t
  rw [View.read_apply]
  show Y _ = _
  congr 1
  funext a
  apply Fin.ext
  match a with
  | ⟨0, _⟩ => show win7_7.index t (0 : Fin 2) * 2000 + 1 * r.val = p.val; omega
  | ⟨1, _⟩ => show win7_7.index t (1 : Fin 2) * 128 + 1 * q.val = q.val; omega

theorem tile7_7_ext (X : Vec Ideal S2000x128 .f32) (Y : S100000x128.Idx → EReal) (t : Fin cfg7.N)
    (h : ∀ (r : Fin 2000) (q : Fin 128) (p : Fin 100000), p.val = 2000 * t.val + r.val → X (ix2 r q) = Y (ix2 p q)) :
    (cfg7.win 7).cut (grid7.coords t) X = ((cfg7.win 7).blk t).view.read (Elt Ideal) Y := by
  funext j
  obtain ⟨r, q, rfl⟩ : ∃ (r : Fin 2000) (q : Fin 128), j = ix2 r q := ⟨j 0, j 1, eq_ix2 j⟩
  have hN : cfg7.N = 50 := blk7_N
  have ht : t.val < 50 := hN ▸ t.isLt
  have hp : 2000 * t.val + r.val < 100000 := by have := r.isLt; omega
  refine Eq.trans ?_ (blk7_7_read Y t r q ⟨2000 * t.val + r.val, hp⟩ rfl).symm
  exact h r q ⟨2000 * t.val + r.val, hp⟩ rfl

theorem mem_blk7 (t : Fin cfg7.N) (i : S100000x128.Idx) :
    i ∈ ((cfg7.win 7).blk t).view.set ↔ ∀ a : Fin 2, win7_7.index t a * S2000x128.size a ≤ (i a).val
      ∧ (i a).val < win7_7.index t a * S2000x128.size a + S2000x128.size a := by
  show i ∈ ((View.whole (Pipeline.arrRef spec7 7)).slice (win7_7.rect t)).set ↔ _
  rw [View.set_slice_whole, Rect.mem_set_unit]
  exact Iff.rfl

theorem cov7 (i : S100000x128.Idx) :
    ∃ t : Fin cfg7.N, (cfg7.win 7).flush t = true ∧ i ∈ ((cfg7.win 7).blk t).view.set := by
  have hN : cfg7.N = 50 := blk7_N
  have hi0 : (i 0).val < 100000 := idx2_lt0 i
  have hi1 : (i 1).val < 128 := idx2_lt1 i
  have ht : (i 0).val / 2000 < cfg7.N := by rw [hN]; omega
  refine ⟨⟨(i 0).val / 2000, ht⟩, flush7_7 _, ?_⟩
  rw [mem_blk7]
  obtain ⟨-, -, -, -, -, -, -, -, -, -, -, -, -, -, e0, e1⟩ := idx7_facts ⟨(i 0).val / 2000, ht⟩
  intro a
  match a with
  | ⟨0, _⟩ =>
    show win7_7.index ⟨(i 0).val / 2000, ht⟩ (0 : Fin 2) * 2000 ≤ (i 0).val
      ∧ (i 0).val < win7_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_7.index ⟨(i 0).val / 2000, ht⟩ (1 : Fin 2) * 128 ≤ (i 1).val
      ∧ (i 1).val < win7_7.index ⟨(i 0).val / 2000, ht⟩ (1 : Fin 2) * 128 + 128
    rw [e1]; omega

end Cert.KernelIdeal.Hand

end
-- ==== Proof.KI.BnVal7.lean ====
import proofs.«165926_j30305289241327_1_alg».proof.Proof.KI.Bn7
import proofs.«165926_j30305289241327_1_alg».proof.Proof.KI.BnVal1
import proofs.«165926_j30305289241327_1_alg».proof.Proof.KI.BnBlk7
import proofs.«165926_j30305289241327_1_alg».proof.Proof.Spec
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

section Region7

variable (V : (c : Dev nD) → (b : Ref sig .tc) → Buf (Elt Ideal) ((c : Thread nD τ).loc b))

def G7 (c : Dev nD) : S100000x128.Idx → EReal := fun i =>
  Cert.GinSpec.outSpec
    (Cert.GinSpec.bnSpec
      (fun p k => (V c (Pipeline.arrRef spec7 0) : S100000x256.Idx → EReal) (ix2 p k))
      (fun k => (V c (Pipeline.arrRef spec7 1) : S1x256.Idx → EReal) (ix2 0 k))
      (fun k => (V c (Pipeline.arrRef spec7 2) : S1x256.Idx → EReal) (ix2 0 k))
      (fun k => (V c (Pipeline.arrRef spec7 3) : S1x256.Idx → EReal) (ix2 0 k))
      (fun k => (V c (Pipeline.arrRef spec7 4) : S1x256.Idx → EReal) (ix2 0 k))
      (Ideal.ofBits .f32 0x3727C5AC#32))
    (fun k q => (V c (Pipeline.arrRef spec7 5) : S256x128.Idx → EReal) (ix2 k q))
    (fun q => (V c (Pipeline.arrRef spec7 6) : S1x128.Idx → EReal) (ix2 0 q))
    (i 0) (i 1)

theorem pay7_act_blk (c : Dev nD) (t : Fin cfg7.N) (r : Fin 2000) (k : Fin 256) (p : Fin 100000)
    (hp : p.val = 2000 * t.val + r.val) :
    pay1_act (iblk7 V c 0 t) (iblk7 V c 2 t) (iblk7 V c 3 t) (iblk7 V c 1 t) (iblk7 V c 4 t) r k
      = Cert.GinSpec.bnSpec
          (fun p k => (V c (Pipeline.arrRef spec7 0) : S100000x256.Idx → EReal) (ix2 p k))
          (fun k => (V c (Pipeline.arrRef spec7 1) : S1x256.Idx → EReal) (ix2 0 k))
          (fun k => (V c (Pipeline.arrRef spec7 2) : S1x256.Idx → EReal) (ix2 0 k))
          (fun k => (V c (Pipeline.arrRef spec7 3) : S1x256.Idx → EReal) (ix2 0 k))
          (fun k => (V c (Pipeline.arrRef spec7 4) : S1x256.Idx → EReal) (ix2 0 k))
          (Ideal.ofBits .f32 0x3727C5AC#32) p k := by
  unfold pay1_act Cert.GinSpec.bnSpec iblk7
  exact congrArg₂ max (congrArg₂ (· + ·) (congrArg₂ (· * ·) (congrArg₂ (· * ·)
      (blk7_3_read (V c (Pipeline.arrRef spec7 3)) t k)
      (congrArg₂ (· - ·) (blk7_0_read (V c (Pipeline.arrRef spec7 0)) t r k p hp)
        (blk7_1_read (V c (Pipeline.arrRef spec7 1)) t k)))
      (congrArg (fun x => Ideal.rsqrt (x + Ideal.ofBits .f32 0x3727C5AC#32))
        (blk7_2_read (V c (Pipeline.arrRef spec7 2)) t k)))
      (blk7_4_read (V c (Pipeline.arrRef spec7 4)) t k)) rfl

theorem flushed7_eq (c : Dev nD) (t : Fin cfg7.N) :
    (dat7 (F := Ideal) V c).flushed 7 t = ((cfg7.win 7).blk t).view.read (Elt Ideal) (G7 V c) := by
  show (cfg7.win 7).cut (grid7.coords t) ((dat7 (F := Ideal) V c).after 7 t) = _
  rw [after7_7, out1_7_eq (iblk7 V c 0 t) (iblk7 V c 1 t) (iblk7 V c 2 t) (iblk7 V c 3 t) (iblk7 V c 4 t)
    (iblk7 V c 5 t) (iblk7 V c 6 t)]
  refine tile7_7_ext _ (G7 V c) t fun r q p hp => ?_
  refine (pay1_apply (iblk7 V c 0 t) (iblk7 V c 2 t) (iblk7 V c 3 t) (iblk7 V c 1 t) (iblk7 V c 4 t) (iblk7 V c 5 t)
    (iblk7 V c 6 t) r q).trans ?_
  unfold G7 Cert.GinSpec.outSpec
  refine congrArg₂ max (congrArg₂ (· + ·) (Finset.sum_congr rfl fun k _ =>
    congrArg₂ (· * ·) (pay7_act_blk V c t r k p hp) ?_) ?_) rfl
  · unfold iblk7; exact blk7_5_read (V c (Pipeline.arrRef spec7 5)) t k q
  · unfold iblk7; exact blk7_6_read (V c (Pipeline.arrRef spec7 6)) t q

theorem final7 (c : Dev nD) : (dat7 (F := Ideal) V c).arrAt 7 cfg7.N = G7 V c :=
  (dat7 (F := Ideal) V c).arrAt_eq_of_cover 7 (G7 V c) (fun t _ => flushed7_eq V c t) cov7

theorem bn7_value (c : Dev nD) (p : Fin 100000) (q : Fin 128) :
    ((dat7 (F := Ideal) V c).arrAt 7 cfg7.N : S100000x128.Idx → EReal) (ix2 p q)
      = Cert.GinSpec.outSpec
          (Cert.GinSpec.bnSpec
            (fun p k => (V c (Pipeline.arrRef spec7 0) : S100000x256.Idx → EReal) (ix2 p k))
            (fun k => (V c (Pipeline.arrRef spec7 1) : S1x256.Idx → EReal) (ix2 0 k))
            (fun k => (V c (Pipeline.arrRef spec7 2) : S1x256.Idx → EReal) (ix2 0 k))
            (fun k => (V c (Pipeline.arrRef spec7 3) : S1x256.Idx → EReal) (ix2 0 k))
            (fun k => (V c (Pipeline.arrRef spec7 4) : S1x256.Idx → EReal) (ix2 0 k))
            (Ideal.ofBits .f32 0x3727C5AC#32))
          (fun k q => (V c (Pipeline.arrRef spec7 5) : S256x128.Idx → EReal) (ix2 k q))
          (fun q => (V c (Pipeline.arrRef spec7 6) : S1x128.Idx → EReal) (ix2 0 q))
          p q :=
  congrFun (final7 V c) (ix2 p q)

end Region7

end Cert.KernelIdeal.Hand

end
-- ==== Proof.BridgeK3.lean ====
import proofs.«165926_j30305289241327_1_alg».proof.Proof.KI.LinVal6
import proofs.«165926_j30305289241327_1_alg».proof.Proof.KI.BnVal7
import proofs.«165926_j30305289241327_1_alg».proof.Proof.BridgeK0

noncomputable section

namespace Cert.Bridge

open Cert.KernelIdeal Cert.KernelIdeal.Gen Cert.KernelIdeal.Hand
open Idealize.ShloMosaic Idealize.ShloMosaic.TcCoe
open Idealize.SL.Sem
open Idealize.ShloMosaic.ValueIdx Cert.GinSpec

set_option maxHeartbeats 1600000 in

theorem zK6_of (V : Entry) (c : Dev nD) (h agg : S100000x128.Idx → EReal) (W1 : S128x256.Idx → EReal)
    (b1 : S1x256.Idx → EReal)
    (e0 : V c (Pipeline.arrRef spec6 0) = h) (e1 : V c (Pipeline.arrRef spec6 1) = agg)
    (e2 : V c (Pipeline.arrRef spec6 2) = W1) (e3 : V c (Pipeline.arrRef spec6 3) = b1) :
    zK6 V c = zSpec (fun p k => h (ix2 p k)) (fun p k => agg (ix2 p k)) (fun k j => W1 (ix2 k j)) (fun j => b1 (ix2 0 j)) := by
  subst e0 e1 e2 e3
  rfl

set_option maxHeartbeats 1600000 in

theorem bn7_value_of (V : Entry) (c : Dev nD) (z : S100000x256.Idx → EReal) (mean var g be : S1x256.Idx → EReal)
    (W2 : S256x128.Idx → EReal) (b2 : S1x128.Idx → EReal)
    (e0 : V c (Pipeline.arrRef spec7 0) = z) (e1 : V c (Pipeline.arrRef spec7 1) = mean)
    (e2 : V c (Pipeline.arrRef spec7 2) = var) (e3 : V c (Pipeline.arrRef spec7 3) = g)
    (e4 : V c (Pipeline.arrRef spec7 4) = be) (e5 : V c (Pipeline.arrRef spec7 5) = W2)
    (e6 : V c (Pipeline.arrRef spec7 6) = b2) (p : Fin 100000) (q : Fin 128) :
    ((dat7 (F := Ideal) V c).arrAt 7 cfg7.N : S100000x128.Idx → EReal) (ix2 p q)
      = outSpec (bnSpec (fun p k => z (ix2 p k)) (fun k => mean (ix2 0 k)) (fun k => var (ix2 0 k)) (fun k => g (ix2 0 k))
          (fun k => be (ix2 0 k)) (Ideal.ofBits .f32 0x3727C5AC#32)) (fun k q => W2 (ix2 k q)) (fun q => b2 (ix2 0 q)) p q := by
  subst e0 e1 e2 e3 e4 e5 e6
  exact bn7_value V c p q

set_option maxHeartbeats 4000000 in

theorem kerLayer_3_of (m : Mem) (outs : Outs (F := Ideal)) (c : Dev nD) (E0 E1 : Entry)
    (hE0 : ∀ b, E0 c b = V13 m outs c b) (hE1 : ∀ b, E1 c b = V15 m outs c b)
    (hz : outs 14 main_v153_0 c = (dat6 (F := Ideal) E0 c).arrAt 4 cfg6.N)
    (hs : outs 14 main_v153_1 c = (dat6 (F := Ideal) E0 c).arrAt 5 cfg6.N)
    (hss : outs 14 main_v153_2 c = (dat6 (F := Ideal) E0 c).arrAt 6 cfg6.N)
    (ho : outs 16 main_v175 c = (dat7 (F := Ideal) E1 c).arrAt 7 cfg7.N) :
    Cert.BridgeArr.KerLayer 3 (outs 16 main_v175 c) (outs 12 main_v134 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by

  have ez := zK6_of E0 c _ _ _ _ ((hE0 _).trans (V13_h m outs c)) ((hE0 _).trans (V13_agg m outs c))
    ((hE0 _).trans (V13_w1 m outs c)) ((hE0 _).trans (V13_b1 m outs c))

  have hzK : (fun (p : Fin 100000) (j : Fin 256) => (outs 14 main_v153_0 c : S100000x256.Idx → EReal) (ix2 p j)) = zK6 E0 c :=
    funext fun p => funext fun j => by rw [hz]; exact lin6_z E0 c p j
  refine layerSq_of_parts _ _ _ _ _ _ _ _ _
    (fun p j => (outs 14 main_v153_0 c : S100000x256.Idx → EReal) (ix2 p j))
    (fun j => (outs 14 main_v153_1 c : S1x256.Idx → EReal) (ix2 0 j))
    (fun j => (outs 14 main_v153_2 c : S1x256.Idx → EReal) (ix2 0 j))
    (fun k => (kerMean (F := Ideal) (outs 14 main_v153_1 c) : S1x256.Idx → EReal) (ix2 0 k))
    (fun k => (kerVar (F := Ideal) (outs 14 main_v153_1 c) (outs 14 main_v153_2 c) : S1x256.Idx → EReal) (ix2 0 k))
    _ ?hz ?hs ?hss ?hmean ?hvar ?hout
  case hz =>
    intro p j
    rw [← ez]
    exact congrFun (congrFun hzK p) j
  case hs =>
    intro j
    rw [hzK]
    show (outs 14 main_v153_1 c : S1x256.Idx → EReal) (ix2 0 j) = _
    rw [hs]
    exact lin6_sum E0 c j
  case hss =>
    intro j
    rw [hzK]
    show (outs 14 main_v153_2 c : S1x256.Idx → EReal) (ix2 0 j) = _
    rw [hss]
    exact lin6_sumsq E0 c j
  case hmean => exact fun k => Cert.Cross.kerMean_apply _ k
  case hvar => exact fun k => Cert.Cross.kerVar_apply _ _ k
  case hout =>
    intro p q
    show (outs 16 main_v175 c : S100000x128.Idx → EReal) (ix2 p q) = _
    rw [ho]
    exact bn7_value_of E1 c _ _ _ _ _ _ _ ((hE1 _).trans (V15_z m outs c)) ((hE1 _).trans (V15_mean m outs c))
      ((hE1 _).trans (V15_var m outs c)) ((hE1 _).trans (V15_g m outs c)) ((hE1 _).trans (V15_be m outs c))
      ((hE1 _).trans (V15_w2 m outs c)) ((hE1 _).trans (V15_b2 m outs c)) p q

end Cert.Bridge

end
-- ==== Proof.BridgeK.lean ====
import proofs.«165926_j30305289241327_1_alg».proof.Proof.KI.Chain
import proofs.«165926_j30305289241327_1_alg».proof.Proof.BridgeK0
import proofs.«165926_j30305289241327_1_alg».proof.Proof.BridgeK1
import proofs.«165926_j30305289241327_1_alg».proof.Proof.BridgeK2
import proofs.«165926_j30305289241327_1_alg».proof.Proof.BridgeK3

noncomputable section

namespace Cert.Bridge

open Cert.KernelIdeal Cert.KernelIdeal.Gen Cert.KernelIdeal.Hand
open Idealize.ShloMosaic Idealize.ShloMosaic.TcCoe
open Idealize.SL.Sem

set_option maxHeartbeats 4000000 in
theorem kerLayer_0 (m : Mem) (c : Dev nD) :
    Cert.BridgeArr.KerLayer 0 (outsK m 4 main_v52 c) (m ((c : Thread nD τ).loc main_arg0)) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) :=
  kerLayer_0_of m (outsK m) c (ent0 m) (ent1 m) (ent0_eq m c) (ent1_eq m c) (outsK_2_0 m c) (outsK_2_1 m c) (outsK_2_2 m c)
    (outsK_4 m c)

set_option maxHeartbeats 4000000 in
theorem kerLayer_1 (m : Mem) (c : Dev nD) :
    Cert.BridgeArr.KerLayer 1 (outsK m 8 main_v93 c) (outsK m 4 main_v52 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) :=
  kerLayer_1_of m (outsK m) c (ent2 m) (ent3 m) (ent2_eq m c) (ent3_eq m c) (outsK_6_0 m c) (outsK_6_1 m c) (outsK_6_2 m c)
    (outsK_8 m c)

set_option maxHeartbeats 4000000 in
theorem kerLayer_2 (m : Mem) (c : Dev nD) :
    Cert.BridgeArr.KerLayer 2 (outsK m 12 main_v134 c) (outsK m 8 main_v93 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) :=
  kerLayer_2_of m (outsK m) c (ent4 m) (ent5 m) (ent4_eq m c) (ent5_eq m c) (outsK_10_0 m c) (outsK_10_1 m c) (outsK_10_2 m c)
    (outsK_12 m c)

set_option maxHeartbeats 4000000 in
theorem kerLayer_3 (m : Mem) (c : Dev nD) :
    Cert.BridgeArr.KerLayer 3 (outsK m 16 main_v175 c) (outsK m 12 main_v134 c) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) :=
  kerLayer_3_of m (outsK m) c (ent6 m) (ent7 m) (ent6_eq m c) (ent7_eq m c) (outsK_14_0 m c) (outsK_14_1 m c) (outsK_14_2 m c)
    (outsK_16 m c)

end Cert.Bridge

end
-- ==== Proof.BridgeTop.lean ====
import proofs.«165926_j30305289241327_1_alg».proof.Proof.Bridge
import proofs.«165926_j30305289241327_1_alg».proof.Proof.BridgeK
import proofs.«165926_j30305289241327_1_alg».proof.Proof.KI.Chain

noncomputable section

namespace Cert.Bridge

open Idealize.ShloMosaic Idealize.ShloMosaic.TcCoe Idealize.SL.Sem
open Cert.KernelIdeal Cert.KernelIdeal.Gen Cert.KernelIdeal.Hand

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    V18 m (outsK m) c main_v193
      = StableHlo.after (Cert.ReferenceIdeal.RunP.ops (F := Ideal)) (StableHlo.launchContents m' c) (Proc.devRef .tc Cert.ReferenceIdeal.main_v273) :=
  result_eq_of_layers m m' (outsK m) hpre hagree c (kerLayer_0 m c) (kerLayer_1 m c) (kerLayer_2 m c) (kerLayer_3 m c)

end Cert.Bridge

end
-- ==== Proof.Final.lean ====
import proofs.«165926_j30305289241327_1_alg».proof.Defs
import proofs.«165926_j30305289241327_1_alg».proof.Proof.Gen.Kernel
import proofs.«165926_j30305289241327_1_alg».proof.Proof.Gen.KernelIdeal
import proofs.«165926_j30305289241327_1_alg».proof.Proof.Gen.KernelIdeal.Regions
import proofs.«165926_j30305289241327_1_alg».proof.Proof.Gen.ReferenceIdeal
import proofs.«165926_j30305289241327_1_alg».proof.Proof.Gen.Pre_finite_inputs
import proofs.«165926_j30305289241327_1_alg».proof.Proof.K.Run
import proofs.«165926_j30305289241327_1_alg».proof.Proof.KI.Run
import proofs.«165926_j30305289241327_1_alg».proof.Proof.Ref.Value
import proofs.«165926_j30305289241327_1_alg».proof.Proof.BridgeTop

noncomputable section

namespace Cert.Proof.Final

open Idealize.ShloMosaic Idealize.ShloMosaic.TcCoe Idealize.SL.Sem Idealize.ShloMosaic.StableHlo

theorem frame_p : Cert.frame_Kernel := fun m ρ _ => Cert.Kernel.Hand.frame (F := Bits) m ρ

theorem frame_pi : Cert.frame_KernelIdeal := fun m ρ _ => Cert.KernelIdeal.Hand.frame (F := Ideal) m ρ

theorem ref_args_kept (m mem : (ℓ : Loc Cert.ReferenceIdeal.nD Cert.ReferenceIdeal.τ Cert.ReferenceIdeal.sig) → Buf (Elt Ideal) ℓ) (c : Dev Cert.ReferenceIdeal.nD)
    (h : ∀ b : Ref Cert.ReferenceIdeal.sig .tc, mem ((c.tc : Thread Cert.ReferenceIdeal.nD Cert.ReferenceIdeal.τ).loc b)
      = after (Cert.ReferenceIdeal.RunP.ops (F := Ideal)) (launchContents m c) (Proc.devRef .tc b)) :
    mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
    ∧ mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
    ∧ mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
    ∧ mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
    ∧ mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
    ∧ mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
    ∧ mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
    ∧ mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
    ∧ mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
    ∧ mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
    ∧ mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
    ∧ mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  have k (b : Ref Cert.ReferenceIdeal.sig .tc) (hb : b ∈ Cert.ReferenceIdeal.Hand.argRefs) :
      mem ((c.tc : Thread Cert.ReferenceIdeal.nD Cert.ReferenceIdeal.τ).loc b) = m ((c.tc : Thread Cert.ReferenceIdeal.nD Cert.ReferenceIdeal.τ).loc b) :=
    (h b).trans (Cert.ReferenceIdeal.Hand.ref_args (launchContents m c) b hb)
  ⟨k Cert.ReferenceIdeal.main_arg0 (by decide), k Cert.ReferenceIdeal.main_arg1 (by decide), k Cert.ReferenceIdeal.main_arg2 (by decide), k Cert.ReferenceIdeal.main_arg3 (by decide), k Cert.ReferenceIdeal.main_arg4 (by decide), k Cert.ReferenceIdeal.main_arg5 (by decide), k Cert.ReferenceIdeal.main_arg6 (by decide), k Cert.ReferenceIdeal.main_arg7 (by decide), k Cert.ReferenceIdeal.main_arg8 (by decide), k Cert.ReferenceIdeal.main_arg9 (by decide), k Cert.ReferenceIdeal.main_arg10 (by decide), k Cert.ReferenceIdeal.main_arg11 (by decide)⟩

theorem frame_ri : Cert.frame_ReferenceIdeal := fun m ρ _ =>
  (θ_run Cert.ReferenceIdeal.defs _ _).mono (fun r h c => ref_args_kept m r.2.mem c (h c))
    (Cert.ReferenceIdeal.RunP.run_after (F := Ideal) m ρ)

theorem preserves : Cert.preserves_Kernel_KernelIdeal := trivial

theorem algebraic : Cert.algebraic_KernelIdeal_ReferenceIdeal := fun m ρ m' ρ' hpre hagree =>
  ⟨fun c => Cert.KernelIdeal.Gen.V18 m (Cert.KernelIdeal.Hand.outsK m) c Cert.KernelIdeal.main_v193,
    Cert.KernelIdeal.Hand.run_value (F := Ideal) m ρ,
    (θ_run Cert.ReferenceIdeal.defs _ _).mono (fun r h c =>
      ⟨(h c Cert.ReferenceIdeal.main_v273).trans (Cert.Bridge.result_eq m m' hpre hagree c).symm, ref_args_kept m' r.2.mem c (h c)⟩)
      (Cert.ReferenceIdeal.RunP.run_after (F := Ideal) m' ρ')⟩

end Cert.Proof.Final

end
-- ==== Proof.lean ====
import proofs.«165926_j30305289241327_1_alg».proof.Defs
import proofs.«165926_j30305289241327_1_alg».proof.Proof.Gen.Kernel
import proofs.«165926_j30305289241327_1_alg».proof.Proof.Gen.KernelIdeal
import proofs.«165926_j30305289241327_1_alg».proof.Proof.Gen.ReferenceIdeal
import proofs.«165926_j30305289241327_1_alg».proof.Proof.Gen.Pre_finite_inputs
import proofs.«165926_j30305289241327_1_alg».proof.Proof.Final

noncomputable section

namespace Cert.Proof

theorem claim : Cert.Claim := ⟨Cert.Kernel.Gen.facts, Cert.KernelIdeal.Gen.facts, Cert.ReferenceIdeal.Gen.facts, Cert.Pre_finite_inputs.Gen.facts,
  Final.frame_p, Final.frame_pi, Final.frame_ri, Final.preserves, Final.algebraic⟩

end Cert.Proof

end
